-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10 : Shape := ⟨2, ![16384, 10]⟩
abbrev S16384 : Shape := ⟨1, ![16384]⟩
abbrev S199999x256 : Shape := ⟨2, ![199999, 256]⟩
abbrev S_ : Shape := ⟨0, ![]⟩

class Facts : Prop where
  bcast_S_S199999x256 : S_.BroadcastsInDim S199999x256 (![] : Fin 0 → Fin S199999x256.rank)
  reducesTo_S199999x256_S_d0_1 : S199999x256.ReducesTo [0, 1] S_
  h_S_ : 0 < S_.numel
  bcast_S_S16384x10 : S_.BroadcastsInDim S16384x10 (![] : Fin 0 → Fin S16384x10.rank)
  reducesTo_S16384x10_S_d0_1 : S16384x10.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg3 : IVec S16384 32) (main_v29 : IVec S_ 1) (main_v31 : IVec S16384 1) (main_v32 : IVec S16384 32) : IVec S_ 1 :=
  let main_v33 : IVec S16384 1 := cmpi .slt main_arg3 main_v32
  let main_v34 : IVec S16384 1 := andi main_v31 main_v33
  let main_c_13 : IVec S_ 1 := constantI S_ 1 1#1
  let main_v35 : IVec S_ 1 := (fun x v => Host.reduce IntOp.andi x v reducesTo_S16384_S_d0 h_S_) main_v34 main_c_13
  let main_v36 : IVec S_ 1 := andi main_v29 main_v35
  main_v36

def fn_part1 {F : FTy → Type} [FloatOps F] (main_arg1 : IVec S16384 32) (main_arg2 : IVec S16384x10 32) (main_arg3 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 199999#32
  let main_v18 : IVec S16384 32 := broadcastInDim S16384 ![] bcast_S_S16384 main_c_6
  let main_v19 : IVec S16384 1 := cmpi .slt main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384x10 32 := broadcastInDim S16384x10 ![] bcast_S_S16384x10 main_c_8
  let main_v24 : IVec S16384x10 1 := cmpi .sge main_arg2 main_v23
  let main_c_9 : IVec S_ 32 := constantI S_ 32 199999#32
  let main_v25 : IVec S16384x10 32 := broadcastInDim S16384x10 ![] bcast_S_S16384x10 main_c_9
  let main_v26 : IVec S16384x10 1 := cmpi .slt main_arg2 main_v25
  let main_v27 : IVec S16384x10 1 := andi main_v24 main_v26
  let main_c_10 : IVec S_ 1 := constantI S_ 1 1#1
  let main_v28 : IVec S_ 1 := (fun x v => Host.reduce IntOp.andi x v reducesTo_S16384x10_S_d0_1 h_S_) main_v27 main_c_10
  let main_v29 : IVec S_ 1 := andi main_v22 main_v28
  let main_c_11 : IVec S_ 32 := constantI S_ 32 0#32
  let main_v30 : IVec S16384 32 := broadcastInDim S16384 ![] bcast_S_S16384 main_c_11
  let main_v31 : IVec S16384 1 := cmpi .sge main_arg3 main_v30
  let main_c_12 : IVec S_ 32 := constantI S_ 32 199999#32
  let main_v32 : IVec S16384 32 := broadcastInDim S16384 ![] bcast_S_S16384 main_c_12
  fn_part2 (F := F) main_arg3 main_v29 main_v31 main_v32

def fn {F : FTy → Type} [FloatOps F] (main_arg0 : IVec S16384x10 32) (main_arg1 : IVec S16384 32) (main_arg2 : IVec S16384x10 32) (main_arg3 : IVec S16384 32) (main_arg4 : FVec F S199999x256 .f32) (main_arg5 : FVec F S199999x256 .f32) : IVec S_ 1 :=
  let main_v0 : FVec F S199999x256 .f32 := Host.absf main_arg4
  let main_cst : FVec F S_ .f32 := constant S_ .f32 0x7F800000#32
  let main_v1 : FVec F S199999x256 .f32 := broadcastInDim S199999x256 ![] bcast_S_S199999x256 main_cst
  let main_v2 : IVec S199999x256 1 := cmpf .olt main_v0 main_v1
  let main_c : IVec S_ 1 := constantI S_ 1 1#1
  let main_v3 : IVec S_ 1 := (fun x v => Host.reduce IntOp.andi x v reducesTo_S199999x256_S_d0_1 h_S_) main_v2 main_c
  let main_v4 : FVec F S199999x256 .f32 := Host.absf main_arg5
  let main_cst_0 : FVec F S_ .f32 := constant S_ .f32 0x7F800000#32
  let main_v5 : FVec F S199999x256 .f32 := broadcastInDim S199999x256 ![] bcast_S_S199999x256 main_cst_0
  let main_v6 : IVec S199999x256 1 := cmpf .olt main_v4 main_v5
  let main_c_1 : IVec S_ 1 := constantI S_ 1 1#1
  let main_v7 : IVec S_ 1 := (fun x v => Host.reduce IntOp.andi x v reducesTo_S199999x256_S_d0_1 h_S_) main_v6 main_c_1
  let main_v8 : IVec S_ 1 := andi main_v3 main_v7
  let main_c_2 : IVec S_ 32 := constantI S_ 32 0#32
  let main_v9 : IVec S16384x10 32 := broadcastInDim S16384x10 ![] bcast_S_S16384x10 main_c_2
  let main_v10 : IVec S16384x10 1 := cmpi .sge main_arg0 main_v9
  let main_c_3 : IVec S_ 32 := constantI S_ 32 199999#32
  let main_v11 : IVec S16384x10 32 := broadcastInDim S16384x10 ![] bcast_S_S16384x10 main_c_3
  let main_v12 : IVec S16384x10 1 := cmpi .slt main_arg0 main_v11
  let main_v13 : IVec S16384x10 1 := andi main_v10 main_v12
  let main_c_4 : IVec S_ 1 := constantI S_ 1 1#1
  let main_v14 : IVec S_ 1 := (fun x v => Host.reduce IntOp.andi x v reducesTo_S16384x10_S_d0_1 h_S_) main_v13 main_c_4
  let main_v15 : IVec S_ 1 := andi main_v8 main_v14
  let main_c_5 : IVec S_ 32 := constantI S_ 32 0#32
  fn_part1 (F := F) main_arg1 main_arg2 main_arg3 main_v15 main_c_5
-- ==== Kernel.lean ====
abbrev S16384x10 : Shape := ⟨2, ![16384, 10]⟩
abbrev S16384 : Shape := ⟨1, ![16384]⟩
abbrev S199999x256 : Shape := ⟨2, ![199999, 256]⟩
abbrev S_ : Shape := ⟨0, ![]⟩
abbrev S16384x256 : Shape := ⟨2, ![16384, 256]⟩
abbrev S16384x1 : Shape := ⟨2, ![16384, 1]⟩
abbrev S16384x1x256 : Shape := ⟨3, ![16384, 1, 256]⟩
abbrev S1x1x256 : Shape := ⟨3, ![1, 1, 256]⟩
abbrev S2 : Shape := ⟨1, ![2]⟩
abbrev S1 : Shape := ⟨1, ![1]⟩
abbrev S256 : Shape := ⟨1, ![256]⟩
abbrev S1x256 : Shape := ⟨2, ![1, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩

abbrev nBuf : Space → Nat
  | .hbm => 95
  | .vmem => 53
  | .smem => 22
  | _ => 0

abbrev bufTy : (tb : Table) → Fin (tcTables nBuf tb) → BufTy
  | .hbm, ⟨0, _⟩ => ⟨S16384x10, .i32⟩
  | .hbm, ⟨1, _⟩ => ⟨S16384x10, .i32⟩
  | .hbm, ⟨2, _⟩ => ⟨S199999x256, .f32⟩
  | .hbm, ⟨3, _⟩ => ⟨S199999x256, .f32⟩
  | .hbm, ⟨4, _⟩ => ⟨S_, .f32⟩
  | .hbm, ⟨5, _⟩ => ⟨S16384x256, .f32⟩
  | .hbm, ⟨6, _⟩ => ⟨S_, .f32⟩
  | .hbm, ⟨7, _⟩ => ⟨S16384x256, .f32⟩
  | .hbm, ⟨8, _⟩ => ⟨S16384x1, .i32⟩
  | .hbm, ⟨9, _⟩ => ⟨S16384x1, .i32⟩
  | .hbm, ⟨10, _⟩ => ⟨S16384x1x256, .f32⟩
  | .hbm, ⟨11, _⟩ => ⟨S16384x1x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x1, .i32⟩
  | .hbm, ⟨17, _⟩ => ⟨S16384x1, .i32⟩
  | .hbm, ⟨18, _⟩ => ⟨S16384x1x256, .f32⟩
  | .hbm, ⟨19, _⟩ => ⟨S16384x1x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x1, .i32⟩
  | .hbm, ⟨25, _⟩ => ⟨S16384x1, .i32⟩
  | .hbm, ⟨26, _⟩ => ⟨S16384x1x256, .f32⟩
  | .hbm, ⟨27, _⟩ => ⟨S16384x1x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x1, .i32⟩
  | .hbm, ⟨33, _⟩ => ⟨S16384x1, .i32⟩
  | .hbm, ⟨34, _⟩ => ⟨S16384x1x256, .f32⟩
  | .hbm, ⟨35, _⟩ => ⟨S16384x1x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x1, .i32⟩
  | .hbm, ⟨41, _⟩ => ⟨S16384x1, .i32⟩
  | .hbm, ⟨42, _⟩ => ⟨S16384x1x256, .f32⟩
  | .hbm, ⟨43, _⟩ => ⟨S16384x1x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x1, .i32⟩
  | .hbm, ⟨49, _⟩ => ⟨S16384x1, .i32⟩
  | .hbm, ⟨50, _⟩ => ⟨S16384x1x256, .f32⟩
  | .hbm, ⟨51, _⟩ => ⟨S16384x1x256, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x1, .i32⟩
  | .hbm, ⟨57, _⟩ => ⟨S16384x1, .i32⟩
  | .hbm, ⟨58, _⟩ => ⟨S16384x1x256, .f32⟩
  | .hbm, ⟨59, _⟩ => ⟨S16384x1x256, .f32⟩
  | .hbm, ⟨60, _⟩ => ⟨S16384x256, .f32⟩
  | .hbm, ⟨61, _⟩ => ⟨S16384x256, .f32⟩
  | .hbm, ⟨62, _⟩ => ⟨S16384x256, .f32⟩
  | .hbm, ⟨63, _⟩ => ⟨S16384x256, .f32⟩
  | .hbm, ⟨64, _⟩ => ⟨S16384x1, .i32⟩
  | .hbm, ⟨65, _⟩ => ⟨S16384x1, .i32⟩
  | .hbm, ⟨66, _⟩ => ⟨S16384x1x256, .f32⟩
  | .hbm, ⟨67, _⟩ => ⟨S16384x1x256, .f32⟩
  | .hbm, ⟨68, _⟩ => ⟨S16384x256, .f32⟩
  | .hbm, ⟨69, _⟩ => ⟨S16384x256, .f32⟩
  | .hbm, ⟨70, _⟩ => ⟨S16384x256, .f32⟩
  | .hbm, ⟨71, _⟩ => ⟨S16384x256, .f32⟩
  | .hbm, ⟨72, _⟩ => ⟨S16384x1, .i32⟩
  | .hbm, ⟨73, _⟩ => ⟨S16384x1, .i32⟩
  | .hbm, ⟨74, _⟩ => ⟨S16384x1x256, .f32⟩
  | .hbm, ⟨75, _⟩ => ⟨S16384x1x256, .f32⟩
  | .hbm, ⟨76, _⟩ => ⟨S16384x256, .f32⟩
  | .hbm, ⟨77, _⟩ => ⟨S16384x256, .f32⟩
  | .hbm, ⟨78, _⟩ => ⟨S16384x256, .f32⟩
  | .hbm, ⟨79, _⟩ => ⟨S16384x256, .f32⟩
  | .hbm, ⟨80, _⟩ => ⟨S16384x1, .i32⟩
  | .hbm, ⟨81, _⟩ => ⟨S16384x1, .i32⟩
  | .hbm, ⟨82, _⟩ => ⟨S16384x1x256, .f32⟩
  | .hbm, ⟨83, _⟩ => ⟨S16384x1x256, .f32⟩
  | .hbm, ⟨84, _⟩ => ⟨S16384x256, .f32⟩
  | .hbm, ⟨85, _⟩ => ⟨S16384x256, .f32⟩
  | .hbm, ⟨86, _⟩ => ⟨S16384x256, .f32⟩
  | .hbm, ⟨87, _⟩ => ⟨S16384x256, .f32⟩
  | .hbm, ⟨88, _⟩ => ⟨S16384x1x256, .f32⟩
  | .hbm, ⟨89, _⟩ => ⟨S16384x1x256, .f32⟩
  | .hbm, ⟨90, _⟩ => ⟨S16384x256, .f32⟩
  | .hbm, ⟨91, _⟩ => ⟨S16384x256, .f32⟩
  | .hbm, ⟨92, _⟩ => ⟨S1x1, .f32⟩
  | .hbm, ⟨93, _⟩ => ⟨S_, .f32⟩
  | .hbm, ⟨94, _⟩ => ⟨S_, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S1x1x256, .f32⟩
  | .local _ .vmem, ⟨44, _⟩ => ⟨S1024x256, .f32⟩
  | .local _ .vmem, ⟨45, _⟩ => ⟨S1024x256, .f32⟩
  | .local _ .vmem, ⟨46, _⟩ => ⟨S1024x256, .f32⟩
  | .local _ .vmem, ⟨47, _⟩ => ⟨S1024x256, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x256, .f32⟩
  | .local _ .vmem, ⟨52, _⟩ => ⟨S1x1, .f32⟩
  | .local _ .smem, ⟨0, _⟩ => ⟨S16384, .i32⟩
  | .local _ .smem, ⟨1, _⟩ => ⟨S16384, .i32⟩
  | .local _ .smem, ⟨2, _⟩ => ⟨S16384, .i32⟩
  | .local _ .smem, ⟨3, _⟩ => ⟨S16384, .i32⟩
  | .local _ .smem, ⟨4, _⟩ => ⟨S16384, .i32⟩
  | .local _ .smem, ⟨5, _⟩ => ⟨S16384, .i32⟩
  | .local _ .smem, ⟨6, _⟩ => ⟨S16384, .i32⟩
  | .local _ .smem, ⟨7, _⟩ => ⟨S16384, .i32⟩
  | .local _ .smem, ⟨8, _⟩ => ⟨S16384, .i32⟩
  | .local _ .smem, ⟨9, _⟩ => ⟨S16384, .i32⟩
  | .local _ .smem, ⟨10, _⟩ => ⟨S16384, .i32⟩
  | .local _ .smem, ⟨11, _⟩ => ⟨S16384, .i32⟩
  | .local _ .smem, ⟨12, _⟩ => ⟨S16384, .i32⟩
  | .local _ .smem, ⟨13, _⟩ => ⟨S16384, .i32⟩
  | .local _ .smem, ⟨14, _⟩ => ⟨S16384, .i32⟩
  | .local _ .smem, ⟨15, _⟩ => ⟨S16384, .i32⟩
  | .local _ .smem, ⟨16, _⟩ => ⟨S16384, .i32⟩
  | .local _ .smem, ⟨17, _⟩ => ⟨S16384, .i32⟩
  | .local _ .smem, ⟨18, _⟩ => ⟨S16384, .i32⟩
  | .local _ .smem, ⟨19, _⟩ => ⟨S16384, .i32⟩
  | .local _ .smem, ⟨20, _⟩ => ⟨S16384, .i32⟩
  | .local _ .smem, ⟨21, _⟩ => ⟨S16384, .i32⟩
  | _, _ => ⟨S16384x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg4 : Ref sig .tc := ⟨.hbm, 2, rfl⟩
abbrev main_arg5 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v4 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v13 : Ref sig .tc := ⟨.hbm, 17, rfl⟩
abbrev main_v15_0 : Ref sig .tc := ⟨.hbm, 18, rfl⟩
abbrev main_v15_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v22 : Ref sig .tc := ⟨.hbm, 25, rfl⟩
abbrev main_v24_0 : Ref sig .tc := ⟨.hbm, 26, rfl⟩
abbrev main_v24_1 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v31 : Ref sig .tc := ⟨.hbm, 33, rfl⟩
abbrev main_v33_0 : Ref sig .tc := ⟨.hbm, 34, rfl⟩
abbrev main_v33_1 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v40 : Ref sig .tc := ⟨.hbm, 41, rfl⟩
abbrev main_v42_0 : Ref sig .tc := ⟨.hbm, 42, rfl⟩
abbrev main_v42_1 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v49 : Ref sig .tc := ⟨.hbm, 49, rfl⟩
abbrev main_v51_0 : Ref sig .tc := ⟨.hbm, 50, rfl⟩
abbrev main_v51_1 : Ref sig .tc := ⟨.hbm, 51, rfl⟩
abbrev main_v52 : Ref sig .tc := ⟨.hbm, 52, rfl⟩
abbrev main_v53 : Ref sig .tc := ⟨.hbm, 53, rfl⟩
abbrev main_v54 : Ref sig .tc := ⟨.hbm, 54, rfl⟩
abbrev main_v55 : Ref sig .tc := ⟨.hbm, 55, rfl⟩
abbrev main_v56 : Ref sig .tc := ⟨.hbm, 56, rfl⟩
abbrev main_v58 : Ref sig .tc := ⟨.hbm, 57, rfl⟩
abbrev main_v60_0 : Ref sig .tc := ⟨.hbm, 58, rfl⟩
abbrev main_v60_1 : Ref sig .tc := ⟨.hbm, 59, rfl⟩
abbrev main_v61 : Ref sig .tc := ⟨.hbm, 60, rfl⟩
abbrev main_v62 : Ref sig .tc := ⟨.hbm, 61, rfl⟩
abbrev main_v63 : Ref sig .tc := ⟨.hbm, 62, rfl⟩
abbrev main_v64 : Ref sig .tc := ⟨.hbm, 63, rfl⟩
abbrev main_v65 : Ref sig .tc := ⟨.hbm, 64, rfl⟩
abbrev main_v67 : Ref sig .tc := ⟨.hbm, 65, rfl⟩
abbrev main_v69_0 : Ref sig .tc := ⟨.hbm, 66, rfl⟩
abbrev main_v69_1 : Ref sig .tc := ⟨.hbm, 67, rfl⟩
abbrev main_v70 : Ref sig .tc := ⟨.hbm, 68, rfl⟩
abbrev main_v71 : Ref sig .tc := ⟨.hbm, 69, rfl⟩
abbrev main_v72 : Ref sig .tc := ⟨.hbm, 70, rfl⟩
abbrev main_v73 : Ref sig .tc := ⟨.hbm, 71, rfl⟩
abbrev main_v74 : Ref sig .tc := ⟨.hbm, 72, rfl⟩
abbrev main_v76 : Ref sig .tc := ⟨.hbm, 73, rfl⟩
abbrev main_v78_0 : Ref sig .tc := ⟨.hbm, 74, rfl⟩
abbrev main_v78_1 : Ref sig .tc := ⟨.hbm, 75, rfl⟩
abbrev main_v79 : Ref sig .tc := ⟨.hbm, 76, rfl⟩
abbrev main_v80 : Ref sig .tc := ⟨.hbm, 77, rfl⟩
abbrev main_v81 : Ref sig .tc := ⟨.hbm, 78, rfl⟩
abbrev main_v82 : Ref sig .tc := ⟨.hbm, 79, rfl⟩
abbrev main_v83 : Ref sig .tc := ⟨.hbm, 80, rfl⟩
abbrev main_v85 : Ref sig .tc := ⟨.hbm, 81, rfl⟩
abbrev main_v87_0 : Ref sig .tc := ⟨.hbm, 82, rfl⟩
abbrev main_v87_1 : Ref sig .tc := ⟨.hbm, 83, rfl⟩
abbrev main_v88 : Ref sig .tc := ⟨.hbm, 84, rfl⟩
abbrev main_v89 : Ref sig .tc := ⟨.hbm, 85, rfl⟩
abbrev main_v90 : Ref sig .tc := ⟨.hbm, 86, rfl⟩
abbrev main_v91 : Ref sig .tc := ⟨.hbm, 87, rfl⟩
abbrev main_v92_0 : Ref sig .tc := ⟨.hbm, 88, rfl⟩
abbrev main_v92_1 : Ref sig .tc := ⟨.hbm, 89, rfl⟩
abbrev main_v93 : Ref sig .tc := ⟨.hbm, 90, rfl⟩
abbrev main_v94 : Ref sig .tc := ⟨.hbm, 91, rfl⟩
abbrev main_v95 : Ref sig .tc := ⟨.hbm, 92, rfl⟩
abbrev main_v96 : Ref sig .tc := ⟨.hbm, 93, rfl⟩
abbrev main_v97 : Ref sig .tc := ⟨.hbm, 94, rfl⟩
abbrev main_v3 : Ref sig .tc := ⟨.smem, 0, rfl⟩
abbrev main_v5 : Ref sig .tc := ⟨.smem, 1, rfl⟩
abbrev main_v12 : Ref sig .tc := ⟨.smem, 2, rfl⟩
abbrev main_v14 : Ref sig .tc := ⟨.smem, 3, rfl⟩
abbrev main_v21 : Ref sig .tc := ⟨.smem, 4, rfl⟩
abbrev main_v23 : Ref sig .tc := ⟨.smem, 5, rfl⟩
abbrev main_v30 : Ref sig .tc := ⟨.smem, 6, rfl⟩
abbrev main_v32 : Ref sig .tc := ⟨.smem, 7, rfl⟩
abbrev main_v39 : Ref sig .tc := ⟨.smem, 8, rfl⟩
abbrev main_v41 : Ref sig .tc := ⟨.smem, 9, rfl⟩
abbrev main_v48 : Ref sig .tc := ⟨.smem, 10, rfl⟩
abbrev main_v50 : Ref sig .tc := ⟨.smem, 11, rfl⟩
abbrev main_v57 : Ref sig .tc := ⟨.smem, 12, rfl⟩
abbrev main_v59 : Ref sig .tc := ⟨.smem, 13, rfl⟩
abbrev main_v66 : Ref sig .tc := ⟨.smem, 14, rfl⟩
abbrev main_v68 : Ref sig .tc := ⟨.smem, 15, rfl⟩
abbrev main_v75 : Ref sig .tc := ⟨.smem, 16, rfl⟩
abbrev main_v77 : Ref sig .tc := ⟨.smem, 17, rfl⟩
abbrev main_v84 : Ref sig .tc := ⟨.smem, 18, rfl⟩
abbrev main_v86 : Ref sig .tc := ⟨.smem, 19, rfl⟩
abbrev main_arg1 : Ref sig .tc := ⟨.smem, 20, rfl⟩
abbrev main_arg3 : Ref sig .tc := ⟨.smem, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg1_1 : Ref sig .tc := ⟨.vmem, 39, rfl⟩
abbrev cc10_stg0_0 : Ref sig .tc := ⟨.vmem, 40, rfl⟩
abbrev cc10_stg0_1 : Ref sig .tc := ⟨.vmem, 41, rfl⟩
abbrev cc10_stg1_0 : Ref sig .tc := ⟨.vmem, 42, rfl⟩
abbrev cc10_stg1_1 : Ref sig .tc := ⟨.vmem, 43, rfl⟩
abbrev cc11_stg0_0 : Ref sig .tc := ⟨.vmem, 44, rfl⟩
abbrev cc11_stg0_1 : Ref sig .tc := ⟨.vmem, 45, rfl⟩
abbrev cc11_stg1_0 : Ref sig .tc := ⟨.vmem, 46, rfl⟩
abbrev cc11_stg1_1 : Ref sig .tc := ⟨.vmem, 47, rfl⟩
abbrev cc11_stg2_0 : Ref sig .tc := ⟨.vmem, 48, rfl⟩
abbrev cc11_stg2_1 : Ref sig .tc := ⟨.vmem, 49, rfl⟩
abbrev cc11_stg3_0 : Ref sig .tc := ⟨.vmem, 50, rfl⟩
abbrev cc11_stg3_1 : Ref sig .tc := ⟨.vmem, 51, rfl⟩
abbrev cc11_stg4_0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 18
abbrev cc3_sem0_1 : DmaSem sig := 19
abbrev cc3_sem1_0 : DmaSem sig := 20
abbrev cc3_sem1_1 : DmaSem sig := 21
abbrev cc4_sem0_0 : DmaSem sig := 24
abbrev cc4_sem0_1 : DmaSem sig := 25
abbrev cc4_sem1_0 : DmaSem sig := 26
abbrev cc4_sem1_1 : DmaSem sig := 27
abbrev cc5_sem0_0 : DmaSem sig := 30
abbrev cc5_sem0_1 : DmaSem sig := 31
abbrev cc5_sem1_0 : DmaSem sig := 32
abbrev cc5_sem1_1 : DmaSem sig := 33
abbrev cc6_sem0_0 : DmaSem sig := 36
abbrev cc6_sem0_1 : DmaSem sig := 37
abbrev cc6_sem1_0 : DmaSem sig := 38
abbrev cc6_sem1_1 : DmaSem sig := 39
abbrev cc7_sem0_0 : DmaSem sig := 42
abbrev cc7_sem0_1 : DmaSem sig := 43
abbrev cc7_sem1_0 : DmaSem sig := 44
abbrev cc7_sem1_1 : DmaSem sig := 45
abbrev cc8_sem0_0 : DmaSem sig := 48
abbrev cc8_sem0_1 : DmaSem sig := 49
abbrev cc8_sem1_0 : DmaSem sig := 50
abbrev cc8_sem1_1 : DmaSem sig := 51
abbrev cc9_sem0_0 : DmaSem sig := 54
abbrev cc9_sem0_1 : DmaSem sig := 55
abbrev cc9_sem1_0 : DmaSem sig := 56
abbrev cc9_sem1_1 : DmaSem sig := 57
abbrev cc10_sem0_0 : DmaSem sig := 60
abbrev cc10_sem0_1 : DmaSem sig := 61
abbrev cc10_sem1_0 : DmaSem sig := 62
abbrev cc10_sem1_1 : DmaSem sig := 63
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71
abbrev cc11_sem3_0 : DmaSem sig := 72
abbrev cc11_sem3_1 : DmaSem sig := 73
abbrev cc11_sem4_0 : DmaSem sig := 74

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_v3.idx, main_v5.idx], fun | 0 => main_v3.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let c0_i32_3 : BitVec 32 := 0#32
  ![v1.toNat, 0]

def k0_off3 (v3 : BitVec 32) : Fin 2 → Nat :=
  let c0_i32_7 : BitVec 32 := 0#32
  ![v3.toNat, 0]

def k0_chk2 (v3 : BitVec 32) : Prop :=
  (∀ a, (k0_off3 v3) a + S1x256.size a ≤ S199999x256.size a)
instance k0_chk2.dec : ∀ (v3 : BitVec 32), Decidable (k0_chk2 v3) := fun v3 => decidable_of_iff' _ (Iff.of_eq (k0_chk2.eq_1 v3))
theorem k0_off3_inb : ∀ (v3 : BitVec 32) (k0_hw2 : k0_chk2 v3), ∀ a, (k0_off3 v3) a + S1x256.size a ≤ S199999x256.size a := fun v3 k0_hw2 => k0_hw2

def k0_off4 (v1 : BitVec 32) : Fin 2 → Nat :=
  let c0_i32_12 : BitVec 32 := 0#32
  ![v1.toNat, 0]

def k0_chk1 (v1 : BitVec 32) : Prop :=
  (∀ a, (k0_off2 v1) a + S1x256.size a ≤ S199999x256.size a) ∧
  (∀ a, (k0_off4 v1) a + S1x256.size a ≤ S199999x256.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x256.size a ≤ S199999x256.size a := fun v1 k0_hw1 => k0_hw1.1
theorem k0_off4_inb : ∀ (v1 : BitVec 32) (k0_hw1 : k0_chk1 v1), ∀ a, (k0_off4 v1) a + S1x256.size a ≤ S199999x256.size a := fun v1 k0_hw1 => k0_hw1.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16384], ![false]⟩

abbrev pre1 : Pipeline.Prefetch sig := ⟨2, ![main_v12.idx, main_v14.idx], fun | 0 => main_v12.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 2 → Nat :=
  let c0_i32_3 : BitVec 32 := 0#32
  ![v1.toNat, 0]

def k1_off3 (v3 : BitVec 32) : Fin 2 → Nat :=
  let c0_i32_7 : BitVec 32 := 0#32
  ![v3.toNat, 0]

def k1_chk2 (v3 : BitVec 32) : Prop :=
  (∀ a, (k1_off3 v3) a + S1x256.size a ≤ S199999x256.size a)
instance k1_chk2.dec : ∀ (v3 : BitVec 32), Decidable (k1_chk2 v3) := fun v3 => decidable_of_iff' _ (Iff.of_eq (k1_chk2.eq_1 v3))
theorem k1_off3_inb : ∀ (v3 : BitVec 32) (k1_hw2 : k1_chk2 v3), ∀ a, (k1_off3 v3) a + S1x256.size a ≤ S199999x256.size a := fun v3 k1_hw2 => k1_hw2

def k1_off4 (v1 : BitVec 32) : Fin 2 → Nat :=
  let c0_i32_12 : BitVec 32 := 0#32
  ![v1.toNat, 0]

def k1_chk1 (v1 : BitVec 32) : Prop :=
  (∀ a, (k1_off2 v1) a + S1x256.size a ≤ S199999x256.size a) ∧
  (∀ a, (k1_off4 v1) a + S1x256.size a ≤ S199999x256.size a)
instance k1_chk1.dec : ∀ (v1 : BitVec 32), Decidable (k1_chk1 v1) := fun v1 => decidable_of_iff' _ (Iff.of_eq (k1_chk1.eq_1 v1))
theorem k1_off2_inb : ∀ (v1 : BitVec 32) (k1_hw1 : k1_chk1 v1), ∀ a, (k1_off2 v1) a + S1x256.size a ≤ S199999x256.size a := fun v1 k1_hw1 => k1_hw1.1
theorem k1_off4_inb : ∀ (v1 : BitVec 32) (k1_hw1 : k1_chk1 v1), ∀ a, (k1_off4 v1) a + S1x256.size a ≤ S199999x256.size a := fun v1 k1_hw1 => k1_hw1.2

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16384], ![false]⟩

abbrev pre2 : Pipeline.Prefetch sig := ⟨2, ![main_v21.idx, main_v23.idx], fun | 0 => main_v21.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (v1 : BitVec 32) : Fin 2 → Nat :=
  let c0_i32_3 : BitVec 32 := 0#32
  ![v1.toNat, 0]

def k2_off3 (v3 : BitVec 32) : Fin 2 → Nat :=
  let c0_i32_7 : BitVec 32 := 0#32
  ![v3.toNat, 0]

def k2_chk2 (v3 : BitVec 32) : Prop :=
  (∀ a, (k2_off3 v3) a + S1x256.size a ≤ S199999x256.size a)
instance k2_chk2.dec : ∀ (v3 : BitVec 32), Decidable (k2_chk2 v3) := fun v3 => decidable_of_iff' _ (Iff.of_eq (k2_chk2.eq_1 v3))
theorem k2_off3_inb : ∀ (v3 : BitVec 32) (k2_hw2 : k2_chk2 v3), ∀ a, (k2_off3 v3) a + S1x256.size a ≤ S199999x256.size a := fun v3 k2_hw2 => k2_hw2

def k2_off4 (v1 : BitVec 32) : Fin 2 → Nat :=
  let c0_i32_12 : BitVec 32 := 0#32
  ![v1.toNat, 0]

def k2_chk1 (v1 : BitVec 32) : Prop :=
  (∀ a, (k2_off2 v1) a + S1x256.size a ≤ S199999x256.size a) ∧
  (∀ a, (k2_off4 v1) a + S1x256.size a ≤ S199999x256.size a)
instance k2_chk1.dec : ∀ (v1 : BitVec 32), Decidable (k2_chk1 v1) := fun v1 => decidable_of_iff' _ (Iff.of_eq (k2_chk1.eq_1 v1))
theorem k2_off2_inb : ∀ (v1 : BitVec 32) (k2_hw1 : k2_chk1 v1), ∀ a, (k2_off2 v1) a + S1x256.size a ≤ S199999x256.size a := fun v1 k2_hw1 => k2_hw1.1
theorem k2_off4_inb : ∀ (v1 : BitVec 32) (k2_hw1 : k2_chk1 v1), ∀ a, (k2_off4 v1) a + S1x256.size a ≤ S199999x256.size a := fun v1 k2_hw1 => k2_hw1.2

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16384], ![false]⟩

abbrev pre3 : Pipeline.Prefetch sig := ⟨2, ![main_v30.idx, main_v32.idx], fun | 0 => main_v30.names | 1 => main_v32.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_off2 (v1 : BitVec 32) : Fin 2 → Nat :=
  let c0_i32_3 : BitVec 32 := 0#32
  ![v1.toNat, 0]

def k3_off3 (v3 : BitVec 32) : Fin 2 → Nat :=
  let c0_i32_7 : BitVec 32 := 0#32
  ![v3.toNat, 0]

def k3_chk2 (v3 : BitVec 32) : Prop :=
  (∀ a, (k3_off3 v3) a + S1x256.size a ≤ S199999x256.size a)
instance k3_chk2.dec : ∀ (v3 : BitVec 32), Decidable (k3_chk2 v3) := fun v3 => decidable_of_iff' _ (Iff.of_eq (k3_chk2.eq_1 v3))
theorem k3_off3_inb : ∀ (v3 : BitVec 32) (k3_hw2 : k3_chk2 v3), ∀ a, (k3_off3 v3) a + S1x256.size a ≤ S199999x256.size a := fun v3 k3_hw2 => k3_hw2

def k3_off4 (v1 : BitVec 32) : Fin 2 → Nat :=
  let c0_i32_12 : BitVec 32 := 0#32
  ![v1.toNat, 0]

def k3_chk1 (v1 : BitVec 32) : Prop :=
  (∀ a, (k3_off2 v1) a + S1x256.size a ≤ S199999x256.size a) ∧
  (∀ a, (k3_off4 v1) a + S1x256.size a ≤ S199999x256.size a)
instance k3_chk1.dec : ∀ (v1 : BitVec 32), Decidable (k3_chk1 v1) := fun v1 => decidable_of_iff' _ (Iff.of_eq (k3_chk1.eq_1 v1))
theorem k3_off2_inb : ∀ (v1 : BitVec 32) (k3_hw1 : k3_chk1 v1), ∀ a, (k3_off2 v1) a + S1x256.size a ≤ S199999x256.size a := fun v1 k3_hw1 => k3_hw1.1
theorem k3_off4_inb : ∀ (v1 : BitVec 32) (k3_hw1 : k3_chk1 v1), ∀ a, (k3_off4 v1) a + S1x256.size a ≤ S199999x256.size a := fun v1 k3_hw1 => k3_hw1.2

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![16384], ![false]⟩

abbrev pre4 : Pipeline.Prefetch sig := ⟨2, ![main_v39.idx, main_v41.idx], fun | 0 => main_v39.names | 1 => main_v41.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def k4_off2 (v1 : BitVec 32) : Fin 2 → Nat :=
  let c0_i32_3 : BitVec 32 := 0#32
  ![v1.toNat, 0]

def k4_off3 (v3 : BitVec 32) : Fin 2 → Nat :=
  let c0_i32_7 : BitVec 32 := 0#32
  ![v3.toNat, 0]

def k4_chk2 (v3 : BitVec 32) : Prop :=
  (∀ a, (k4_off3 v3) a + S1x256.size a ≤ S199999x256.size a)
instance k4_chk2.dec : ∀ (v3 : BitVec 32), Decidable (k4_chk2 v3) := fun v3 => decidable_of_iff' _ (Iff.of_eq (k4_chk2.eq_1 v3))
theorem k4_off3_inb : ∀ (v3 : BitVec 32) (k4_hw2 : k4_chk2 v3), ∀ a, (k4_off3 v3) a + S1x256.size a ≤ S199999x256.size a := fun v3 k4_hw2 => k4_hw2

def k4_off4 (v1 : BitVec 32) : Fin 2 → Nat :=
  let c0_i32_12 : BitVec 32 := 0#32
  ![v1.toNat, 0]

def k4_chk1 (v1 : BitVec 32) : Prop :=
  (∀ a, (k4_off2 v1) a + S1x256.size a ≤ S199999x256.size a) ∧
  (∀ a, (k4_off4 v1) a + S1x256.size a ≤ S199999x256.size a)
instance k4_chk1.dec : ∀ (v1 : BitVec 32), Decidable (k4_chk1 v1) := fun v1 => decidable_of_iff' _ (Iff.of_eq (k4_chk1.eq_1 v1))
theorem k4_off2_inb : ∀ (v1 : BitVec 32) (k4_hw1 : k4_chk1 v1), ∀ a, (k4_off2 v1) a + S1x256.size a ≤ S199999x256.size a := fun v1 k4_hw1 => k4_hw1.1
theorem k4_off4_inb : ∀ (v1 : BitVec 32) (k4_hw1 : k4_chk1 v1), ∀ a, (k4_off4 v1) a + S1x256.size a ≤ S199999x256.size a := fun v1 k4_hw1 => k4_hw1.2

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![16384], ![false]⟩

abbrev pre5 : Pipeline.Prefetch sig := ⟨2, ![main_v48.idx, main_v50.idx], fun | 0 => main_v48.names | 1 => main_v50.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def k5_off2 (v1 : BitVec 32) : Fin 2 → Nat :=
  let c0_i32_3 : BitVec 32 := 0#32
  ![v1.toNat, 0]

def k5_off3 (v3 : BitVec 32) : Fin 2 → Nat :=
  let c0_i32_7 : BitVec 32 := 0#32
  ![v3.toNat, 0]

def k5_chk2 (v3 : BitVec 32) : Prop :=
  (∀ a, (k5_off3 v3) a + S1x256.size a ≤ S199999x256.size a)
instance k5_chk2.dec : ∀ (v3 : BitVec 32), Decidable (k5_chk2 v3) := fun v3 => decidable_of_iff' _ (Iff.of_eq (k5_chk2.eq_1 v3))
theorem k5_off3_inb : ∀ (v3 : BitVec 32) (k5_hw2 : k5_chk2 v3), ∀ a, (k5_off3 v3) a + S1x256.size a ≤ S199999x256.size a := fun v3 k5_hw2 => k5_hw2

def k5_off4 (v1 : BitVec 32) : Fin 2 → Nat :=
  let c0_i32_12 : BitVec 32 := 0#32
  ![v1.toNat, 0]

def k5_chk1 (v1 : BitVec 32) : Prop :=
  (∀ a, (k5_off2 v1) a + S1x256.size a ≤ S199999x256.size a) ∧
  (∀ a, (k5_off4 v1) a + S1x256.size a ≤ S199999x256.size a)
instance k5_chk1.dec : ∀ (v1 : BitVec 32), Decidable (k5_chk1 v1) := fun v1 => decidable_of_iff' _ (Iff.of_eq (k5_chk1.eq_1 v1))
theorem k5_off2_inb : ∀ (v1 : BitVec 32) (k5_hw1 : k5_chk1 v1), ∀ a, (k5_off2 v1) a + S1x256.size a ≤ S199999x256.size a := fun v1 k5_hw1 => k5_hw1.1
theorem k5_off4_inb : ∀ (v1 : BitVec 32) (k5_hw1 : k5_chk1 v1), ∀ a, (k5_off4 v1) a + S1x256.size a ≤ S199999x256.size a := fun v1 k5_hw1 => k5_hw1.2

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![16384], ![false]⟩

abbrev pre6 : Pipeline.Prefetch sig := ⟨2, ![main_v57.idx, main_v59.idx], fun | 0 => main_v57.names | 1 => main_v59.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def k6_off2 (v1 : BitVec 32) : Fin 2 → Nat :=
  let c0_i32_3 : BitVec 32 := 0#32
  ![v1.toNat, 0]

def k6_off3 (v3 : BitVec 32) : Fin 2 → Nat :=
  let c0_i32_7 : BitVec 32 := 0#32
  ![v3.toNat, 0]

def k6_chk2 (v3 : BitVec 32) : Prop :=
  (∀ a, (k6_off3 v3) a + S1x256.size a ≤ S199999x256.size a)
instance k6_chk2.dec : ∀ (v3 : BitVec 32), Decidable (k6_chk2 v3) := fun v3 => decidable_of_iff' _ (Iff.of_eq (k6_chk2.eq_1 v3))
theorem k6_off3_inb : ∀ (v3 : BitVec 32) (k6_hw2 : k6_chk2 v3), ∀ a, (k6_off3 v3) a + S1x256.size a ≤ S199999x256.size a := fun v3 k6_hw2 => k6_hw2

def k6_off4 (v1 : BitVec 32) : Fin 2 → Nat :=
  let c0_i32_12 : BitVec 32 := 0#32
  ![v1.toNat, 0]

def k6_chk1 (v1 : BitVec 32) : Prop :=
  (∀ a, (k6_off2 v1) a + S1x256.size a ≤ S199999x256.size a) ∧
  (∀ a, (k6_off4 v1) a + S1x256.size a ≤ S199999x256.size a)
instance k6_chk1.dec : ∀ (v1 : BitVec 32), Decidable (k6_chk1 v1) := fun v1 => decidable_of_iff' _ (Iff.of_eq (k6_chk1.eq_1 v1))
theorem k6_off2_inb : ∀ (v1 : BitVec 32) (k6_hw1 : k6_chk1 v1), ∀ a, (k6_off2 v1) a + S1x256.size a ≤ S199999x256.size a := fun v1 k6_hw1 => k6_hw1.1
theorem k6_off4_inb : ∀ (v1 : BitVec 32) (k6_hw1 : k6_chk1 v1), ∀ a, (k6_off4 v1) a + S1x256.size a ≤ S199999x256.size a := fun v1 k6_hw1 => k6_hw1.2

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![16384], ![false]⟩

abbrev pre7 : Pipeline.Prefetch sig := ⟨2, ![main_v66.idx, main_v68.idx], fun | 0 => main_v66.names | 1 => main_v68.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def k7_off2 (v1 : BitVec 32) : Fin 2 → Nat :=
  let c0_i32_3 : BitVec 32 := 0#32
  ![v1.toNat, 0]

def k7_off3 (v3 : BitVec 32) : Fin 2 → Nat :=
  let c0_i32_7 : BitVec 32 := 0#32
  ![v3.toNat, 0]

def k7_chk2 (v3 : BitVec 32) : Prop :=
  (∀ a, (k7_off3 v3) a + S1x256.size a ≤ S199999x256.size a)
instance k7_chk2.dec : ∀ (v3 : BitVec 32), Decidable (k7_chk2 v3) := fun v3 => decidable_of_iff' _ (Iff.of_eq (k7_chk2.eq_1 v3))
theorem k7_off3_inb : ∀ (v3 : BitVec 32) (k7_hw2 : k7_chk2 v3), ∀ a, (k7_off3 v3) a + S1x256.size a ≤ S199999x256.size a := fun v3 k7_hw2 => k7_hw2

def k7_off4 (v1 : BitVec 32) : Fin 2 → Nat :=
  let c0_i32_12 : BitVec 32 := 0#32
  ![v1.toNat, 0]

def k7_chk1 (v1 : BitVec 32) : Prop :=
  (∀ a, (k7_off2 v1) a + S1x256.size a ≤ S199999x256.size a) ∧
  (∀ a, (k7_off4 v1) a + S1x256.size a ≤ S199999x256.size a)
instance k7_chk1.dec : ∀ (v1 : BitVec 32), Decidable (k7_chk1 v1) := fun v1 => decidable_of_iff' _ (Iff.of_eq (k7_chk1.eq_1 v1))
theorem k7_off2_inb : ∀ (v1 : BitVec 32) (k7_hw1 : k7_chk1 v1), ∀ a, (k7_off2 v1) a + S1x256.size a ≤ S199999x256.size a := fun v1 k7_hw1 => k7_hw1.1
theorem k7_off4_inb : ∀ (v1 : BitVec 32) (k7_hw1 : k7_chk1 v1), ∀ a, (k7_off4 v1) a + S1x256.size a ≤ S199999x256.size a := fun v1 k7_hw1 => k7_hw1.2

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![16384], ![false]⟩

abbrev pre8 : Pipeline.Prefetch sig := ⟨2, ![main_v75.idx, main_v77.idx], fun | 0 => main_v75.names | 1 => main_v77.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def k8_off2 (v1 : BitVec 32) : Fin 2 → Nat :=
  let c0_i32_3 : BitVec 32 := 0#32
  ![v1.toNat, 0]

def k8_off3 (v3 : BitVec 32) : Fin 2 → Nat :=
  let c0_i32_7 : BitVec 32 := 0#32
  ![v3.toNat, 0]

def k8_chk2 (v3 : BitVec 32) : Prop :=
  (∀ a, (k8_off3 v3) a + S1x256.size a ≤ S199999x256.size a)
instance k8_chk2.dec : ∀ (v3 : BitVec 32), Decidable (k8_chk2 v3) := fun v3 => decidable_of_iff' _ (Iff.of_eq (k8_chk2.eq_1 v3))
theorem k8_off3_inb : ∀ (v3 : BitVec 32) (k8_hw2 : k8_chk2 v3), ∀ a, (k8_off3 v3) a + S1x256.size a ≤ S199999x256.size a := fun v3 k8_hw2 => k8_hw2

def k8_off4 (v1 : BitVec 32) : Fin 2 → Nat :=
  let c0_i32_12 : BitVec 32 := 0#32
  ![v1.toNat, 0]

def k8_chk1 (v1 : BitVec 32) : Prop :=
  (∀ a, (k8_off2 v1) a + S1x256.size a ≤ S199999x256.size a) ∧
  (∀ a, (k8_off4 v1) a + S1x256.size a ≤ S199999x256.size a)
instance k8_chk1.dec : ∀ (v1 : BitVec 32), Decidable (k8_chk1 v1) := fun v1 => decidable_of_iff' _ (Iff.of_eq (k8_chk1.eq_1 v1))
theorem k8_off2_inb : ∀ (v1 : BitVec 32) (k8_hw1 : k8_chk1 v1), ∀ a, (k8_off2 v1) a + S1x256.size a ≤ S199999x256.size a := fun v1 k8_hw1 => k8_hw1.1
theorem k8_off4_inb : ∀ (v1 : BitVec 32) (k8_hw1 : k8_chk1 v1), ∀ a, (k8_off4 v1) a + S1x256.size a ≤ S199999x256.size a := fun v1 k8_hw1 => k8_hw1.2

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![16384], ![false]⟩

abbrev pre9 : Pipeline.Prefetch sig := ⟨2, ![main_v84.idx, main_v86.idx], fun | 0 => main_v84.names | 1 => main_v86.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def k9_off2 (v1 : BitVec 32) : Fin 2 → Nat :=
  let c0_i32_3 : BitVec 32 := 0#32
  ![v1.toNat, 0]

def k9_off3 (v3 : BitVec 32) : Fin 2 → Nat :=
  let c0_i32_7 : BitVec 32 := 0#32
  ![v3.toNat, 0]

def k9_chk2 (v3 : BitVec 32) : Prop :=
  (∀ a, (k9_off3 v3) a + S1x256.size a ≤ S199999x256.size a)
instance k9_chk2.dec : ∀ (v3 : BitVec 32), Decidable (k9_chk2 v3) := fun v3 => decidable_of_iff' _ (Iff.of_eq (k9_chk2.eq_1 v3))
theorem k9_off3_inb : ∀ (v3 : BitVec 32) (k9_hw2 : k9_chk2 v3), ∀ a, (k9_off3 v3) a + S1x256.size a ≤ S199999x256.size a := fun v3 k9_hw2 => k9_hw2

def k9_off4 (v1 : BitVec 32) : Fin 2 → Nat :=
  let c0_i32_12 : BitVec 32 := 0#32
  ![v1.toNat, 0]

def k9_chk1 (v1 : BitVec 32) : Prop :=
  (∀ a, (k9_off2 v1) a + S1x256.size a ≤ S199999x256.size a) ∧
  (∀ a, (k9_off4 v1) a + S1x256.size a ≤ S199999x256.size a)
instance k9_chk1.dec : ∀ (v1 : BitVec 32), Decidable (k9_chk1 v1) := fun v1 => decidable_of_iff' _ (Iff.of_eq (k9_chk1.eq_1 v1))
theorem k9_off2_inb : ∀ (v1 : BitVec 32) (k9_hw1 : k9_chk1 v1), ∀ a, (k9_off2 v1) a + S1x256.size a ≤ S199999x256.size a := fun v1 k9_hw1 => k9_hw1.1
theorem k9_off4_inb : ∀ (v1 : BitVec 32) (k9_hw1 : k9_chk1 v1), ∀ a, (k9_off4 v1) a + S1x256.size a ≤ S199999x256.size a := fun v1 k9_hw1 => k9_hw1.2

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![16384], ![false]⟩

abbrev pre10 : Pipeline.Prefetch sig := ⟨2, ![main_arg1.idx, main_arg3.idx], fun | 0 => main_arg1.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def k10_off2 (v1 : BitVec 32) : Fin 2 → Nat :=
  let c0_i32_3 : BitVec 32 := 0#32
  ![v1.toNat, 0]

def k10_off3 (v3 : BitVec 32) : Fin 2 → Nat :=
  let c0_i32_7 : BitVec 32 := 0#32
  ![v3.toNat, 0]

def k10_chk2 (v3 : BitVec 32) : Prop :=
  (∀ a, (k10_off3 v3) a + S1x256.size a ≤ S199999x256.size a)
instance k10_chk2.dec : ∀ (v3 : BitVec 32), Decidable (k10_chk2 v3) := fun v3 => decidable_of_iff' _ (Iff.of_eq (k10_chk2.eq_1 v3))
theorem k10_off3_inb : ∀ (v3 : BitVec 32) (k10_hw2 : k10_chk2 v3), ∀ a, (k10_off3 v3) a + S1x256.size a ≤ S199999x256.size a := fun v3 k10_hw2 => k10_hw2

def k10_off4 (v1 : BitVec 32) : Fin 2 → Nat :=
  let c0_i32_12 : BitVec 32 := 0#32
  ![v1.toNat, 0]

def k10_chk1 (v1 : BitVec 32) : Prop :=
  (∀ a, (k10_off2 v1) a + S1x256.size a ≤ S199999x256.size a) ∧
  (∀ a, (k10_off4 v1) a + S1x256.size a ≤ S199999x256.size a)
instance k10_chk1.dec : ∀ (v1 : BitVec 32), Decidable (k10_chk1 v1) := fun v1 => decidable_of_iff' _ (Iff.of_eq (k10_chk1.eq_1 v1))
theorem k10_off2_inb : ∀ (v1 : BitVec 32) (k10_hw1 : k10_chk1 v1), ∀ a, (k10_off2 v1) a + S1x256.size a ≤ S199999x256.size a := fun v1 k10_hw1 => k10_hw1.1
theorem k10_off4_inb : ∀ (v1 : BitVec 32) (k10_hw1 : k10_chk1 v1), ∀ a, (k10_off4 v1) a + S1x256.size a ≤ S199999x256.size a := fun v1 k10_hw1 => k10_hw1.2

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1024x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1024x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S1024x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x1 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

class Facts₀ : Prop where
  bcast_S_S16384x256 : S_.BroadcastsInDim S16384x256 (![] : Fin 0 → Fin S16384x256.rank)
  slices_S16384x10_S16384x1_0_0 : S16384x10.Slices ![0, 0] S16384x1
  shapeCasts_S16384x1_S16384 : S16384x1.ShapeCasts S16384
  numel1_S1 : S1.numel = 1
  inb_S2_S1_0 : ∀ a, (![0] : Fin 1 → Nat) a + S1.size a ≤ S2.size a
  squeezes_S1_S_ : S1.Squeezes S_
  inb_S1x1x256_S1x1x256_0_0_0 : ∀ a, (![0, 0, 0] : Fin 3 → Nat) a + S1x1x256.size a ≤ S1x1x256.size a
  squeezes_S1x1x256_S256 : S1x1x256.Squeezes S256
  squeezes_S1x256_S256 : S1x256.Squeezes S256
  inb_S2_S1_1 : ∀ a, (![1] : Fin 1 → Nat) a + S1.size a ≤ S2.size a
  shapeCasts_S16384x1x256_S16384x256 : S16384x1x256.ShapeCasts S16384x256
  slices_S16384x10_S16384x1_0_1 : S16384x10.Slices ![0, 1] S16384x1
  slices_S16384x10_S16384x1_0_2 : S16384x10.Slices ![0, 2] S16384x1
  slices_S16384x10_S16384x1_0_3 : S16384x10.Slices ![0, 3] S16384x1
  slices_S16384x10_S16384x1_0_4 : S16384x10.Slices ![0, 4] S16384x1
  slices_S16384x10_S16384x1_0_5 : S16384x10.Slices ![0, 5] S16384x1
  slices_S16384x10_S16384x1_0_6 : S16384x10.Slices ![0, 6] S16384x1
  slices_S16384x10_S16384x1_0_7 : S16384x10.Slices ![0, 7] S16384x1
  slices_S16384x10_S16384x1_0_8 : S16384x10.Slices ![0, 8] S16384x1
  slices_S16384x10_S16384x1_0_9 : S16384x10.Slices ![0, 9] S16384x1
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hcc0_scratch0 : 4 + S2.numel ≤ 75
  hcc1_scratch0 : 10 + S2.numel ≤ 75
  hcc2_scratch0 : 16 + S2.numel ≤ 75
  hcc3_scratch0 : 22 + S2.numel ≤ 75
  hcc4_scratch0 : 28 + S2.numel ≤ 75
  hcc5_scratch0 : 34 + S2.numel ≤ 75
  hcc6_scratch0 : 40 + S2.numel ≤ 75
  hcc7_scratch0 : 46 + S2.numel ≤ 75
  hcc8_scratch0 : 52 + S2.numel ≤ 75
  hcc9_scratch0 : 58 + S2.numel ≤ 75
  hcc10_scratch0 : 64 + S2.numel ≤ 75
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1x256.size a ≤ S16384x1x256.size a
  hwx0_0 : ∀ i : grid0.Coords, EltTy.bits .f32 = 32 ∨ (Rect.block (s := S16384x1x256) S1x1x256.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x1x256.size a ≤ S16384x1x256.size a
  hwx0_1 : ∀ i : grid0.Coords, EltTy.bits .f32 = 32 ∨ (Rect.block (s := S16384x1x256) S1x1x256.size (cc0_transform_2 i) (hinb0_1 i)).WholeWords (EltTy.packing .f32)
  hrank1 : 0 < grid1.rank
  k1_off1_inb : ∀ i : grid1.Coords, ∀ a, (k1_off1 i) a + S1.size a ≤ S16384.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x1x256.size a ≤ S16384x1x256.size a
  hwx1_0 : ∀ i : grid1.Coords, EltTy.bits .f32 = 32 ∨ (Rect.block (s := S16384x1x256) S1x1x256.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x1x256.size a ≤ S16384x1x256.size a
  hwx1_1 : ∀ i : grid1.Coords, EltTy.bits .f32 = 32 ∨ (Rect.block (s := S16384x1x256) S1x1x256.size (cc1_transform_2 i) (hinb1_1 i)).WholeWords (EltTy.packing .f32)
  hrank2 : 0 < grid2.rank
  k2_off1_inb : ∀ i : grid2.Coords, ∀ a, (k2_off1 i) a + S1.size a ≤ S16384.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1x1x256.size a ≤ S16384x1x256.size a
  hwx2_0 : ∀ i : grid2.Coords, EltTy.bits .f32 = 32 ∨ (Rect.block (s := S16384x1x256) S1x1x256.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S1x1x256.size a ≤ S16384x1x256.size a
  hwx2_1 : ∀ i : grid2.Coords, EltTy.bits .f32 = 32 ∨ (Rect.block (s := S16384x1x256) S1x1x256.size (cc2_transform_2 i) (hinb2_1 i)).WholeWords (EltTy.packing .f32)
  hrank3 : 0 < grid3.rank
  k3_off1_inb : ∀ i : grid3.Coords, ∀ a, (k3_off1 i) a + S1.size a ≤ S16384.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S1x1x256.size a ≤ S16384x1x256.size a
  hwx3_0 : ∀ i : grid3.Coords, EltTy.bits .f32 = 32 ∨ (Rect.block (s := S16384x1x256) S1x1x256.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S1x1x256.size a ≤ S16384x1x256.size a
  hwx3_1 : ∀ i : grid3.Coords, EltTy.bits .f32 = 32 ∨ (Rect.block (s := S16384x1x256) S1x1x256.size (cc3_transform_2 i) (hinb3_1 i)).WholeWords (EltTy.packing .f32)
  hrank4 : 0 < grid4.rank
  k4_off1_inb : ∀ i : grid4.Coords, ∀ a, (k4_off1 i) a + S1.size a ≤ S16384.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S1x1x256.size a ≤ S16384x1x256.size a
  hwx4_0 : ∀ i : grid4.Coords, EltTy.bits .f32 = 32 ∨ (Rect.block (s := S16384x1x256) S1x1x256.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S1x1x256.size a ≤ S16384x1x256.size a
  hwx4_1 : ∀ i : grid4.Coords, EltTy.bits .f32 = 32 ∨ (Rect.block (s := S16384x1x256) S1x1x256.size (cc4_transform_2 i) (hinb4_1 i)).WholeWords (EltTy.packing .f32)
  hrank5 : 0 < grid5.rank
  k5_off1_inb : ∀ i : grid5.Coords, ∀ a, (k5_off1 i) a + S1.size a ≤ S16384.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S1x1x256.size a ≤ S16384x1x256.size a
  hwx5_0 : ∀ i : grid5.Coords, EltTy.bits .f32 = 32 ∨ (Rect.block (s := S16384x1x256) S1x1x256.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S1x1x256.size a ≤ S16384x1x256.size a
  hwx5_1 : ∀ i : grid5.Coords, EltTy.bits .f32 = 32 ∨ (Rect.block (s := S16384x1x256) S1x1x256.size (cc5_transform_2 i) (hinb5_1 i)).WholeWords (EltTy.packing .f32)
  hrank6 : 0 < grid6.rank
  k6_off1_inb : ∀ i : grid6.Coords, ∀ a, (k6_off1 i) a + S1.size a ≤ S16384.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S1x1x256.size a ≤ S16384x1x256.size a
  hwx6_0 : ∀ i : grid6.Coords, EltTy.bits .f32 = 32 ∨ (Rect.block (s := S16384x1x256) S1x1x256.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S1x1x256.size a ≤ S16384x1x256.size a
  hwx6_1 : ∀ i : grid6.Coords, EltTy.bits .f32 = 32 ∨ (Rect.block (s := S16384x1x256) S1x1x256.size (cc6_transform_2 i) (hinb6_1 i)).WholeWords (EltTy.packing .f32)
  hrank7 : 0 < grid7.rank
  k7_off1_inb : ∀ i : grid7.Coords, ∀ a, (k7_off1 i) a + S1.size a ≤ S16384.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S1x1x256.size a ≤ S16384x1x256.size a
  hwx7_0 : ∀ i : grid7.Coords, EltTy.bits .f32 = 32 ∨ (Rect.block (s := S16384x1x256) S1x1x256.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S1x1x256.size a ≤ S16384x1x256.size a
  hwx7_1 : ∀ i : grid7.Coords, EltTy.bits .f32 = 32 ∨ (Rect.block (s := S16384x1x256) S1x1x256.size (cc7_transform_2 i) (hinb7_1 i)).WholeWords (EltTy.packing .f32)
  hrank8 : 0 < grid8.rank
  k8_off1_inb : ∀ i : grid8.Coords, ∀ a, (k8_off1 i) a + S1.size a ≤ S16384.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S1x1x256.size a ≤ S16384x1x256.size a
  hwx8_0 : ∀ i : grid8.Coords, EltTy.bits .f32 = 32 ∨ (Rect.block (s := S16384x1x256) S1x1x256.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S1x1x256.size a ≤ S16384x1x256.size a
  hwx8_1 : ∀ i : grid8.Coords, EltTy.bits .f32 = 32 ∨ (Rect.block (s := S16384x1x256) S1x1x256.size (cc8_transform_2 i) (hinb8_1 i)).WholeWords (EltTy.packing .f32)
  hrank9 : 0 < grid9.rank
  k9_off1_inb : ∀ i : grid9.Coords, ∀ a, (k9_off1 i) a + S1.size a ≤ S16384.size a
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S1x1x256.size a ≤ S16384x1x256.size a
  hwx9_0 : ∀ i : grid9.Coords, EltTy.bits .f32 = 32 ∨ (Rect.block (s := S16384x1x256) S1x1x256.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S1x1x256.size a ≤ S16384x1x256.size a
  hwx9_1 : ∀ i : grid9.Coords, EltTy.bits .f32 = 32 ∨ (Rect.block (s := S16384x1x256) S1x1x256.size (cc9_transform_2 i) (hinb9_1 i)).WholeWords (EltTy.packing .f32)
  hrank10 : 0 < grid10.rank
  k10_off1_inb : ∀ i : grid10.Coords, ∀ a, (k10_off1 i) a + S1.size a ≤ S16384.size a
  hstage10_0 : ∀ j, (stage10_0 j).IsWhole
  nbuf10_0 : grid10.bufCount reads10_0 false = 2
  hreads10_0 : ∀ i i' : grid10.Coords, (∀ a, reads10_0 a = true → i a = i' a) → cc10_transform_1 i = cc10_transform_1 i'
  hinb10_0 : ∀ (i : grid10.Coords) a, (cc10_transform_1 i a + 1) * S1x1x256.size a ≤ S16384x1x256.size a
  hwx10_0 : ∀ i : grid10.Coords, EltTy.bits .f32 = 32 ∨ (Rect.block (s := S16384x1x256) S1x1x256.size (cc10_transform_1 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_2 i = cc10_transform_2 i'
  hinb10_1 : ∀ (i : grid10.Coords) a, (cc10_transform_2 i a + 1) * S1x1x256.size a ≤ S16384x1x256.size a
  hwx10_1 : ∀ i : grid10.Coords, EltTy.bits .f32 = 32 ∨ (Rect.block (s := S16384x1x256) S1x1x256.size (cc10_transform_2 i) (hinb10_1 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x256.size a ≤ S16384x256.size a
  hwx11_0 : ∀ i : grid11.Coords, EltTy.bits .f32 = 32 ∨ (Rect.block (s := S16384x256) S1024x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x256.size a ≤ S16384x256.size a
  hwx11_1 : ∀ i : grid11.Coords, EltTy.bits .f32 = 32 ∨ (Rect.block (s := S16384x256) S1024x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x256.size a ≤ S16384x256.size a
  hwx11_2 : ∀ i : grid11.Coords, EltTy.bits .f32 = 32 ∨ (Rect.block (s := S16384x256) S1024x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x256.size a ≤ S16384x256.size a
  hwx11_3 : ∀ i : grid11.Coords, EltTy.bits .f32 = 32 ∨ (Rect.block (s := S16384x256) S1024x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1.size a ≤ S1x1.size a
  hwx11_4 : ∀ i : grid11.Coords, EltTy.bits .f32 = 32 ∨ (Rect.block (s := S1x1) S1x1.size (cc11_transform_4 i) (hinb11_4 i)).WholeWords (EltTy.packing .f32)

variable [Facts₀]

abbrev cc0_scratch0 : DmaSems sig S2 := SemArray.consecutive 4 S2 hcc0_scratch0
abbrev cc1_scratch0 : DmaSems sig S2 := SemArray.consecutive 10 S2 hcc1_scratch0
abbrev cc2_scratch0 : DmaSems sig S2 := SemArray.consecutive 16 S2 hcc2_scratch0
abbrev cc3_scratch0 : DmaSems sig S2 := SemArray.consecutive 22 S2 hcc3_scratch0
abbrev cc4_scratch0 : DmaSems sig S2 := SemArray.consecutive 28 S2 hcc4_scratch0
abbrev cc5_scratch0 : DmaSems sig S2 := SemArray.consecutive 34 S2 hcc5_scratch0
abbrev cc6_scratch0 : DmaSems sig S2 := SemArray.consecutive 40 S2 hcc6_scratch0
abbrev cc7_scratch0 : DmaSems sig S2 := SemArray.consecutive 46 S2 hcc7_scratch0
abbrev cc8_scratch0 : DmaSems sig S2 := SemArray.consecutive 52 S2 hcc8_scratch0
abbrev cc9_scratch0 : DmaSems sig S2 := SemArray.consecutive 58 S2 hcc9_scratch0
abbrev cc10_scratch0 : DmaSems sig S2 := SemArray.consecutive 64 S2 hcc10_scratch0

abbrev spec0_0 : Pipeline.WinSpec sig grid0.rank :=
  Pipeline.WinSpec.ofSpec (Memref.whole main_v6_0) S1x1x256.size reads0_0 true false 2 stage0_0 sem0_0 nbuf0_0 hstage0_0

abbrev spec0_1 : Pipeline.WinSpec sig grid0.rank :=
  Pipeline.WinSpec.ofSpec (Memref.whole main_v6_1) S1x1x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev spec1_0 : Pipeline.WinSpec sig grid1.rank :=
  Pipeline.WinSpec.ofSpec (Memref.whole main_v15_0) S1x1x256.size reads1_0 true false 2 stage1_0 sem1_0 nbuf1_0 hstage1_0

abbrev spec1_1 : Pipeline.WinSpec sig grid1.rank :=
  Pipeline.WinSpec.ofSpec (Memref.whole main_v15_1) S1x1x256.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev spec2_0 : Pipeline.WinSpec sig grid2.rank :=
  Pipeline.WinSpec.ofSpec (Memref.whole main_v24_0) S1x1x256.size reads2_0 true false 2 stage2_0 sem2_0 nbuf2_0 hstage2_0

abbrev spec2_1 : Pipeline.WinSpec sig grid2.rank :=
  Pipeline.WinSpec.ofSpec (Memref.whole main_v24_1) S1x1x256.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev spec3_0 : Pipeline.WinSpec sig grid3.rank :=
  Pipeline.WinSpec.ofSpec (Memref.whole main_v33_0) S1x1x256.size reads3_0 true false 2 stage3_0 sem3_0 nbuf3_0 hstage3_0

abbrev spec3_1 : Pipeline.WinSpec sig grid3.rank :=
  Pipeline.WinSpec.ofSpec (Memref.whole main_v33_1) S1x1x256.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev spec4_0 : Pipeline.WinSpec sig grid4.rank :=
  Pipeline.WinSpec.ofSpec (Memref.whole main_v42_0) S1x1x256.size reads4_0 true false 2 stage4_0 sem4_0 nbuf4_0 hstage4_0

abbrev spec4_1 : Pipeline.WinSpec sig grid4.rank :=
  Pipeline.WinSpec.ofSpec (Memref.whole main_v42_1) S1x1x256.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev spec5_0 : Pipeline.WinSpec sig grid5.rank :=
  Pipeline.WinSpec.ofSpec (Memref.whole main_v51_0) S1x1x256.size reads5_0 true false 2 stage5_0 sem5_0 nbuf5_0 hstage5_0

abbrev spec5_1 : Pipeline.WinSpec sig grid5.rank :=
  Pipeline.WinSpec.ofSpec (Memref.whole main_v51_1) S1x1x256.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev spec6_0 : Pipeline.WinSpec sig grid6.rank :=
  Pipeline.WinSpec.ofSpec (Memref.whole main_v60_0) S1x1x256.size reads6_0 true false 2 stage6_0 sem6_0 nbuf6_0 hstage6_0

abbrev spec6_1 : Pipeline.WinSpec sig grid6.rank :=
  Pipeline.WinSpec.ofSpec (Memref.whole main_v60_1) S1x1x256.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev spec7_0 : Pipeline.WinSpec sig grid7.rank :=
  Pipeline.WinSpec.ofSpec (Memref.whole main_v69_0) S1x1x256.size reads7_0 true false 2 stage7_0 sem7_0 nbuf7_0 hstage7_0

abbrev spec7_1 : Pipeline.WinSpec sig grid7.rank :=
  Pipeline.WinSpec.ofSpec (Memref.whole main_v69_1) S1x1x256.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))
abbrev spec8_0 : Pipeline.WinSpec sig grid8.rank :=
  Pipeline.WinSpec.ofSpec (Memref.whole main_v78_0) S1x1x256.size reads8_0 true false 2 stage8_0 sem8_0 nbuf8_0 hstage8_0

abbrev spec8_1 : Pipeline.WinSpec sig grid8.rank :=
  Pipeline.WinSpec.ofSpec (Memref.whole main_v78_1) S1x1x256.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_1 | 1 => cc8_transform_2 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | ⟨_ + 2, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | ⟨_ + 2, h⟩ => absurd h (Nat.not_lt.2 (Nat.le_add_left _ _))
abbrev spec9_0 : Pipeline.WinSpec sig grid9.rank :=
  Pipeline.WinSpec.ofSpec (Memref.whole main_v87_0) S1x1x256.size reads9_0 true false 2 stage9_0 sem9_0 nbuf9_0 hstage9_0

abbrev spec9_1 : Pipeline.WinSpec sig grid9.rank :=
  Pipeline.WinSpec.ofSpec (Memref.whole main_v87_1) S1x1x256.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_1 | 1 => cc9_transform_2 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | ⟨_ + 2, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | ⟨_ + 2, h⟩ => absurd h (Nat.not_lt.2 (Nat.le_add_left _ _))
abbrev spec10_0 : Pipeline.WinSpec sig grid10.rank :=
  Pipeline.WinSpec.ofSpec (Memref.whole main_v92_0) S1x1x256.size reads10_0 true false 2 stage10_0 sem10_0 nbuf10_0 hstage10_0

abbrev spec10_1 : Pipeline.WinSpec sig grid10.rank :=
  Pipeline.WinSpec.ofSpec (Memref.whole main_v92_1) S1x1x256.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_1 | 1 => cc10_transform_2 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | ⟨_ + 2, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | ⟨_ + 2, h⟩ => absurd h (Nat.not_lt.2 (Nat.le_add_left _ _))
abbrev win11_0 : Pipeline.Window sig grid11 :=
  Pipeline.Window.ofSpec (Memref.whole main_v90) S1024x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v93) S1024x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v91) S1024x256.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v94) S1024x256.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v95) S1x1.size cc11_transform_4 reads11_4 true true 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole

variable [Facts]
-- ==== ReferenceIdeal.lean ====
abbrev S16384x10 : Shape := ⟨2, ![16384, 10]⟩
abbrev S16384 : Shape := ⟨1, ![16384]⟩
abbrev S199999x256 : Shape := ⟨2, ![199999, 256]⟩
abbrev S_ : Shape := ⟨0, ![]⟩
abbrev S16384x10x1 : Shape := ⟨3, ![16384, 10, 1]⟩
abbrev S16384x10x256 : Shape := ⟨3, ![16384, 10, 256]⟩
abbrev S16384x256 : Shape := ⟨2, ![16384, 256]⟩
abbrev S16384x1 : Shape := ⟨2, ![16384, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x10, .i32⟩
  | .hbm, ⟨1, _⟩ => ⟨S16384, .i32⟩
  | .hbm, ⟨2, _⟩ => ⟨S16384x10, .i32⟩
  | .hbm, ⟨3, _⟩ => ⟨S16384, .i32⟩
  | .hbm, ⟨4, _⟩ => ⟨S199999x256, .f32⟩
  | .hbm, ⟨5, _⟩ => ⟨S199999x256, .f32⟩
  | .hbm, ⟨6, _⟩ => ⟨S_, .i32⟩
  | .hbm, ⟨7, _⟩ => ⟨S16384x10, .i32⟩
  | .hbm, ⟨8, _⟩ => ⟨S16384x10, .i1⟩
  | .hbm, ⟨9, _⟩ => ⟨S_, .i32⟩
  | .hbm, ⟨10, _⟩ => ⟨S16384x10, .i32⟩
  | .hbm, ⟨11, _⟩ => ⟨S16384x10, .i32⟩
  | .hbm, ⟨12, _⟩ => ⟨S16384x10, .i32⟩
  | .hbm, ⟨13, _⟩ => ⟨S16384x10x1, .i32⟩
  | .hbm, ⟨14, _⟩ => ⟨S16384x10x256, .f32⟩
  | .hbm, ⟨15, _⟩ => ⟨S_, .f32⟩
  | .hbm, ⟨16, _⟩ => ⟨S16384x256, .f32⟩
  | .hbm, ⟨17, _⟩ => ⟨S_, .i32⟩
  | .hbm, ⟨18, _⟩ => ⟨S16384x10, .i32⟩
  | .hbm, ⟨19, _⟩ => ⟨S16384x10, .i1⟩
  | .hbm, ⟨20, _⟩ => ⟨S_, .i32⟩
  | .hbm, ⟨21, _⟩ => ⟨S16384x10, .i32⟩
  | .hbm, ⟨22, _⟩ => ⟨S16384x10, .i32⟩
  | .hbm, ⟨23, _⟩ => ⟨S16384x10, .i32⟩
  | .hbm, ⟨24, _⟩ => ⟨S16384x10x1, .i32⟩
  | .hbm, ⟨25, _⟩ => ⟨S16384x10x256, .f32⟩
  | .hbm, ⟨26, _⟩ => ⟨S_, .f32⟩
  | .hbm, ⟨27, _⟩ => ⟨S16384x256, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x256, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S16384, .i1⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384x256, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384, .f32⟩
  | .hbm, ⟨74, _⟩ => ⟨S16384, .f32⟩
  | .hbm, ⟨75, _⟩ => ⟨S16384, .i1⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16384x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_v34 : Ref sig .tc := ⟨.hbm, 67, rfl⟩
abbrev main_v35 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1 : Ref sig .tc := ⟨.hbm, 83, rfl⟩
abbrev main_v36 : Ref sig .tc := ⟨.hbm, 84, rfl⟩
abbrev main_cst_10 : Ref sig .tc := ⟨.hbm, 85, rfl⟩
abbrev main_v37 : Ref sig .tc := ⟨.hbm, 86, rfl⟩
abbrev main_cst_11 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩

abbrev nD : Nat := 1
abbrev τ : Topo := Topo.v7x

variable {F : FTy → Type} [FloatOps F]

class Facts₀ : Prop where
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  reducesTo_S16384x10x256_S16384x256_d1 : S16384x10x256.ReducesTo [1] S16384x256
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  reducesTo_S16384x256_S16384_d1 : S16384x256.ReducesTo [1] S16384
  reducesTo_S16384_S_d0 : S16384.ReducesTo [0] S_
  gather_S199999x256_S16384x10x1_S16384x10x256_2_0_n_n_0_2_1256_wf : GatherDims.WF S199999x256 S16384x10x1 S16384x10x256 [2] [0] [] [0] [] 2 ![1, 256]
  gather_S199999x256_S16384x1_S16384x256_1_0_n_n_0_1_1256_wf : GatherDims.WF S199999x256 S16384x1 S16384x256 [1] [0] [] [0] [] 1 ![1, 256]

variable [Facts₀]

def gather_S199999x256_S16384x10x1_S16384x10x256_2_0_n_n_0_2_1256 : GatherDims S199999x256 S16384x10x1 S16384x10x256 where
  offsetDims := [2]
  collapsedSliceDims := [0]
  operandBatchingDims := []
  startIndicesBatchingDims := []
  startIndexMap := [0]
  indexVectorDim := 2
  sliceSizes := ![1, 256]
  wf := gather_S199999x256_S16384x10x1_S16384x10x256_2_0_n_n_0_2_1256_wf
def gather_S199999x256_S16384x1_S16384x256_1_0_n_n_0_1_1256 : GatherDims S199999x256 S16384x1 S16384x256 where
  offsetDims := [1]
  collapsedSliceDims := [0]
  operandBatchingDims := []
  startIndicesBatchingDims := []
  startIndexMap := [0]
  indexVectorDim := 1
  sliceSizes := ![1, 256]
  wf := gather_S199999x256_S16384x1_S16384x256_1_0_n_n_0_1_1256_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def row (w : BitVec 32) : Fin 199999 := ⟨w.toNat % 199999, Nat.mod_lt _ (by decide)⟩

theorem row_val (w : BitVec 32) (h : w.toNat < 199999) : (row w).val = w.toNat := Nat.mod_eq_of_lt h

def sp (y : EReal) : EReal := max y 0 + Ideal.log1p (Ideal.exp (-(max (y - 0) (-(y - 0)))))

def lsg (x : EReal) : EReal := -(sp (-x))

abbrev Tab : Type := FVec Ideal (⟨2, ![199999, 256]⟩ : Shape) .f32
abbrev Ctx : Type := IVec (⟨2, ![16384, 10]⟩ : Shape) 32
abbrev Tgt : Type := IVec (⟨1, ![16384]⟩ : Shape) 32

def ctxSum (U : Tab) (pu : Ctx) (b : Fin 16384) (e : Fin 256) : EReal :=
  ∑ k : Fin 10, (U (ix2 (row (pu (ix2 b k))) e) : EReal)

def score (U : Tab) (pu : Ctx) (W : Tab) (pw : Tgt) (b : Fin 16384) : EReal :=
  ∑ e : Fin 256, ctxSum U pu b e * (W (ix2 (row (pw (ix1 b))) e) : EReal)

def lossVal (pu : Ctx) (pw : Tgt) (nu : Ctx) (nw : Tgt) (U W : Tab) : EReal :=
  -((∑ b : Fin 16384, lsg (score U pu W pw b)) + (∑ b : Fin 16384, lsg (-(score U nu W nw b))))

def loss (pu : Ctx) (pw : Tgt) (nu : Ctx) (nw : Tgt) (U W : Tab) : FVec Ideal (⟨0, ![]⟩ : Shape) .f32 :=
  fun _ => lossVal pu pw nu nw U W

def rowDot (X Y : FVec Ideal (⟨2, ![16384, 256]⟩ : Shape) .f32) (b : Fin 16384) : EReal :=
  ∑ e : Fin 256, (X (ix2 b e) : EReal) * (Y (ix2 b e) : EReal)

def lossSum (PU PW NU NW : FVec Ideal (⟨2, ![16384, 256]⟩ : Shape) .f32) : EReal :=
  (∑ b : Fin 16384, lsg (rowDot PU PW b)) + (∑ b : Fin 16384, lsg (-(rowDot NU NW b)))

def InRange (pu : Ctx) (pw : Tgt) (nu : Ctx) (nw : Tgt) : Prop :=
  (∀ i, (pu i).toNat < 199999) ∧ (∀ i, (pw i).toNat < 199999) ∧ (∀ i, (nu i).toNat < 199999) ∧ (∀ i, (nw i).toNat < 199999)

end Cert.Spec

end
-- ==== Proof.PreFacts.lean ====
import proofs.«404237_j24687472017957_2_alg».proof.Pre_finite_inputs
import proofs.«404237_j24687472017957_2_alg».proof.Proof.Gen.Pre_finite_inputs
import proofs.«404237_j24687472017957_2_alg».proof.Proof.Spec
import Idealize.ShloMosaic.Lib.ReduceAll

namespace Cert.PreFacts

open Idealize.ShloMosaic

instance : Subsingleton Cert.Pre_finite_inputs.S_.Idx := ⟨fun a b => funext fun d => d.elim0⟩

theorem toNat_lt_of_signed (w : BitVec 32) (h0 : IntOp.cmpi .sge w (0#32) = 1#1)
    (h1 : IntOp.cmpi .slt w (199999#32) = 1#1) : w.toNat < 199999 := by
  rw [IntOp.cmpi_sge] at h0
  rw [IntOp.cmpi_slt] at h1
  have e0 : (0#32 : BitVec 32).toInt = 0 := by decide
  have e1 : (199999#32 : BitVec 32).toInt = 199999 := by decide
  rw [e0] at h0
  rw [e1] at h1
  have hw := w.isLt
  rw [BitVec.toInt_eq_toNat_cond] at h0 h1
  split at h0 <;> omega

theorem all_lt {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (andi (cmpi .sge x (broadcastInDim s ![] hb (constantI Cert.Pre_finite_inputs.S_ 32 0#32)))
                (cmpi .slt x (broadcastInDim s ![] hb (constantI Cert.Pre_finite_inputs.S_ 32 199999#32))))
          (constantI Cert.Pre_finite_inputs.S_ 1 1#1) hr hu ValueIdx.ix0 = 1#1) :
    ∀ i, (x i).toNat < 199999 := by
  intro i
  have hi := Host.reduce_andi_all _ _ hr hu _ e i
  obtain ⟨h0, h1⟩ := IntOp.andi_eq_one.1 hi
  exact toNat_lt_of_signed (x i) h0 h1

theorem inRange_of_pre {F : FTy → Type} [FloatOps F]
    (a0 : IVec Cert.Pre_finite_inputs.S16384x10 32) (a1 : IVec Cert.Pre_finite_inputs.S16384 32)
    (a2 : IVec Cert.Pre_finite_inputs.S16384x10 32) (a3 : IVec Cert.Pre_finite_inputs.S16384 32)
    (a4 a5 : FVec F Cert.Pre_finite_inputs.S199999x256 .f32)
    (h : Cert.Pre_finite_inputs.fn (F := F) a0 a1 a2 a3 a4 a5 = fun _ => 1#1) : Cert.Spec.InRange a0 a1 a2 a3 := by
  have h0 := congrFun h ValueIdx.ix0
  unfold Cert.Pre_finite_inputs.fn Cert.Pre_finite_inputs.fn_part1 Cert.Pre_finite_inputs.fn_part2 at h0
  dsimp only at h0

  obtain ⟨h0, h35⟩ := IntOp.andi_eq_one.1 h0
  obtain ⟨h0, h28⟩ := IntOp.andi_eq_one.1 h0
  obtain ⟨h0, h21⟩ := IntOp.andi_eq_one.1 h0
  obtain ⟨_, h14⟩ := IntOp.andi_eq_one.1 h0
  exact ⟨all_lt a0 _ _ _ h14, all_lt a1 _ _ _ h21, all_lt a2 _ _ _ h28, all_lt a3 _ _ _ h35⟩

end Cert.PreFacts
-- ==== Proof.Landed.lean ====
import proofs.«404237_j24687472017957_2_alg».proof.KernelIdeal
import proofs.«404237_j24687472017957_2_alg».proof.Proof.Spec
import Idealize.ShloMosaic.Lib.Writes
import Idealize.ShloMosaic.Lib.ValueIdx

noncomputable section

namespace Cert.KernelIdeal.Landed

open Cert.KernelIdeal
open Idealize.ShloMosaic Idealize.SL.Sem

variable {F : FTy → Type} [FloatOps F]

def landed (fh : S199999x256.Idx → Elt F .f32) (w : BitVec 32) : S1x1x256.Idx → Elt F .f32 :=
  fun y => fh (ValueIdx.ix2 (Cert.Spec.row w) (y 2))

theorem read_write_reshape_slice {sg : RefSig} {κ : Kind} {sp : Space} {s s' : Shape} {e : EltTy} {Val : EltTy → Type}
    (v : View sg κ sp s e) (R : Rect s) (h : s'.numel = R.shape.numel) (f : v.ty.Contents Val) (W : s'.Idx → Val e)
    (x : R.shape.Idx) :
    v.read Val (((v.slice R).reshape s' h).write Val f W Finset.univ) (R.emb x) = W ((Shape.reshapeEquiv h).symm x) := by
  rw [View.write_reshape_univ]
  exact View.read_slice_write_emb R f _ (Finset.mem_univ x)

theorem reshape_1x1x256 (h : S256.numel = S1x1x256.numel) (y : S1x1x256.Idx) :
    (Shape.reshapeEquiv h).symm y = (ValueIdx.ix1 (y 2 : Fin 256) : S256.Idx) := by
  rw [Equiv.symm_apply_eq]
  have h1 : S256.numel = S1x256.numel := by decide
  have h2 : S1x256.numel = S1x1x256.numel := by decide
  rw [← Shape.reshapeEquiv_reshapeEquiv h2 h1, Shape.reshapeEquiv_cons_one h1, Shape.reshapeEquiv_cons_one h2]
  funext a
  apply Fin.ext
  fin_cases a
  · show (y 0).val = 0
    have := (y 0).isLt; have e : S1x1x256.size 0 = 1 := rfl; omega
  · show (y 1).val = 0
    have := (y 1).isLt; have e : S1x1x256.size 1 = 1 := rfl; omega
  · rfl

theorem reshape_1x256 (h : S256.numel = S1x256.numel) (z : S256.Idx) (a : Fin 2) :
    ((Shape.reshapeEquiv h z) a).val = if a = 0 then 0 else (z 0).val := by
  rw [Shape.reshapeEquiv_cons_one h]
  fin_cases a <;> rfl

theorem read_block (dst : Memref sig .tc .vmem S1x1x256 .f32) (f0 : dst.view.ty.Contents (Elt F)) (W : S256.Idx → Elt F .f32)
    (inb0 : ∀ a, (![0, 0, 0] : Fin 3 → Nat) a + S1x1x256.size a ≤ S1x1x256.size a)
    (hs : ∀ a, (Rect.unit (s := S1x1x256) ![0, 0, 0] S1x1x256.size inb0).stride a = 1)
    (hq : (Rect.unit (s := S1x1x256) ![0, 0, 0] S1x1x256.size inb0).shape.Squeezes S256) (y : S1x1x256.Idx) :
    dst.view.read (Elt F) (View.write (Val := Elt F) ((dst.slice (Rect.unit (s := S1x1x256) ![0, 0, 0] S1x1x256.size inb0) hs).squeeze S256 hq).view f0 W Finset.univ) y
      = W (ValueIdx.ix1 (y 2 : Fin 256) : S256.Idx) := by
  have hy : (Rect.unit (s := S1x1x256) ![0, 0, 0] S1x1x256.size inb0).emb y = y := by
    funext a; apply Fin.ext
    fin_cases a <;> simp [Rect.emb_apply]
  have key := read_write_reshape_slice (Val := Elt F) dst.view (Rect.unit (s := S1x1x256) ![0, 0, 0] S1x1x256.size inb0) hq.numel_eq f0 W y
  rw [hy] at key
  exact key.trans (congrArg W (reshape_1x1x256 _ y))

theorem landed_eq (dst : Memref sig .tc .vmem S1x1x256 .f32)
    (f0 : dst.view.ty.Contents (Elt F)) (fh : S199999x256.Idx → Elt F .f32) (w : BitVec 32) (hw : w.toNat < 199999)
    (src : Memref sig .tc .hbm S199999x256 .f32) (fsrc : src.view.ty.Contents (Elt F)) (hread : src.view.read (Elt F) fsrc = fh)
    (off : Fin 2 → Nat) (hoff : off = ![w.toNat, 0]) (inb : ∀ a, off a + S1x256.size a ≤ S199999x256.size a)
    (hsl : ∀ a, (Rect.unit (s := S199999x256) off S1x256.size inb).stride a = 1)
    (hsq : S1x256.Squeezes S256) (R0 : Rect S1x1x256) (hR0 : R0 = Rect.unit (s := S1x1x256) ![0, 0, 0] S1x1x256.size (fun a => by fin_cases a <;> decide))
    (hR0s : ∀ a, R0.stride a = 1) (hsq' : R0.shape.Squeezes S256) :
    dst.view.read (Elt F) (View.write (Val := Elt F) ((dst.slice R0 hR0s).squeeze S256 hsq').view f0
        (ReadAs.same.apply (View.read (Elt F) ((src.slice (Rect.unit (s := S199999x256) off S1x256.size inb) hsl).squeeze S256 hsq).view fsrc)) Finset.univ)
      = landed fh w := by
  subst hR0 hoff
  funext y
  rw [read_block]
  show (src.view.read (Elt F) fsrc) ((Rect.unit (s := S199999x256) ![w.toNat, 0] S1x256.size inb).emb (Shape.reshapeEquiv hsq.numel_eq (ValueIdx.ix1 (y 2 : Fin 256) : S256.Idx))) = _
  rw [hread]
  unfold landed
  congr 1
  funext a; apply Fin.ext
  rw [Rect.emb_apply, reshape_1x256]
  fin_cases a
  · show w.toNat + 1 * 0 = (Cert.Spec.row w).val
    rw [Cert.Spec.row_val w hw]; omega
  · show 0 + 1 * (y 2).val = (y 2).val
    omega

end Cert.KernelIdeal.Landed

end
-- ==== Proof.G0Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v3
abbrev tB : Memref sig .tc .smem S16384 .i32 := Memref.whole main_v5
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid0.Coords) (h) :
    View.readAt (Elt F) M.view (Rect.unit (s := S16384) (k0_off1 i) S1.size (k0_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid0.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 4) 0 ∗ semVal ((c : Thread nD τ), SemLoc.dma 5) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 4) 0 ∗ semVal ((c : Thread nD τ), SemLoc.dma 5) 0 ∗ (∃ W', owes (c : Thread nD τ) 0 W')) -∗ K ⟨⟩))
      ⊢ wp frame (wpE (defs₀ (F := F)) Variants.none c none) Set.univ (cc0__gather_pair_kernel i tA (Memref.isWhole_whole _) tB (Memref.isWhole_whole _) hbM (Memref.isWhole_whole _) arg4 harg4 arg5 harg5 cc0_scratch0) K := by
  have hcA : ∀ k, k0_chk1 (TA k) := fun k => by
    refine ⟨fun a => ?_, fun a => ?_⟩ <;> (have := hA k; fin_cases a <;> simp [k0_off2, k0_off4, S1x256, S199999x256] <;> omega)
  have hcB : ∀ k, k0_chk2 (TB k) := fun k => by
    intro a; have := hB k; fin_cases a <;> simp [k0_off3, S1x256, S199999x256] <;> omega
  simp only [cc0__gather_pair_kernel_eq_skeleton]; unfold cc0__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G0

end
-- ==== Proof.G0.lean ====
import proofs.«404237_j24687472017957_2_alg».proof.Proof.G0Run

set_option maxRecDepth 16384

noncomputable section

namespace Cert.KernelIdeal.G0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre0.Contents (Elt F) := fun j => V (0 : Dev nD) (pre0.ref j)
theorem V_pre (c : Dev nD) (j : Fin 2) : V c (pre0.ref j) = tbl V j := by
  obtain rfl : c = 0 := Subsingleton.elim _ _; rfl
abbrev adm : (pcfg0 (F := F)).Adm := ⟨tbl V, trivial⟩
abbrev cfgM : Pipeline.Cfg sig Λ₀ := cfg0 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S1x1x256 .f32 := spec0_1.stage ((cfgM V).slots t 1)
abbrev hs1 (t : Fin (cfgM V).N) : (ms1 V t).IsWhole := hstage0_1 (((cfgM V).slots t 1).cast nbuf0_1)

abbrev bodyAt (t : Fin (cfgM V).N) : Prog (TpuEff nD τ sig (Elt F) Λ₀ .tc) PUnit :=
  cc0__gather_pair_kernel (grid0.coords t) tA (Memref.isWhole_whole _) tB (Memref.isWhole_whole _) hbM (Memref.isWhole_whole _) (ms0 V t) (hs0 V t) (ms1 V t) (hs1 V t) cc0_scratch0

abbrev osem0 : Fin 2 → SemLoc sig := fun j => (![SemLoc.dma 4, SemLoc.dma 5] : Fin 2 → SemLoc sig) j
theorem ownSemFacts0 : Pipeline.OwnSemFacts spec0 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre0 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec0 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec0 w)
  after w t := match w with
    | ⟨0, _⟩ => landed (V c main_arg4) (tbl V 0 (ValueIdx.ix1 (grid0.coords t 0)))
    | ⟨1, _⟩ => landed (V c main_arg4) (tbl V 1 (ValueIdx.ix1 (grid0.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid0.coords t 0))) from rfl,
    show (dat0 V c).after 1 t = landed (V c main_arg4) (tbl V 1 (ValueIdx.ix1 (grid0.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid0.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W0, bigSep_W0]
  exact sound_body V hok c t

end Cert.KernelIdeal.G0

end
-- ==== Proof.G1Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v12
abbrev tB : Memref sig .tc .smem S16384 .i32 := Memref.whole main_v14
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid1.Coords) (h) :
    View.readAt (Elt F) M.view (Rect.unit (s := S16384) (k1_off1 i) S1.size (k1_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid1.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 10) 0 ∗ semVal ((c : Thread nD τ), SemLoc.dma 11) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 10) 0 ∗ semVal ((c : Thread nD τ), SemLoc.dma 11) 0 ∗ (∃ W', owes (c : Thread nD τ) 0 W')) -∗ K ⟨⟩))
      ⊢ wp frame (wpE (defs₀ (F := F)) Variants.none c none) Set.univ (cc1__gather_pair_kernel i tA (Memref.isWhole_whole _) tB (Memref.isWhole_whole _) hbM (Memref.isWhole_whole _) arg4 harg4 arg5 harg5 cc1_scratch0) K := by
  have hcA : ∀ k, k1_chk1 (TA k) := fun k => by
    refine ⟨fun a => ?_, fun a => ?_⟩ <;> (have := hA k; fin_cases a <;> simp [k1_off2, k1_off4, S1x256, S199999x256] <;> omega)
  have hcB : ∀ k, k1_chk2 (TB k) := fun k => by
    intro a; have := hB k; fin_cases a <;> simp [k1_off3, S1x256, S199999x256] <;> omega
  simp only [cc1__gather_pair_kernel_eq_skeleton]; unfold cc1__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G1

end
-- ==== Proof.G1.lean ====
import proofs.«404237_j24687472017957_2_alg».proof.Proof.G1Run

set_option maxRecDepth 16384

noncomputable section

namespace Cert.KernelIdeal.G1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre1.Contents (Elt F) := fun j => V (0 : Dev nD) (pre1.ref j)
theorem V_pre (c : Dev nD) (j : Fin 2) : V c (pre1.ref j) = tbl V j := by
  obtain rfl : c = 0 := Subsingleton.elim _ _; rfl
abbrev adm : (pcfg1 (F := F)).Adm := ⟨tbl V, trivial⟩
abbrev cfgM : Pipeline.Cfg sig Λ₀ := cfg1 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec1_0.stage ((cfgM V).slots t 0)
abbrev hs0 (t : Fin (cfgM V).N) : (ms0 V t).IsWhole := hstage1_0 (((cfgM V).slots t 0).cast nbuf1_0)
abbrev ms1 (t : Fin (cfgM V).N) : Memref sig .tc .vmem S1x1x256 .f32 := spec1_1.stage ((cfgM V).slots t 1)
abbrev hs1 (t : Fin (cfgM V).N) : (ms1 V t).IsWhole := hstage1_1 (((cfgM V).slots t 1).cast nbuf1_1)

abbrev bodyAt (t : Fin (cfgM V).N) : Prog (TpuEff nD τ sig (Elt F) Λ₀ .tc) PUnit :=
  cc1__gather_pair_kernel (grid1.coords t) tA (Memref.isWhole_whole _) tB (Memref.isWhole_whole _) hbM (Memref.isWhole_whole _) (ms0 V t) (hs0 V t) (ms1 V t) (hs1 V t) cc1_scratch0

abbrev osem0 : Fin 2 → SemLoc sig := fun j => (![SemLoc.dma 10, SemLoc.dma 11] : Fin 2 → SemLoc sig) j
theorem ownSemFacts0 : Pipeline.OwnSemFacts spec1 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre1 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec1 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec1 w)
  after w t := match w with
    | ⟨0, _⟩ => landed (V c main_arg4) (tbl V 0 (ValueIdx.ix1 (grid1.coords t 0)))
    | ⟨1, _⟩ => landed (V c main_arg4) (tbl V 1 (ValueIdx.ix1 (grid1.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid1.coords t 0))) from rfl,
    show (dat0 V c).after 1 t = landed (V c main_arg4) (tbl V 1 (ValueIdx.ix1 (grid1.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid1.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W1, bigSep_W1]
  exact sound_body V hok c t

end Cert.KernelIdeal.G1

end
-- ==== Proof.G2Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v21
abbrev tB : Memref sig .tc .smem S16384 .i32 := Memref.whole main_v23
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid2.Coords) (h) :
    View.readAt (Elt F) M.view (Rect.unit (s := S16384) (k2_off1 i) S1.size (k2_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid2.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 16) 0 ∗ semVal ((c : Thread nD τ), SemLoc.dma 17) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 16) 0 ∗ semVal ((c : Thread nD τ), SemLoc.dma 17) 0 ∗ (∃ W', owes (c : Thread nD τ) 0 W')) -∗ K ⟨⟩))
      ⊢ wp frame (wpE (defs₀ (F := F)) Variants.none c none) Set.univ (cc2__gather_pair_kernel i tA (Memref.isWhole_whole _) tB (Memref.isWhole_whole _) hbM (Memref.isWhole_whole _) arg4 harg4 arg5 harg5 cc2_scratch0) K := by
  have hcA : ∀ k, k2_chk1 (TA k) := fun k => by
    refine ⟨fun a => ?_, fun a => ?_⟩ <;> (have := hA k; fin_cases a <;> simp [k2_off2, k2_off4, S1x256, S199999x256] <;> omega)
  have hcB : ∀ k, k2_chk2 (TB k) := fun k => by
    intro a; have := hB k; fin_cases a <;> simp [k2_off3, S1x256, S199999x256] <;> omega
  simp only [cc2__gather_pair_kernel_eq_skeleton]; unfold cc2__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G2

end
-- ==== Proof.G2.lean ====
import proofs.«404237_j24687472017957_2_alg».proof.Proof.G2Run

set_option maxRecDepth 16384

noncomputable section

namespace Cert.KernelIdeal.G2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre2.Contents (Elt F) := fun j => V (0 : Dev nD) (pre2.ref j)
theorem V_pre (c : Dev nD) (j : Fin 2) : V c (pre2.ref j) = tbl V j := by
  obtain rfl : c = 0 := Subsingleton.elim _ _; rfl
abbrev adm : (pcfg2 (F := F)).Adm := ⟨tbl V, trivial⟩
abbrev cfgM : Pipeline.Cfg sig Λ₀ := cfg2 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec2_0.stage ((cfgM V).slots t 0)
abbrev hs0 (t : Fin (cfgM V).N) : (ms0 V t).IsWhole := hstage2_0 (((cfgM V).slots t 0).cast nbuf2_0)
abbrev ms1 (t : Fin (cfgM V).N) : Memref sig .tc .vmem S1x1x256 .f32 := spec2_1.stage ((cfgM V).slots t 1)
abbrev hs1 (t : Fin (cfgM V).N) : (ms1 V t).IsWhole := hstage2_1 (((cfgM V).slots t 1).cast nbuf2_1)

abbrev bodyAt (t : Fin (cfgM V).N) : Prog (TpuEff nD τ sig (Elt F) Λ₀ .tc) PUnit :=
  cc2__gather_pair_kernel (grid2.coords t) tA (Memref.isWhole_whole _) tB (Memref.isWhole_whole _) hbM (Memref.isWhole_whole _) (ms0 V t) (hs0 V t) (ms1 V t) (hs1 V t) cc2_scratch0

abbrev osem0 : Fin 2 → SemLoc sig := fun j => (![SemLoc.dma 16, SemLoc.dma 17] : Fin 2 → SemLoc sig) j
theorem ownSemFacts0 : Pipeline.OwnSemFacts spec2 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre2 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec2 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec2 w)
  after w t := match w with
    | ⟨0, _⟩ => landed (V c main_arg4) (tbl V 0 (ValueIdx.ix1 (grid2.coords t 0)))
    | ⟨1, _⟩ => landed (V c main_arg4) (tbl V 1 (ValueIdx.ix1 (grid2.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid2.coords t 0))) from rfl,
    show (dat0 V c).after 1 t = landed (V c main_arg4) (tbl V 1 (ValueIdx.ix1 (grid2.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid2.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W2, bigSep_W2]
  exact sound_body V hok c t

end Cert.KernelIdeal.G2

end
-- ==== Proof.G3Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v30
abbrev tB : Memref sig .tc .smem S16384 .i32 := Memref.whole main_v32
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid3.Coords) (h) :
    View.readAt (Elt F) M.view (Rect.unit (s := S16384) (k3_off1 i) S1.size (k3_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid3.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 22) 0 ∗ semVal ((c : Thread nD τ), SemLoc.dma 23) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 22) 0 ∗ semVal ((c : Thread nD τ), SemLoc.dma 23) 0 ∗ (∃ W', owes (c : Thread nD τ) 0 W')) -∗ K ⟨⟩))
      ⊢ wp frame (wpE (defs₀ (F := F)) Variants.none c none) Set.univ (cc3__gather_pair_kernel i tA (Memref.isWhole_whole _) tB (Memref.isWhole_whole _) hbM (Memref.isWhole_whole _) arg4 harg4 arg5 harg5 cc3_scratch0) K := by
  have hcA : ∀ k, k3_chk1 (TA k) := fun k => by
    refine ⟨fun a => ?_, fun a => ?_⟩ <;> (have := hA k; fin_cases a <;> simp [k3_off2, k3_off4, S1x256, S199999x256] <;> omega)
  have hcB : ∀ k, k3_chk2 (TB k) := fun k => by
    intro a; have := hB k; fin_cases a <;> simp [k3_off3, S1x256, S199999x256] <;> omega
  simp only [cc3__gather_pair_kernel_eq_skeleton]; unfold cc3__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G3

end
-- ==== Proof.G3.lean ====
import proofs.«404237_j24687472017957_2_alg».proof.Proof.G3Run

set_option maxRecDepth 16384

noncomputable section

namespace Cert.KernelIdeal.G3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre3.Contents (Elt F) := fun j => V (0 : Dev nD) (pre3.ref j)
theorem V_pre (c : Dev nD) (j : Fin 2) : V c (pre3.ref j) = tbl V j := by
  obtain rfl : c = 0 := Subsingleton.elim _ _; rfl
abbrev adm : (pcfg3 (F := F)).Adm := ⟨tbl V, trivial⟩
abbrev cfgM : Pipeline.Cfg sig Λ₀ := cfg3 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec3_0.stage ((cfgM V).slots t 0)
abbrev hs0 (t : Fin (cfgM V).N) : (ms0 V t).IsWhole := hstage3_0 (((cfgM V).slots t 0).cast nbuf3_0)
abbrev ms1 (t : Fin (cfgM V).N) : Memref sig .tc .vmem S1x1x256 .f32 := spec3_1.stage ((cfgM V).slots t 1)
abbrev hs1 (t : Fin (cfgM V).N) : (ms1 V t).IsWhole := hstage3_1 (((cfgM V).slots t 1).cast nbuf3_1)

abbrev bodyAt (t : Fin (cfgM V).N) : Prog (TpuEff nD τ sig (Elt F) Λ₀ .tc) PUnit :=
  cc3__gather_pair_kernel (grid3.coords t) tA (Memref.isWhole_whole _) tB (Memref.isWhole_whole _) hbM (Memref.isWhole_whole _) (ms0 V t) (hs0 V t) (ms1 V t) (hs1 V t) cc3_scratch0

abbrev osem0 : Fin 2 → SemLoc sig := fun j => (![SemLoc.dma 22, SemLoc.dma 23] : Fin 2 → SemLoc sig) j
theorem ownSemFacts0 : Pipeline.OwnSemFacts spec3 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre3 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec3 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec3 w)
  after w t := match w with
    | ⟨0, _⟩ => landed (V c main_arg4) (tbl V 0 (ValueIdx.ix1 (grid3.coords t 0)))
    | ⟨1, _⟩ => landed (V c main_arg4) (tbl V 1 (ValueIdx.ix1 (grid3.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid3.coords t 0))) from rfl,
    show (dat0 V c).after 1 t = landed (V c main_arg4) (tbl V 1 (ValueIdx.ix1 (grid3.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid3.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W3, bigSep_W3]
  exact sound_body V hok c t

end Cert.KernelIdeal.G3

end
-- ==== Proof.G4Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v39
abbrev tB : Memref sig .tc .smem S16384 .i32 := Memref.whole main_v41
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid4.Coords) (h) :
    View.readAt (Elt F) M.view (Rect.unit (s := S16384) (k4_off1 i) S1.size (k4_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid4.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 28) 0 ∗ semVal ((c : Thread nD τ), SemLoc.dma 29) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 28) 0 ∗ semVal ((c : Thread nD τ), SemLoc.dma 29) 0 ∗ (∃ W', owes (c : Thread nD τ) 0 W')) -∗ K ⟨⟩))
      ⊢ wp frame (wpE (defs₀ (F := F)) Variants.none c none) Set.univ (cc4__gather_pair_kernel i tA (Memref.isWhole_whole _) tB (Memref.isWhole_whole _) hbM (Memref.isWhole_whole _) arg4 harg4 arg5 harg5 cc4_scratch0) K := by
  have hcA : ∀ k, k4_chk1 (TA k) := fun k => by
    refine ⟨fun a => ?_, fun a => ?_⟩ <;> (have := hA k; fin_cases a <;> simp [k4_off2, k4_off4, S1x256, S199999x256] <;> omega)
  have hcB : ∀ k, k4_chk2 (TB k) := fun k => by
    intro a; have := hB k; fin_cases a <;> simp [k4_off3, S1x256, S199999x256] <;> omega
  simp only [cc4__gather_pair_kernel_eq_skeleton]; unfold cc4__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G4

end
-- ==== Proof.G4.lean ====
import proofs.«404237_j24687472017957_2_alg».proof.Proof.G4Run

set_option maxRecDepth 16384

noncomputable section

namespace Cert.KernelIdeal.G4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre4.Contents (Elt F) := fun j => V (0 : Dev nD) (pre4.ref j)
theorem V_pre (c : Dev nD) (j : Fin 2) : V c (pre4.ref j) = tbl V j := by
  obtain rfl : c = 0 := Subsingleton.elim _ _; rfl
abbrev adm : (pcfg4 (F := F)).Adm := ⟨tbl V, trivial⟩
abbrev cfgM : Pipeline.Cfg sig Λ₀ := cfg4 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec4_0.stage ((cfgM V).slots t 0)
abbrev hs0 (t : Fin (cfgM V).N) : (ms0 V t).IsWhole := hstage4_0 (((cfgM V).slots t 0).cast nbuf4_0)
abbrev ms1 (t : Fin (cfgM V).N) : Memref sig .tc .vmem S1x1x256 .f32 := spec4_1.stage ((cfgM V).slots t 1)
abbrev hs1 (t : Fin (cfgM V).N) : (ms1 V t).IsWhole := hstage4_1 (((cfgM V).slots t 1).cast nbuf4_1)

abbrev bodyAt (t : Fin (cfgM V).N) : Prog (TpuEff nD τ sig (Elt F) Λ₀ .tc) PUnit :=
  cc4__gather_pair_kernel (grid4.coords t) tA (Memref.isWhole_whole _) tB (Memref.isWhole_whole _) hbM (Memref.isWhole_whole _) (ms0 V t) (hs0 V t) (ms1 V t) (hs1 V t) cc4_scratch0

abbrev osem0 : Fin 2 → SemLoc sig := fun j => (![SemLoc.dma 28, SemLoc.dma 29] : Fin 2 → SemLoc sig) j
theorem ownSemFacts0 : Pipeline.OwnSemFacts spec4 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre4 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec4 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec4 w)
  after w t := match w with
    | ⟨0, _⟩ => landed (V c main_arg4) (tbl V 0 (ValueIdx.ix1 (grid4.coords t 0)))
    | ⟨1, _⟩ => landed (V c main_arg4) (tbl V 1 (ValueIdx.ix1 (grid4.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid4.coords t 0))) from rfl,
    show (dat0 V c).after 1 t = landed (V c main_arg4) (tbl V 1 (ValueIdx.ix1 (grid4.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid4.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W4, bigSep_W4]
  exact sound_body V hok c t

end Cert.KernelIdeal.G4

end
-- ==== Proof.G5Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v48
abbrev tB : Memref sig .tc .smem S16384 .i32 := Memref.whole main_v50
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid5.Coords) (h) :
    View.readAt (Elt F) M.view (Rect.unit (s := S16384) (k5_off1 i) S1.size (k5_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid5.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 34) 0 ∗ semVal ((c : Thread nD τ), SemLoc.dma 35) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 34) 0 ∗ semVal ((c : Thread nD τ), SemLoc.dma 35) 0 ∗ (∃ W', owes (c : Thread nD τ) 0 W')) -∗ K ⟨⟩))
      ⊢ wp frame (wpE (defs₀ (F := F)) Variants.none c none) Set.univ (cc5__gather_pair_kernel i tA (Memref.isWhole_whole _) tB (Memref.isWhole_whole _) hbM (Memref.isWhole_whole _) arg4 harg4 arg5 harg5 cc5_scratch0) K := by
  have hcA : ∀ k, k5_chk1 (TA k) := fun k => by
    refine ⟨fun a => ?_, fun a => ?_⟩ <;> (have := hA k; fin_cases a <;> simp [k5_off2, k5_off4, S1x256, S199999x256] <;> omega)
  have hcB : ∀ k, k5_chk2 (TB k) := fun k => by
    intro a; have := hB k; fin_cases a <;> simp [k5_off3, S1x256, S199999x256] <;> omega
  simp only [cc5__gather_pair_kernel_eq_skeleton]; unfold cc5__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G5

end
-- ==== Proof.G5.lean ====
import proofs.«404237_j24687472017957_2_alg».proof.Proof.G5Run

set_option maxRecDepth 16384

noncomputable section

namespace Cert.KernelIdeal.G5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre5.Contents (Elt F) := fun j => V (0 : Dev nD) (pre5.ref j)
theorem V_pre (c : Dev nD) (j : Fin 2) : V c (pre5.ref j) = tbl V j := by
  obtain rfl : c = 0 := Subsingleton.elim _ _; rfl
abbrev adm : (pcfg5 (F := F)).Adm := ⟨tbl V, trivial⟩
abbrev cfgM : Pipeline.Cfg sig Λ₀ := cfg5 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec5_0.stage ((cfgM V).slots t 0)
abbrev hs0 (t : Fin (cfgM V).N) : (ms0 V t).IsWhole := hstage5_0 (((cfgM V).slots t 0).cast nbuf5_0)
abbrev ms1 (t : Fin (cfgM V).N) : Memref sig .tc .vmem S1x1x256 .f32 := spec5_1.stage ((cfgM V).slots t 1)
abbrev hs1 (t : Fin (cfgM V).N) : (ms1 V t).IsWhole := hstage5_1 (((cfgM V).slots t 1).cast nbuf5_1)

abbrev bodyAt (t : Fin (cfgM V).N) : Prog (TpuEff nD τ sig (Elt F) Λ₀ .tc) PUnit :=
  cc5__gather_pair_kernel (grid5.coords t) tA (Memref.isWhole_whole _) tB (Memref.isWhole_whole _) hbM (Memref.isWhole_whole _) (ms0 V t) (hs0 V t) (ms1 V t) (hs1 V t) cc5_scratch0

abbrev osem0 : Fin 2 → SemLoc sig := fun j => (![SemLoc.dma 34, SemLoc.dma 35] : Fin 2 → SemLoc sig) j
theorem ownSemFacts0 : Pipeline.OwnSemFacts spec5 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 34) 0 ∗ semVal ((c : Thread nD τ), SemLoc.dma 35) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre5 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec5 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec5 w)
  after w t := match w with
    | ⟨0, _⟩ => landed (V c main_arg4) (tbl V 0 (ValueIdx.ix1 (grid5.coords t 0)))
    | ⟨1, _⟩ => landed (V c main_arg4) (tbl V 1 (ValueIdx.ix1 (grid5.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid5.coords t 0))) from rfl,
    show (dat0 V c).after 1 t = landed (V c main_arg4) (tbl V 1 (ValueIdx.ix1 (grid5.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid5.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W5, bigSep_W5]
  exact sound_body V hok c t

end Cert.KernelIdeal.G5

end
-- ==== Proof.G6Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v57
abbrev tB : Memref sig .tc .smem S16384 .i32 := Memref.whole main_v59
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid6.Coords) (h) :
    View.readAt (Elt F) M.view (Rect.unit (s := S16384) (k6_off1 i) S1.size (k6_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid6.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 40) 0 ∗ semVal ((c : Thread nD τ), SemLoc.dma 41) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 40) 0 ∗ semVal ((c : Thread nD τ), SemLoc.dma 41) 0 ∗ (∃ W', owes (c : Thread nD τ) 0 W')) -∗ K ⟨⟩))
      ⊢ wp frame (wpE (defs₀ (F := F)) Variants.none c none) Set.univ (cc6__gather_pair_kernel i tA (Memref.isWhole_whole _) tB (Memref.isWhole_whole _) hbM (Memref.isWhole_whole _) arg4 harg4 arg5 harg5 cc6_scratch0) K := by
  have hcA : ∀ k, k6_chk1 (TA k) := fun k => by
    refine ⟨fun a => ?_, fun a => ?_⟩ <;> (have := hA k; fin_cases a <;> simp [k6_off2, k6_off4, S1x256, S199999x256] <;> omega)
  have hcB : ∀ k, k6_chk2 (TB k) := fun k => by
    intro a; have := hB k; fin_cases a <;> simp [k6_off3, S1x256, S199999x256] <;> omega
  simp only [cc6__gather_pair_kernel_eq_skeleton]; unfold cc6__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G6

end
-- ==== Proof.G6.lean ====
import proofs.«404237_j24687472017957_2_alg».proof.Proof.G6Run

set_option maxRecDepth 16384

noncomputable section

namespace Cert.KernelIdeal.G6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre6.Contents (Elt F) := fun j => V (0 : Dev nD) (pre6.ref j)
theorem V_pre (c : Dev nD) (j : Fin 2) : V c (pre6.ref j) = tbl V j := by
  obtain rfl : c = 0 := Subsingleton.elim _ _; rfl
abbrev adm : (pcfg6 (F := F)).Adm := ⟨tbl V, trivial⟩
abbrev cfgM : Pipeline.Cfg sig Λ₀ := cfg6 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec6_0.stage ((cfgM V).slots t 0)
abbrev hs0 (t : Fin (cfgM V).N) : (ms0 V t).IsWhole := hstage6_0 (((cfgM V).slots t 0).cast nbuf6_0)
abbrev ms1 (t : Fin (cfgM V).N) : Memref sig .tc .vmem S1x1x256 .f32 := spec6_1.stage ((cfgM V).slots t 1)
abbrev hs1 (t : Fin (cfgM V).N) : (ms1 V t).IsWhole := hstage6_1 (((cfgM V).slots t 1).cast nbuf6_1)

abbrev bodyAt (t : Fin (cfgM V).N) : Prog (TpuEff nD τ sig (Elt F) Λ₀ .tc) PUnit :=
  cc6__gather_pair_kernel (grid6.coords t) tA (Memref.isWhole_whole _) tB (Memref.isWhole_whole _) hbM (Memref.isWhole_whole _) (ms0 V t) (hs0 V t) (ms1 V t) (hs1 V t) cc6_scratch0

abbrev osem0 : Fin 2 → SemLoc sig := fun j => (![SemLoc.dma 40, SemLoc.dma 41] : Fin 2 → SemLoc sig) j
theorem ownSemFacts0 : Pipeline.OwnSemFacts spec6 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 40) 0 ∗ semVal ((c : Thread nD τ), SemLoc.dma 41) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre6 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec6 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec6 w)
  after w t := match w with
    | ⟨0, _⟩ => landed (V c main_arg4) (tbl V 0 (ValueIdx.ix1 (grid6.coords t 0)))
    | ⟨1, _⟩ => landed (V c main_arg4) (tbl V 1 (ValueIdx.ix1 (grid6.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid6.coords t 0))) from rfl,
    show (dat0 V c).after 1 t = landed (V c main_arg4) (tbl V 1 (ValueIdx.ix1 (grid6.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid6.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W6, bigSep_W6]
  exact sound_body V hok c t

end Cert.KernelIdeal.G6

end
-- ==== Proof.G7Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v66
abbrev tB : Memref sig .tc .smem S16384 .i32 := Memref.whole main_v68
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid7.Coords) (h) :
    View.readAt (Elt F) M.view (Rect.unit (s := S16384) (k7_off1 i) S1.size (k7_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid7.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 46) 0 ∗ semVal ((c : Thread nD τ), SemLoc.dma 47) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 46) 0 ∗ semVal ((c : Thread nD τ), SemLoc.dma 47) 0 ∗ (∃ W', owes (c : Thread nD τ) 0 W')) -∗ K ⟨⟩))
      ⊢ wp frame (wpE (defs₀ (F := F)) Variants.none c none) Set.univ (cc7__gather_pair_kernel i tA (Memref.isWhole_whole _) tB (Memref.isWhole_whole _) hbM (Memref.isWhole_whole _) arg4 harg4 arg5 harg5 cc7_scratch0) K := by
  have hcA : ∀ k, k7_chk1 (TA k) := fun k => by
    refine ⟨fun a => ?_, fun a => ?_⟩ <;> (have := hA k; fin_cases a <;> simp [k7_off2, k7_off4, S1x256, S199999x256] <;> omega)
  have hcB : ∀ k, k7_chk2 (TB k) := fun k => by
    intro a; have := hB k; fin_cases a <;> simp [k7_off3, S1x256, S199999x256] <;> omega
  simp only [cc7__gather_pair_kernel_eq_skeleton]; unfold cc7__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G7

end
-- ==== Proof.G7.lean ====
import proofs.«404237_j24687472017957_2_alg».proof.Proof.G7Run

set_option maxRecDepth 16384

noncomputable section

namespace Cert.KernelIdeal.G7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre7.Contents (Elt F) := fun j => V (0 : Dev nD) (pre7.ref j)
theorem V_pre (c : Dev nD) (j : Fin 2) : V c (pre7.ref j) = tbl V j := by
  obtain rfl : c = 0 := Subsingleton.elim _ _; rfl
abbrev adm : (pcfg7 (F := F)).Adm := ⟨tbl V, trivial⟩
abbrev cfgM : Pipeline.Cfg sig Λ₀ := cfg7 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec7_0.stage ((cfgM V).slots t 0)
abbrev hs0 (t : Fin (cfgM V).N) : (ms0 V t).IsWhole := hstage7_0 (((cfgM V).slots t 0).cast nbuf7_0)
abbrev ms1 (t : Fin (cfgM V).N) : Memref sig .tc .vmem S1x1x256 .f32 := spec7_1.stage ((cfgM V).slots t 1)
abbrev hs1 (t : Fin (cfgM V).N) : (ms1 V t).IsWhole := hstage7_1 (((cfgM V).slots t 1).cast nbuf7_1)

abbrev bodyAt (t : Fin (cfgM V).N) : Prog (TpuEff nD τ sig (Elt F) Λ₀ .tc) PUnit :=
  cc7__gather_pair_kernel (grid7.coords t) tA (Memref.isWhole_whole _) tB (Memref.isWhole_whole _) hbM (Memref.isWhole_whole _) (ms0 V t) (hs0 V t) (ms1 V t) (hs1 V t) cc7_scratch0

abbrev osem0 : Fin 2 → SemLoc sig := fun j => (![SemLoc.dma 46, SemLoc.dma 47] : Fin 2 → SemLoc sig) j
theorem ownSemFacts0 : Pipeline.OwnSemFacts spec7 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 46) 0 ∗ semVal ((c : Thread nD τ), SemLoc.dma 47) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre7 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec7 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec7 w)
  after w t := match w with
    | ⟨0, _⟩ => landed (V c main_arg4) (tbl V 0 (ValueIdx.ix1 (grid7.coords t 0)))
    | ⟨1, _⟩ => landed (V c main_arg4) (tbl V 1 (ValueIdx.ix1 (grid7.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid7.coords t 0))) from rfl,
    show (dat0 V c).after 1 t = landed (V c main_arg4) (tbl V 1 (ValueIdx.ix1 (grid7.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid7.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W7, bigSep_W7]
  exact sound_body V hok c t

end Cert.KernelIdeal.G7

end
-- ==== Proof.G8Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v75
abbrev tB : Memref sig .tc .smem S16384 .i32 := Memref.whole main_v77
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid8.Coords) (h) :
    View.readAt (Elt F) M.view (Rect.unit (s := S16384) (k8_off1 i) S1.size (k8_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid8.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 52) 0 ∗ semVal ((c : Thread nD τ), SemLoc.dma 53) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 52) 0 ∗ semVal ((c : Thread nD τ), SemLoc.dma 53) 0 ∗ (∃ W', owes (c : Thread nD τ) 0 W')) -∗ K ⟨⟩))
      ⊢ wp frame (wpE (defs₀ (F := F)) Variants.none c none) Set.univ (cc8__gather_pair_kernel i tA (Memref.isWhole_whole _) tB (Memref.isWhole_whole _) hbM (Memref.isWhole_whole _) arg4 harg4 arg5 harg5 cc8_scratch0) K := by
  have hcA : ∀ k, k8_chk1 (TA k) := fun k => by
    refine ⟨fun a => ?_, fun a => ?_⟩ <;> (have := hA k; fin_cases a <;> simp [k8_off2, k8_off4, S1x256, S199999x256] <;> omega)
  have hcB : ∀ k, k8_chk2 (TB k) := fun k => by
    intro a; have := hB k; fin_cases a <;> simp [k8_off3, S1x256, S199999x256] <;> omega
  simp only [cc8__gather_pair_kernel_eq_skeleton]; unfold cc8__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G8

end
-- ==== Proof.G8.lean ====
import proofs.«404237_j24687472017957_2_alg».proof.Proof.G8Run

set_option maxRecDepth 16384

noncomputable section

namespace Cert.KernelIdeal.G8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre8.Contents (Elt F) := fun j => V (0 : Dev nD) (pre8.ref j)
theorem V_pre (c : Dev nD) (j : Fin 2) : V c (pre8.ref j) = tbl V j := by
  obtain rfl : c = 0 := Subsingleton.elim _ _; rfl
abbrev adm : (pcfg8 (F := F)).Adm := ⟨tbl V, trivial⟩
abbrev cfgM : Pipeline.Cfg sig Λ₀ := cfg8 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec8_0.stage ((cfgM V).slots t 0)
abbrev hs0 (t : Fin (cfgM V).N) : (ms0 V t).IsWhole := hstage8_0 (((cfgM V).slots t 0).cast nbuf8_0)
abbrev ms1 (t : Fin (cfgM V).N) : Memref sig .tc .vmem S1x1x256 .f32 := spec8_1.stage ((cfgM V).slots t 1)
abbrev hs1 (t : Fin (cfgM V).N) : (ms1 V t).IsWhole := hstage8_1 (((cfgM V).slots t 1).cast nbuf8_1)

abbrev bodyAt (t : Fin (cfgM V).N) : Prog (TpuEff nD τ sig (Elt F) Λ₀ .tc) PUnit :=
  cc8__gather_pair_kernel (grid8.coords t) tA (Memref.isWhole_whole _) tB (Memref.isWhole_whole _) hbM (Memref.isWhole_whole _) (ms0 V t) (hs0 V t) (ms1 V t) (hs1 V t) cc8_scratch0

abbrev osem0 : Fin 2 → SemLoc sig := fun j => (![SemLoc.dma 52, SemLoc.dma 53] : Fin 2 → SemLoc sig) j
theorem ownSemFacts0 : Pipeline.OwnSemFacts spec8 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 52) 0 ∗ semVal ((c : Thread nD τ), SemLoc.dma 53) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre8 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec8 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec8 w)
  after w t := match w with
    | ⟨0, _⟩ => landed (V c main_arg4) (tbl V 0 (ValueIdx.ix1 (grid8.coords t 0)))
    | ⟨1, _⟩ => landed (V c main_arg4) (tbl V 1 (ValueIdx.ix1 (grid8.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid8.coords t 0))) from rfl,
    show (dat0 V c).after 1 t = landed (V c main_arg4) (tbl V 1 (ValueIdx.ix1 (grid8.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid8.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W8, bigSep_W8]
  exact sound_body V hok c t

end Cert.KernelIdeal.G8

end
-- ==== Proof.G9Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v84
abbrev tB : Memref sig .tc .smem S16384 .i32 := Memref.whole main_v86
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid9.Coords) (h) :
    View.readAt (Elt F) M.view (Rect.unit (s := S16384) (k9_off1 i) S1.size (k9_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid9.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 58) 0 ∗ semVal ((c : Thread nD τ), SemLoc.dma 59) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 58) 0 ∗ semVal ((c : Thread nD τ), SemLoc.dma 59) 0 ∗ (∃ W', owes (c : Thread nD τ) 0 W')) -∗ K ⟨⟩))
      ⊢ wp frame (wpE (defs₀ (F := F)) Variants.none c none) Set.univ (cc9__gather_pair_kernel i tA (Memref.isWhole_whole _) tB (Memref.isWhole_whole _) hbM (Memref.isWhole_whole _) arg4 harg4 arg5 harg5 cc9_scratch0) K := by
  have hcA : ∀ k, k9_chk1 (TA k) := fun k => by
    refine ⟨fun a => ?_, fun a => ?_⟩ <;> (have := hA k; fin_cases a <;> simp [k9_off2, k9_off4, S1x256, S199999x256] <;> omega)
  have hcB : ∀ k, k9_chk2 (TB k) := fun k => by
    intro a; have := hB k; fin_cases a <;> simp [k9_off3, S1x256, S199999x256] <;> omega
  simp only [cc9__gather_pair_kernel_eq_skeleton]; unfold cc9__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G9

end
-- ==== Proof.G9.lean ====
import proofs.«404237_j24687472017957_2_alg».proof.Proof.G9Run

set_option maxRecDepth 16384

noncomputable section

namespace Cert.KernelIdeal.G9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre9.Contents (Elt F) := fun j => V (0 : Dev nD) (pre9.ref j)
theorem V_pre (c : Dev nD) (j : Fin 2) : V c (pre9.ref j) = tbl V j := by
  obtain rfl : c = 0 := Subsingleton.elim _ _; rfl
abbrev adm : (pcfg9 (F := F)).Adm := ⟨tbl V, trivial⟩
abbrev cfgM : Pipeline.Cfg sig Λ₀ := cfg9 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec9_0.stage ((cfgM V).slots t 0)
abbrev hs0 (t : Fin (cfgM V).N) : (ms0 V t).IsWhole := hstage9_0 (((cfgM V).slots t 0).cast nbuf9_0)
abbrev ms1 (t : Fin (cfgM V).N) : Memref sig .tc .vmem S1x1x256 .f32 := spec9_1.stage ((cfgM V).slots t 1)
abbrev hs1 (t : Fin (cfgM V).N) : (ms1 V t).IsWhole := hstage9_1 (((cfgM V).slots t 1).cast nbuf9_1)

abbrev bodyAt (t : Fin (cfgM V).N) : Prog (TpuEff nD τ sig (Elt F) Λ₀ .tc) PUnit :=
  cc9__gather_pair_kernel (grid9.coords t) tA (Memref.isWhole_whole _) tB (Memref.isWhole_whole _) hbM (Memref.isWhole_whole _) (ms0 V t) (hs0 V t) (ms1 V t) (hs1 V t) cc9_scratch0

abbrev osem0 : Fin 2 → SemLoc sig := fun j => (![SemLoc.dma 58, SemLoc.dma 59] : Fin 2 → SemLoc sig) j
theorem ownSemFacts0 : Pipeline.OwnSemFacts spec9 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 58) 0 ∗ semVal ((c : Thread nD τ), SemLoc.dma 59) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre9 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec9 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec9 w)
  after w t := match w with
    | ⟨0, _⟩ => landed (V c main_arg4) (tbl V 0 (ValueIdx.ix1 (grid9.coords t 0)))
    | ⟨1, _⟩ => landed (V c main_arg4) (tbl V 1 (ValueIdx.ix1 (grid9.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid9.coords t 0))) from rfl,
    show (dat0 V c).after 1 t = landed (V c main_arg4) (tbl V 1 (ValueIdx.ix1 (grid9.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid9.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W9, bigSep_W9]
  exact sound_body V hok c t

end Cert.KernelIdeal.G9

end
-- ==== Proof.G10Run.lean ====
import proofs.«404237_j24687472017957_2_alg».proof.Proof.Gen.KernelIdeal.Launch
import proofs.«404237_j24687472017957_2_alg».proof.Proof.Gen.KernelIdeal.Skeleton
import Idealize.ShloMosaic.Lib.Pipeline.FrameBody
import Idealize.ShloMosaic.Lib.Pipeline.RegionsLoop
import Idealize.ShloMosaic.Lib.Tactic
import proofs.«404237_j24687472017957_2_alg».proof.Proof.Landed

set_option maxRecDepth 16384

noncomputable section

namespace Cert.KernelIdeal.G10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.KernelIdeal.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_arg1
abbrev tB : Memref sig .tc .smem S16384 .i32 := Memref.whole main_arg3
abbrev hbM : Memref sig .tc .hbm S199999x256 .f32 := Memref.whole main_arg5

/-- The one-word load at grid point `i` reads entry `i` of the table: the offset is `i` as a 32-bit word, and `i < 2^32`. -/
theorem word_eq (c : Dev nD) (M : Memref sig .tc .smem S16384 .i32) (T : HbBuf (F := F) c M) (i : grid10.Coords) (h) :
    View.readAt (Elt F) M.view (Rect.unit (s := S16384) (k10_off1 i) S1.size (k10_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid10.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 64) 0 ∗ semVal ((c : Thread nD τ), SemLoc.dma 65) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 64) 0 ∗ semVal ((c : Thread nD τ), SemLoc.dma 65) 0 ∗ (∃ W', owes (c : Thread nD τ) 0 W')) -∗ K ⟨⟩))
      ⊢ wp frame (wpE (defs₀ (F := F)) Variants.none c none) Set.univ (cc10__gather_pair_kernel i tA (Memref.isWhole_whole _) tB (Memref.isWhole_whole _) hbM (Memref.isWhole_whole _) arg4 harg4 arg5 harg5 cc10_scratch0) K := by
  have hcA : ∀ k, k10_chk1 (TA k) := fun k => by
    refine ⟨fun a => ?_, fun a => ?_⟩ <;> (have := hA k; fin_cases a <;> simp [k10_off2, k10_off4, S1x256, S199999x256] <;> omega)
  have hcB : ∀ k, k10_chk2 (TB k) := fun k => by
    intro a; have := hB k; fin_cases a <;> simp [k10_off3, S1x256, S199999x256] <;> omega
  simp only [cc10__gather_pair_kernel_eq_skeleton]; unfold cc10__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.KernelIdeal.G10

end
-- ==== Proof.G10.lean ====
import proofs.«404237_j24687472017957_2_alg».proof.Proof.G10Run

set_option maxRecDepth 16384

noncomputable section

namespace Cert.KernelIdeal.G10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

def tbl : pre10.Contents (Elt F) := fun j => V (0 : Dev nD) (pre10.ref j)
theorem V_pre (c : Dev nD) (j : Fin 2) : V c (pre10.ref j) = tbl V j := by
  obtain rfl : c = 0 := Subsingleton.elim _ _; rfl
abbrev adm : (pcfg10 (F := F)).Adm := ⟨tbl V, trivial⟩
abbrev cfgM : Pipeline.Cfg sig Λ₀ := cfg10 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec10_0.stage ((cfgM V).slots t 0)
abbrev hs0 (t : Fin (cfgM V).N) : (ms0 V t).IsWhole := hstage10_0 (((cfgM V).slots t 0).cast nbuf10_0)
abbrev ms1 (t : Fin (cfgM V).N) : Memref sig .tc .vmem S1x1x256 .f32 := spec10_1.stage ((cfgM V).slots t 1)
abbrev hs1 (t : Fin (cfgM V).N) : (ms1 V t).IsWhole := hstage10_1 (((cfgM V).slots t 1).cast nbuf10_1)

abbrev bodyAt (t : Fin (cfgM V).N) : Prog (TpuEff nD τ sig (Elt F) Λ₀ .tc) PUnit :=
  cc10__gather_pair_kernel (grid10.coords t) tA (Memref.isWhole_whole _) tB (Memref.isWhole_whole _) hbM (Memref.isWhole_whole _) (ms0 V t) (hs0 V t) (ms1 V t) (hs1 V t) cc10_scratch0

abbrev osem0 : Fin 2 → SemLoc sig := fun j => (![SemLoc.dma 64, SemLoc.dma 65] : Fin 2 → SemLoc sig) j
theorem ownSemFacts0 : Pipeline.OwnSemFacts spec10 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 64) 0 ∗ semVal ((c : Thread nD τ), SemLoc.dma 65) 0) := by
  rw [Pipeline.ownSems0_eq_of_list c osem0 [0, 1] (by decide) (by decide)]; rfl
def H0 : Finset (Ref sig .tc) := {main_arg5}
theorem hbmPts0_eq (c : Dev nD) :
    (bigSep H0 (fun b => ((c : Thread nD τ).loc b) ↦{fullShare} V c b) : sProp 𝕄) = iprop(hbPt c hbM (V c main_arg5)) := by
  unfold H0
  rw [BI.bigSep_eq_bigSepL_of_eq [main_arg5] (by decide) (by decide)]; rfl

abbrev tblHeld (c : Dev nD) : sProp 𝕄 :=
  Pipeline.prefHeld (Ix := Unit) (Name := ℕ) (U := Pipeline.UD sig nD τ) (Lvl := ℕ) pre10 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec10 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec10 w)
  after w t := match w with
    | ⟨0, _⟩ => landed (V c main_arg5) (tbl V 0 (ValueIdx.ix1 (grid10.coords t 0)))
    | ⟨1, _⟩ => landed (V c main_arg5) (tbl V 1 (ValueIdx.ix1 (grid10.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg5) (tbl V 0 (ValueIdx.ix1 (grid10.coords t 0))) from rfl,
    show (dat0 V c).after 1 t = landed (V c main_arg5) (tbl V 1 (ValueIdx.ix1 (grid10.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid10.coords t) (ms0 V t) (hs0 V t) (ms1 V t) (hs1 V t) (tbl V 0) (tbl V 1) (V c main_arg5) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W10, bigSep_W10]
  exact sound_body V hok c t

end Cert.KernelIdeal.G10

end
-- ==== Proof.LossRunA.lean ====
import proofs.«404237_j24687472017957_2_alg».proof.Proof.Gen.KernelIdeal.Launch
import proofs.«404237_j24687472017957_2_alg».proof.Proof.Gen.KernelIdeal.Skeleton
import proofs.«404237_j24687472017957_2_alg».proof.Proof.Gen.KernelIdeal.Points
import proofs.«404237_j24687472017957_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.L11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Shared
variable (V : (c : Dev nD) → (b : Ref sig .tc) → Buf (Elt F) ((c : Thread nD τ).loc b))

def iblk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before0_of {c : Dev nD} (dat : Dat τ (Elt F) Unit ℕ (Pipeline.UD sig nD τ) ℕ cfg11 c) (hA : dat.A 0 = V c (Pipeline.arrRef spec11 0))
    (hafter : ∀ t, dat.after 0 t = iblk V c 0 t) (t : Fin cfg11.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (Pipeline.UD sig nD τ) ℕ cfg11 c) (hA : dat.A 1 = V c (Pipeline.arrRef spec11 1))
    (hafter : ∀ t, dat.after 1 t = iblk V c 1 t) (t : Fin cfg11.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (Pipeline.UD sig nD τ) ℕ cfg11 c) (hA : dat.A 2 = V c (Pipeline.arrRef spec11 2))
    (hafter : ∀ t, dat.after 2 t = iblk V c 2 t) (t : Fin cfg11.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (Pipeline.UD sig nD τ) ℕ cfg11 c) (hA : dat.A 3 = V c (Pipeline.arrRef spec11 3))
    (hafter : ∀ t, dat.after 3 t = iblk V c 3 t) (t : Fin cfg11.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Shared

abbrev cond (i : grid11.Coords) : Prop := (Scalar.cmpi .ne (Scalar.extui (Scalar.cmpi .eq (BitVec.ofNat 32 (i 0).val) 0#32)) 0#32) = 1#1

theorem hcond : ∀ t : Fin cfg11.N, cond (grid11.coords t) ↔ t.val = 0 :=
  (by decide +kernel : ∀ t : Fin grid11.N, cond (grid11.coords t) ↔ t.val = 0)

abbrev VO : View sig .tc .vmem S1x1 .f32 := (Memref.whole cc11_stg4_0 : Memref sig .tc .vmem S1x1 .f32).view

abbrev ms0 (t : Fin cfg11.N) : Memref sig .tc .vmem S1024x256 .f32 := win11_0.stage (cfg11.slots t 0)
abbrev hs0 (t : Fin cfg11.N) : (ms0 t).IsWhole := hstage11_0 ((cfg11.slots t 0).cast nbuf11_0)
abbrev ms1 (t : Fin cfg11.N) : Memref sig .tc .vmem S1024x256 .f32 := win11_1.stage (cfg11.slots t 1)
abbrev hs1 (t : Fin cfg11.N) : (ms1 t).IsWhole := hstage11_1 ((cfg11.slots t 1).cast nbuf11_1)
abbrev ms2 (t : Fin cfg11.N) : Memref sig .tc .vmem S1024x256 .f32 := win11_2.stage (cfg11.slots t 2)
abbrev hs2 (t : Fin cfg11.N) : (ms2 t).IsWhole := hstage11_2 ((cfg11.slots t 2).cast nbuf11_2)
abbrev ms3 (t : Fin cfg11.N) : Memref sig .tc .vmem S1024x256 .f32 := win11_3.stage (cfg11.slots t 3)
abbrev hs3 (t : Fin cfg11.N) : (ms3 t).IsWhole := hstage11_3 ((cfg11.slots t 3).cast nbuf11_3)
abbrev ms4 (t : Fin cfg11.N) : Memref sig .tc .vmem S1x1 .f32 := win11_4.stage (cfg11.slots t 4)
abbrev hs4 (t : Fin cfg11.N) : (ms4 t).IsWhole := hstage11_4 ((cfg11.slots t 4).cast nbuf11_4)

set_option maxHeartbeats 4000000 in

noncomputable def kernelRun_A (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc11__loss_kernel i arg1 harg1 arg2 harg2 arg3 harg3 arg4 harg4 arg5 harg5) K } := by
  refine ⟨?_, fun E K => ?run⟩
  case run =>
    simp only [cc11__loss_kernel_eq_skeleton]; unfold cc11__loss_kernel_skel
    simp only [k11_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.L11

end
-- ==== Proof.LossRunB.lean ====
import proofs.«404237_j24687472017957_2_alg».proof.Proof.LossRunA
import Idealize.ShloMosaic.Lib.Pipeline.FrameBody
import Idealize.ShloMosaic.Lib.Ring
import Idealize.ShloMosaic.Lib.Tactic

set_option maxRecDepth 16384

noncomputable section

namespace Cert.KernelIdeal.L11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in

noncomputable def kernelRun_B (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc11__loss_kernel i arg1 harg1 arg2 harg2 arg3 harg3 arg4 harg4 arg5 harg5) K } := by
  refine ⟨?_, fun E K => ?run⟩
  case run =>
    simp only [cc11__loss_kernel_eq_skeleton]; unfold cc11__loss_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.L11

end
-- ==== Proof.Loss.lean ====
import proofs.«404237_j24687472017957_2_alg».proof.Proof.LossRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.L11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem cover_A (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) (y : S1x1.Idx) :
    ∃ pc ∈ (kernelRun_A c i arg1 harg1 arg2 harg2 arg3 harg3 arg4 harg4 arg5 harg5 hc0 x0 x1 x2 x3).1, y ∈ pc.1.set :=
  View.cover_of_tiledL (kernelRun_A c i arg1 harg1 arg2 harg2 arg3 harg3 arg4 harg4 arg5 harg5 hc0 x0 x1 x2 x3).1 S1x1.size (by sl_kernel_rfl) y

def out_A (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) : Vec F S1x1 .f32 :=
  VO.read (Elt F) (VO.writes (Elt F) VO.junk (kernelRun_A c i arg1 harg1 arg2 harg2 arg3 harg3 arg4 harg4 arg5 harg5 hc0 x0 x1 x2 x3).1)

theorem cover_B (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) (y : S1x1.Idx) :
    ∃ pc ∈ (kernelRun_B c i arg1 harg1 arg2 harg2 arg3 harg3 arg4 harg4 arg5 harg5 hc0 x0 x1 x2 x3 xo).1, y ∈ pc.1.set :=
  View.cover_of_tiledL (kernelRun_B c i arg1 harg1 arg2 harg2 arg3 harg3 arg4 harg4 arg5 harg5 hc0 x0 x1 x2 x3 xo).1 S1x1.size (by sl_kernel_rfl) y

def out_B (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) : Vec F S1x1 .f32 :=
  VO.read (Elt F) (VO.writes (Elt F) VO.junk (kernelRun_B c i arg1 harg1 arg2 harg2 arg3 harg3 arg4 harg4 arg5 harg5 hc0 x0 x1 x2 x3 xo).1)

section Region
variable (V : (c : Dev nD) → (b : Ref sig .tc) → Buf (Elt F) ((c : Thread nD τ).loc b))

def outsAt (c : Dev nD) : (n : ℕ) → n < cfg11.N → Vec F S1x1 .f32
  | 0, hn => out_A c (grid11.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond ⟨0, hn⟩).mpr rfl) (iblk V c 0 ⟨0, hn⟩) (iblk V c 1 ⟨0, hn⟩) (iblk V c 2 ⟨0, hn⟩) (iblk V c 3 ⟨0, hn⟩)
  | n + 1, hn => out_B c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn))

theorem outsAt_A (c : Dev nD) (t : Fin cfg11.N) (h0 : t.val = 0) :
    outsAt V c t.val t.isLt = out_A c (grid11.coords t) (ms0 t) (hs0 t) (ms1 t) (hs1 t) (ms2 t) (hs2 t) (ms3 t) (hs3 t) (ms4 t) (hs4 t) ((hcond t).mpr h0) (iblk V c 0 t) (iblk V c 1 t) (iblk V c 2 t) (iblk V c 3 t) := by
  obtain ⟨n, hn⟩ := t
  cases n with
  | zero => exact rfl
  | succ n => exact absurd h0 (Nat.succ_ne_zero n)

theorem outsAt_B (c : Dev nD) (t : Fin cfg11.N) (h0 : ¬t.val = 0) :
    outsAt V c t.val t.isLt = out_B c (grid11.coords t) (ms0 t) (hs0 t) (ms1 t) (hs1 t) (ms2 t) (hs2 t) (ms3 t) (hs3 t) (ms4 t) (hs4 t) (fun h => h0 ((hcond t).mp h)) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact absurd rfl h0
  | succ n => exact rfl

def dat (c : Dev nD) : Dat τ (Elt F) Unit ℕ (Pipeline.UD sig nD τ) ℕ cfg11 c where
  A w := V c (Pipeline.arrRef spec11 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t.val t.isLt
  Φ _ := Pipeline.ΦA spec11 c
  q _ := fullShare
  owed _ := 0

theorem A_eq (c : Dev nD) (w : Fin cfg11.W) : (dat V c).A w = V c (Pipeline.arrRef spec11 w) := by
  dsimp only [dat]

theorem Phi_eq (c : Dev nD) (t) : (dat V c).Φ t = Pipeline.ΦA spec11 c := rfl

theorem after_0 (c : Dev nD) (t : Fin cfg11.N) : (dat V c).after 0 t = iblk V c 0 t := by dsimp only [dat]
theorem after_1 (c : Dev nD) (t : Fin cfg11.N) : (dat V c).after 1 t = iblk V c 1 t := by dsimp only [dat]
theorem after_2 (c : Dev nD) (t : Fin cfg11.N) : (dat V c).after 2 t = iblk V c 2 t := by dsimp only [dat]
theorem after_3 (c : Dev nD) (t : Fin cfg11.N) : (dat V c).after 3 t = iblk V c 3 t := by dsimp only [dat]
theorem after_4 (c : Dev nD) (t : Fin cfg11.N) : (dat V c).after 4 t = outsAt V c t.val t.isLt := by dsimp only [dat]

theorem before_0 (c : Dev nD) (t : Fin cfg11.N) (d) : (dat V c).before 0 t d = iblk V c 0 t :=
  before0_of V (dat V c) (A_eq V c 0) (after_0 V c) t d
theorem before_1 (c : Dev nD) (t : Fin cfg11.N) (d) : (dat V c).before 1 t d = iblk V c 1 t :=
  before1_of V (dat V c) (A_eq V c 1) (after_1 V c) t d
theorem before_2 (c : Dev nD) (t : Fin cfg11.N) (d) : (dat V c).before 2 t d = iblk V c 2 t :=
  before2_of V (dat V c) (A_eq V c 2) (after_2 V c) t d
theorem before_3 (c : Dev nD) (t : Fin cfg11.N) (d) : (dat V c).before 3 t d = iblk V c 3 t :=
  before3_of V (dat V c) (A_eq V c 3) (after_3 V c) t d

theorem before_4_B (c : Dev nD) (t : Fin cfg11.N) (h0 : ¬t.val = 0) (d) :
    (dat V c).before 4 t d = outsAt V c (t.val - 1) (Nat.lt_of_le_of_lt (Nat.sub_le _ _) t.isLt) := by
  have hN : t.val < 16 := lt_of_lt_of_eq t.isLt (show cfg11.N = 16 from N_11)
  rw [Dat.before_out_kept _ 4 rfl t h0 (Bool.eq_false_iff.mpr fun h => by have := (flush11_4 _).mp h; dsimp only at this; omega)
    (fun _ => rfl) (fun _ _ => rfl)]
  dsimp only [dat]

def bodyPre (c : Dev nD) (t : Fin cfg11.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg11.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in

theorem sound_body (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  by_cases h0 : t.val = 0
  · rw [outsAt_A V c t h0]
    unfold out_A
    iintro ⟨HΦ, Ho, ⟨%d0, H0⟩, ⟨%d1, H1⟩, ⟨%d2, H2⟩, ⟨%d3, H3⟩, ⟨%d4, H4⟩⟩
    iapply ((kernelRun_A c (grid11.coords t) _ _ _ _ _ _ _ _ _ _ ((hcond t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A c _ _ _ _ _ _ _ _ _ _ _ _ _ _ _ _)
  · rw [outsAt_B V c t h0]
    simp only [before_4_B V c t h0]
    unfold out_B
    iintro ⟨HΦ, Ho, ⟨%d0, H0⟩, ⟨%d1, H1⟩, ⟨%d2, H2⟩, ⟨%d3, H3⟩, ⟨%d4, H4⟩⟩
    iapply ((kernelRun_B c (grid11.coords t) _ _ _ _ _ _ _ _ _ _ (fun h => h0 ((hcond t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B c _ _ _ _ _ _ _ _ _ _ _ _ _ _ _ _ _)

theorem body_obligation (c : Dev nD) : BodyObligation (dat (F := F) V c) (defs₀ (F := F)) Variants.none () Set.univ := fun t => by
  rw [bigSep_W11, bigSep_W11]
  exact sound_body V c t

end Region

end Cert.KernelIdeal.L11

end
-- ==== Proof.Fam.lean ====
import proofs.«404237_j24687472017957_2_alg».proof.Proof.G0
import proofs.«404237_j24687472017957_2_alg».proof.Proof.G1
import proofs.«404237_j24687472017957_2_alg».proof.Proof.G2
import proofs.«404237_j24687472017957_2_alg».proof.Proof.G3
import proofs.«404237_j24687472017957_2_alg».proof.Proof.G4
import proofs.«404237_j24687472017957_2_alg».proof.Proof.G5
import proofs.«404237_j24687472017957_2_alg».proof.Proof.G6
import proofs.«404237_j24687472017957_2_alg».proof.Proof.G7
import proofs.«404237_j24687472017957_2_alg».proof.Proof.G8
import proofs.«404237_j24687472017957_2_alg».proof.Proof.G9
import proofs.«404237_j24687472017957_2_alg».proof.Proof.G10
import proofs.«404237_j24687472017957_2_alg».proof.Proof.Loss
import proofs.«404237_j24687472017957_2_alg».proof.Proof.Gen.KernelIdeal.Regions

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev vf (W : Dev nD → Valuation τ sig (Elt F)) : (c : Dev nD) → (b : Ref sig .tc) → Buf (Elt F) ((c : Thread nD τ).loc b) := fun c b => W c b

def W0 (c : Dev nD) : Valuation τ sig (Elt F) := fun b => m (c, b)

def W1 (c : Dev nD) : Valuation τ sig (Elt F) := StableHlo.after hostOps0 (W0 m c)

def W2 (c : Dev nD) : Valuation τ sig (Elt F) :=
  Pipeline.withArrays spec0 c (W1 m c) fun w => (G0.dat0 (vf (W1 m)) c).arrAt w (G0.cfgM (vf (W1 m))).N

def W3 (c : Dev nD) : Valuation τ sig (Elt F) := StableHlo.after hostOps1 (W2 m c)

def W4 (c : Dev nD) : Valuation τ sig (Elt F) :=
  Pipeline.withArrays spec1 c (W3 m c) fun w => (G1.dat0 (vf (W3 m)) c).arrAt w (G1.cfgM (vf (W3 m))).N

def W5 (c : Dev nD) : Valuation τ sig (Elt F) := StableHlo.after hostOps2 (W4 m c)

def W6 (c : Dev nD) : Valuation τ sig (Elt F) :=
  Pipeline.withArrays spec2 c (W5 m c) fun w => (G2.dat0 (vf (W5 m)) c).arrAt w (G2.cfgM (vf (W5 m))).N

def W7 (c : Dev nD) : Valuation τ sig (Elt F) := StableHlo.after hostOps3 (W6 m c)

def W8 (c : Dev nD) : Valuation τ sig (Elt F) :=
  Pipeline.withArrays spec3 c (W7 m c) fun w => (G3.dat0 (vf (W7 m)) c).arrAt w (G3.cfgM (vf (W7 m))).N

def W9 (c : Dev nD) : Valuation τ sig (Elt F) := StableHlo.after hostOps4 (W8 m c)

def W10 (c : Dev nD) : Valuation τ sig (Elt F) :=
  Pipeline.withArrays spec4 c (W9 m c) fun w => (G4.dat0 (vf (W9 m)) c).arrAt w (G4.cfgM (vf (W9 m))).N

def W11 (c : Dev nD) : Valuation τ sig (Elt F) := StableHlo.after hostOps5 (W10 m c)

def W12 (c : Dev nD) : Valuation τ sig (Elt F) :=
  Pipeline.withArrays spec5 c (W11 m c) fun w => (G5.dat0 (vf (W11 m)) c).arrAt w (G5.cfgM (vf (W11 m))).N

def W13 (c : Dev nD) : Valuation τ sig (Elt F) := StableHlo.after hostOps6 (W12 m c)

def W14 (c : Dev nD) : Valuation τ sig (Elt F) :=
  Pipeline.withArrays spec6 c (W13 m c) fun w => (G6.dat0 (vf (W13 m)) c).arrAt w (G6.cfgM (vf (W13 m))).N

def W15 (c : Dev nD) : Valuation τ sig (Elt F) := StableHlo.after hostOps7 (W14 m c)

def W16 (c : Dev nD) : Valuation τ sig (Elt F) :=
  Pipeline.withArrays spec7 c (W15 m c) fun w => (G7.dat0 (vf (W15 m)) c).arrAt w (G7.cfgM (vf (W15 m))).N

def W17 (c : Dev nD) : Valuation τ sig (Elt F) := StableHlo.after hostOps8 (W16 m c)

def W18 (c : Dev nD) : Valuation τ sig (Elt F) :=
  Pipeline.withArrays spec8 c (W17 m c) fun w => (G8.dat0 (vf (W17 m)) c).arrAt w (G8.cfgM (vf (W17 m))).N

def W19 (c : Dev nD) : Valuation τ sig (Elt F) := StableHlo.after hostOps9 (W18 m c)

def W20 (c : Dev nD) : Valuation τ sig (Elt F) :=
  Pipeline.withArrays spec9 c (W19 m c) fun w => (G9.dat0 (vf (W19 m)) c).arrAt w (G9.cfgM (vf (W19 m))).N

def W21 (c : Dev nD) : Valuation τ sig (Elt F) := StableHlo.after hostOps10 (W20 m c)

def W22 (c : Dev nD) : Valuation τ sig (Elt F) :=
  Pipeline.withArrays spec10 c (W21 m c) fun w => (G10.dat0 (vf (W21 m)) c).arrAt w (G10.cfgM (vf (W21 m))).N

def W23 (c : Dev nD) : Valuation τ sig (Elt F) := StableHlo.after hostOps11 (W22 m c)

def W24 (c : Dev nD) : Valuation τ sig (Elt F) :=
  Pipeline.withArrays spec11 c (W23 m c) fun w => (L11.dat (vf (W23 m)) c).arrAt w cfg11.N

def W25 (c : Dev nD) : Valuation τ sig (Elt F) := StableHlo.after hostOps12 (W24 m c)

def adm : (p : Fin 12) → (pcfgs (F := F) p).Adm
  | ⟨0, _⟩ => G0.adm (vf (W1 m))
  | ⟨1, _⟩ => G1.adm (vf (W3 m))
  | ⟨2, _⟩ => G2.adm (vf (W5 m))
  | ⟨3, _⟩ => G3.adm (vf (W7 m))
  | ⟨4, _⟩ => G4.adm (vf (W9 m))
  | ⟨5, _⟩ => G5.adm (vf (W11 m))
  | ⟨6, _⟩ => G6.adm (vf (W13 m))
  | ⟨7, _⟩ => G7.adm (vf (W15 m))
  | ⟨8, _⟩ => G8.adm (vf (W17 m))
  | ⟨9, _⟩ => G9.adm (vf (W19 m))
  | ⟨10, _⟩ => G10.adm (vf (W21 m))
  | ⟨11, _⟩ => cfg11.toPCfg_adm

def pdats : (p : Fin 12) → (c : Dev nD) → Dat τ (Elt F) Unit ℕ (Pipeline.UD sig nD τ) ℕ (Pipeline.pin (pcfgs (F := F)) (adm m) p) c
  | ⟨0, _⟩ => fun c => G0.dat0 (vf (W1 m)) c
  | ⟨1, _⟩ => fun c => G1.dat0 (vf (W3 m)) c
  | ⟨2, _⟩ => fun c => G2.dat0 (vf (W5 m)) c
  | ⟨3, _⟩ => fun c => G3.dat0 (vf (W7 m)) c
  | ⟨4, _⟩ => fun c => G4.dat0 (vf (W9 m)) c
  | ⟨5, _⟩ => fun c => G5.dat0 (vf (W11 m)) c
  | ⟨6, _⟩ => fun c => G6.dat0 (vf (W13 m)) c
  | ⟨7, _⟩ => fun c => G7.dat0 (vf (W15 m)) c
  | ⟨8, _⟩ => fun c => G8.dat0 (vf (W17 m)) c
  | ⟨9, _⟩ => fun c => G9.dat0 (vf (W19 m)) c
  | ⟨10, _⟩ => fun c => G10.dat0 (vf (W21 m)) c
  | ⟨11, _⟩ => fun c => L11.dat (vf (W23 m)) c

abbrev 𝒱₀ : Variants := Variants.none
abbrev L : GSem nD τ sig → Finset Unit := fun _ => ∅
abbrev lv : GSem nD τ sig → Unit → ℕ := fun _ _ => 0

local notation "𝕄" => MT nD τ sig Unit (Elt F) ℕ (Pipeline.UD sig nD τ) ℕ

abbrev R (c : Dev nD) : sProp 𝕄 := iprop((∃ r, prngReg c r) ∗ ∃ W, owes (c : Thread nD τ) (0 : CellTallies nD τ sig Unit) W)

end Cert.KernelIdeal.Asm

end
-- ==== Proof.FamOf.lean ====
import proofs.«404237_j24687472017957_2_alg».proof.Proof.Fam

set_option maxRecDepth 16384

noncomputable section

namespace Cert.KernelIdeal.Asm

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W2_arr (c : Dev nD) (w : Fin 2) :
    W2 m c (Proc.devRef .tc (Pipeline.arrRef spec0 w)) = (G0.dat0 (vf (W1 m)) c).arrAt w (G0.cfgM (vf (W1 m))).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_of (c : Dev nD) (r : Ref sig .tc) (h : r ∉ hostOps1_W) : W3 m c r = W2 m c r :=
  StableHlo.after_of_writes_sub hostOps1 _ hostOps1_writes h
theorem W4_arr (c : Dev nD) (w : Fin 2) :
    W4 m c (Proc.devRef .tc (Pipeline.arrRef spec1 w)) = (G1.dat0 (vf (W3 m)) c).arrAt w (G1.cfgM (vf (W3 m))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_of (c : Dev nD) (r : Ref sig .tc) (h : r ∉ hostOps2_W) : W5 m c r = W4 m c r :=
  StableHlo.after_of_writes_sub hostOps2 _ hostOps2_writes h
theorem W6_arr (c : Dev nD) (w : Fin 2) :
    W6 m c (Proc.devRef .tc (Pipeline.arrRef spec2 w)) = (G2.dat0 (vf (W5 m)) c).arrAt w (G2.cfgM (vf (W5 m))).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W7_of (c : Dev nD) (r : Ref sig .tc) (h : r ∉ hostOps3_W) : W7 m c r = W6 m c r :=
  StableHlo.after_of_writes_sub hostOps3 _ hostOps3_writes h
theorem W8_arr (c : Dev nD) (w : Fin 2) :
    W8 m c (Proc.devRef .tc (Pipeline.arrRef spec3 w)) = (G3.dat0 (vf (W7 m)) c).arrAt w (G3.cfgM (vf (W7 m))).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W9_of (c : Dev nD) (r : Ref sig .tc) (h : r ∉ hostOps4_W) : W9 m c r = W8 m c r :=
  StableHlo.after_of_writes_sub hostOps4 _ hostOps4_writes h
theorem W10_arr (c : Dev nD) (w : Fin 2) :
    W10 m c (Proc.devRef .tc (Pipeline.arrRef spec4 w)) = (G4.dat0 (vf (W9 m)) c).arrAt w (G4.cfgM (vf (W9 m))).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem W11_of (c : Dev nD) (r : Ref sig .tc) (h : r ∉ hostOps5_W) : W11 m c r = W10 m c r :=
  StableHlo.after_of_writes_sub hostOps5 _ hostOps5_writes h
theorem W12_arr (c : Dev nD) (w : Fin 2) :
    W12 m c (Proc.devRef .tc (Pipeline.arrRef spec5 w)) = (G5.dat0 (vf (W11 m)) c).arrAt w (G5.cfgM (vf (W11 m))).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem W13_of (c : Dev nD) (r : Ref sig .tc) (h : r ∉ hostOps6_W) : W13 m c r = W12 m c r :=
  StableHlo.after_of_writes_sub hostOps6 _ hostOps6_writes h
theorem W14_arr (c : Dev nD) (w : Fin 2) :
    W14 m c (Proc.devRef .tc (Pipeline.arrRef spec6 w)) = (G6.dat0 (vf (W13 m)) c).arrAt w (G6.cfgM (vf (W13 m))).N := by
  unfold W14; exact Pipeline.withArrays_arr spec6 (launch6 (F := F)).win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
theorem W15_of (c : Dev nD) (r : Ref sig .tc) (h : r ∉ hostOps7_W) : W15 m c r = W14 m c r :=
  StableHlo.after_of_writes_sub hostOps7 _ hostOps7_writes h
theorem W16_arr (c : Dev nD) (w : Fin 2) :
    W16 m c (Proc.devRef .tc (Pipeline.arrRef spec7 w)) = (G7.dat0 (vf (W15 m)) c).arrAt w (G7.cfgM (vf (W15 m))).N := by
  unfold W16; exact Pipeline.withArrays_arr spec7 (launch7 (F := F)).win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
theorem W17_of (c : Dev nD) (r : Ref sig .tc) (h : r ∉ hostOps8_W) : W17 m c r = W16 m c r :=
  StableHlo.after_of_writes_sub hostOps8 _ hostOps8_writes h
theorem W18_arr (c : Dev nD) (w : Fin 2) :
    W18 m c (Proc.devRef .tc (Pipeline.arrRef spec8 w)) = (G8.dat0 (vf (W17 m)) c).arrAt w (G8.cfgM (vf (W17 m))).N := by
  unfold W18; exact Pipeline.withArrays_arr spec8 (launch8 (F := F)).win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
theorem W19_of (c : Dev nD) (r : Ref sig .tc) (h : r ∉ hostOps9_W) : W19 m c r = W18 m c r :=
  StableHlo.after_of_writes_sub hostOps9 _ hostOps9_writes h
theorem W20_arr (c : Dev nD) (w : Fin 2) :
    W20 m c (Proc.devRef .tc (Pipeline.arrRef spec9 w)) = (G9.dat0 (vf (W19 m)) c).arrAt w (G9.cfgM (vf (W19 m))).N := by
  unfold W20; exact Pipeline.withArrays_arr spec9 (launch9 (F := F)).win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
theorem W21_of (c : Dev nD) (r : Ref sig .tc) (h : r ∉ hostOps10_W) : W21 m c r = W20 m c r :=
  StableHlo.after_of_writes_sub hostOps10 _ hostOps10_writes h
theorem W22_arr (c : Dev nD) (w : Fin 2) :
    W22 m c (Proc.devRef .tc (Pipeline.arrRef spec10 w)) = (G10.dat0 (vf (W21 m)) c).arrAt w (G10.cfgM (vf (W21 m))).N := by
  unfold W22; exact Pipeline.withArrays_arr spec10 (launch10 (F := F)).win.arr_inj c _ _ w
theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb
theorem W23_of (c : Dev nD) (r : Ref sig .tc) (h : r ∉ hostOps11_W) : W23 m c r = W22 m c r :=
  StableHlo.after_of_writes_sub hostOps11 _ hostOps11_writes h
theorem W24_arr (c : Dev nD) (w : Fin 5) :
    W24 m c (Proc.devRef .tc (Pipeline.arrRef spec11 w)) = (L11.dat (vf (W23 m)) c).arrAt w cfg11.N := by
  unfold W24; exact Pipeline.withArrays_arr spec11 (launch11 (F := F)).win.arr_inj c _ _ w
theorem W24_of_ne (c : Dev nD) (b : Ref sig .tc) (hb : ∀ w, Pipeline.arrRef spec11 w ≠ b) :
    W24 m c (Proc.devRef .tc b) = W23 m c (Proc.devRef .tc b) := by
  unfold W24; exact Pipeline.withArrays_of_ne spec11 c _ _ b hb
theorem W25_of (c : Dev nD) (r : Ref sig .tc) (h : r ∉ hostOps12_W) : W25 m c r = W24 m c r :=
  StableHlo.after_of_writes_sub hostOps12 _ hostOps12_writes h

/-- A buffer that no stretch of host operations writes and that is no kernel region's array. -/
def Kept (r : Ref sig .tc) : Prop :=
  r ∉ hostOps0_W ∧ (∀ w, Pipeline.arrRef spec0 w ≠ r) ∧ r ∉ hostOps1_W ∧ (∀ w, Pipeline.arrRef spec1 w ≠ r) ∧ r ∉ hostOps2_W ∧ (∀ w, Pipeline.arrRef spec2 w ≠ r) ∧ r ∉ hostOps3_W ∧ (∀ w, Pipeline.arrRef spec3 w ≠ r) ∧ r ∉ hostOps4_W ∧ (∀ w, Pipeline.arrRef spec4 w ≠ r) ∧ r ∉ hostOps5_W ∧ (∀ w, Pipeline.arrRef spec5 w ≠ r) ∧ r ∉ hostOps6_W ∧ (∀ w, Pipeline.arrRef spec6 w ≠ r) ∧ r ∉ hostOps7_W ∧ (∀ w, Pipeline.arrRef spec7 w ≠ r) ∧ r ∉ hostOps8_W ∧ (∀ w, Pipeline.arrRef spec8 w ≠ r) ∧ r ∉ hostOps9_W ∧ (∀ w, Pipeline.arrRef spec9 w ≠ r) ∧ r ∉ hostOps10_W ∧ (∀ w, Pipeline.arrRef spec10 w ≠ r) ∧ r ∉ hostOps11_W ∧ (∀ w, Pipeline.arrRef spec11 w ≠ r) ∧ r ∉ hostOps12_W

instance (r : Ref sig .tc) : Decidable (Kept r) := by unfold Kept; infer_instance

theorem kept_arg0 : Kept main_arg0 := by decide
theorem kept_arg1 : Kept main_arg1 := by decide
theorem kept_arg2 : Kept main_arg2 := by decide
theorem kept_arg3 : Kept main_arg3 := by decide
theorem kept_arg4 : Kept main_arg4 := by decide
theorem kept_arg5 : Kept main_arg5 := by decide

/-- Such a buffer holds its launch contents at every boundary: each item leaves it as it found it. -/
theorem W0_kept (c : Dev nD) (r : Ref sig .tc) : W0 m c r = m ((c : Thread nD τ).loc r) := rfl
theorem W1_kept (c : Dev nD) (r : Ref sig .tc) (h : Kept r) : W1 m c r = m ((c : Thread nD τ).loc r) := (W1_of m c r h.1).trans (W0_kept m c r)
theorem W2_kept (c : Dev nD) (r : Ref sig .tc) (h : Kept r) : W2 m c r = m ((c : Thread nD τ).loc r) := (W2_of_ne m c r h.2.1).trans (W1_kept m c r h)
theorem W3_kept (c : Dev nD) (r : Ref sig .tc) (h : Kept r) : W3 m c r = m ((c : Thread nD τ).loc r) := (W3_of m c r h.2.2.1).trans (W2_kept m c r h)
theorem W4_kept (c : Dev nD) (r : Ref sig .tc) (h : Kept r) : W4 m c r = m ((c : Thread nD τ).loc r) := (W4_of_ne m c r h.2.2.2.1).trans (W3_kept m c r h)
theorem W5_kept (c : Dev nD) (r : Ref sig .tc) (h : Kept r) : W5 m c r = m ((c : Thread nD τ).loc r) := (W5_of m c r h.2.2.2.2.1).trans (W4_kept m c r h)
theorem W6_kept (c : Dev nD) (r : Ref sig .tc) (h : Kept r) : W6 m c r = m ((c : Thread nD τ).loc r) := (W6_of_ne m c r h.2.2.2.2.2.1).trans (W5_kept m c r h)
theorem W7_kept (c : Dev nD) (r : Ref sig .tc) (h : Kept r) : W7 m c r = m ((c : Thread nD τ).loc r) := (W7_of m c r h.2.2.2.2.2.2.1).trans (W6_kept m c r h)
theorem W8_kept (c : Dev nD) (r : Ref sig .tc) (h : Kept r) : W8 m c r = m ((c : Thread nD τ).loc r) := (W8_of_ne m c r h.2.2.2.2.2.2.2.1).trans (W7_kept m c r h)
theorem W9_kept (c : Dev nD) (r : Ref sig .tc) (h : Kept r) : W9 m c r = m ((c : Thread nD τ).loc r) := (W9_of m c r h.2.2.2.2.2.2.2.2.1).trans (W8_kept m c r h)
theorem W10_kept (c : Dev nD) (r : Ref sig .tc) (h : Kept r) : W10 m c r = m ((c : Thread nD τ).loc r) := (W10_of_ne m c r h.2.2.2.2.2.2.2.2.2.1).trans (W9_kept m c r h)
theorem W11_kept (c : Dev nD) (r : Ref sig .tc) (h : Kept r) : W11 m c r = m ((c : Thread nD τ).loc r) := (W11_of m c r h.2.2.2.2.2.2.2.2.2.2.1).trans (W10_kept m c r h)
theorem W12_kept (c : Dev nD) (r : Ref sig .tc) (h : Kept r) : W12 m c r = m ((c : Thread nD τ).loc r) := (W12_of_ne m c r h.2.2.2.2.2.2.2.2.2.2.2.1).trans (W11_kept m c r h)
theorem W13_kept (c : Dev nD) (r : Ref sig .tc) (h : Kept r) : W13 m c r = m ((c : Thread nD τ).loc r) := (W13_of m c r h.2.2.2.2.2.2.2.2.2.2.2.2.1).trans (W12_kept m c r h)
theorem W14_kept (c : Dev nD) (r : Ref sig .tc) (h : Kept r) : W14 m c r = m ((c : Thread nD τ).loc r) := (W14_of_ne m c r h.2.2.2.2.2.2.2.2.2.2.2.2.2.1).trans (W13_kept m c r h)
theorem W15_kept (c : Dev nD) (r : Ref sig .tc) (h : Kept r) : W15 m c r = m ((c : Thread nD τ).loc r) := (W15_of m c r h.2.2.2.2.2.2.2.2.2.2.2.2.2.2.1).trans (W14_kept m c r h)
theorem W16_kept (c : Dev nD) (r : Ref sig .tc) (h : Kept r) : W16 m c r = m ((c : Thread nD τ).loc r) := (W16_of_ne m c r h.2.2.2.2.2.2.2.2.2.2.2.2.2.2.2.1).trans (W15_kept m c r h)
theorem W17_kept (c : Dev nD) (r : Ref sig .tc) (h : Kept r) : W17 m c r = m ((c : Thread nD τ).loc r) := (W17_of m c r h.2.2.2.2.2.2.2.2.2.2.2.2.2.2.2.2.1).trans (W16_kept m c r h)
theorem W18_kept (c : Dev nD) (r : Ref sig .tc) (h : Kept r) : W18 m c r = m ((c : Thread nD τ).loc r) := (W18_of_ne m c r h.2.2.2.2.2.2.2.2.2.2.2.2.2.2.2.2.2.1).trans (W17_kept m c r h)
theorem W19_kept (c : Dev nD) (r : Ref sig .tc) (h : Kept r) : W19 m c r = m ((c : Thread nD τ).loc r) := (W19_of m c r h.2.2.2.2.2.2.2.2.2.2.2.2.2.2.2.2.2.2.1).trans (W18_kept m c r h)
theorem W20_kept (c : Dev nD) (r : Ref sig .tc) (h : Kept r) : W20 m c r = m ((c : Thread nD τ).loc r) := (W20_of_ne m c r h.2.2.2.2.2.2.2.2.2.2.2.2.2.2.2.2.2.2.2.1).trans (W19_kept m c r h)
theorem W21_kept (c : Dev nD) (r : Ref sig .tc) (h : Kept r) : W21 m c r = m ((c : Thread nD τ).loc r) := (W21_of m c r h.2.2.2.2.2.2.2.2.2.2.2.2.2.2.2.2.2.2.2.2.1).trans (W20_kept m c r h)
theorem W22_kept (c : Dev nD) (r : Ref sig .tc) (h : Kept r) : W22 m c r = m ((c : Thread nD τ).loc r) := (W22_of_ne m c r h.2.2.2.2.2.2.2.2.2.2.2.2.2.2.2.2.2.2.2.2.2.1).trans (W21_kept m c r h)
theorem W23_kept (c : Dev nD) (r : Ref sig .tc) (h : Kept r) : W23 m c r = m ((c : Thread nD τ).loc r) := (W23_of m c r h.2.2.2.2.2.2.2.2.2.2.2.2.2.2.2.2.2.2.2.2.2.2.1).trans (W22_kept m c r h)
theorem W24_kept (c : Dev nD) (r : Ref sig .tc) (h : Kept r) : W24 m c r = m ((c : Thread nD τ).loc r) := (W24_of_ne m c r h.2.2.2.2.2.2.2.2.2.2.2.2.2.2.2.2.2.2.2.2.2.2.2.1).trans (W23_kept m c r h)
theorem W25_kept (c : Dev nD) (r : Ref sig .tc) (h : Kept r) : W25 m c r = m ((c : Thread nD τ).loc r) := (W25_of m c r h.2.2.2.2.2.2.2.2.2.2.2.2.2.2.2.2.2.2.2.2.2.2.2.2).trans (W24_kept m c r h)

end Cert.KernelIdeal.Asm

end
-- ==== Proof.G0Ent.lean ====
import proofs.«404237_j24687472017957_2_alg».proof.Proof.G0

set_option maxRecDepth 16384

noncomputable section

namespace Cert.KernelIdeal.G0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v3, main_v5}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v3, main_v5] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec0 c (V c)
abbrev scopedR (c : Dev nD) : sProp 𝕄 :=
  Pipeline.scopedRest (Ix := Unit) (Name := ℕ) (U := Pipeline.UD sig nD τ) (Lvl := ℕ) (Val := Elt F) spec0 c

/-- Past the region: every other unscoped buffer. -/
def Z (c : Dev nD) : sProp 𝕄 :=
  bigSep (Pipeline.restRefs sig spec0 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G0

end
-- ==== Proof.Reg0.lean ====
import proofs.«404237_j24687472017957_2_alg».proof.Proof.FamOf
import proofs.«404237_j24687472017957_2_alg».proof.Proof.G0Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W1 and left at W2: its two output arrays are
    split out of the unscoped buffers and put back at what the proof data computes; the three tables go through the
    invariant and come back unchanged; everything else goes past the region. -/
def reg0 (hok : G0.TblOk (vf (W1 m))) : Pipeline.RegionSeg (pcfgs (F := F)) (adm m) (pdats m) () defs₀ 𝒱₀ L lv (0 : Fin 12) where
  win := (launch0 (F := F)).win.to₀
  block_pos := (launch0 (F := F)).block_pos
  stage_whole := (launch0 (F := F)).stage_whole
  K := Fin 2
  osem := G0.osem0
  ho := G0.ownSemFacts0
  hbody c := (G0.body_obligation (vf (W1 m)) hok c).loose
  hwaits := Pipeline.hwaits_of_owed_zero _ _ _ _ L lv (0 : Fin 12) fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := G0.X (vf (W1 m)) c
  Y c := G0.Y (vf (W1 m)) c
  Z c := G0.Z (vf (W1 m)) c
  hentry c := by
    have hsplit := Pipeline.arrays_of_unscopedBufs (p := 0) (pcfgs (F := F)) (adm m) (pdats m) (launch0 (F := F)).win (launch0 (F := F)).arr_whole c
      ((pdats m (0 : Fin 12) c).share_full fun _ => rfl) (vf (W1 m) c) fun _ => rfl
    rw [Pipeline.unscopedBufs_held] at hsplit
    iintro ⟨⟨Hub, Hp, HO⟩, Hos, -⟩
    ihave H := hsplit $$ Hub
    icases H with ⟨Ha, Hrest⟩
    ihave H' := (G0.entry_rest (vf (W1 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G0.hin (vf (W1 m)) c
  hout c := G0.hout (vf (W1 m)) c
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m (0 : Fin 12) c).share_full fun _ => rfl)
      (vf (W1 m) c) (vf (W2 m) c) ((pdats m (0 : Fin 12) c).arrAt · (G0.cfgM (vf (W1 m))).N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, HZ⟩
    ihave Hr := (G0.exit_rest (vf (W1 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G1Ent.lean ====
import proofs.«404237_j24687472017957_2_alg».proof.Proof.G1

set_option maxRecDepth 16384

noncomputable section

namespace Cert.KernelIdeal.G1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v12, main_v14}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v12, main_v14] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec1 c (V c)
abbrev scopedR (c : Dev nD) : sProp 𝕄 :=
  Pipeline.scopedRest (Ix := Unit) (Name := ℕ) (U := Pipeline.UD sig nD τ) (Lvl := ℕ) (Val := Elt F) spec1 c

/-- Past the region: every other unscoped buffer. -/
def Z (c : Dev nD) : sProp 𝕄 :=
  bigSep (Pipeline.restRefs sig spec1 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G1

end
-- ==== Proof.Reg1.lean ====
import proofs.«404237_j24687472017957_2_alg».proof.Proof.FamOf
import proofs.«404237_j24687472017957_2_alg».proof.Proof.G1Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W3 and left at W4: its two output arrays are
    split out of the unscoped buffers and put back at what the proof data computes; the three tables go through the
    invariant and come back unchanged; everything else goes past the region. -/
def reg1 (hok : G1.TblOk (vf (W3 m))) : Pipeline.RegionSeg (pcfgs (F := F)) (adm m) (pdats m) () defs₀ 𝒱₀ L lv (1 : Fin 12) where
  win := (launch1 (F := F)).win.to₀
  block_pos := (launch1 (F := F)).block_pos
  stage_whole := (launch1 (F := F)).stage_whole
  K := Fin 2
  osem := G1.osem0
  ho := G1.ownSemFacts0
  hbody c := (G1.body_obligation (vf (W3 m)) hok c).loose
  hwaits := Pipeline.hwaits_of_owed_zero _ _ _ _ L lv (1 : Fin 12) fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := G1.X (vf (W3 m)) c
  Y c := G1.Y (vf (W3 m)) c
  Z c := G1.Z (vf (W3 m)) c
  hentry c := by
    have hsplit := Pipeline.arrays_of_unscopedBufs (p := 1) (pcfgs (F := F)) (adm m) (pdats m) (launch1 (F := F)).win (launch1 (F := F)).arr_whole c
      ((pdats m (1 : Fin 12) c).share_full fun _ => rfl) (vf (W3 m) c) fun _ => rfl
    rw [Pipeline.unscopedBufs_held] at hsplit
    iintro ⟨⟨Hub, Hp, HO⟩, Hos, -⟩
    ihave H := hsplit $$ Hub
    icases H with ⟨Ha, Hrest⟩
    ihave H' := (G1.entry_rest (vf (W3 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G1.hin (vf (W3 m)) c
  hout c := G1.hout (vf (W3 m)) c
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m (1 : Fin 12) c).share_full fun _ => rfl)
      (vf (W3 m) c) (vf (W4 m) c) ((pdats m (1 : Fin 12) c).arrAt · (G1.cfgM (vf (W3 m))).N) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, HZ⟩
    ihave Hr := (G1.exit_rest (vf (W3 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G2Ent.lean ====
import proofs.«404237_j24687472017957_2_alg».proof.Proof.G2

set_option maxRecDepth 16384

noncomputable section

namespace Cert.KernelIdeal.G2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v21, main_v23}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v21, main_v23] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec2 c (V c)
abbrev scopedR (c : Dev nD) : sProp 𝕄 :=
  Pipeline.scopedRest (Ix := Unit) (Name := ℕ) (U := Pipeline.UD sig nD τ) (Lvl := ℕ) (Val := Elt F) spec2 c

/-- Past the region: every other unscoped buffer. -/
def Z (c : Dev nD) : sProp 𝕄 :=
  bigSep (Pipeline.restRefs sig spec2 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G2

end
-- ==== Proof.Reg2.lean ====
import proofs.«404237_j24687472017957_2_alg».proof.Proof.FamOf
import proofs.«404237_j24687472017957_2_alg».proof.Proof.G2Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W5 and left at W6: its two output arrays are
    split out of the unscoped buffers and put back at what the proof data computes; the three tables go through the
    invariant and come back unchanged; everything else goes past the region. -/
def reg2 (hok : G2.TblOk (vf (W5 m))) : Pipeline.RegionSeg (pcfgs (F := F)) (adm m) (pdats m) () defs₀ 𝒱₀ L lv (2 : Fin 12) where
  win := (launch2 (F := F)).win.to₀
  block_pos := (launch2 (F := F)).block_pos
  stage_whole := (launch2 (F := F)).stage_whole
  K := Fin 2
  osem := G2.osem0
  ho := G2.ownSemFacts0
  hbody c := (G2.body_obligation (vf (W5 m)) hok c).loose
  hwaits := Pipeline.hwaits_of_owed_zero _ _ _ _ L lv (2 : Fin 12) fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := G2.X (vf (W5 m)) c
  Y c := G2.Y (vf (W5 m)) c
  Z c := G2.Z (vf (W5 m)) c
  hentry c := by
    have hsplit := Pipeline.arrays_of_unscopedBufs (p := 2) (pcfgs (F := F)) (adm m) (pdats m) (launch2 (F := F)).win (launch2 (F := F)).arr_whole c
      ((pdats m (2 : Fin 12) c).share_full fun _ => rfl) (vf (W5 m) c) fun _ => rfl
    rw [Pipeline.unscopedBufs_held] at hsplit
    iintro ⟨⟨Hub, Hp, HO⟩, Hos, -⟩
    ihave H := hsplit $$ Hub
    icases H with ⟨Ha, Hrest⟩
    ihave H' := (G2.entry_rest (vf (W5 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G2.hin (vf (W5 m)) c
  hout c := G2.hout (vf (W5 m)) c
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m) ((pdats m (2 : Fin 12) c).share_full fun _ => rfl)
      (vf (W5 m) c) (vf (W6 m) c) ((pdats m (2 : Fin 12) c).arrAt · (G2.cfgM (vf (W5 m))).N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, HZ⟩
    ihave Hr := (G2.exit_rest (vf (W5 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G3Ent.lean ====
import proofs.«404237_j24687472017957_2_alg».proof.Proof.G3

set_option maxRecDepth 16384

noncomputable section

namespace Cert.KernelIdeal.G3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v30, main_v32}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v30, main_v32] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec3 c (V c)
abbrev scopedR (c : Dev nD) : sProp 𝕄 :=
  Pipeline.scopedRest (Ix := Unit) (Name := ℕ) (U := Pipeline.UD sig nD τ) (Lvl := ℕ) (Val := Elt F) spec3 c

/-- Past the region: every other unscoped buffer. -/
def Z (c : Dev nD) : sProp 𝕄 :=
  bigSep (Pipeline.restRefs sig spec3 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G3

end
-- ==== Proof.Reg3.lean ====
import proofs.«404237_j24687472017957_2_alg».proof.Proof.FamOf
import proofs.«404237_j24687472017957_2_alg».proof.Proof.G3Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W7 and left at W8: its two output arrays are
    split out of the unscoped buffers and put back at what the proof data computes; the three tables go through the
    invariant and come back unchanged; everything else goes past the region. -/
def reg3 (hok : G3.TblOk (vf (W7 m))) : Pipeline.RegionSeg (pcfgs (F := F)) (adm m) (pdats m) () defs₀ 𝒱₀ L lv (3 : Fin 12) where
  win := (launch3 (F := F)).win.to₀
  block_pos := (launch3 (F := F)).block_pos
  stage_whole := (launch3 (F := F)).stage_whole
  K := Fin 2
  osem := G3.osem0
  ho := G3.ownSemFacts0
  hbody c := (G3.body_obligation (vf (W7 m)) hok c).loose
  hwaits := Pipeline.hwaits_of_owed_zero _ _ _ _ L lv (3 : Fin 12) fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := G3.X (vf (W7 m)) c
  Y c := G3.Y (vf (W7 m)) c
  Z c := G3.Z (vf (W7 m)) c
  hentry c := by
    have hsplit := Pipeline.arrays_of_unscopedBufs (p := 3) (pcfgs (F := F)) (adm m) (pdats m) (launch3 (F := F)).win (launch3 (F := F)).arr_whole c
      ((pdats m (3 : Fin 12) c).share_full fun _ => rfl) (vf (W7 m) c) fun _ => rfl
    rw [Pipeline.unscopedBufs_held] at hsplit
    iintro ⟨⟨Hub, Hp, HO⟩, Hos, -⟩
    ihave H := hsplit $$ Hub
    icases H with ⟨Ha, Hrest⟩
    ihave H' := (G3.entry_rest (vf (W7 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G3.hin (vf (W7 m)) c
  hout c := G3.hout (vf (W7 m)) c
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m) ((pdats m (3 : Fin 12) c).share_full fun _ => rfl)
      (vf (W7 m) c) (vf (W8 m) c) ((pdats m (3 : Fin 12) c).arrAt · (G3.cfgM (vf (W7 m))).N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, HZ⟩
    ihave Hr := (G3.exit_rest (vf (W7 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G4Ent.lean ====
import proofs.«404237_j24687472017957_2_alg».proof.Proof.G4

set_option maxRecDepth 16384

noncomputable section

namespace Cert.KernelIdeal.G4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v39, main_v41}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v39, main_v41] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec4 c (V c)
abbrev scopedR (c : Dev nD) : sProp 𝕄 :=
  Pipeline.scopedRest (Ix := Unit) (Name := ℕ) (U := Pipeline.UD sig nD τ) (Lvl := ℕ) (Val := Elt F) spec4 c

/-- Past the region: every other unscoped buffer. -/
def Z (c : Dev nD) : sProp 𝕄 :=
  bigSep (Pipeline.restRefs sig spec4 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G4

end
-- ==== Proof.Reg4.lean ====
import proofs.«404237_j24687472017957_2_alg».proof.Proof.FamOf
import proofs.«404237_j24687472017957_2_alg».proof.Proof.G4Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W9 and left at W10: its two output arrays are
    split out of the unscoped buffers and put back at what the proof data computes; the three tables go through the
    invariant and come back unchanged; everything else goes past the region. -/
def reg4 (hok : G4.TblOk (vf (W9 m))) : Pipeline.RegionSeg (pcfgs (F := F)) (adm m) (pdats m) () defs₀ 𝒱₀ L lv (4 : Fin 12) where
  win := (launch4 (F := F)).win.to₀
  block_pos := (launch4 (F := F)).block_pos
  stage_whole := (launch4 (F := F)).stage_whole
  K := Fin 2
  osem := G4.osem0
  ho := G4.ownSemFacts0
  hbody c := (G4.body_obligation (vf (W9 m)) hok c).loose
  hwaits := Pipeline.hwaits_of_owed_zero _ _ _ _ L lv (4 : Fin 12) fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := G4.X (vf (W9 m)) c
  Y c := G4.Y (vf (W9 m)) c
  Z c := G4.Z (vf (W9 m)) c
  hentry c := by
    have hsplit := Pipeline.arrays_of_unscopedBufs (p := 4) (pcfgs (F := F)) (adm m) (pdats m) (launch4 (F := F)).win (launch4 (F := F)).arr_whole c
      ((pdats m (4 : Fin 12) c).share_full fun _ => rfl) (vf (W9 m) c) fun _ => rfl
    rw [Pipeline.unscopedBufs_held] at hsplit
    iintro ⟨⟨Hub, Hp, HO⟩, Hos, -⟩
    ihave H := hsplit $$ Hub
    icases H with ⟨Ha, Hrest⟩
    ihave H' := (G4.entry_rest (vf (W9 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G4.hin (vf (W9 m)) c
  hout c := G4.hout (vf (W9 m)) c
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m) ((pdats m (4 : Fin 12) c).share_full fun _ => rfl)
      (vf (W9 m) c) (vf (W10 m) c) ((pdats m (4 : Fin 12) c).arrAt · (G4.cfgM (vf (W9 m))).N) (fun w => (W10_arr m c w).symm)
      (fun b hb => W10_of_ne m c b fun w e => hb (Finset.mem_image.mpr ⟨w, Finset.mem_univ _, e⟩))
    rw [Pipeline.unscopedBufs_held] at hjoin
    iintro ⟨Ha, HO, HY, HZ⟩
    ihave Hr := (G4.exit_rest (vf (W9 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G5Ent.lean ====
import proofs.«404237_j24687472017957_2_alg».proof.Proof.G5

set_option maxRecDepth 16384

noncomputable section

namespace Cert.KernelIdeal.G5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v48, main_v50}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v48, main_v50] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec5 c (V c)
abbrev scopedR (c : Dev nD) : sProp 𝕄 :=
  Pipeline.scopedRest (Ix := Unit) (Name := ℕ) (U := Pipeline.UD sig nD τ) (Lvl := ℕ) (Val := Elt F) spec5 c

/-- Past the region: every other unscoped buffer. -/
def Z (c : Dev nD) : sProp 𝕄 :=
  bigSep (Pipeline.restRefs sig spec5 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G5

end
-- ==== Proof.Reg5.lean ====
import proofs.«404237_j24687472017957_2_alg».proof.Proof.FamOf
import proofs.«404237_j24687472017957_2_alg».proof.Proof.G5Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W11 and left at W12: its two output arrays are
    split out of the unscoped buffers and put back at what the proof data computes; the three tables go through the
    invariant and come back unchanged; everything else goes past the region. -/
def reg5 (hok : G5.TblOk (vf (W11 m))) : Pipeline.RegionSeg (pcfgs (F := F)) (adm m) (pdats m) () defs₀ 𝒱₀ L lv (5 : Fin 12) where
  win := (launch5 (F := F)).win.to₀
  block_pos := (launch5 (F := F)).block_pos
  stage_whole := (launch5 (F := F)).stage_whole
  K := Fin 2
  osem := G5.osem0
  ho := G5.ownSemFacts0
  hbody c := (G5.body_obligation (vf (W11 m)) hok c).loose
  hwaits := Pipeline.hwaits_of_owed_zero _ _ _ _ L lv (5 : Fin 12) fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := G5.X (vf (W11 m)) c
  Y c := G5.Y (vf (W11 m)) c
  Z c := G5.Z (vf (W11 m)) c
  hentry c := by
    have hsplit := Pipeline.arrays_of_unscopedBufs (p := 5) (pcfgs (F := F)) (adm m) (pdats m) (launch5 (F := F)).win (launch5 (F := F)).arr_whole c
      ((pdats m (5 : Fin 12) c).share_full fun _ => rfl) (vf (W11 m) c) fun _ => rfl
    rw [Pipeline.unscopedBufs_held] at hsplit
    iintro ⟨⟨Hub, Hp, HO⟩, Hos, -⟩
    ihave H := hsplit $$ Hub
    icases H with ⟨Ha, Hrest⟩
    ihave H' := (G5.entry_rest (vf (W11 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G5.hin (vf (W11 m)) c
  hout c := G5.hout (vf (W11 m)) c
  hexit c := by
    have hjoin := Pipeline.unscopedBufs_of_arrays (p := 5) (pcfgs (F := F)) (adm m) (Ix := Unit) (Name := ℕ) (U := Pipeline.UD sig nD τ) (Lvl := ℕ)
      (launch5 (F := F)).win (launch5 (F := F)).arr_whole c (pdats m) ((pdats m (5 : Fin 12) c).share_full fun _ => rfl)
      (vf (W11 m) c) (vf (W12 m) c) ((pdats m (5 : Fin 12) c).arrAt · (G5.cfgM (vf (W11 m))).N) (fun w => (W12_arr m c w).symm)
      (fun b hb => W12_of_ne m c b fun w e => hb (Finset.mem_image.mpr ⟨w, Finset.mem_univ _, e⟩))
    rw [Pipeline.unscopedBufs_held] at hjoin
    iintro ⟨Ha, HO, HY, HZ⟩
    ihave Hr := (G5.exit_rest (vf (W11 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G6Ent.lean ====
import proofs.«404237_j24687472017957_2_alg».proof.Proof.G6

set_option maxRecDepth 16384

noncomputable section

namespace Cert.KernelIdeal.G6

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v57, main_v59}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v57, main_v59] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec6 c (V c)
abbrev scopedR (c : Dev nD) : sProp 𝕄 :=
  Pipeline.scopedRest (Ix := Unit) (Name := ℕ) (U := Pipeline.UD sig nD τ) (Lvl := ℕ) (Val := Elt F) spec6 c

/-- Past the region: every other unscoped buffer. -/
def Z (c : Dev nD) : sProp 𝕄 :=
  bigSep (Pipeline.restRefs sig spec6 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G6

end
-- ==== Proof.Reg6.lean ====
import proofs.«404237_j24687472017957_2_alg».proof.Proof.FamOf
import proofs.«404237_j24687472017957_2_alg».proof.Proof.G6Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W13 and left at W14: its two output arrays are
    split out of the unscoped buffers and put back at what the proof data computes; the three tables go through the
    invariant and come back unchanged; everything else goes past the region. -/
def reg6 (hok : G6.TblOk (vf (W13 m))) : Pipeline.RegionSeg (pcfgs (F := F)) (adm m) (pdats m) () defs₀ 𝒱₀ L lv (6 : Fin 12) where
  win := (launch6 (F := F)).win.to₀
  block_pos := (launch6 (F := F)).block_pos
  stage_whole := (launch6 (F := F)).stage_whole
  K := Fin 2
  osem := G6.osem0
  ho := G6.ownSemFacts0
  hbody c := (G6.body_obligation (vf (W13 m)) hok c).loose
  hwaits := Pipeline.hwaits_of_owed_zero _ _ _ _ L lv (6 : Fin 12) fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := G6.X (vf (W13 m)) c
  Y c := G6.Y (vf (W13 m)) c
  Z c := G6.Z (vf (W13 m)) c
  hentry c := by
    have hsplit := Pipeline.arrays_of_unscopedBufs (p := 6) (pcfgs (F := F)) (adm m) (pdats m) (launch6 (F := F)).win (launch6 (F := F)).arr_whole c
      ((pdats m (6 : Fin 12) c).share_full fun _ => rfl) (vf (W13 m) c) fun _ => rfl
    rw [Pipeline.unscopedBufs_held] at hsplit
    iintro ⟨⟨Hub, Hp, HO⟩, Hos, -⟩
    ihave H := hsplit $$ Hub
    icases H with ⟨Ha, Hrest⟩
    ihave H' := (G6.entry_rest (vf (W13 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G6.hin (vf (W13 m)) c
  hout c := G6.hout (vf (W13 m)) c
  hexit c := by
    have hjoin := Pipeline.unscopedBufs_of_arrays (p := 6) (pcfgs (F := F)) (adm m) (Ix := Unit) (Name := ℕ) (U := Pipeline.UD sig nD τ) (Lvl := ℕ)
      (launch6 (F := F)).win (launch6 (F := F)).arr_whole c (pdats m) ((pdats m (6 : Fin 12) c).share_full fun _ => rfl)
      (vf (W13 m) c) (vf (W14 m) c) ((pdats m (6 : Fin 12) c).arrAt · (G6.cfgM (vf (W13 m))).N) (fun w => (W14_arr m c w).symm)
      (fun b hb => W14_of_ne m c b fun w e => hb (Finset.mem_image.mpr ⟨w, Finset.mem_univ _, e⟩))
    rw [Pipeline.unscopedBufs_held] at hjoin
    iintro ⟨Ha, HO, HY, HZ⟩
    ihave Hr := (G6.exit_rest (vf (W13 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G7Ent.lean ====
import proofs.«404237_j24687472017957_2_alg».proof.Proof.G7

set_option maxRecDepth 16384

noncomputable section

namespace Cert.KernelIdeal.G7

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v66, main_v68}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v66, main_v68] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec7 c (V c)
abbrev scopedR (c : Dev nD) : sProp 𝕄 :=
  Pipeline.scopedRest (Ix := Unit) (Name := ℕ) (U := Pipeline.UD sig nD τ) (Lvl := ℕ) (Val := Elt F) spec7 c

/-- Past the region: every other unscoped buffer. -/
def Z (c : Dev nD) : sProp 𝕄 :=
  bigSep (Pipeline.restRefs sig spec7 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G7

end
-- ==== Proof.Reg7.lean ====
import proofs.«404237_j24687472017957_2_alg».proof.Proof.FamOf
import proofs.«404237_j24687472017957_2_alg».proof.Proof.G7Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W15 and left at W16: its two output arrays are
    split out of the unscoped buffers and put back at what the proof data computes; the three tables go through the
    invariant and come back unchanged; everything else goes past the region. -/
def reg7 (hok : G7.TblOk (vf (W15 m))) : Pipeline.RegionSeg (pcfgs (F := F)) (adm m) (pdats m) () defs₀ 𝒱₀ L lv (7 : Fin 12) where
  win := (launch7 (F := F)).win.to₀
  block_pos := (launch7 (F := F)).block_pos
  stage_whole := (launch7 (F := F)).stage_whole
  K := Fin 2
  osem := G7.osem0
  ho := G7.ownSemFacts0
  hbody c := (G7.body_obligation (vf (W15 m)) hok c).loose
  hwaits := Pipeline.hwaits_of_owed_zero _ _ _ _ L lv (7 : Fin 12) fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := G7.X (vf (W15 m)) c
  Y c := G7.Y (vf (W15 m)) c
  Z c := G7.Z (vf (W15 m)) c
  hentry c := by
    have hsplit := Pipeline.arrays_of_unscopedBufs (p := 7) (pcfgs (F := F)) (adm m) (pdats m) (launch7 (F := F)).win (launch7 (F := F)).arr_whole c
      ((pdats m (7 : Fin 12) c).share_full fun _ => rfl) (vf (W15 m) c) fun _ => rfl
    rw [Pipeline.unscopedBufs_held] at hsplit
    iintro ⟨⟨Hub, Hp, HO⟩, Hos, -⟩
    ihave H := hsplit $$ Hub
    icases H with ⟨Ha, Hrest⟩
    ihave H' := (G7.entry_rest (vf (W15 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G7.hin (vf (W15 m)) c
  hout c := G7.hout (vf (W15 m)) c
  hexit c := by
    have hjoin := Pipeline.unscopedBufs_of_arrays (p := 7) (pcfgs (F := F)) (adm m) (Ix := Unit) (Name := ℕ) (U := Pipeline.UD sig nD τ) (Lvl := ℕ)
      (launch7 (F := F)).win (launch7 (F := F)).arr_whole c (pdats m) ((pdats m (7 : Fin 12) c).share_full fun _ => rfl)
      (vf (W15 m) c) (vf (W16 m) c) ((pdats m (7 : Fin 12) c).arrAt · (G7.cfgM (vf (W15 m))).N) (fun w => (W16_arr m c w).symm)
      (fun b hb => W16_of_ne m c b fun w e => hb (Finset.mem_image.mpr ⟨w, Finset.mem_univ _, e⟩))
    rw [Pipeline.unscopedBufs_held] at hjoin
    iintro ⟨Ha, HO, HY, HZ⟩
    ihave Hr := (G7.exit_rest (vf (W15 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G8Ent.lean ====
import proofs.«404237_j24687472017957_2_alg».proof.Proof.G8

set_option maxRecDepth 16384

noncomputable section

namespace Cert.KernelIdeal.G8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v75, main_v77}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v75, main_v77] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec8 c (V c)
abbrev scopedR (c : Dev nD) : sProp 𝕄 :=
  Pipeline.scopedRest (Ix := Unit) (Name := ℕ) (U := Pipeline.UD sig nD τ) (Lvl := ℕ) (Val := Elt F) spec8 c

/-- Past the region: every other unscoped buffer. -/
def Z (c : Dev nD) : sProp 𝕄 :=
  bigSep (Pipeline.restRefs sig spec8 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G8

end
-- ==== Proof.Reg8.lean ====
import proofs.«404237_j24687472017957_2_alg».proof.Proof.FamOf
import proofs.«404237_j24687472017957_2_alg».proof.Proof.G8Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W17 and left at W18: its two output arrays are
    split out of the unscoped buffers and put back at what the proof data computes; the three tables go through the
    invariant and come back unchanged; everything else goes past the region. -/
def reg8 (hok : G8.TblOk (vf (W17 m))) : Pipeline.RegionSeg (pcfgs (F := F)) (adm m) (pdats m) () defs₀ 𝒱₀ L lv (8 : Fin 12) where
  win := (launch8 (F := F)).win.to₀
  block_pos := (launch8 (F := F)).block_pos
  stage_whole := (launch8 (F := F)).stage_whole
  K := Fin 2
  osem := G8.osem0
  ho := G8.ownSemFacts0
  hbody c := (G8.body_obligation (vf (W17 m)) hok c).loose
  hwaits := Pipeline.hwaits_of_owed_zero _ _ _ _ L lv (8 : Fin 12) fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := G8.X (vf (W17 m)) c
  Y c := G8.Y (vf (W17 m)) c
  Z c := G8.Z (vf (W17 m)) c
  hentry c := by
    have hsplit := Pipeline.arrays_of_unscopedBufs (p := 8) (pcfgs (F := F)) (adm m) (pdats m) (launch8 (F := F)).win (launch8 (F := F)).arr_whole c
      ((pdats m (8 : Fin 12) c).share_full fun _ => rfl) (vf (W17 m) c) fun _ => rfl
    rw [Pipeline.unscopedBufs_held] at hsplit
    iintro ⟨⟨Hub, Hp, HO⟩, Hos, -⟩
    ihave H := hsplit $$ Hub
    icases H with ⟨Ha, Hrest⟩
    ihave H' := (G8.entry_rest (vf (W17 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G8.hin (vf (W17 m)) c
  hout c := G8.hout (vf (W17 m)) c
  hexit c := by
    have hjoin := Pipeline.unscopedBufs_of_arrays (p := 8) (pcfgs (F := F)) (adm m) (Ix := Unit) (Name := ℕ) (U := Pipeline.UD sig nD τ) (Lvl := ℕ)
      (launch8 (F := F)).win (launch8 (F := F)).arr_whole c (pdats m) ((pdats m (8 : Fin 12) c).share_full fun _ => rfl)
      (vf (W17 m) c) (vf (W18 m) c) ((pdats m (8 : Fin 12) c).arrAt · (G8.cfgM (vf (W17 m))).N) (fun w => (W18_arr m c w).symm)
      (fun b hb => W18_of_ne m c b fun w e => hb (Finset.mem_image.mpr ⟨w, Finset.mem_univ _, e⟩))
    rw [Pipeline.unscopedBufs_held] at hjoin
    iintro ⟨Ha, HO, HY, HZ⟩
    ihave Hr := (G8.exit_rest (vf (W17 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G9Ent.lean ====
import proofs.«404237_j24687472017957_2_alg».proof.Proof.G9

set_option maxRecDepth 16384

noncomputable section

namespace Cert.KernelIdeal.G9

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v84, main_v86}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v84, main_v86] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec9 c (V c)
abbrev scopedR (c : Dev nD) : sProp 𝕄 :=
  Pipeline.scopedRest (Ix := Unit) (Name := ℕ) (U := Pipeline.UD sig nD τ) (Lvl := ℕ) (Val := Elt F) spec9 c

/-- Past the region: every other unscoped buffer. -/
def Z (c : Dev nD) : sProp 𝕄 :=
  bigSep (Pipeline.restRefs sig spec9 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G9

end
-- ==== Proof.Reg9.lean ====
import proofs.«404237_j24687472017957_2_alg».proof.Proof.FamOf
import proofs.«404237_j24687472017957_2_alg».proof.Proof.G9Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W19 and left at W20: its two output arrays are
    split out of the unscoped buffers and put back at what the proof data computes; the three tables go through the
    invariant and come back unchanged; everything else goes past the region. -/
def reg9 (hok : G9.TblOk (vf (W19 m))) : Pipeline.RegionSeg (pcfgs (F := F)) (adm m) (pdats m) () defs₀ 𝒱₀ L lv (9 : Fin 12) where
  win := (launch9 (F := F)).win.to₀
  block_pos := (launch9 (F := F)).block_pos
  stage_whole := (launch9 (F := F)).stage_whole
  K := Fin 2
  osem := G9.osem0
  ho := G9.ownSemFacts0
  hbody c := (G9.body_obligation (vf (W19 m)) hok c).loose
  hwaits := Pipeline.hwaits_of_owed_zero _ _ _ _ L lv (9 : Fin 12) fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := G9.X (vf (W19 m)) c
  Y c := G9.Y (vf (W19 m)) c
  Z c := G9.Z (vf (W19 m)) c
  hentry c := by
    have hsplit := Pipeline.arrays_of_unscopedBufs (p := 9) (pcfgs (F := F)) (adm m) (pdats m) (launch9 (F := F)).win (launch9 (F := F)).arr_whole c
      ((pdats m (9 : Fin 12) c).share_full fun _ => rfl) (vf (W19 m) c) fun _ => rfl
    rw [Pipeline.unscopedBufs_held] at hsplit
    iintro ⟨⟨Hub, Hp, HO⟩, Hos, -⟩
    ihave H := hsplit $$ Hub
    icases H with ⟨Ha, Hrest⟩
    ihave H' := (G9.entry_rest (vf (W19 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G9.hin (vf (W19 m)) c
  hout c := G9.hout (vf (W19 m)) c
  hexit c := by
    have hjoin := Pipeline.unscopedBufs_of_arrays (p := 9) (pcfgs (F := F)) (adm m) (Ix := Unit) (Name := ℕ) (U := Pipeline.UD sig nD τ) (Lvl := ℕ)
      (launch9 (F := F)).win (launch9 (F := F)).arr_whole c (pdats m) ((pdats m (9 : Fin 12) c).share_full fun _ => rfl)
      (vf (W19 m) c) (vf (W20 m) c) ((pdats m (9 : Fin 12) c).arrAt · (G9.cfgM (vf (W19 m))).N) (fun w => (W20_arr m c w).symm)
      (fun b hb => W20_of_ne m c b fun w e => hb (Finset.mem_image.mpr ⟨w, Finset.mem_univ _, e⟩))
    rw [Pipeline.unscopedBufs_held] at hjoin
    iintro ⟨Ha, HO, HY, HZ⟩
    ihave Hr := (G9.exit_rest (vf (W19 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.G10Ent.lean ====
import proofs.«404237_j24687472017957_2_alg».proof.Proof.G10

set_option maxRecDepth 16384

noncomputable section

namespace Cert.KernelIdeal.G10

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.KernelIdeal.Landed

variable (V : (c : Dev nD) → (b : Ref sig .tc) → Buf (Elt F) ((c : Thread nD τ).loc b))

/-- The three unscoped buffers the kernel is handed that no window stages: the embedding table and the two index tables. -/
def HT : Finset (Ref sig .tc) := {main_arg5, main_arg1, main_arg3}
theorem HT_eq (c : Dev nD) :
    (bigSep HT (fun b => ((c : Thread nD τ).loc b) ↦{fullShare} V c b) : sProp 𝕄)
      = iprop(hbPt c hbM (V c main_arg5) ∗ hbPt c tA (tbl V 0) ∗ hbPt c tB (tbl V 1)) := by
  unfold HT
  rw [BI.bigSep_eq_bigSepL_of_eq [main_arg5, main_arg1, main_arg3] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec10 c (V c)
abbrev scopedR (c : Dev nD) : sProp 𝕄 :=
  Pipeline.scopedRest (Ix := Unit) (Name := ℕ) (U := Pipeline.UD sig nD τ) (Lvl := ℕ) (Val := Elt F) spec10 c

/-- Past the region: every other unscoped buffer. -/
def Z (c : Dev nD) : sProp 𝕄 :=
  bigSep (Pipeline.restRefs sig spec10 \ HT) fun b => ((c : Thread nD τ).loc b) ↦{fullShare} V c b

theorem rest_split (c : Dev nD) :
    (rest V c : sProp 𝕄) = iprop((hbPt c hbM (V c main_arg5) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg5))
/-- Out of the invariant: the register, the embedding table, the two index tables. -/
def Y (c : Dev nD) : sProp 𝕄 := iprop((∃ r, prngReg c r) ∗ hbPt c hbM (V c main_arg5) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.KernelIdeal.G10

end
-- ==== Proof.Reg10.lean ====
import proofs.«404237_j24687472017957_2_alg».proof.Proof.FamOf
import proofs.«404237_j24687472017957_2_alg».proof.Proof.G10Ent

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W21 and left at W22: its two output arrays are
    split out of the unscoped buffers and put back at what the proof data computes; the three tables go through the
    invariant and come back unchanged; everything else goes past the region. -/
def reg10 (hok : G10.TblOk (vf (W21 m))) : Pipeline.RegionSeg (pcfgs (F := F)) (adm m) (pdats m) () defs₀ 𝒱₀ L lv (10 : Fin 12) where
  win := (launch10 (F := F)).win.to₀
  block_pos := (launch10 (F := F)).block_pos
  stage_whole := (launch10 (F := F)).stage_whole
  K := Fin 2
  osem := G10.osem0
  ho := G10.ownSemFacts0
  hbody c := (G10.body_obligation (vf (W21 m)) hok c).loose
  hwaits := Pipeline.hwaits_of_owed_zero _ _ _ _ L lv (10 : Fin 12) fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := G10.X (vf (W21 m)) c
  Y c := G10.Y (vf (W21 m)) c
  Z c := G10.Z (vf (W21 m)) c
  hentry c := by
    have hsplit := Pipeline.arrays_of_unscopedBufs (p := 10) (pcfgs (F := F)) (adm m) (pdats m) (launch10 (F := F)).win (launch10 (F := F)).arr_whole c
      ((pdats m (10 : Fin 12) c).share_full fun _ => rfl) (vf (W21 m) c) fun _ => rfl
    rw [Pipeline.unscopedBufs_held] at hsplit
    iintro ⟨⟨Hub, Hp, HO⟩, Hos, -⟩
    ihave H := hsplit $$ Hub
    icases H with ⟨Ha, Hrest⟩
    ihave H' := (G10.entry_rest (vf (W21 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G10.hin (vf (W21 m)) c
  hout c := G10.hout (vf (W21 m)) c
  hexit c := by
    have hjoin := Pipeline.unscopedBufs_of_arrays (p := 10) (pcfgs (F := F)) (adm m) (Ix := Unit) (Name := ℕ) (U := Pipeline.UD sig nD τ) (Lvl := ℕ)
      (launch10 (F := F)).win (launch10 (F := F)).arr_whole c (pdats m) ((pdats m (10 : Fin 12) c).share_full fun _ => rfl)
      (vf (W21 m) c) (vf (W22 m) c) ((pdats m (10 : Fin 12) c).arrAt · (G10.cfgM (vf (W21 m))).N) (fun w => (W22_arr m c w).symm)
      (fun b hb => W22_of_ne m c b fun w e => hb (Finset.mem_image.mpr ⟨w, Finset.mem_univ _, e⟩))
    rw [Pipeline.unscopedBufs_held] at hjoin
    iintro ⟨Ha, HO, HY, HZ⟩
    ihave Hr := (G10.exit_rest (vf (W21 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.KernelIdeal.Asm

end
-- ==== Proof.Reg11.lean ====
import proofs.«404237_j24687472017957_2_alg».proof.Proof.Fam
import proofs.«404237_j24687472017957_2_alg».proof.Proof.FamOf

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

theorem hF_reg11 (c : Dev nD) (w : Fin cfg11.W) :
    (pdats m (11 : Fin 12) c).arrAt w cfg11.N = vf (W24 m) c (Pipeline.arrRef spec11 w) :=
  (W24_arr m c w).symm

theorem hrest_reg11 (c : Dev nD) : ∀ b, b ∉ Finset.univ.image (Pipeline.arrRef spec11) → vf (W24 m) c b = vf (W23 m) c b :=
  fun b hb => W24_of_ne m c b fun w e => hb (Finset.mem_image.mpr ⟨w, Finset.mem_univ _, e⟩)

set_option backward.isDefEq.respectTransparency.types false in

def reg11 : Pipeline.RegionSeg (pcfgs (F := F)) (adm m) (pdats m) () defs₀ 𝒱₀ L lv (11 : Fin 12) where
  win := (launch11 (F := F)).win.to₀
  block_pos := (launch11 (F := F)).block_pos
  stage_whole := (launch11 (F := F)).stage_whole
  K := PEmpty
  osem k := k.elim
  ho := Pipeline.OwnSemFacts.none _
  hbody c := (L11.body_obligation (vf (W23 m)) c).loose
  hwaits := Pipeline.hwaits_of_owed_zero _ _ _ _ L lv (11 : Fin 12) fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := Pipeline.UD sig nD τ) (Lvl := ℕ) spec11 c (vf (W23 m) c)
  hentry c := by
    rw [Pipeline.ownSems0_none]
    have hsplit := Pipeline.arrays_of_unscopedBufs (p := 11) (pcfgs (F := F)) (adm m) (pdats m) (launch11 (F := F)).win (launch11 (F := F)).arr_whole c
      ((pdats m (11 : Fin 12) c).share_full fun _ => rfl) (vf (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (11 : Fin 12) c).Φ 0 = Pipeline.ΦA spec11 c from rfl]; unfold Pipeline.ΦA
    iintro ⟨Hp, -, Hr⟩
    isplitl [Hr]; · iexact Hr
    iexact Hp
  hout c := by
    rw [Pipeline.ownSems0_none, show (pdats m (11 : Fin 12) c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) (adm m) (Ix := Unit) (Name := ℕ) (U := Pipeline.UD sig nD τ) (Lvl := ℕ)
      (launch11 (F := F)).win (launch11 (F := F)).arr_whole c (pdats m) ((pdats m (11 : Fin 12) c).share_full fun _ => rfl)
      (vf (W23 m) c) (vf (W24 m) c) ((pdats m (11 : Fin 12) c).arrAt · cfg11.N) (hF_reg11 m c) (hrest_reg11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.Run.lean ====
import proofs.«404237_j24687472017957_2_alg».proof.Proof.Fam
import proofs.«404237_j24687472017957_2_alg».proof.Proof.FamOf
import proofs.«404237_j24687472017957_2_alg».proof.Proof.Reg0
import proofs.«404237_j24687472017957_2_alg».proof.Proof.Reg1
import proofs.«404237_j24687472017957_2_alg».proof.Proof.Reg2
import proofs.«404237_j24687472017957_2_alg».proof.Proof.Reg3
import proofs.«404237_j24687472017957_2_alg».proof.Proof.Reg4
import proofs.«404237_j24687472017957_2_alg».proof.Proof.Reg5
import proofs.«404237_j24687472017957_2_alg».proof.Proof.Reg6
import proofs.«404237_j24687472017957_2_alg».proof.Proof.Reg7
import proofs.«404237_j24687472017957_2_alg».proof.Proof.Reg8
import proofs.«404237_j24687472017957_2_alg».proof.Proof.Reg9
import proofs.«404237_j24687472017957_2_alg».proof.Proof.Reg10
import proofs.«404237_j24687472017957_2_alg».proof.Proof.Reg11

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := Pipeline.UD sig nD τ) (Lvl := ℕ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

abbrev segs (hok0 : G0.TblOk (vf (W1 m))) (hok1 : G1.TblOk (vf (W3 m))) (hok2 : G2.TblOk (vf (W5 m))) (hok3 : G3.TblOk (vf (W7 m))) (hok4 : G4.TblOk (vf (W9 m))) (hok5 : G5.TblOk (vf (W11 m))) (hok6 : G6.TblOk (vf (W13 m))) (hok7 : G7.TblOk (vf (W15 m))) (hok8 : G8.TblOk (vf (W17 m))) (hok9 : G9.TblOk (vf (W19 m))) (hok10 : G10.TblOk (vf (W21 m))) (c : Dev nD) :
    List (Seg (pcfgs (F := F)) (adm m) (pdats m) () defs₀ 𝒱₀ L lv) :=
  [.host (hseg hostOps0 hostOps0_sub hostOps0_fresh (W0 m)),
   .region (reg0 m hok0),
   .host (hseg hostOps1 hostOps1_sub hostOps1_fresh (W2 m)),
   .region (reg1 m hok1),
   .host (hseg hostOps2 hostOps2_sub hostOps2_fresh (W4 m)),
   .region (reg2 m hok2),
   .host (hseg hostOps3 hostOps3_sub hostOps3_fresh (W6 m)),
   .region (reg3 m hok3),
   .host (hseg hostOps4 hostOps4_sub hostOps4_fresh (W8 m)),
   .region (reg4 m hok4),
   .host (hseg hostOps5 hostOps5_sub hostOps5_fresh (W10 m)),
   .region (reg5 m hok5),
   .host (hseg hostOps6 hostOps6_sub hostOps6_fresh (W12 m)),
   .region (reg6 m hok6),
   .host (hseg hostOps7 hostOps7_sub hostOps7_fresh (W14 m)),
   .region (reg7 m hok7),
   .host (hseg hostOps8 hostOps8_sub hostOps8_fresh (W16 m)),
   .region (reg8 m hok8),
   .host (hseg hostOps9 hostOps9_sub hostOps9_fresh (W18 m)),
   .region (reg9 m hok9),
   .host (hseg hostOps10 hostOps10_sub hostOps10_fresh (W20 m)),
   .region (reg10 m hok10),
   .host (hseg hostOps11 hostOps11_sub hostOps11_fresh (W22 m)),
   .region (reg11 m),
   .host (hseg hostOps12 hostOps12_sub hostOps12_fresh (W24 m))]

abbrev u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

set_option backward.isDefEq.respectTransparency.types false in

theorem run_main (ρ : Dev nD → PrngReg) (hok0 : G0.TblOk (vf (W1 m))) (hok1 : G1.TblOk (vf (W3 m))) (hok2 : G2.TblOk (vf (W5 m))) (hok3 : G3.TblOk (vf (W7 m))) (hok4 : G4.TblOk (vf (W9 m))) (hok5 : G5.TblOk (vf (W11 m))) (hok6 : G6.TblOk (vf (W13 m))) (hok7 : G7.TblOk (vf (W15 m))) (hok8 : G8.TblOk (vf (W17 m))) (hok9 : G9.TblOk (vf (W19 m))) (hok10 : G10.TblOk (vf (W21 m))) :
    θ_run defs (onTc (τ := τ) (main (F := F))) ⟨m, fun _ => 0, ρ⟩ (fun r => ∀ c : Dev nD,
      r.2.mem ((c.tc : Thread nD τ).loc main_v97) = W25 m c main_v97
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) (adm m) (pdats m) () (cellOf_inj (adm m)) embL defs₀ 𝒱₀ L lv m ρ main
    (segs m hok0 hok1 hok2 hok3 hok4 hok5 hok6 hok7 hok8 hok9 hok10)
    (fun c Q => by
      rewrite [main_chain c, Seg.run_eq_chain,
        show (segs m hok0 hok1 hok2 hok3 hok4 hok5 hok6 hok7 hok8 hok9 hok10 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12 ] from rfl]
      exact .rfl)
    (fun c => by simp only [segs, Seg.pipes_host, Seg.pipes_region, Seg.pipes_nil]; decide)
    (0 : Dev nD → CellTallies nD τ sig Unit) (fun _ _ => rfl) (fun _ => iprop(emp)) (u₀ m)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W25 m c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => s.mem ((c.tc : Thread nD τ).loc main_v97) = W25 m c main_v97
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := Pipeline.UD sig nD τ) (Lvl := ℕ) c (W0 m c)]; exact BI.Entails.refl _
    have hR : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => (R (F := F) c : sProp 𝕄)) :=
      bigSep_mono fun c _ => (show _ ⊢ (R (F := F) c : sProp 𝕄) from by
        iintro ⟨-, HO, -, Hp, -⟩
        isplitl [Hp]; · iexists _; iexact Hp
        iexists ∅; iexact HO)
    have hjoin : (iprop((bigSep Finset.univ fun c : Dev nD => StableHlo.held (c : Thread nD τ) (Pipeline.ucRefs τ sig) (W0 m c))
          ∗ bigSep Finset.univ fun c : Dev nD => (R (F := F) c : sProp 𝕄)) : sProp 𝕄)
        ⊢ (bigSep Finset.univ fun c : Dev nD => iprop(StableHlo.held (c : Thread nD τ) (Pipeline.ucRefs τ sig) (W0 m c) ∗ R c)) := by
      have e : (bigSep Finset.univ fun c : Dev nD => iprop(StableHlo.held (c : Thread nD τ) (Pipeline.ucRefs τ sig) (W0 m c) ∗ R (F := F) c) : sProp 𝕄)
          = iprop((bigSep Finset.univ fun c : Dev nD => StableHlo.held (c : Thread nD τ) (Pipeline.ucRefs τ sig) (W0 m c))
            ∗ bigSep Finset.univ fun c : Dev nD => (R (F := F) c : sProp 𝕄)) := bigSep_sep' _ _ _
      rw [e]
    iintro ⟨H, Hla⟩
    ihave H' := hsplit $$ H
    icases H' with ⟨Hh, Hr⟩
    ihave HR := hR $$ Hr
    imodintro
    iapply hjoin
    isplitl [Hh]; · iexact Hh
    iexact HR
  ·
    unfold StableHlo.held
    iintro ⟨Hh, HSI⟩
    ihave Hr := (pointsTo_read_all (Pipeline.ucRefs τ sig) (fun b => ((c : Thread nD τ).1, b)) (W25 m c) s') $$ [Hh HSI]
    · isplitl [Hh] <;> iassumption
    icases Hr with ⟨%h, HSI⟩
    imodintro
    isplitr
    · ipureintro
      exact ⟨h (Proc.devRef .tc main_v97) (Finset.mem_filter.mpr ⟨StableHlo.devRef_mem_tcRefs main_v97, by decide⟩),
        (h (Proc.devRef .tc main_arg0) (Finset.mem_filter.mpr ⟨StableHlo.devRef_mem_tcRefs main_arg0, by decide⟩)).trans (W25_kept m c main_arg0 kept_arg0),
        (h (Proc.devRef .tc main_arg1) (Finset.mem_filter.mpr ⟨StableHlo.devRef_mem_tcRefs main_arg1, by decide⟩)).trans (W25_kept m c main_arg1 kept_arg1),
        (h (Proc.devRef .tc main_arg2) (Finset.mem_filter.mpr ⟨StableHlo.devRef_mem_tcRefs main_arg2, by decide⟩)).trans (W25_kept m c main_arg2 kept_arg2),
        (h (Proc.devRef .tc main_arg3) (Finset.mem_filter.mpr ⟨StableHlo.devRef_mem_tcRefs main_arg3, by decide⟩)).trans (W25_kept m c main_arg3 kept_arg3),
        (h (Proc.devRef .tc main_arg4) (Finset.mem_filter.mpr ⟨StableHlo.devRef_mem_tcRefs main_arg4, by decide⟩)).trans (W25_kept m c main_arg4 kept_arg4),
        (h (Proc.devRef .tc main_arg5) (Finset.mem_filter.mpr ⟨StableHlo.devRef_mem_tcRefs main_arg5, by decide⟩)).trans (W25_kept m c main_arg5 kept_arg5)⟩
    · iexact HSI

end Cert.KernelIdeal.Asm

end
-- ==== Proof.KTbl.lean ====
import proofs.«404237_j24687472017957_2_alg».proof.Proof.FamOf
import proofs.«404237_j24687472017957_2_alg».proof.Proof.Spec
import Idealize.ShloMosaic.Lib.Pipeline.Value

set_option maxRecDepth 16384

noncomputable section

namespace Cert.KernelIdeal.Asm

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- Every index word of the four index arguments names a row of the tables. -/
abbrev InR : Prop := ∀ c : Dev nD, Cert.Spec.InRange (m ((c.tc : Thread nD τ).loc main_arg0)) (m ((c.tc : Thread nD τ).loc main_arg1)) (m ((c.tc : Thread nD τ).loc main_arg2)) (m ((c.tc : Thread nD τ).loc main_arg3))

theorem col_apply {α : Type} (o : Nat) (ho : o < 10) (x : S16384x10.Idx → α) (hs : S16384x10.Slices ![0, o] S16384x1)
    (hc : S16384x1.ShapeCasts S16384) (i : S16384.Idx) :
    shapeCast S16384 (extractStridedSlice S16384x1 ![0, o] x hs) hc i = x (ValueIdx.ix2 (i 0) ⟨o, ho⟩) := by
  rw [shapeCast_apply _ hc i (ValueIdx.ix2 (i 0) (0 : Fin 1)) (by
    rw [Shape.rowMajor_val_two, Shape.rowMajor_val_one]
    show (i 0).val * 1 + 0 = (i 0).val
    omega)]
  exact extractStridedSlice_apply _ x hs _ _ (fun a => by
    match a with
    | ⟨0, _⟩ => show (i 0).val = 0 + (i 0).val; omega
    | ⟨1, _⟩ => show o = o + 0; rfl)

theorem tblA_0 (i : S16384.Idx) :
    G0.tbl (vf (W1 m)) 0 i = m (((0 : Dev nD) : Thread nD τ).loc main_arg0) (ValueIdx.ix2 (i 0) ⟨0, by decide⟩) := by
  have e : (W1 m 0 main_v3 : S16384.Idx → BitVec 32)
      = fun i => shapeCast S16384 (extractStridedSlice S16384x1 ![0, 0] (W0 m 0 main_arg0 : S16384x10.Idx → BitVec 32) Gen.slices_S16384x10_S16384x1_0_0) Gen.shapeCasts_S16384x1_S16384 i := by
    show StableHlo.after hostOps0 (W0 m 0) (Proc.devRef .tc main_v3) = _
    after_results; rfl
  show (W1 m 0 main_v3 : S16384.Idx → BitVec 32) i = _
  rw [e, W0_kept m 0 main_arg0]
  exact col_apply 0 (by decide) _ _ _ i

theorem tblB_0 (i : S16384.Idx) :
    G0.tbl (vf (W1 m)) 1 i = m (((0 : Dev nD) : Thread nD τ).loc main_arg2) (ValueIdx.ix2 (i 0) ⟨0, by decide⟩) := by
  have e : (W1 m 0 main_v5 : S16384.Idx → BitVec 32)
      = fun i => shapeCast S16384 (extractStridedSlice S16384x1 ![0, 0] (W0 m 0 main_arg2 : S16384x10.Idx → BitVec 32) Gen.slices_S16384x10_S16384x1_0_0) Gen.shapeCasts_S16384x1_S16384 i := by
    show StableHlo.after hostOps0 (W0 m 0) (Proc.devRef .tc main_v5) = _
    after_results; rfl
  show (W1 m 0 main_v5 : S16384.Idx → BitVec 32) i = _
  rw [e, W0_kept m 0 main_arg2]
  exact col_apply 0 (by decide) _ _ _ i

theorem tblOk_0 (hin : InR m) :
    G0.TblOk (vf (W1 m)) :=
  ⟨fun i => by rw [tblA_0]; exact (hin 0).1 _, fun i => by rw [tblB_0]; exact (hin 0).2.2.1 _⟩

theorem tblA_1 (i : S16384.Idx) :
    G1.tbl (vf (W3 m)) 0 i = m (((0 : Dev nD) : Thread nD τ).loc main_arg0) (ValueIdx.ix2 (i 0) ⟨1, by decide⟩) := by
  have e : (W3 m 0 main_v12 : S16384.Idx → BitVec 32)
      = fun i => shapeCast S16384 (extractStridedSlice S16384x1 ![0, 1] (W2 m 0 main_arg0 : S16384x10.Idx → BitVec 32) Gen.slices_S16384x10_S16384x1_0_1) Gen.shapeCasts_S16384x1_S16384 i := by
    show StableHlo.after hostOps1 (W2 m 0) (Proc.devRef .tc main_v12) = _
    after_results; rfl
  show (W3 m 0 main_v12 : S16384.Idx → BitVec 32) i = _
  rw [e, W2_kept m 0 main_arg0 kept_arg0]
  exact col_apply 1 (by decide) _ _ _ i

theorem tblB_1 (i : S16384.Idx) :
    G1.tbl (vf (W3 m)) 1 i = m (((0 : Dev nD) : Thread nD τ).loc main_arg2) (ValueIdx.ix2 (i 0) ⟨1, by decide⟩) := by
  have e : (W3 m 0 main_v14 : S16384.Idx → BitVec 32)
      = fun i => shapeCast S16384 (extractStridedSlice S16384x1 ![0, 1] (W2 m 0 main_arg2 : S16384x10.Idx → BitVec 32) Gen.slices_S16384x10_S16384x1_0_1) Gen.shapeCasts_S16384x1_S16384 i := by
    show StableHlo.after hostOps1 (W2 m 0) (Proc.devRef .tc main_v14) = _
    after_results; rfl
  show (W3 m 0 main_v14 : S16384.Idx → BitVec 32) i = _
  rw [e, W2_kept m 0 main_arg2 kept_arg2]
  exact col_apply 1 (by decide) _ _ _ i

theorem tblOk_1 (hin : InR m) :
    G1.TblOk (vf (W3 m)) :=
  ⟨fun i => by rw [tblA_1]; exact (hin 0).1 _, fun i => by rw [tblB_1]; exact (hin 0).2.2.1 _⟩

theorem tblA_2 (i : S16384.Idx) :
    G2.tbl (vf (W5 m)) 0 i = m (((0 : Dev nD) : Thread nD τ).loc main_arg0) (ValueIdx.ix2 (i 0) ⟨2, by decide⟩) := by
  have e : (W5 m 0 main_v21 : S16384.Idx → BitVec 32)
      = fun i => shapeCast S16384 (extractStridedSlice S16384x1 ![0, 2] (W4 m 0 main_arg0 : S16384x10.Idx → BitVec 32) Gen.slices_S16384x10_S16384x1_0_2) Gen.shapeCasts_S16384x1_S16384 i := by
    show StableHlo.after hostOps2 (W4 m 0) (Proc.devRef .tc main_v21) = _
    after_results; rfl
  show (W5 m 0 main_v21 : S16384.Idx → BitVec 32) i = _
  rw [e, W4_kept m 0 main_arg0 kept_arg0]
  exact col_apply 2 (by decide) _ _ _ i

theorem tblB_2 (i : S16384.Idx) :
    G2.tbl (vf (W5 m)) 1 i = m (((0 : Dev nD) : Thread nD τ).loc main_arg2) (ValueIdx.ix2 (i 0) ⟨2, by decide⟩) := by
  have e : (W5 m 0 main_v23 : S16384.Idx → BitVec 32)
      = fun i => shapeCast S16384 (extractStridedSlice S16384x1 ![0, 2] (W4 m 0 main_arg2 : S16384x10.Idx → BitVec 32) Gen.slices_S16384x10_S16384x1_0_2) Gen.shapeCasts_S16384x1_S16384 i := by
    show StableHlo.after hostOps2 (W4 m 0) (Proc.devRef .tc main_v23) = _
    after_results; rfl
  show (W5 m 0 main_v23 : S16384.Idx → BitVec 32) i = _
  rw [e, W4_kept m 0 main_arg2 kept_arg2]
  exact col_apply 2 (by decide) _ _ _ i

theorem tblOk_2 (hin : InR m) :
    G2.TblOk (vf (W5 m)) :=
  ⟨fun i => by rw [tblA_2]; exact (hin 0).1 _, fun i => by rw [tblB_2]; exact (hin 0).2.2.1 _⟩

theorem tblA_3 (i : S16384.Idx) :
    G3.tbl (vf (W7 m)) 0 i = m (((0 : Dev nD) : Thread nD τ).loc main_arg0) (ValueIdx.ix2 (i 0) ⟨3, by decide⟩) := by
  have e : (W7 m 0 main_v30 : S16384.Idx → BitVec 32)
      = fun i => shapeCast S16384 (extractStridedSlice S16384x1 ![0, 3] (W6 m 0 main_arg0 : S16384x10.Idx → BitVec 32) Gen.slices_S16384x10_S16384x1_0_3) Gen.shapeCasts_S16384x1_S16384 i := by
    show StableHlo.after hostOps3 (W6 m 0) (Proc.devRef .tc main_v30) = _
    after_results; rfl
  show (W7 m 0 main_v30 : S16384.Idx → BitVec 32) i = _
  rw [e, W6_kept m 0 main_arg0 kept_arg0]
  exact col_apply 3 (by decide) _ _ _ i

theorem tblB_3 (i : S16384.Idx) :
    G3.tbl (vf (W7 m)) 1 i = m (((0 : Dev nD) : Thread nD τ).loc main_arg2) (ValueIdx.ix2 (i 0) ⟨3, by decide⟩) := by
  have e : (W7 m 0 main_v32 : S16384.Idx → BitVec 32)
      = fun i => shapeCast S16384 (extractStridedSlice S16384x1 ![0, 3] (W6 m 0 main_arg2 : S16384x10.Idx → BitVec 32) Gen.slices_S16384x10_S16384x1_0_3) Gen.shapeCasts_S16384x1_S16384 i := by
    show StableHlo.after hostOps3 (W6 m 0) (Proc.devRef .tc main_v32) = _
    after_results; rfl
  show (W7 m 0 main_v32 : S16384.Idx → BitVec 32) i = _
  rw [e, W6_kept m 0 main_arg2 kept_arg2]
  exact col_apply 3 (by decide) _ _ _ i

theorem tblOk_3 (hin : InR m) :
    G3.TblOk (vf (W7 m)) :=
  ⟨fun i => by rw [tblA_3]; exact (hin 0).1 _, fun i => by rw [tblB_3]; exact (hin 0).2.2.1 _⟩

theorem tblA_4 (i : S16384.Idx) :
    G4.tbl (vf (W9 m)) 0 i = m (((0 : Dev nD) : Thread nD τ).loc main_arg0) (ValueIdx.ix2 (i 0) ⟨4, by decide⟩) := by
  have e : (W9 m 0 main_v39 : S16384.Idx → BitVec 32)
      = fun i => shapeCast S16384 (extractStridedSlice S16384x1 ![0, 4] (W8 m 0 main_arg0 : S16384x10.Idx → BitVec 32) Gen.slices_S16384x10_S16384x1_0_4) Gen.shapeCasts_S16384x1_S16384 i := by
    show StableHlo.after hostOps4 (W8 m 0) (Proc.devRef .tc main_v39) = _
    after_results; rfl
  show (W9 m 0 main_v39 : S16384.Idx → BitVec 32) i = _
  rw [e, W8_kept m 0 main_arg0 kept_arg0]
  exact col_apply 4 (by decide) _ _ _ i

theorem tblB_4 (i : S16384.Idx) :
    G4.tbl (vf (W9 m)) 1 i = m (((0 : Dev nD) : Thread nD τ).loc main_arg2) (ValueIdx.ix2 (i 0) ⟨4, by decide⟩) := by
  have e : (W9 m 0 main_v41 : S16384.Idx → BitVec 32)
      = fun i => shapeCast S16384 (extractStridedSlice S16384x1 ![0, 4] (W8 m 0 main_arg2 : S16384x10.Idx → BitVec 32) Gen.slices_S16384x10_S16384x1_0_4) Gen.shapeCasts_S16384x1_S16384 i := by
    show StableHlo.after hostOps4 (W8 m 0) (Proc.devRef .tc main_v41) = _
    after_results; rfl
  show (W9 m 0 main_v41 : S16384.Idx → BitVec 32) i = _
  rw [e, W8_kept m 0 main_arg2 kept_arg2]
  exact col_apply 4 (by decide) _ _ _ i

theorem tblOk_4 (hin : InR m) :
    G4.TblOk (vf (W9 m)) :=
  ⟨fun i => by rw [tblA_4]; exact (hin 0).1 _, fun i => by rw [tblB_4]; exact (hin 0).2.2.1 _⟩

theorem tblA_5 (i : S16384.Idx) :
    G5.tbl (vf (W11 m)) 0 i = m (((0 : Dev nD) : Thread nD τ).loc main_arg0) (ValueIdx.ix2 (i 0) ⟨5, by decide⟩) := by
  have e : (W11 m 0 main_v48 : S16384.Idx → BitVec 32)
      = fun i => shapeCast S16384 (extractStridedSlice S16384x1 ![0, 5] (W10 m 0 main_arg0 : S16384x10.Idx → BitVec 32) Gen.slices_S16384x10_S16384x1_0_5) Gen.shapeCasts_S16384x1_S16384 i := by
    show StableHlo.after hostOps5 (W10 m 0) (Proc.devRef .tc main_v48) = _
    after_results; rfl
  show (W11 m 0 main_v48 : S16384.Idx → BitVec 32) i = _
  rw [e, W10_kept m 0 main_arg0 kept_arg0]
  exact col_apply 5 (by decide) _ _ _ i

theorem tblB_5 (i : S16384.Idx) :
    G5.tbl (vf (W11 m)) 1 i = m (((0 : Dev nD) : Thread nD τ).loc main_arg2) (ValueIdx.ix2 (i 0) ⟨5, by decide⟩) := by
  have e : (W11 m 0 main_v50 : S16384.Idx → BitVec 32)
      = fun i => shapeCast S16384 (extractStridedSlice S16384x1 ![0, 5] (W10 m 0 main_arg2 : S16384x10.Idx → BitVec 32) Gen.slices_S16384x10_S16384x1_0_5) Gen.shapeCasts_S16384x1_S16384 i := by
    show StableHlo.after hostOps5 (W10 m 0) (Proc.devRef .tc main_v50) = _
    after_results; rfl
  show (W11 m 0 main_v50 : S16384.Idx → BitVec 32) i = _
  rw [e, W10_kept m 0 main_arg2 kept_arg2]
  exact col_apply 5 (by decide) _ _ _ i

theorem tblOk_5 (hin : InR m) :
    G5.TblOk (vf (W11 m)) :=
  ⟨fun i => by rw [tblA_5]; exact (hin 0).1 _, fun i => by rw [tblB_5]; exact (hin 0).2.2.1 _⟩

theorem tblA_6 (i : S16384.Idx) :
    G6.tbl (vf (W13 m)) 0 i = m (((0 : Dev nD) : Thread nD τ).loc main_arg0) (ValueIdx.ix2 (i 0) ⟨6, by decide⟩) := by
  have e : (W13 m 0 main_v57 : S16384.Idx → BitVec 32)
      = fun i => shapeCast S16384 (extractStridedSlice S16384x1 ![0, 6] (W12 m 0 main_arg0 : S16384x10.Idx → BitVec 32) Gen.slices_S16384x10_S16384x1_0_6) Gen.shapeCasts_S16384x1_S16384 i := by
    show StableHlo.after hostOps6 (W12 m 0) (Proc.devRef .tc main_v57) = _
    after_results; rfl
  show (W13 m 0 main_v57 : S16384.Idx → BitVec 32) i = _
  rw [e, W12_kept m 0 main_arg0 kept_arg0]
  exact col_apply 6 (by decide) _ _ _ i

theorem tblB_6 (i : S16384.Idx) :
    G6.tbl (vf (W13 m)) 1 i = m (((0 : Dev nD) : Thread nD τ).loc main_arg2) (ValueIdx.ix2 (i 0) ⟨6, by decide⟩) := by
  have e : (W13 m 0 main_v59 : S16384.Idx → BitVec 32)
      = fun i => shapeCast S16384 (extractStridedSlice S16384x1 ![0, 6] (W12 m 0 main_arg2 : S16384x10.Idx → BitVec 32) Gen.slices_S16384x10_S16384x1_0_6) Gen.shapeCasts_S16384x1_S16384 i := by
    show StableHlo.after hostOps6 (W12 m 0) (Proc.devRef .tc main_v59) = _
    after_results; rfl
  show (W13 m 0 main_v59 : S16384.Idx → BitVec 32) i = _
  rw [e, W12_kept m 0 main_arg2 kept_arg2]
  exact col_apply 6 (by decide) _ _ _ i

theorem tblOk_6 (hin : InR m) :
    G6.TblOk (vf (W13 m)) :=
  ⟨fun i => by rw [tblA_6]; exact (hin 0).1 _, fun i => by rw [tblB_6]; exact (hin 0).2.2.1 _⟩

theorem tblA_7 (i : S16384.Idx) :
    G7.tbl (vf (W15 m)) 0 i = m (((0 : Dev nD) : Thread nD τ).loc main_arg0) (ValueIdx.ix2 (i 0) ⟨7, by decide⟩) := by
  have e : (W15 m 0 main_v66 : S16384.Idx → BitVec 32)
      = fun i => shapeCast S16384 (extractStridedSlice S16384x1 ![0, 7] (W14 m 0 main_arg0 : S16384x10.Idx → BitVec 32) Gen.slices_S16384x10_S16384x1_0_7) Gen.shapeCasts_S16384x1_S16384 i := by
    show StableHlo.after hostOps7 (W14 m 0) (Proc.devRef .tc main_v66) = _
    after_results; rfl
  show (W15 m 0 main_v66 : S16384.Idx → BitVec 32) i = _
  rw [e, W14_kept m 0 main_arg0 kept_arg0]
  exact col_apply 7 (by decide) _ _ _ i

theorem tblB_7 (i : S16384.Idx) :
    G7.tbl (vf (W15 m)) 1 i = m (((0 : Dev nD) : Thread nD τ).loc main_arg2) (ValueIdx.ix2 (i 0) ⟨7, by decide⟩) := by
  have e : (W15 m 0 main_v68 : S16384.Idx → BitVec 32)
      = fun i => shapeCast S16384 (extractStridedSlice S16384x1 ![0, 7] (W14 m 0 main_arg2 : S16384x10.Idx → BitVec 32) Gen.slices_S16384x10_S16384x1_0_7) Gen.shapeCasts_S16384x1_S16384 i := by
    show StableHlo.after hostOps7 (W14 m 0) (Proc.devRef .tc main_v68) = _
    after_results; rfl
  show (W15 m 0 main_v68 : S16384.Idx → BitVec 32) i = _
  rw [e, W14_kept m 0 main_arg2 kept_arg2]
  exact col_apply 7 (by decide) _ _ _ i

theorem tblOk_7 (hin : InR m) :
    G7.TblOk (vf (W15 m)) :=
  ⟨fun i => by rw [tblA_7]; exact (hin 0).1 _, fun i => by rw [tblB_7]; exact (hin 0).2.2.1 _⟩

theorem tblA_8 (i : S16384.Idx) :
    G8.tbl (vf (W17 m)) 0 i = m (((0 : Dev nD) : Thread nD τ).loc main_arg0) (ValueIdx.ix2 (i 0) ⟨8, by decide⟩) := by
  have e : (W17 m 0 main_v75 : S16384.Idx → BitVec 32)
      = fun i => shapeCast S16384 (extractStridedSlice S16384x1 ![0, 8] (W16 m 0 main_arg0 : S16384x10.Idx → BitVec 32) Gen.slices_S16384x10_S16384x1_0_8) Gen.shapeCasts_S16384x1_S16384 i := by
    show StableHlo.after hostOps8 (W16 m 0) (Proc.devRef .tc main_v75) = _
    after_results; rfl
  show (W17 m 0 main_v75 : S16384.Idx → BitVec 32) i = _
  rw [e, W16_kept m 0 main_arg0 kept_arg0]
  exact col_apply 8 (by decide) _ _ _ i

theorem tblB_8 (i : S16384.Idx) :
    G8.tbl (vf (W17 m)) 1 i = m (((0 : Dev nD) : Thread nD τ).loc main_arg2) (ValueIdx.ix2 (i 0) ⟨8, by decide⟩) := by
  have e : (W17 m 0 main_v77 : S16384.Idx → BitVec 32)
      = fun i => shapeCast S16384 (extractStridedSlice S16384x1 ![0, 8] (W16 m 0 main_arg2 : S16384x10.Idx → BitVec 32) Gen.slices_S16384x10_S16384x1_0_8) Gen.shapeCasts_S16384x1_S16384 i := by
    show StableHlo.after hostOps8 (W16 m 0) (Proc.devRef .tc main_v77) = _
    after_results; rfl
  show (W17 m 0 main_v77 : S16384.Idx → BitVec 32) i = _
  rw [e, W16_kept m 0 main_arg2 kept_arg2]
  exact col_apply 8 (by decide) _ _ _ i

theorem tblOk_8 (hin : InR m) :
    G8.TblOk (vf (W17 m)) :=
  ⟨fun i => by rw [tblA_8]; exact (hin 0).1 _, fun i => by rw [tblB_8]; exact (hin 0).2.2.1 _⟩

theorem tblA_9 (i : S16384.Idx) :
    G9.tbl (vf (W19 m)) 0 i = m (((0 : Dev nD) : Thread nD τ).loc main_arg0) (ValueIdx.ix2 (i 0) ⟨9, by decide⟩) := by
  have e : (W19 m 0 main_v84 : S16384.Idx → BitVec 32)
      = fun i => shapeCast S16384 (extractStridedSlice S16384x1 ![0, 9] (W18 m 0 main_arg0 : S16384x10.Idx → BitVec 32) Gen.slices_S16384x10_S16384x1_0_9) Gen.shapeCasts_S16384x1_S16384 i := by
    show StableHlo.after hostOps9 (W18 m 0) (Proc.devRef .tc main_v84) = _
    after_results; rfl
  show (W19 m 0 main_v84 : S16384.Idx → BitVec 32) i = _
  rw [e, W18_kept m 0 main_arg0 kept_arg0]
  exact col_apply 9 (by decide) _ _ _ i

theorem tblB_9 (i : S16384.Idx) :
    G9.tbl (vf (W19 m)) 1 i = m (((0 : Dev nD) : Thread nD τ).loc main_arg2) (ValueIdx.ix2 (i 0) ⟨9, by decide⟩) := by
  have e : (W19 m 0 main_v86 : S16384.Idx → BitVec 32)
      = fun i => shapeCast S16384 (extractStridedSlice S16384x1 ![0, 9] (W18 m 0 main_arg2 : S16384x10.Idx → BitVec 32) Gen.slices_S16384x10_S16384x1_0_9) Gen.shapeCasts_S16384x1_S16384 i := by
    show StableHlo.after hostOps9 (W18 m 0) (Proc.devRef .tc main_v86) = _
    after_results; rfl
  show (W19 m 0 main_v86 : S16384.Idx → BitVec 32) i = _
  rw [e, W18_kept m 0 main_arg2 kept_arg2]
  exact col_apply 9 (by decide) _ _ _ i

theorem tblOk_9 (hin : InR m) :
    G9.TblOk (vf (W19 m)) :=
  ⟨fun i => by rw [tblA_9]; exact (hin 0).1 _, fun i => by rw [tblB_9]; exact (hin 0).2.2.1 _⟩

theorem tblA_10 : G10.tbl (vf (W21 m)) 0 = m (((0 : Dev nD) : Thread nD τ).loc main_arg1) := W21_kept m 0 main_arg1 kept_arg1

theorem tblB_10 : G10.tbl (vf (W21 m)) 1 = m (((0 : Dev nD) : Thread nD τ).loc main_arg3) := W21_kept m 0 main_arg3 kept_arg3

theorem tblOk_10 (hin : InR m) :
    G10.TblOk (vf (W21 m)) :=
  ⟨fun i => by rw [tblA_10]; exact (hin 0).2.1 _, fun i => by rw [tblB_10]; exact (hin 0).2.2.2 _⟩

end Cert.KernelIdeal.Asm

end
-- ==== Proof.KSum.lean ====
import proofs.«404237_j24687472017957_2_alg».proof.Proof.Spec
import Mathlib.Algebra.BigOperators.Fin

noncomputable section

open scoped BigOperators

namespace Cert.KernelIdeal.Asm

open Idealize.ShloMosaic Idealize.ShloMosaic.ValueIdx Cert.Spec

abbrev A2 : Type := FVec Ideal (⟨2, ![16384, 256]⟩ : Shape) .f32

def gRow (U : Tab) (pu : Ctx) (k : Fin 10) : A2 := fun j => U (ix2 (row (pu (ix2 (j 0) k))) (j 1))

def tRow (W : Tab) (pw : Tgt) : A2 := fun j => W (ix2 (row (pw (ix1 (j 0)))) (j 1))

def accRows (U : Tab) (pu : Ctx) : Nat → A2
  | 0 => fun _ => (0 : EReal)
  | n + 1 => addf (accRows U pu n) (gRow U pu ⟨n % 10, Nat.mod_lt _ (by decide)⟩)

theorem accRows_ten (U : Tab) (pu : Ctx) (b : Fin 16384) (e : Fin 256) : accRows U pu 10 (ix2 b e) = ctxSum U pu b e := by
  unfold ctxSum
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_zero]
  rfl

theorem rowDot_acc (U W : Tab) (pu : Ctx) (pw : Tgt) (b : Fin 16384) :
    rowDot (accRows U pu 10) (tRow W pw) b = score U pu W pw b := by
  unfold rowDot score
  refine Finset.sum_congr rfl fun e _ => ?_
  rw [accRows_ten]
  rfl

theorem neg_lossSum_acc (pu : Ctx) (pw : Tgt) (nu : Ctx) (nw : Tgt) (U W : Tab) :
    -(lossSum (accRows U pu 10) (tRow W pw) (accRows U nu 10) (tRow W nw)) = lossVal pu pw nu nw U W := by
  unfold lossSum lossVal
  simp only [rowDot_acc]

end Cert.KernelIdeal.Asm

end
-- ==== Proof.KAcc.lean ====
import proofs.«404237_j24687472017957_2_alg».proof.Proof.FamOf
import proofs.«404237_j24687472017957_2_alg».proof.Proof.KSum
import Idealize.ShloMosaic.Lib.StableHlo.Run
import Idealize.ShloMosaic.Lib.Pipeline.Value
import Idealize.ShloMosaic.Lib.IdealHost

set_option maxRecDepth 16384

noncomputable section

namespace Cert.KernelIdeal.Asm

open Cert.KernelIdeal Cert.KernelIdeal.Gen
open Idealize.ShloMosaic Idealize.ShloMosaic.TcCoe Idealize.ShloMosaic.ValueIdx
open Idealize.SL.Sem
open Idealize.ShloMosaic.StableHlo

theorem squeeze_apply {α : Type} (x : S16384x1x256.Idx → α) (b : Fin 16384) (e : Fin 256) :
    shapeCast S16384x256 x shapeCasts_S16384x1x256_S16384x256 (ValueIdx.ix2 b e) = x (ValueIdx.ix3 b 0 e) := by
  refine shapeCast_apply x _ _ _ ?_
  rw [Shape.rowMajor_val_three, Shape.rowMajor_val_two]
  show (b.val * 1 + 0) * 256 + e.val = b.val * 256 + e.val
  omega

theorem scalar_apply {α : Type} (x : S1x1.Idx → α) (j : S_.Idx) :
    shapeCast S_ x shapeCasts_S1x1_S_ j = x (ValueIdx.ix2 0 0) := by
  refine shapeCast_apply x _ _ _ ?_
  rw [Shape.rowMajor_val_two]
  have : (S_.rowMajor j).val < 1 := (S_.rowMajor j).isLt
  show 0 * 1 + 0 = _
  omega

theorem zeros_eq (U : Spec.Tab) (pu : Spec.Ctx) :
    (broadcastInDim S16384x256 ![] bcast_S_S16384x256 (constant (F := Ideal) S_ .f32 0x00000000#32) : A2) = accRows U pu 0 := by
  funext j
  rw [broadcastInDim_scalar_apply, constant_apply, Ideal.ofBits_zero_f32]
  rfl

theorem acc_step (U : Spec.Tab) (pu : Spec.Ctx) (n : Nat) (k : Fin 10) (hk : k = ⟨n % 10, Nat.mod_lt _ (by decide)⟩) :
    addf (accRows U pu n)
        (shapeCast S16384x256 (fun y : S16384x1x256.Idx => gRow U pu k (ValueIdx.ix2 (y 0) (y 2))) shapeCasts_S16384x1x256_S16384x256)
      = accRows U pu (n + 1) := by
  subst hk
  funext j
  obtain ⟨b, e, rfl⟩ : ∃ b e, j = ValueIdx.ix2 b e := ⟨j 0, j 1, ValueIdx.eq_ix2 j⟩
  show accRows U pu n (ValueIdx.ix2 b e) + shapeCast S16384x256 _ shapeCasts_S16384x1x256_S16384x256 (ValueIdx.ix2 b e) = _
  rw [squeeze_apply]
  rfl

theorem tgt_step (W : Spec.Tab) (pw : Spec.Tgt) :
    shapeCast S16384x256 (fun y : S16384x1x256.Idx => tRow W pw (ValueIdx.ix2 (y 0) (y 2))) shapeCasts_S16384x1x256_S16384x256
      = tRow W pw := by
  funext j
  obtain ⟨b, e, rfl⟩ : ∃ b e, j = ValueIdx.ix2 b e := ⟨j 0, j 1, ValueIdx.eq_ix2 j⟩
  rw [squeeze_apply]

variable (m : (ℓ : Loc nD τ sig) → Buf (Elt Ideal) ℓ)

abbrev aU (c : Dev nD) : Spec.Tab := m ((c.tc : Thread nD τ).loc main_arg4)
abbrev aW (c : Dev nD) : Spec.Tab := m ((c.tc : Thread nD τ).loc main_arg5)
abbrev aPu (c : Dev nD) : Spec.Ctx := m ((c.tc : Thread nD τ).loc main_arg0)
abbrev aPw (c : Dev nD) : Spec.Tgt := m ((c.tc : Thread nD τ).loc main_arg1)
abbrev aNu (c : Dev nD) : Spec.Ctx := m ((c.tc : Thread nD τ).loc main_arg2)
abbrev aNw (c : Dev nD) : Spec.Tgt := m ((c.tc : Thread nD τ).loc main_arg3)

structure Gathered (c : Dev nD) : Prop where
  p0 : @Eq (S16384x1x256.Idx → EReal) (W2 m c main_v6_0) (fun y => gRow (aU m c) (aPu m c) 0 (ValueIdx.ix2 (y 0) (y 2)))
  n0 : @Eq (S16384x1x256.Idx → EReal) (W2 m c main_v6_1) (fun y => gRow (aU m c) (aNu m c) 0 (ValueIdx.ix2 (y 0) (y 2)))
  p1 : @Eq (S16384x1x256.Idx → EReal) (W4 m c main_v15_0) (fun y => gRow (aU m c) (aPu m c) 1 (ValueIdx.ix2 (y 0) (y 2)))
  n1 : @Eq (S16384x1x256.Idx → EReal) (W4 m c main_v15_1) (fun y => gRow (aU m c) (aNu m c) 1 (ValueIdx.ix2 (y 0) (y 2)))
  p2 : @Eq (S16384x1x256.Idx → EReal) (W6 m c main_v24_0) (fun y => gRow (aU m c) (aPu m c) 2 (ValueIdx.ix2 (y 0) (y 2)))
  n2 : @Eq (S16384x1x256.Idx → EReal) (W6 m c main_v24_1) (fun y => gRow (aU m c) (aNu m c) 2 (ValueIdx.ix2 (y 0) (y 2)))
  p3 : @Eq (S16384x1x256.Idx → EReal) (W8 m c main_v33_0) (fun y => gRow (aU m c) (aPu m c) 3 (ValueIdx.ix2 (y 0) (y 2)))
  n3 : @Eq (S16384x1x256.Idx → EReal) (W8 m c main_v33_1) (fun y => gRow (aU m c) (aNu m c) 3 (ValueIdx.ix2 (y 0) (y 2)))
  p4 : @Eq (S16384x1x256.Idx → EReal) (W10 m c main_v42_0) (fun y => gRow (aU m c) (aPu m c) 4 (ValueIdx.ix2 (y 0) (y 2)))
  n4 : @Eq (S16384x1x256.Idx → EReal) (W10 m c main_v42_1) (fun y => gRow (aU m c) (aNu m c) 4 (ValueIdx.ix2 (y 0) (y 2)))
  p5 : @Eq (S16384x1x256.Idx → EReal) (W12 m c main_v51_0) (fun y => gRow (aU m c) (aPu m c) 5 (ValueIdx.ix2 (y 0) (y 2)))
  n5 : @Eq (S16384x1x256.Idx → EReal) (W12 m c main_v51_1) (fun y => gRow (aU m c) (aNu m c) 5 (ValueIdx.ix2 (y 0) (y 2)))
  p6 : @Eq (S16384x1x256.Idx → EReal) (W14 m c main_v60_0) (fun y => gRow (aU m c) (aPu m c) 6 (ValueIdx.ix2 (y 0) (y 2)))
  n6 : @Eq (S16384x1x256.Idx → EReal) (W14 m c main_v60_1) (fun y => gRow (aU m c) (aNu m c) 6 (ValueIdx.ix2 (y 0) (y 2)))
  p7 : @Eq (S16384x1x256.Idx → EReal) (W16 m c main_v69_0) (fun y => gRow (aU m c) (aPu m c) 7 (ValueIdx.ix2 (y 0) (y 2)))
  n7 : @Eq (S16384x1x256.Idx → EReal) (W16 m c main_v69_1) (fun y => gRow (aU m c) (aNu m c) 7 (ValueIdx.ix2 (y 0) (y 2)))
  p8 : @Eq (S16384x1x256.Idx → EReal) (W18 m c main_v78_0) (fun y => gRow (aU m c) (aPu m c) 8 (ValueIdx.ix2 (y 0) (y 2)))
  n8 : @Eq (S16384x1x256.Idx → EReal) (W18 m c main_v78_1) (fun y => gRow (aU m c) (aNu m c) 8 (ValueIdx.ix2 (y 0) (y 2)))
  p9 : @Eq (S16384x1x256.Idx → EReal) (W20 m c main_v87_0) (fun y => gRow (aU m c) (aPu m c) 9 (ValueIdx.ix2 (y 0) (y 2)))
  n9 : @Eq (S16384x1x256.Idx → EReal) (W20 m c main_v87_1) (fun y => gRow (aU m c) (aNu m c) 9 (ValueIdx.ix2 (y 0) (y 2)))
  p10 : @Eq (S16384x1x256.Idx → EReal) (W22 m c main_v92_0) (fun y => tRow (aW m c) (aPw m c) (ValueIdx.ix2 (y 0) (y 2)))
  n10 : @Eq (S16384x1x256.Idx → EReal) (W22 m c main_v92_1) (fun y => tRow (aW m c) (aNw m c) (ValueIdx.ix2 (y 0) (y 2)))

theorem pos_0 (c : Dev nD) : @Eq A2 (W1 m c main_v0) (accRows (aU m c) (aPu m c) 0) := by
  have e : @Eq A2 (W1 m c main_v0) (broadcastInDim S16384x256 ![] bcast_S_S16384x256 (constant (F := Ideal) S_ .f32 0x00000000#32)) := by
    show StableHlo.after hostOps0 (W0 m c) (Proc.devRef .tc main_v0) = _
    after_results <;> rfl
  rw [e, zeros_eq]
theorem neg_0 (c : Dev nD) : @Eq A2 (W1 m c main_v1) (accRows (aU m c) (aNu m c) 0) := by
  have e : @Eq A2 (W1 m c main_v1) (broadcastInDim S16384x256 ![] bcast_S_S16384x256 (constant (F := Ideal) S_ .f32 0x00000000#32)) := by
    show StableHlo.after hostOps0 (W0 m c) (Proc.devRef .tc main_v1) = _
    after_results <;> rfl
  rw [e, zeros_eq]

theorem pos_1 (c : Dev nD) (h : Gathered m c) : @Eq A2 (W3 m c main_v9) (accRows (aU m c) (aPu m c) 1) := by
  have e : @Eq A2 (W3 m c main_v9) (addf (W2 m c main_v0) (shapeCast S16384x256 (W2 m c main_v6_0) shapeCasts_S16384x1x256_S16384x256)) := by
    show StableHlo.after hostOps1 (W2 m c) (Proc.devRef .tc main_v9) = _
    after_results <;> rfl
  rw [e, W2_of_ne m c main_v0 (by decide), pos_0 m c, h.p0]
  exact acc_step _ _ 0 0 rfl

theorem neg_1 (c : Dev nD) (h : Gathered m c) : @Eq A2 (W3 m c main_v10) (accRows (aU m c) (aNu m c) 1) := by
  have e : @Eq A2 (W3 m c main_v10) (addf (W2 m c main_v1) (shapeCast S16384x256 (W2 m c main_v6_1) shapeCasts_S16384x1x256_S16384x256)) := by
    show StableHlo.after hostOps1 (W2 m c) (Proc.devRef .tc main_v10) = _
    after_results <;> rfl
  rw [e, W2_of_ne m c main_v1 (by decide), neg_0 m c, h.n0]
  exact acc_step _ _ 0 0 rfl

theorem pos_2 (c : Dev nD) (h : Gathered m c) : @Eq A2 (W5 m c main_v18) (accRows (aU m c) (aPu m c) 2) := by
  have e : @Eq A2 (W5 m c main_v18) (addf (W4 m c main_v9) (shapeCast S16384x256 (W4 m c main_v15_0) shapeCasts_S16384x1x256_S16384x256)) := by
    show StableHlo.after hostOps2 (W4 m c) (Proc.devRef .tc main_v18) = _
    after_results <;> rfl
  rw [e, W4_of_ne m c main_v9 (by decide), pos_1 m c h, h.p1]
  exact acc_step _ _ 1 1 rfl

theorem neg_2 (c : Dev nD) (h : Gathered m c) : @Eq A2 (W5 m c main_v19) (accRows (aU m c) (aNu m c) 2) := by
  have e : @Eq A2 (W5 m c main_v19) (addf (W4 m c main_v10) (shapeCast S16384x256 (W4 m c main_v15_1) shapeCasts_S16384x1x256_S16384x256)) := by
    show StableHlo.after hostOps2 (W4 m c) (Proc.devRef .tc main_v19) = _
    after_results <;> rfl
  rw [e, W4_of_ne m c main_v10 (by decide), neg_1 m c h, h.n1]
  exact acc_step _ _ 1 1 rfl

theorem pos_3 (c : Dev nD) (h : Gathered m c) : @Eq A2 (W7 m c main_v27) (accRows (aU m c) (aPu m c) 3) := by
  have e : @Eq A2 (W7 m c main_v27) (addf (W6 m c main_v18) (shapeCast S16384x256 (W6 m c main_v24_0) shapeCasts_S16384x1x256_S16384x256)) := by
    show StableHlo.after hostOps3 (W6 m c) (Proc.devRef .tc main_v27) = _
    after_results <;> rfl
  rw [e, W6_of_ne m c main_v18 (by decide), pos_2 m c h, h.p2]
  exact acc_step _ _ 2 2 rfl

theorem neg_3 (c : Dev nD) (h : Gathered m c) : @Eq A2 (W7 m c main_v28) (accRows (aU m c) (aNu m c) 3) := by
  have e : @Eq A2 (W7 m c main_v28) (addf (W6 m c main_v19) (shapeCast S16384x256 (W6 m c main_v24_1) shapeCasts_S16384x1x256_S16384x256)) := by
    show StableHlo.after hostOps3 (W6 m c) (Proc.devRef .tc main_v28) = _
    after_results <;> rfl
  rw [e, W6_of_ne m c main_v19 (by decide), neg_2 m c h, h.n2]
  exact acc_step _ _ 2 2 rfl

theorem pos_4 (c : Dev nD) (h : Gathered m c) : @Eq A2 (W9 m c main_v36) (accRows (aU m c) (aPu m c) 4) := by
  have e : @Eq A2 (W9 m c main_v36) (addf (W8 m c main_v27) (shapeCast S16384x256 (W8 m c main_v33_0) shapeCasts_S16384x1x256_S16384x256)) := by
    show StableHlo.after hostOps4 (W8 m c) (Proc.devRef .tc main_v36) = _
    after_results <;> rfl
  rw [e, W8_of_ne m c main_v27 (by decide), pos_3 m c h, h.p3]
  exact acc_step _ _ 3 3 rfl

theorem neg_4 (c : Dev nD) (h : Gathered m c) : @Eq A2 (W9 m c main_v37) (accRows (aU m c) (aNu m c) 4) := by
  have e : @Eq A2 (W9 m c main_v37) (addf (W8 m c main_v28) (shapeCast S16384x256 (W8 m c main_v33_1) shapeCasts_S16384x1x256_S16384x256)) := by
    show StableHlo.after hostOps4 (W8 m c) (Proc.devRef .tc main_v37) = _
    after_results <;> rfl
  rw [e, W8_of_ne m c main_v28 (by decide), neg_3 m c h, h.n3]
  exact acc_step _ _ 3 3 rfl

theorem pos_5 (c : Dev nD) (h : Gathered m c) : @Eq A2 (W11 m c main_v45) (accRows (aU m c) (aPu m c) 5) := by
  have e : @Eq A2 (W11 m c main_v45) (addf (W10 m c main_v36) (shapeCast S16384x256 (W10 m c main_v42_0) shapeCasts_S16384x1x256_S16384x256)) := by
    show StableHlo.after hostOps5 (W10 m c) (Proc.devRef .tc main_v45) = _
    after_results <;> rfl
  rw [e, W10_of_ne m c main_v36 (by decide), pos_4 m c h, h.p4]
  exact acc_step _ _ 4 4 rfl

theorem neg_5 (c : Dev nD) (h : Gathered m c) : @Eq A2 (W11 m c main_v46) (accRows (aU m c) (aNu m c) 5) := by
  have e : @Eq A2 (W11 m c main_v46) (addf (W10 m c main_v37) (shapeCast S16384x256 (W10 m c main_v42_1) shapeCasts_S16384x1x256_S16384x256)) := by
    show StableHlo.after hostOps5 (W10 m c) (Proc.devRef .tc main_v46) = _
    after_results <;> rfl
  rw [e, W10_of_ne m c main_v37 (by decide), neg_4 m c h, h.n4]
  exact acc_step _ _ 4 4 rfl

theorem pos_6 (c : Dev nD) (h : Gathered m c) : @Eq A2 (W13 m c main_v54) (accRows (aU m c) (aPu m c) 6) := by
  have e : @Eq A2 (W13 m c main_v54) (addf (W12 m c main_v45) (shapeCast S16384x256 (W12 m c main_v51_0) shapeCasts_S16384x1x256_S16384x256)) := by
    show StableHlo.after hostOps6 (W12 m c) (Proc.devRef .tc main_v54) = _
    after_results <;> rfl
  rw [e, W12_of_ne m c main_v45 (by decide), pos_5 m c h, h.p5]
  exact acc_step _ _ 5 5 rfl

theorem neg_6 (c : Dev nD) (h : Gathered m c) : @Eq A2 (W13 m c main_v55) (accRows (aU m c) (aNu m c) 6) := by
  have e : @Eq A2 (W13 m c main_v55) (addf (W12 m c main_v46) (shapeCast S16384x256 (W12 m c main_v51_1) shapeCasts_S16384x1x256_S16384x256)) := by
    show StableHlo.after hostOps6 (W12 m c) (Proc.devRef .tc main_v55) = _
    after_results <;> rfl
  rw [e, W12_of_ne m c main_v46 (by decide), neg_5 m c h, h.n5]
  exact acc_step _ _ 5 5 rfl

theorem pos_7 (c : Dev nD) (h : Gathered m c) : @Eq A2 (W15 m c main_v63) (accRows (aU m c) (aPu m c) 7) := by
  have e : @Eq A2 (W15 m c main_v63) (addf (W14 m c main_v54) (shapeCast S16384x256 (W14 m c main_v60_0) shapeCasts_S16384x1x256_S16384x256)) := by
    show StableHlo.after hostOps7 (W14 m c) (Proc.devRef .tc main_v63) = _
    after_results <;> rfl
  rw [e, W14_of_ne m c main_v54 (by decide), pos_6 m c h, h.p6]
  exact acc_step _ _ 6 6 rfl

theorem neg_7 (c : Dev nD) (h : Gathered m c) : @Eq A2 (W15 m c main_v64) (accRows (aU m c) (aNu m c) 7) := by
  have e : @Eq A2 (W15 m c main_v64) (addf (W14 m c main_v55) (shapeCast S16384x256 (W14 m c main_v60_1) shapeCasts_S16384x1x256_S16384x256)) := by
    show StableHlo.after hostOps7 (W14 m c) (Proc.devRef .tc main_v64) = _
    after_results <;> rfl
  rw [e, W14_of_ne m c main_v55 (by decide), neg_6 m c h, h.n6]
  exact acc_step _ _ 6 6 rfl

theorem pos_8 (c : Dev nD) (h : Gathered m c) : @Eq A2 (W17 m c main_v72) (accRows (aU m c) (aPu m c) 8) := by
  have e : @Eq A2 (W17 m c main_v72) (addf (W16 m c main_v63) (shapeCast S16384x256 (W16 m c main_v69_0) shapeCasts_S16384x1x256_S16384x256)) := by
    show StableHlo.after hostOps8 (W16 m c) (Proc.devRef .tc main_v72) = _
    after_results <;> rfl
  rw [e, W16_of_ne m c main_v63 (by decide), pos_7 m c h, h.p7]
  exact acc_step _ _ 7 7 rfl

theorem neg_8 (c : Dev nD) (h : Gathered m c) : @Eq A2 (W17 m c main_v73) (accRows (aU m c) (aNu m c) 8) := by
  have e : @Eq A2 (W17 m c main_v73) (addf (W16 m c main_v64) (shapeCast S16384x256 (W16 m c main_v69_1) shapeCasts_S16384x1x256_S16384x256)) := by
    show StableHlo.after hostOps8 (W16 m c) (Proc.devRef .tc main_v73) = _
    after_results <;> rfl
  rw [e, W16_of_ne m c main_v64 (by decide), neg_7 m c h, h.n7]
  exact acc_step _ _ 7 7 rfl

theorem pos_9 (c : Dev nD) (h : Gathered m c) : @Eq A2 (W19 m c main_v81) (accRows (aU m c) (aPu m c) 9) := by
  have e : @Eq A2 (W19 m c main_v81) (addf (W18 m c main_v72) (shapeCast S16384x256 (W18 m c main_v78_0) shapeCasts_S16384x1x256_S16384x256)) := by
    show StableHlo.after hostOps9 (W18 m c) (Proc.devRef .tc main_v81) = _
    after_results <;> rfl
  rw [e, W18_of_ne m c main_v72 (by decide), pos_8 m c h, h.p8]
  exact acc_step _ _ 8 8 rfl

theorem neg_9 (c : Dev nD) (h : Gathered m c) : @Eq A2 (W19 m c main_v82) (accRows (aU m c) (aNu m c) 9) := by
  have e : @Eq A2 (W19 m c main_v82) (addf (W18 m c main_v73) (shapeCast S16384x256 (W18 m c main_v78_1) shapeCasts_S16384x1x256_S16384x256)) := by
    show StableHlo.after hostOps9 (W18 m c) (Proc.devRef .tc main_v82) = _
    after_results <;> rfl
  rw [e, W18_of_ne m c main_v73 (by decide), neg_8 m c h, h.n8]
  exact acc_step _ _ 8 8 rfl

theorem pos_10 (c : Dev nD) (h : Gathered m c) : @Eq A2 (W21 m c main_v90) (accRows (aU m c) (aPu m c) 10) := by
  have e : @Eq A2 (W21 m c main_v90) (addf (W20 m c main_v81) (shapeCast S16384x256 (W20 m c main_v87_0) shapeCasts_S16384x1x256_S16384x256)) := by
    show StableHlo.after hostOps10 (W20 m c) (Proc.devRef .tc main_v90) = _
    after_results <;> rfl
  rw [e, W20_of_ne m c main_v81 (by decide), pos_9 m c h, h.p9]
  exact acc_step _ _ 9 9 rfl

theorem neg_10 (c : Dev nD) (h : Gathered m c) : @Eq A2 (W21 m c main_v91) (accRows (aU m c) (aNu m c) 10) := by
  have e : @Eq A2 (W21 m c main_v91) (addf (W20 m c main_v82) (shapeCast S16384x256 (W20 m c main_v87_1) shapeCasts_S16384x1x256_S16384x256)) := by
    show StableHlo.after hostOps10 (W20 m c) (Proc.devRef .tc main_v91) = _
    after_results <;> rfl
  rw [e, W20_of_ne m c main_v82 (by decide), neg_9 m c h, h.n9]
  exact acc_step _ _ 9 9 rfl

theorem in_PU (c : Dev nD) (h : Gathered m c) : @Eq A2 (W23 m c main_v90) (accRows (aU m c) (aPu m c) 10) := by
  rw [W23_of m c main_v90 (by decide), W22_of_ne m c main_v90 (by decide), pos_10 m c h]
theorem in_NU (c : Dev nD) (h : Gathered m c) : @Eq A2 (W23 m c main_v91) (accRows (aU m c) (aNu m c) 10) := by
  rw [W23_of m c main_v91 (by decide), W22_of_ne m c main_v91 (by decide), neg_10 m c h]
theorem in_PW (c : Dev nD) (h : Gathered m c) : @Eq A2 (W23 m c main_v93) (tRow (aW m c) (aPw m c)) := by
  have e : @Eq A2 (W23 m c main_v93) (shapeCast S16384x256 (W22 m c main_v92_0) shapeCasts_S16384x1x256_S16384x256) := by
    show StableHlo.after hostOps11 (W22 m c) (Proc.devRef .tc main_v93) = _
    after_results <;> rfl
  rw [e, h.p10, tgt_step]
theorem in_NW (c : Dev nD) (h : Gathered m c) : @Eq A2 (W23 m c main_v94) (tRow (aW m c) (aNw m c)) := by
  have e : @Eq A2 (W23 m c main_v94) (shapeCast S16384x256 (W22 m c main_v92_1) shapeCasts_S16384x1x256_S16384x256) := by
    show StableHlo.after hostOps11 (W22 m c) (Proc.devRef .tc main_v94) = _
    after_results <;> rfl
  rw [e, h.n10, tgt_step]

theorem W25_of_gathered (c : Dev nD) (h : Gathered m c)
    (hL : @Eq (S1x1.Idx → EReal) ((L11.dat (vf (W23 m)) c).arrAt 4 cfg11.N)
      (fun _ => Cert.Spec.lossSum (W23 m c main_v90) (W23 m c main_v93) (W23 m c main_v91) (W23 m c main_v94))) :
    W25 m c main_v97 = Cert.Spec.loss (aPu m c) (aPw m c) (aNu m c) (aNw m c) (aU m c) (aW m c) := by
  have e : @Eq (FVec Ideal S_ .f32) (W25 m c main_v97) (Host.negf (shapeCast S_ (W24 m c main_v95) shapeCasts_S1x1_S_)) := by
    show StableHlo.after hostOps12 (W24 m c) (Proc.devRef .tc main_v97) = _
    after_results <;> rfl
  have e95 : @Eq (S1x1.Idx → EReal) (W24 m c main_v95) ((L11.dat (vf (W23 m)) c).arrAt 4 cfg11.N) := W24_arr m c 4
  rw [e, e95, hL, in_PU m c h, in_PW m c h, in_NU m c h, in_NW m c h]
  funext j
  show -(shapeCast S_ _ shapeCasts_S1x1_S_ j) = _
  rw [scalar_apply]
  exact neg_lossSum_acc _ _ _ _ _ _

end Cert.KernelIdeal.Asm

end
-- ==== Proof.GVal.lean ====
import proofs.«404237_j24687472017957_2_alg».proof.Proof.Landed
import Idealize.ShloMosaic.Lib.Pipeline

noncomputable section

namespace Cert.KernelIdeal.Landed

open Cert.KernelIdeal
open Idealize.ShloMosaic

variable {F : FTy → Type} [FloatOps F]

/-- A gathered array: row r is the table row that entry r of the index table names. -/
def gathered (fh : S199999x256.Idx → Elt F .f32) (T : S16384.Idx → BitVec 32) : S16384x1x256.Idx → Elt F .f32 :=
  fun y => fh (ValueIdx.ix2 (Cert.Spec.row (T (ValueIdx.ix1 (y 0)))) (y 2))

theorem gathered_at (fh : S199999x256.Idx → Elt F .f32) (T : S16384.Idx → BitVec 32) (i : S16384x1x256.Idx) (r : Fin 16384) (z : Fin 256)
    (h0 : (i 0).val = r.val) (h2 : (i 2).val = z.val) : gathered fh T i = fh (ValueIdx.ix2 (Cert.Spec.row (T (ValueIdx.ix1 r))) z) := by
  have e0 : i 0 = r := Fin.ext h0
  have e2 : i 2 = z := Fin.ext h2
  unfold gathered; rw [e0, e2]

/-- An output window whose block index differs between every point and the next is written back at every point. -/
theorem flush_of_moves {sg : RefSig} {G : Pipeline.Grid} (w : Pipeline.Window sg G) (hout : w.isOut = true)
    (hmove : ∀ (t : Fin G.N) (h : t.val + 1 < G.N), w.index ⟨t.val + 1, h⟩ ≠ w.index t) (t : Fin G.N) : w.flush t = true := by
  unfold Pipeline.Window.flush
  simp only [hout, Bool.true_and, Bool.or_eq_true, decide_eq_true_eq]
  by_cases h : t.val + 1 < G.N
  · exact Or.inr ⟨h, hmove t h⟩
  · exact Or.inl (by have := t.isLt; omega)

end Cert.KernelIdeal.Landed

end
-- ==== Proof.G0Val.lean ====
import proofs.«404237_j24687472017957_2_alg».proof.Proof.G0
import proofs.«404237_j24687472017957_2_alg».proof.Proof.GVal
import Idealize.ShloMosaic.Lib.Pipeline.Value

set_option maxRecDepth 16384

noncomputable section

namespace Cert.KernelIdeal.G0

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid0.N) : (grid0.coords t 0).val = t.val := by
  have ht : t.val < 16384 := lt_of_lt_of_eq t.isLt N_0
  show t.val / grid0.stride 0 % 16384 = t.val
  rw [show grid0.stride 0 = 1 from by decide, Nat.div_one, Nat.mod_eq_of_lt ht]

/-- Both outputs' block index at coordinates i is (i,0,0): i < 2^32 survives the 32-bit word. -/
theorem transform_eq (i : grid0.Coords) : cc0_transform_1 i = ![(i 0).val, 0, 0] ∧ cc0_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg0 (F := F)).Adm)

theorem index_0 (t : Fin (cfg0 a).N) : ((cfg0 a).win 0).index t = ![t.val, 0, 0] := by
  show cc0_transform_1 (grid0.coords t) = _
  rw [(transform_eq _).1, coords_val]

theorem index_1 (t : Fin (cfg0 a).N) : ((cfg0 a).win 1).index t = ![t.val, 0, 0] := by
  show cc0_transform_2 (grid0.coords t) = _
  rw [(transform_eq _).2, coords_val]

/-- Block t of a gathered array is the row that entry t of its index table names. -/
theorem read_blk_0 (t : Fin (cfg0 a).N) (fh : S199999x256.Idx → Elt F .f32) (T : S16384.Idx → BitVec 32) :
    (((cfg0 a).win 0).blk t).view.read (Elt F) (gathered fh T) = landed fh (T (ValueIdx.ix1 (grid0.coords t 0))) :=
  funext fun (y : S1x1x256.Idx) => gathered_at fh T _ (grid0.coords t 0) (y 2)
    (by show ((cfg0 a).win 0).index t (0 : Fin 3) * 1 + 1 * (y (0 : Fin 3)).val = (grid0.coords t 0).val
        have hy : (y (0 : Fin 3)).val < 1 := (y (0 : Fin 3)).isLt
        rw [index_0, coords_val]; show t.val * 1 + 1 * (y (0 : Fin 3)).val = t.val; omega)
    (by show ((cfg0 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg0 a).N) (fh : S199999x256.Idx → Elt F .f32) (T : S16384.Idx → BitVec 32) :
    (((cfg0 a).win 1).blk t).view.read (Elt F) (gathered fh T) = landed fh (T (ValueIdx.ix1 (grid0.coords t 0))) :=
  funext fun (y : S1x1x256.Idx) => gathered_at fh T _ (grid0.coords t 0) (y 2)
    (by show ((cfg0 a).win 1).index t (0 : Fin 3) * 1 + 1 * (y (0 : Fin 3)).val = (grid0.coords t 0).val
        have hy : (y (0 : Fin 3)).val < 1 := (y (0 : Fin 3)).isLt
        rw [index_1, coords_val]; show t.val * 1 + 1 * (y (0 : Fin 3)).val = t.val; omega)
    (by show ((cfg0 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg0 a).N) : ((cfg0 a).win 0).flush t = true :=
  flush_of_moves _ rfl (fun t h e => by
    rw [index_0, index_0] at e
    have e1 : t.val + 1 = t.val := congrFun e (0 : Fin 3)
    omega) t

theorem flush_1 (t : Fin (cfg0 a).N) : ((cfg0 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg0 a).N) (i : S16384x1x256.Idx) :
    i ∈ (((cfg0 a).win 0).blk t).view.set ↔ ∀ d : Fin 3, ((cfg0 a).win 0).index t d * S1x1x256.size d ≤ (i d).val ∧ (i d).val < ((cfg0 a).win 0).index t d * S1x1x256.size d + S1x1x256.size d := by
  have hs : ((View.whole main_v6_0).slice (((cfg0 a).win 0).rect t)).set = (((cfg0 a).win 0).rect t).set :=
    View.set_slice_whole main_v6_0 _
  show i ∈ ((View.whole main_v6_0).slice (((cfg0 a).win 0).rect t)).set ↔ _
  exact (Eq.to_iff (congrArg (fun s => i ∈ s) hs)).trans Rect.mem_set_unit

theorem cover_0 (i : S16384x1x256.Idx) :
    ∃ t : Fin (cfg0 a).N, ((cfg0 a).win 0).flush t = true ∧ i ∈ (((cfg0 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_0 : (cfg0 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg0 a).N) (i : S16384x1x256.Idx) :
    i ∈ (((cfg0 a).win 1).blk t).view.set ↔ ∀ d : Fin 3, ((cfg0 a).win 1).index t d * S1x1x256.size d ≤ (i d).val ∧ (i d).val < ((cfg0 a).win 1).index t d * S1x1x256.size d + S1x1x256.size d := by
  have hs : ((View.whole main_v6_1).slice (((cfg0 a).win 1).rect t)).set = (((cfg0 a).win 1).rect t).set :=
    View.set_slice_whole main_v6_1 _
  show i ∈ ((View.whole main_v6_1).slice (((cfg0 a).win 1).rect t)).set ↔ _
  exact (Eq.to_iff (congrArg (fun s => i ∈ s) hs)).trans Rect.mem_set_unit

theorem cover_1 (i : S16384x1x256.Idx) :
    ∃ t : Fin (cfg0 a).N, ((cfg0 a).win 1).flush t = true ∧ i ∈ (((cfg0 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_0 : (cfg0 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G0

end
-- ==== Proof.G1Val.lean ====
import proofs.«404237_j24687472017957_2_alg».proof.Proof.G1
import proofs.«404237_j24687472017957_2_alg».proof.Proof.GVal
import Idealize.ShloMosaic.Lib.Pipeline.Value

set_option maxRecDepth 16384

noncomputable section

namespace Cert.KernelIdeal.G1

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid1.N) : (grid1.coords t 0).val = t.val := by
  have ht : t.val < 16384 := lt_of_lt_of_eq t.isLt N_1
  show t.val / grid1.stride 0 % 16384 = t.val
  rw [show grid1.stride 0 = 1 from by decide, Nat.div_one, Nat.mod_eq_of_lt ht]

/-- Both outputs' block index at coordinates i is (i,0,0): i < 2^32 survives the 32-bit word. -/
theorem transform_eq (i : grid1.Coords) : cc1_transform_1 i = ![(i 0).val, 0, 0] ∧ cc1_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg1 (F := F)).Adm)

theorem index_0 (t : Fin (cfg1 a).N) : ((cfg1 a).win 0).index t = ![t.val, 0, 0] := by
  show cc1_transform_1 (grid1.coords t) = _
  rw [(transform_eq _).1, coords_val]

theorem index_1 (t : Fin (cfg1 a).N) : ((cfg1 a).win 1).index t = ![t.val, 0, 0] := by
  show cc1_transform_2 (grid1.coords t) = _
  rw [(transform_eq _).2, coords_val]

/-- Block t of a gathered array is the row that entry t of its index table names. -/
theorem read_blk_0 (t : Fin (cfg1 a).N) (fh : S199999x256.Idx → Elt F .f32) (T : S16384.Idx → BitVec 32) :
    (((cfg1 a).win 0).blk t).view.read (Elt F) (gathered fh T) = landed fh (T (ValueIdx.ix1 (grid1.coords t 0))) :=
  funext fun (y : S1x1x256.Idx) => gathered_at fh T _ (grid1.coords t 0) (y 2)
    (by show ((cfg1 a).win 0).index t (0 : Fin 3) * 1 + 1 * (y (0 : Fin 3)).val = (grid1.coords t 0).val
        have hy : (y (0 : Fin 3)).val < 1 := (y (0 : Fin 3)).isLt
        rw [index_0, coords_val]; show t.val * 1 + 1 * (y (0 : Fin 3)).val = t.val; omega)
    (by show ((cfg1 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg1 a).N) (fh : S199999x256.Idx → Elt F .f32) (T : S16384.Idx → BitVec 32) :
    (((cfg1 a).win 1).blk t).view.read (Elt F) (gathered fh T) = landed fh (T (ValueIdx.ix1 (grid1.coords t 0))) :=
  funext fun (y : S1x1x256.Idx) => gathered_at fh T _ (grid1.coords t 0) (y 2)
    (by show ((cfg1 a).win 1).index t (0 : Fin 3) * 1 + 1 * (y (0 : Fin 3)).val = (grid1.coords t 0).val
        have hy : (y (0 : Fin 3)).val < 1 := (y (0 : Fin 3)).isLt
        rw [index_1, coords_val]; show t.val * 1 + 1 * (y (0 : Fin 3)).val = t.val; omega)
    (by show ((cfg1 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg1 a).N) : ((cfg1 a).win 0).flush t = true :=
  flush_of_moves _ rfl (fun t h e => by
    rw [index_0, index_0] at e
    have e1 : t.val + 1 = t.val := congrFun e (0 : Fin 3)
    omega) t

theorem flush_1 (t : Fin (cfg1 a).N) : ((cfg1 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg1 a).N) (i : S16384x1x256.Idx) :
    i ∈ (((cfg1 a).win 0).blk t).view.set ↔ ∀ d : Fin 3, ((cfg1 a).win 0).index t d * S1x1x256.size d ≤ (i d).val ∧ (i d).val < ((cfg1 a).win 0).index t d * S1x1x256.size d + S1x1x256.size d := by
  have hs : ((View.whole main_v15_0).slice (((cfg1 a).win 0).rect t)).set = (((cfg1 a).win 0).rect t).set :=
    View.set_slice_whole main_v15_0 _
  show i ∈ ((View.whole main_v15_0).slice (((cfg1 a).win 0).rect t)).set ↔ _
  exact (Eq.to_iff (congrArg (fun s => i ∈ s) hs)).trans Rect.mem_set_unit

theorem cover_0 (i : S16384x1x256.Idx) :
    ∃ t : Fin (cfg1 a).N, ((cfg1 a).win 0).flush t = true ∧ i ∈ (((cfg1 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_1 : (cfg1 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg1 a).N) (i : S16384x1x256.Idx) :
    i ∈ (((cfg1 a).win 1).blk t).view.set ↔ ∀ d : Fin 3, ((cfg1 a).win 1).index t d * S1x1x256.size d ≤ (i d).val ∧ (i d).val < ((cfg1 a).win 1).index t d * S1x1x256.size d + S1x1x256.size d := by
  have hs : ((View.whole main_v15_1).slice (((cfg1 a).win 1).rect t)).set = (((cfg1 a).win 1).rect t).set :=
    View.set_slice_whole main_v15_1 _
  show i ∈ ((View.whole main_v15_1).slice (((cfg1 a).win 1).rect t)).set ↔ _
  exact (Eq.to_iff (congrArg (fun s => i ∈ s) hs)).trans Rect.mem_set_unit

theorem cover_1 (i : S16384x1x256.Idx) :
    ∃ t : Fin (cfg1 a).N, ((cfg1 a).win 1).flush t = true ∧ i ∈ (((cfg1 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_1 : (cfg1 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G1

end
-- ==== Proof.G2Val.lean ====
import proofs.«404237_j24687472017957_2_alg».proof.Proof.G2
import proofs.«404237_j24687472017957_2_alg».proof.Proof.GVal
import Idealize.ShloMosaic.Lib.Pipeline.Value

set_option maxRecDepth 16384

noncomputable section

namespace Cert.KernelIdeal.G2

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid2.N) : (grid2.coords t 0).val = t.val := by
  have ht : t.val < 16384 := lt_of_lt_of_eq t.isLt N_2
  show t.val / grid2.stride 0 % 16384 = t.val
  rw [show grid2.stride 0 = 1 from by decide, Nat.div_one, Nat.mod_eq_of_lt ht]

/-- Both outputs' block index at coordinates i is (i,0,0): i < 2^32 survives the 32-bit word. -/
theorem transform_eq (i : grid2.Coords) : cc2_transform_1 i = ![(i 0).val, 0, 0] ∧ cc2_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg2 (F := F)).Adm)

theorem index_0 (t : Fin (cfg2 a).N) : ((cfg2 a).win 0).index t = ![t.val, 0, 0] := by
  show cc2_transform_1 (grid2.coords t) = _
  rw [(transform_eq _).1, coords_val]

theorem index_1 (t : Fin (cfg2 a).N) : ((cfg2 a).win 1).index t = ![t.val, 0, 0] := by
  show cc2_transform_2 (grid2.coords t) = _
  rw [(transform_eq _).2, coords_val]

/-- Block t of a gathered array is the row that entry t of its index table names. -/
theorem read_blk_0 (t : Fin (cfg2 a).N) (fh : S199999x256.Idx → Elt F .f32) (T : S16384.Idx → BitVec 32) :
    (((cfg2 a).win 0).blk t).view.read (Elt F) (gathered fh T) = landed fh (T (ValueIdx.ix1 (grid2.coords t 0))) :=
  funext fun (y : S1x1x256.Idx) => gathered_at fh T _ (grid2.coords t 0) (y 2)
    (by show ((cfg2 a).win 0).index t (0 : Fin 3) * 1 + 1 * (y (0 : Fin 3)).val = (grid2.coords t 0).val
        have hy : (y (0 : Fin 3)).val < 1 := (y (0 : Fin 3)).isLt
        rw [index_0, coords_val]; show t.val * 1 + 1 * (y (0 : Fin 3)).val = t.val; omega)
    (by show ((cfg2 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg2 a).N) (fh : S199999x256.Idx → Elt F .f32) (T : S16384.Idx → BitVec 32) :
    (((cfg2 a).win 1).blk t).view.read (Elt F) (gathered fh T) = landed fh (T (ValueIdx.ix1 (grid2.coords t 0))) :=
  funext fun (y : S1x1x256.Idx) => gathered_at fh T _ (grid2.coords t 0) (y 2)
    (by show ((cfg2 a).win 1).index t (0 : Fin 3) * 1 + 1 * (y (0 : Fin 3)).val = (grid2.coords t 0).val
        have hy : (y (0 : Fin 3)).val < 1 := (y (0 : Fin 3)).isLt
        rw [index_1, coords_val]; show t.val * 1 + 1 * (y (0 : Fin 3)).val = t.val; omega)
    (by show ((cfg2 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg2 a).N) : ((cfg2 a).win 0).flush t = true :=
  flush_of_moves _ rfl (fun t h e => by
    rw [index_0, index_0] at e
    have e1 : t.val + 1 = t.val := congrFun e (0 : Fin 3)
    omega) t

theorem flush_1 (t : Fin (cfg2 a).N) : ((cfg2 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg2 a).N) (i : S16384x1x256.Idx) :
    i ∈ (((cfg2 a).win 0).blk t).view.set ↔ ∀ d : Fin 3, ((cfg2 a).win 0).index t d * S1x1x256.size d ≤ (i d).val ∧ (i d).val < ((cfg2 a).win 0).index t d * S1x1x256.size d + S1x1x256.size d := by
  have hs : ((View.whole main_v24_0).slice (((cfg2 a).win 0).rect t)).set = (((cfg2 a).win 0).rect t).set :=
    View.set_slice_whole main_v24_0 _
  show i ∈ ((View.whole main_v24_0).slice (((cfg2 a).win 0).rect t)).set ↔ _
  exact (Eq.to_iff (congrArg (fun s => i ∈ s) hs)).trans Rect.mem_set_unit

theorem cover_0 (i : S16384x1x256.Idx) :
    ∃ t : Fin (cfg2 a).N, ((cfg2 a).win 0).flush t = true ∧ i ∈ (((cfg2 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_2 : (cfg2 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg2 a).N) (i : S16384x1x256.Idx) :
    i ∈ (((cfg2 a).win 1).blk t).view.set ↔ ∀ d : Fin 3, ((cfg2 a).win 1).index t d * S1x1x256.size d ≤ (i d).val ∧ (i d).val < ((cfg2 a).win 1).index t d * S1x1x256.size d + S1x1x256.size d := by
  have hs : ((View.whole main_v24_1).slice (((cfg2 a).win 1).rect t)).set = (((cfg2 a).win 1).rect t).set :=
    View.set_slice_whole main_v24_1 _
  show i ∈ ((View.whole main_v24_1).slice (((cfg2 a).win 1).rect t)).set ↔ _
  exact (Eq.to_iff (congrArg (fun s => i ∈ s) hs)).trans Rect.mem_set_unit

theorem cover_1 (i : S16384x1x256.Idx) :
    ∃ t : Fin (cfg2 a).N, ((cfg2 a).win 1).flush t = true ∧ i ∈ (((cfg2 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_2 : (cfg2 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G2

end
-- ==== Proof.G3Val.lean ====
import proofs.«404237_j24687472017957_2_alg».proof.Proof.G3
import proofs.«404237_j24687472017957_2_alg».proof.Proof.GVal
import Idealize.ShloMosaic.Lib.Pipeline.Value

set_option maxRecDepth 16384

noncomputable section

namespace Cert.KernelIdeal.G3

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid3.N) : (grid3.coords t 0).val = t.val := by
  have ht : t.val < 16384 := lt_of_lt_of_eq t.isLt N_3
  show t.val / grid3.stride 0 % 16384 = t.val
  rw [show grid3.stride 0 = 1 from by decide, Nat.div_one, Nat.mod_eq_of_lt ht]

/-- Both outputs' block index at coordinates i is (i,0,0): i < 2^32 survives the 32-bit word. -/
theorem transform_eq (i : grid3.Coords) : cc3_transform_1 i = ![(i 0).val, 0, 0] ∧ cc3_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg3 (F := F)).Adm)

theorem index_0 (t : Fin (cfg3 a).N) : ((cfg3 a).win 0).index t = ![t.val, 0, 0] := by
  show cc3_transform_1 (grid3.coords t) = _
  rw [(transform_eq _).1, coords_val]

theorem index_1 (t : Fin (cfg3 a).N) : ((cfg3 a).win 1).index t = ![t.val, 0, 0] := by
  show cc3_transform_2 (grid3.coords t) = _
  rw [(transform_eq _).2, coords_val]

/-- Block t of a gathered array is the row that entry t of its index table names. -/
theorem read_blk_0 (t : Fin (cfg3 a).N) (fh : S199999x256.Idx → Elt F .f32) (T : S16384.Idx → BitVec 32) :
    (((cfg3 a).win 0).blk t).view.read (Elt F) (gathered fh T) = landed fh (T (ValueIdx.ix1 (grid3.coords t 0))) :=
  funext fun (y : S1x1x256.Idx) => gathered_at fh T _ (grid3.coords t 0) (y 2)
    (by show ((cfg3 a).win 0).index t (0 : Fin 3) * 1 + 1 * (y (0 : Fin 3)).val = (grid3.coords t 0).val
        have hy : (y (0 : Fin 3)).val < 1 := (y (0 : Fin 3)).isLt
        rw [index_0, coords_val]; show t.val * 1 + 1 * (y (0 : Fin 3)).val = t.val; omega)
    (by show ((cfg3 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg3 a).N) (fh : S199999x256.Idx → Elt F .f32) (T : S16384.Idx → BitVec 32) :
    (((cfg3 a).win 1).blk t).view.read (Elt F) (gathered fh T) = landed fh (T (ValueIdx.ix1 (grid3.coords t 0))) :=
  funext fun (y : S1x1x256.Idx) => gathered_at fh T _ (grid3.coords t 0) (y 2)
    (by show ((cfg3 a).win 1).index t (0 : Fin 3) * 1 + 1 * (y (0 : Fin 3)).val = (grid3.coords t 0).val
        have hy : (y (0 : Fin 3)).val < 1 := (y (0 : Fin 3)).isLt
        rw [index_1, coords_val]; show t.val * 1 + 1 * (y (0 : Fin 3)).val = t.val; omega)
    (by show ((cfg3 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg3 a).N) : ((cfg3 a).win 0).flush t = true :=
  flush_of_moves _ rfl (fun t h e => by
    rw [index_0, index_0] at e
    have e1 : t.val + 1 = t.val := congrFun e (0 : Fin 3)
    omega) t

theorem flush_1 (t : Fin (cfg3 a).N) : ((cfg3 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg3 a).N) (i : S16384x1x256.Idx) :
    i ∈ (((cfg3 a).win 0).blk t).view.set ↔ ∀ d : Fin 3, ((cfg3 a).win 0).index t d * S1x1x256.size d ≤ (i d).val ∧ (i d).val < ((cfg3 a).win 0).index t d * S1x1x256.size d + S1x1x256.size d := by
  have hs : ((View.whole main_v33_0).slice (((cfg3 a).win 0).rect t)).set = (((cfg3 a).win 0).rect t).set :=
    View.set_slice_whole main_v33_0 _
  show i ∈ ((View.whole main_v33_0).slice (((cfg3 a).win 0).rect t)).set ↔ _
  exact (Eq.to_iff (congrArg (fun s => i ∈ s) hs)).trans Rect.mem_set_unit

theorem cover_0 (i : S16384x1x256.Idx) :
    ∃ t : Fin (cfg3 a).N, ((cfg3 a).win 0).flush t = true ∧ i ∈ (((cfg3 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_3 : (cfg3 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg3 a).N) (i : S16384x1x256.Idx) :
    i ∈ (((cfg3 a).win 1).blk t).view.set ↔ ∀ d : Fin 3, ((cfg3 a).win 1).index t d * S1x1x256.size d ≤ (i d).val ∧ (i d).val < ((cfg3 a).win 1).index t d * S1x1x256.size d + S1x1x256.size d := by
  have hs : ((View.whole main_v33_1).slice (((cfg3 a).win 1).rect t)).set = (((cfg3 a).win 1).rect t).set :=
    View.set_slice_whole main_v33_1 _
  show i ∈ ((View.whole main_v33_1).slice (((cfg3 a).win 1).rect t)).set ↔ _
  exact (Eq.to_iff (congrArg (fun s => i ∈ s) hs)).trans Rect.mem_set_unit

theorem cover_1 (i : S16384x1x256.Idx) :
    ∃ t : Fin (cfg3 a).N, ((cfg3 a).win 1).flush t = true ∧ i ∈ (((cfg3 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_3 : (cfg3 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G3

end
-- ==== Proof.G4Val.lean ====
import proofs.«404237_j24687472017957_2_alg».proof.Proof.G4
import proofs.«404237_j24687472017957_2_alg».proof.Proof.GVal
import Idealize.ShloMosaic.Lib.Pipeline.Value

set_option maxRecDepth 16384

noncomputable section

namespace Cert.KernelIdeal.G4

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid4.N) : (grid4.coords t 0).val = t.val := by
  have ht : t.val < 16384 := lt_of_lt_of_eq t.isLt N_4
  show t.val / grid4.stride 0 % 16384 = t.val
  rw [show grid4.stride 0 = 1 from by decide, Nat.div_one, Nat.mod_eq_of_lt ht]

/-- Both outputs' block index at coordinates i is (i,0,0): i < 2^32 survives the 32-bit word. -/
theorem transform_eq (i : grid4.Coords) : cc4_transform_1 i = ![(i 0).val, 0, 0] ∧ cc4_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg4 (F := F)).Adm)

theorem index_0 (t : Fin (cfg4 a).N) : ((cfg4 a).win 0).index t = ![t.val, 0, 0] := by
  show cc4_transform_1 (grid4.coords t) = _
  rw [(transform_eq _).1, coords_val]

theorem index_1 (t : Fin (cfg4 a).N) : ((cfg4 a).win 1).index t = ![t.val, 0, 0] := by
  show cc4_transform_2 (grid4.coords t) = _
  rw [(transform_eq _).2, coords_val]

/-- Block t of a gathered array is the row that entry t of its index table names. -/
theorem read_blk_0 (t : Fin (cfg4 a).N) (fh : S199999x256.Idx → Elt F .f32) (T : S16384.Idx → BitVec 32) :
    (((cfg4 a).win 0).blk t).view.read (Elt F) (gathered fh T) = landed fh (T (ValueIdx.ix1 (grid4.coords t 0))) :=
  funext fun (y : S1x1x256.Idx) => gathered_at fh T _ (grid4.coords t 0) (y 2)
    (by show ((cfg4 a).win 0).index t (0 : Fin 3) * 1 + 1 * (y (0 : Fin 3)).val = (grid4.coords t 0).val
        have hy : (y (0 : Fin 3)).val < 1 := (y (0 : Fin 3)).isLt
        rw [index_0, coords_val]; show t.val * 1 + 1 * (y (0 : Fin 3)).val = t.val; omega)
    (by show ((cfg4 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg4 a).N) (fh : S199999x256.Idx → Elt F .f32) (T : S16384.Idx → BitVec 32) :
    (((cfg4 a).win 1).blk t).view.read (Elt F) (gathered fh T) = landed fh (T (ValueIdx.ix1 (grid4.coords t 0))) :=
  funext fun (y : S1x1x256.Idx) => gathered_at fh T _ (grid4.coords t 0) (y 2)
    (by show ((cfg4 a).win 1).index t (0 : Fin 3) * 1 + 1 * (y (0 : Fin 3)).val = (grid4.coords t 0).val
        have hy : (y (0 : Fin 3)).val < 1 := (y (0 : Fin 3)).isLt
        rw [index_1, coords_val]; show t.val * 1 + 1 * (y (0 : Fin 3)).val = t.val; omega)
    (by show ((cfg4 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg4 a).N) : ((cfg4 a).win 0).flush t = true :=
  flush_of_moves _ rfl (fun t h e => by
    rw [index_0, index_0] at e
    have e1 : t.val + 1 = t.val := congrFun e (0 : Fin 3)
    omega) t

theorem flush_1 (t : Fin (cfg4 a).N) : ((cfg4 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg4 a).N) (i : S16384x1x256.Idx) :
    i ∈ (((cfg4 a).win 0).blk t).view.set ↔ ∀ d : Fin 3, ((cfg4 a).win 0).index t d * S1x1x256.size d ≤ (i d).val ∧ (i d).val < ((cfg4 a).win 0).index t d * S1x1x256.size d + S1x1x256.size d := by
  have hs : ((View.whole main_v42_0).slice (((cfg4 a).win 0).rect t)).set = (((cfg4 a).win 0).rect t).set :=
    View.set_slice_whole main_v42_0 _
  show i ∈ ((View.whole main_v42_0).slice (((cfg4 a).win 0).rect t)).set ↔ _
  exact (Eq.to_iff (congrArg (fun s => i ∈ s) hs)).trans Rect.mem_set_unit

theorem cover_0 (i : S16384x1x256.Idx) :
    ∃ t : Fin (cfg4 a).N, ((cfg4 a).win 0).flush t = true ∧ i ∈ (((cfg4 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_4 : (cfg4 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg4 a).N) (i : S16384x1x256.Idx) :
    i ∈ (((cfg4 a).win 1).blk t).view.set ↔ ∀ d : Fin 3, ((cfg4 a).win 1).index t d * S1x1x256.size d ≤ (i d).val ∧ (i d).val < ((cfg4 a).win 1).index t d * S1x1x256.size d + S1x1x256.size d := by
  have hs : ((View.whole main_v42_1).slice (((cfg4 a).win 1).rect t)).set = (((cfg4 a).win 1).rect t).set :=
    View.set_slice_whole main_v42_1 _
  show i ∈ ((View.whole main_v42_1).slice (((cfg4 a).win 1).rect t)).set ↔ _
  exact (Eq.to_iff (congrArg (fun s => i ∈ s) hs)).trans Rect.mem_set_unit

theorem cover_1 (i : S16384x1x256.Idx) :
    ∃ t : Fin (cfg4 a).N, ((cfg4 a).win 1).flush t = true ∧ i ∈ (((cfg4 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_4 : (cfg4 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G4

end
-- ==== Proof.G5Val.lean ====
import proofs.«404237_j24687472017957_2_alg».proof.Proof.G5
import proofs.«404237_j24687472017957_2_alg».proof.Proof.GVal
import Idealize.ShloMosaic.Lib.Pipeline.Value

set_option maxRecDepth 16384

noncomputable section

namespace Cert.KernelIdeal.G5

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid5.N) : (grid5.coords t 0).val = t.val := by
  have ht : t.val < 16384 := lt_of_lt_of_eq t.isLt N_5
  show t.val / grid5.stride 0 % 16384 = t.val
  rw [show grid5.stride 0 = 1 from by decide, Nat.div_one, Nat.mod_eq_of_lt ht]

/-- Both outputs' block index at coordinates i is (i,0,0): i < 2^32 survives the 32-bit word. -/
theorem transform_eq (i : grid5.Coords) : cc5_transform_1 i = ![(i 0).val, 0, 0] ∧ cc5_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg5 (F := F)).Adm)

theorem index_0 (t : Fin (cfg5 a).N) : ((cfg5 a).win 0).index t = ![t.val, 0, 0] := by
  show cc5_transform_1 (grid5.coords t) = _
  rw [(transform_eq _).1, coords_val]

theorem index_1 (t : Fin (cfg5 a).N) : ((cfg5 a).win 1).index t = ![t.val, 0, 0] := by
  show cc5_transform_2 (grid5.coords t) = _
  rw [(transform_eq _).2, coords_val]

/-- Block t of a gathered array is the row that entry t of its index table names. -/
theorem read_blk_0 (t : Fin (cfg5 a).N) (fh : S199999x256.Idx → Elt F .f32) (T : S16384.Idx → BitVec 32) :
    (((cfg5 a).win 0).blk t).view.read (Elt F) (gathered fh T) = landed fh (T (ValueIdx.ix1 (grid5.coords t 0))) :=
  funext fun (y : S1x1x256.Idx) => gathered_at fh T _ (grid5.coords t 0) (y 2)
    (by show ((cfg5 a).win 0).index t (0 : Fin 3) * 1 + 1 * (y (0 : Fin 3)).val = (grid5.coords t 0).val
        have hy : (y (0 : Fin 3)).val < 1 := (y (0 : Fin 3)).isLt
        rw [index_0, coords_val]; show t.val * 1 + 1 * (y (0 : Fin 3)).val = t.val; omega)
    (by show ((cfg5 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg5 a).N) (fh : S199999x256.Idx → Elt F .f32) (T : S16384.Idx → BitVec 32) :
    (((cfg5 a).win 1).blk t).view.read (Elt F) (gathered fh T) = landed fh (T (ValueIdx.ix1 (grid5.coords t 0))) :=
  funext fun (y : S1x1x256.Idx) => gathered_at fh T _ (grid5.coords t 0) (y 2)
    (by show ((cfg5 a).win 1).index t (0 : Fin 3) * 1 + 1 * (y (0 : Fin 3)).val = (grid5.coords t 0).val
        have hy : (y (0 : Fin 3)).val < 1 := (y (0 : Fin 3)).isLt
        rw [index_1, coords_val]; show t.val * 1 + 1 * (y (0 : Fin 3)).val = t.val; omega)
    (by show ((cfg5 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg5 a).N) : ((cfg5 a).win 0).flush t = true :=
  flush_of_moves _ rfl (fun t h e => by
    rw [index_0, index_0] at e
    have e1 : t.val + 1 = t.val := congrFun e (0 : Fin 3)
    omega) t

theorem flush_1 (t : Fin (cfg5 a).N) : ((cfg5 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg5 a).N) (i : S16384x1x256.Idx) :
    i ∈ (((cfg5 a).win 0).blk t).view.set ↔ ∀ d : Fin 3, ((cfg5 a).win 0).index t d * S1x1x256.size d ≤ (i d).val ∧ (i d).val < ((cfg5 a).win 0).index t d * S1x1x256.size d + S1x1x256.size d := by
  have hs : ((View.whole main_v51_0).slice (((cfg5 a).win 0).rect t)).set = (((cfg5 a).win 0).rect t).set :=
    View.set_slice_whole main_v51_0 _
  show i ∈ ((View.whole main_v51_0).slice (((cfg5 a).win 0).rect t)).set ↔ _
  exact (Eq.to_iff (congrArg (fun s => i ∈ s) hs)).trans Rect.mem_set_unit

theorem cover_0 (i : S16384x1x256.Idx) :
    ∃ t : Fin (cfg5 a).N, ((cfg5 a).win 0).flush t = true ∧ i ∈ (((cfg5 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_5 : (cfg5 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg5 a).N) (i : S16384x1x256.Idx) :
    i ∈ (((cfg5 a).win 1).blk t).view.set ↔ ∀ d : Fin 3, ((cfg5 a).win 1).index t d * S1x1x256.size d ≤ (i d).val ∧ (i d).val < ((cfg5 a).win 1).index t d * S1x1x256.size d + S1x1x256.size d := by
  have hs : ((View.whole main_v51_1).slice (((cfg5 a).win 1).rect t)).set = (((cfg5 a).win 1).rect t).set :=
    View.set_slice_whole main_v51_1 _
  show i ∈ ((View.whole main_v51_1).slice (((cfg5 a).win 1).rect t)).set ↔ _
  exact (Eq.to_iff (congrArg (fun s => i ∈ s) hs)).trans Rect.mem_set_unit

theorem cover_1 (i : S16384x1x256.Idx) :
    ∃ t : Fin (cfg5 a).N, ((cfg5 a).win 1).flush t = true ∧ i ∈ (((cfg5 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_5 : (cfg5 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G5

end
-- ==== Proof.G6Val.lean ====
import proofs.«404237_j24687472017957_2_alg».proof.Proof.G6
import proofs.«404237_j24687472017957_2_alg».proof.Proof.GVal
import Idealize.ShloMosaic.Lib.Pipeline.Value

set_option maxRecDepth 16384

noncomputable section

namespace Cert.KernelIdeal.G6

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid6.N) : (grid6.coords t 0).val = t.val := by
  have ht : t.val < 16384 := lt_of_lt_of_eq t.isLt N_6
  show t.val / grid6.stride 0 % 16384 = t.val
  rw [show grid6.stride 0 = 1 from by decide, Nat.div_one, Nat.mod_eq_of_lt ht]

/-- Both outputs' block index at coordinates i is (i,0,0): i < 2^32 survives the 32-bit word. -/
theorem transform_eq (i : grid6.Coords) : cc6_transform_1 i = ![(i 0).val, 0, 0] ∧ cc6_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg6 (F := F)).Adm)

theorem index_0 (t : Fin (cfg6 a).N) : ((cfg6 a).win 0).index t = ![t.val, 0, 0] := by
  show cc6_transform_1 (grid6.coords t) = _
  rw [(transform_eq _).1, coords_val]

theorem index_1 (t : Fin (cfg6 a).N) : ((cfg6 a).win 1).index t = ![t.val, 0, 0] := by
  show cc6_transform_2 (grid6.coords t) = _
  rw [(transform_eq _).2, coords_val]

/-- Block t of a gathered array is the row that entry t of its index table names. -/
theorem read_blk_0 (t : Fin (cfg6 a).N) (fh : S199999x256.Idx → Elt F .f32) (T : S16384.Idx → BitVec 32) :
    (((cfg6 a).win 0).blk t).view.read (Elt F) (gathered fh T) = landed fh (T (ValueIdx.ix1 (grid6.coords t 0))) :=
  funext fun (y : S1x1x256.Idx) => gathered_at fh T _ (grid6.coords t 0) (y 2)
    (by show ((cfg6 a).win 0).index t (0 : Fin 3) * 1 + 1 * (y (0 : Fin 3)).val = (grid6.coords t 0).val
        have hy : (y (0 : Fin 3)).val < 1 := (y (0 : Fin 3)).isLt
        rw [index_0, coords_val]; show t.val * 1 + 1 * (y (0 : Fin 3)).val = t.val; omega)
    (by show ((cfg6 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg6 a).N) (fh : S199999x256.Idx → Elt F .f32) (T : S16384.Idx → BitVec 32) :
    (((cfg6 a).win 1).blk t).view.read (Elt F) (gathered fh T) = landed fh (T (ValueIdx.ix1 (grid6.coords t 0))) :=
  funext fun (y : S1x1x256.Idx) => gathered_at fh T _ (grid6.coords t 0) (y 2)
    (by show ((cfg6 a).win 1).index t (0 : Fin 3) * 1 + 1 * (y (0 : Fin 3)).val = (grid6.coords t 0).val
        have hy : (y (0 : Fin 3)).val < 1 := (y (0 : Fin 3)).isLt
        rw [index_1, coords_val]; show t.val * 1 + 1 * (y (0 : Fin 3)).val = t.val; omega)
    (by show ((cfg6 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg6 a).N) : ((cfg6 a).win 0).flush t = true :=
  flush_of_moves _ rfl (fun t h e => by
    rw [index_0, index_0] at e
    have e1 : t.val + 1 = t.val := congrFun e (0 : Fin 3)
    omega) t

theorem flush_1 (t : Fin (cfg6 a).N) : ((cfg6 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg6 a).N) (i : S16384x1x256.Idx) :
    i ∈ (((cfg6 a).win 0).blk t).view.set ↔ ∀ d : Fin 3, ((cfg6 a).win 0).index t d * S1x1x256.size d ≤ (i d).val ∧ (i d).val < ((cfg6 a).win 0).index t d * S1x1x256.size d + S1x1x256.size d := by
  have hs : ((View.whole main_v60_0).slice (((cfg6 a).win 0).rect t)).set = (((cfg6 a).win 0).rect t).set :=
    View.set_slice_whole main_v60_0 _
  show i ∈ ((View.whole main_v60_0).slice (((cfg6 a).win 0).rect t)).set ↔ _
  exact (Eq.to_iff (congrArg (fun s => i ∈ s) hs)).trans Rect.mem_set_unit

theorem cover_0 (i : S16384x1x256.Idx) :
    ∃ t : Fin (cfg6 a).N, ((cfg6 a).win 0).flush t = true ∧ i ∈ (((cfg6 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_6 : (cfg6 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg6 a).N) (i : S16384x1x256.Idx) :
    i ∈ (((cfg6 a).win 1).blk t).view.set ↔ ∀ d : Fin 3, ((cfg6 a).win 1).index t d * S1x1x256.size d ≤ (i d).val ∧ (i d).val < ((cfg6 a).win 1).index t d * S1x1x256.size d + S1x1x256.size d := by
  have hs : ((View.whole main_v60_1).slice (((cfg6 a).win 1).rect t)).set = (((cfg6 a).win 1).rect t).set :=
    View.set_slice_whole main_v60_1 _
  show i ∈ ((View.whole main_v60_1).slice (((cfg6 a).win 1).rect t)).set ↔ _
  exact (Eq.to_iff (congrArg (fun s => i ∈ s) hs)).trans Rect.mem_set_unit

theorem cover_1 (i : S16384x1x256.Idx) :
    ∃ t : Fin (cfg6 a).N, ((cfg6 a).win 1).flush t = true ∧ i ∈ (((cfg6 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_6 : (cfg6 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G6

end
-- ==== Proof.G7Val.lean ====
import proofs.«404237_j24687472017957_2_alg».proof.Proof.G7
import proofs.«404237_j24687472017957_2_alg».proof.Proof.GVal
import Idealize.ShloMosaic.Lib.Pipeline.Value

set_option maxRecDepth 16384

noncomputable section

namespace Cert.KernelIdeal.G7

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid7.N) : (grid7.coords t 0).val = t.val := by
  have ht : t.val < 16384 := lt_of_lt_of_eq t.isLt N_7
  show t.val / grid7.stride 0 % 16384 = t.val
  rw [show grid7.stride 0 = 1 from by decide, Nat.div_one, Nat.mod_eq_of_lt ht]

/-- Both outputs' block index at coordinates i is (i,0,0): i < 2^32 survives the 32-bit word. -/
theorem transform_eq (i : grid7.Coords) : cc7_transform_1 i = ![(i 0).val, 0, 0] ∧ cc7_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg7 (F := F)).Adm)

theorem index_0 (t : Fin (cfg7 a).N) : ((cfg7 a).win 0).index t = ![t.val, 0, 0] := by
  show cc7_transform_1 (grid7.coords t) = _
  rw [(transform_eq _).1, coords_val]

theorem index_1 (t : Fin (cfg7 a).N) : ((cfg7 a).win 1).index t = ![t.val, 0, 0] := by
  show cc7_transform_2 (grid7.coords t) = _
  rw [(transform_eq _).2, coords_val]

/-- Block t of a gathered array is the row that entry t of its index table names. -/
theorem read_blk_0 (t : Fin (cfg7 a).N) (fh : S199999x256.Idx → Elt F .f32) (T : S16384.Idx → BitVec 32) :
    (((cfg7 a).win 0).blk t).view.read (Elt F) (gathered fh T) = landed fh (T (ValueIdx.ix1 (grid7.coords t 0))) :=
  funext fun (y : S1x1x256.Idx) => gathered_at fh T _ (grid7.coords t 0) (y 2)
    (by show ((cfg7 a).win 0).index t (0 : Fin 3) * 1 + 1 * (y (0 : Fin 3)).val = (grid7.coords t 0).val
        have hy : (y (0 : Fin 3)).val < 1 := (y (0 : Fin 3)).isLt
        rw [index_0, coords_val]; show t.val * 1 + 1 * (y (0 : Fin 3)).val = t.val; omega)
    (by show ((cfg7 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg7 a).N) (fh : S199999x256.Idx → Elt F .f32) (T : S16384.Idx → BitVec 32) :
    (((cfg7 a).win 1).blk t).view.read (Elt F) (gathered fh T) = landed fh (T (ValueIdx.ix1 (grid7.coords t 0))) :=
  funext fun (y : S1x1x256.Idx) => gathered_at fh T _ (grid7.coords t 0) (y 2)
    (by show ((cfg7 a).win 1).index t (0 : Fin 3) * 1 + 1 * (y (0 : Fin 3)).val = (grid7.coords t 0).val
        have hy : (y (0 : Fin 3)).val < 1 := (y (0 : Fin 3)).isLt
        rw [index_1, coords_val]; show t.val * 1 + 1 * (y (0 : Fin 3)).val = t.val; omega)
    (by show ((cfg7 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg7 a).N) : ((cfg7 a).win 0).flush t = true :=
  flush_of_moves _ rfl (fun t h e => by
    rw [index_0, index_0] at e
    have e1 : t.val + 1 = t.val := congrFun e (0 : Fin 3)
    omega) t

theorem flush_1 (t : Fin (cfg7 a).N) : ((cfg7 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg7 a).N) (i : S16384x1x256.Idx) :
    i ∈ (((cfg7 a).win 0).blk t).view.set ↔ ∀ d : Fin 3, ((cfg7 a).win 0).index t d * S1x1x256.size d ≤ (i d).val ∧ (i d).val < ((cfg7 a).win 0).index t d * S1x1x256.size d + S1x1x256.size d := by
  have hs : ((View.whole main_v69_0).slice (((cfg7 a).win 0).rect t)).set = (((cfg7 a).win 0).rect t).set :=
    View.set_slice_whole main_v69_0 _
  show i ∈ ((View.whole main_v69_0).slice (((cfg7 a).win 0).rect t)).set ↔ _
  exact (Eq.to_iff (congrArg (fun s => i ∈ s) hs)).trans Rect.mem_set_unit

theorem cover_0 (i : S16384x1x256.Idx) :
    ∃ t : Fin (cfg7 a).N, ((cfg7 a).win 0).flush t = true ∧ i ∈ (((cfg7 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_7 : (cfg7 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg7 a).N) (i : S16384x1x256.Idx) :
    i ∈ (((cfg7 a).win 1).blk t).view.set ↔ ∀ d : Fin 3, ((cfg7 a).win 1).index t d * S1x1x256.size d ≤ (i d).val ∧ (i d).val < ((cfg7 a).win 1).index t d * S1x1x256.size d + S1x1x256.size d := by
  have hs : ((View.whole main_v69_1).slice (((cfg7 a).win 1).rect t)).set = (((cfg7 a).win 1).rect t).set :=
    View.set_slice_whole main_v69_1 _
  show i ∈ ((View.whole main_v69_1).slice (((cfg7 a).win 1).rect t)).set ↔ _
  exact (Eq.to_iff (congrArg (fun s => i ∈ s) hs)).trans Rect.mem_set_unit

theorem cover_1 (i : S16384x1x256.Idx) :
    ∃ t : Fin (cfg7 a).N, ((cfg7 a).win 1).flush t = true ∧ i ∈ (((cfg7 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_7 : (cfg7 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G7

end
-- ==== Proof.G8Val.lean ====
import proofs.«404237_j24687472017957_2_alg».proof.Proof.G8
import proofs.«404237_j24687472017957_2_alg».proof.Proof.GVal
import Idealize.ShloMosaic.Lib.Pipeline.Value

set_option maxRecDepth 16384

noncomputable section

namespace Cert.KernelIdeal.G8

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid8.N) : (grid8.coords t 0).val = t.val := by
  have ht : t.val < 16384 := lt_of_lt_of_eq t.isLt N_8
  show t.val / grid8.stride 0 % 16384 = t.val
  rw [show grid8.stride 0 = 1 from by decide, Nat.div_one, Nat.mod_eq_of_lt ht]

/-- Both outputs' block index at coordinates i is (i,0,0): i < 2^32 survives the 32-bit word. -/
theorem transform_eq (i : grid8.Coords) : cc8_transform_1 i = ![(i 0).val, 0, 0] ∧ cc8_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg8 (F := F)).Adm)

theorem index_0 (t : Fin (cfg8 a).N) : ((cfg8 a).win 0).index t = ![t.val, 0, 0] := by
  show cc8_transform_1 (grid8.coords t) = _
  rw [(transform_eq _).1, coords_val]

theorem index_1 (t : Fin (cfg8 a).N) : ((cfg8 a).win 1).index t = ![t.val, 0, 0] := by
  show cc8_transform_2 (grid8.coords t) = _
  rw [(transform_eq _).2, coords_val]

/-- Block t of a gathered array is the row that entry t of its index table names. -/
theorem read_blk_0 (t : Fin (cfg8 a).N) (fh : S199999x256.Idx → Elt F .f32) (T : S16384.Idx → BitVec 32) :
    (((cfg8 a).win 0).blk t).view.read (Elt F) (gathered fh T) = landed fh (T (ValueIdx.ix1 (grid8.coords t 0))) :=
  funext fun (y : S1x1x256.Idx) => gathered_at fh T _ (grid8.coords t 0) (y 2)
    (by show ((cfg8 a).win 0).index t (0 : Fin 3) * 1 + 1 * (y (0 : Fin 3)).val = (grid8.coords t 0).val
        have hy : (y (0 : Fin 3)).val < 1 := (y (0 : Fin 3)).isLt
        rw [index_0, coords_val]; show t.val * 1 + 1 * (y (0 : Fin 3)).val = t.val; omega)
    (by show ((cfg8 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg8 a).N) (fh : S199999x256.Idx → Elt F .f32) (T : S16384.Idx → BitVec 32) :
    (((cfg8 a).win 1).blk t).view.read (Elt F) (gathered fh T) = landed fh (T (ValueIdx.ix1 (grid8.coords t 0))) :=
  funext fun (y : S1x1x256.Idx) => gathered_at fh T _ (grid8.coords t 0) (y 2)
    (by show ((cfg8 a).win 1).index t (0 : Fin 3) * 1 + 1 * (y (0 : Fin 3)).val = (grid8.coords t 0).val
        have hy : (y (0 : Fin 3)).val < 1 := (y (0 : Fin 3)).isLt
        rw [index_1, coords_val]; show t.val * 1 + 1 * (y (0 : Fin 3)).val = t.val; omega)
    (by show ((cfg8 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg8 a).N) : ((cfg8 a).win 0).flush t = true :=
  flush_of_moves _ rfl (fun t h e => by
    rw [index_0, index_0] at e
    have e1 : t.val + 1 = t.val := congrFun e (0 : Fin 3)
    omega) t

theorem flush_1 (t : Fin (cfg8 a).N) : ((cfg8 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg8 a).N) (i : S16384x1x256.Idx) :
    i ∈ (((cfg8 a).win 0).blk t).view.set ↔ ∀ d : Fin 3, ((cfg8 a).win 0).index t d * S1x1x256.size d ≤ (i d).val ∧ (i d).val < ((cfg8 a).win 0).index t d * S1x1x256.size d + S1x1x256.size d := by
  have hs : ((View.whole main_v78_0).slice (((cfg8 a).win 0).rect t)).set = (((cfg8 a).win 0).rect t).set :=
    View.set_slice_whole main_v78_0 _
  show i ∈ ((View.whole main_v78_0).slice (((cfg8 a).win 0).rect t)).set ↔ _
  exact (Eq.to_iff (congrArg (fun s => i ∈ s) hs)).trans Rect.mem_set_unit

theorem cover_0 (i : S16384x1x256.Idx) :
    ∃ t : Fin (cfg8 a).N, ((cfg8 a).win 0).flush t = true ∧ i ∈ (((cfg8 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_8 : (cfg8 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg8 a).N) (i : S16384x1x256.Idx) :
    i ∈ (((cfg8 a).win 1).blk t).view.set ↔ ∀ d : Fin 3, ((cfg8 a).win 1).index t d * S1x1x256.size d ≤ (i d).val ∧ (i d).val < ((cfg8 a).win 1).index t d * S1x1x256.size d + S1x1x256.size d := by
  have hs : ((View.whole main_v78_1).slice (((cfg8 a).win 1).rect t)).set = (((cfg8 a).win 1).rect t).set :=
    View.set_slice_whole main_v78_1 _
  show i ∈ ((View.whole main_v78_1).slice (((cfg8 a).win 1).rect t)).set ↔ _
  exact (Eq.to_iff (congrArg (fun s => i ∈ s) hs)).trans Rect.mem_set_unit

theorem cover_1 (i : S16384x1x256.Idx) :
    ∃ t : Fin (cfg8 a).N, ((cfg8 a).win 1).flush t = true ∧ i ∈ (((cfg8 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_8 : (cfg8 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G8

end
-- ==== Proof.G9Val.lean ====
import proofs.«404237_j24687472017957_2_alg».proof.Proof.G9
import proofs.«404237_j24687472017957_2_alg».proof.Proof.GVal
import Idealize.ShloMosaic.Lib.Pipeline.Value

set_option maxRecDepth 16384

noncomputable section

namespace Cert.KernelIdeal.G9

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid9.N) : (grid9.coords t 0).val = t.val := by
  have ht : t.val < 16384 := lt_of_lt_of_eq t.isLt N_9
  show t.val / grid9.stride 0 % 16384 = t.val
  rw [show grid9.stride 0 = 1 from by decide, Nat.div_one, Nat.mod_eq_of_lt ht]

/-- Both outputs' block index at coordinates i is (i,0,0): i < 2^32 survives the 32-bit word. -/
theorem transform_eq (i : grid9.Coords) : cc9_transform_1 i = ![(i 0).val, 0, 0] ∧ cc9_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg9 (F := F)).Adm)

theorem index_0 (t : Fin (cfg9 a).N) : ((cfg9 a).win 0).index t = ![t.val, 0, 0] := by
  show cc9_transform_1 (grid9.coords t) = _
  rw [(transform_eq _).1, coords_val]

theorem index_1 (t : Fin (cfg9 a).N) : ((cfg9 a).win 1).index t = ![t.val, 0, 0] := by
  show cc9_transform_2 (grid9.coords t) = _
  rw [(transform_eq _).2, coords_val]

/-- Block t of a gathered array is the row that entry t of its index table names. -/
theorem read_blk_0 (t : Fin (cfg9 a).N) (fh : S199999x256.Idx → Elt F .f32) (T : S16384.Idx → BitVec 32) :
    (((cfg9 a).win 0).blk t).view.read (Elt F) (gathered fh T) = landed fh (T (ValueIdx.ix1 (grid9.coords t 0))) :=
  funext fun (y : S1x1x256.Idx) => gathered_at fh T _ (grid9.coords t 0) (y 2)
    (by show ((cfg9 a).win 0).index t (0 : Fin 3) * 1 + 1 * (y (0 : Fin 3)).val = (grid9.coords t 0).val
        have hy : (y (0 : Fin 3)).val < 1 := (y (0 : Fin 3)).isLt
        rw [index_0, coords_val]; show t.val * 1 + 1 * (y (0 : Fin 3)).val = t.val; omega)
    (by show ((cfg9 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg9 a).N) (fh : S199999x256.Idx → Elt F .f32) (T : S16384.Idx → BitVec 32) :
    (((cfg9 a).win 1).blk t).view.read (Elt F) (gathered fh T) = landed fh (T (ValueIdx.ix1 (grid9.coords t 0))) :=
  funext fun (y : S1x1x256.Idx) => gathered_at fh T _ (grid9.coords t 0) (y 2)
    (by show ((cfg9 a).win 1).index t (0 : Fin 3) * 1 + 1 * (y (0 : Fin 3)).val = (grid9.coords t 0).val
        have hy : (y (0 : Fin 3)).val < 1 := (y (0 : Fin 3)).isLt
        rw [index_1, coords_val]; show t.val * 1 + 1 * (y (0 : Fin 3)).val = t.val; omega)
    (by show ((cfg9 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg9 a).N) : ((cfg9 a).win 0).flush t = true :=
  flush_of_moves _ rfl (fun t h e => by
    rw [index_0, index_0] at e
    have e1 : t.val + 1 = t.val := congrFun e (0 : Fin 3)
    omega) t

theorem flush_1 (t : Fin (cfg9 a).N) : ((cfg9 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg9 a).N) (i : S16384x1x256.Idx) :
    i ∈ (((cfg9 a).win 0).blk t).view.set ↔ ∀ d : Fin 3, ((cfg9 a).win 0).index t d * S1x1x256.size d ≤ (i d).val ∧ (i d).val < ((cfg9 a).win 0).index t d * S1x1x256.size d + S1x1x256.size d := by
  have hs : ((View.whole main_v87_0).slice (((cfg9 a).win 0).rect t)).set = (((cfg9 a).win 0).rect t).set :=
    View.set_slice_whole main_v87_0 _
  show i ∈ ((View.whole main_v87_0).slice (((cfg9 a).win 0).rect t)).set ↔ _
  exact (Eq.to_iff (congrArg (fun s => i ∈ s) hs)).trans Rect.mem_set_unit

theorem cover_0 (i : S16384x1x256.Idx) :
    ∃ t : Fin (cfg9 a).N, ((cfg9 a).win 0).flush t = true ∧ i ∈ (((cfg9 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_9 : (cfg9 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg9 a).N) (i : S16384x1x256.Idx) :
    i ∈ (((cfg9 a).win 1).blk t).view.set ↔ ∀ d : Fin 3, ((cfg9 a).win 1).index t d * S1x1x256.size d ≤ (i d).val ∧ (i d).val < ((cfg9 a).win 1).index t d * S1x1x256.size d + S1x1x256.size d := by
  have hs : ((View.whole main_v87_1).slice (((cfg9 a).win 1).rect t)).set = (((cfg9 a).win 1).rect t).set :=
    View.set_slice_whole main_v87_1 _
  show i ∈ ((View.whole main_v87_1).slice (((cfg9 a).win 1).rect t)).set ↔ _
  exact (Eq.to_iff (congrArg (fun s => i ∈ s) hs)).trans Rect.mem_set_unit

theorem cover_1 (i : S16384x1x256.Idx) :
    ∃ t : Fin (cfg9 a).N, ((cfg9 a).win 1).flush t = true ∧ i ∈ (((cfg9 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_9 : (cfg9 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg4 (ValueIdx.ix2 (Cert.Spec.row (tbl V 0 (ValueIdx.ix1 (y 0)))) (y 2)) :=
  (dat0 V c).arrAt_eq_of_cover 0 (gathered (V c main_arg4) (tbl V 0))
    (fun t _ => (read_blk_0 (adm V) t (V c main_arg4) (tbl V 0)).symm) (cover_0 (adm V))

theorem arrAt_1 (c : Dev nD) :
    (dat0 V c).arrAt 1 (cfgM V).N
      = fun (y : S16384x1x256.Idx) => V c main_arg4 (ValueIdx.ix2 (Cert.Spec.row (tbl V 1 (ValueIdx.ix1 (y 0)))) (y 2)) :=
  (dat0 V c).arrAt_eq_of_cover 1 (gathered (V c main_arg4) (tbl V 1))
    (fun t _ => (read_blk_1 (adm V) t (V c main_arg4) (tbl V 1)).symm) (cover_1 (adm V))

end Cert.KernelIdeal.G9

end
-- ==== Proof.G10Val.lean ====
import proofs.«404237_j24687472017957_2_alg».proof.Proof.G10
import proofs.«404237_j24687472017957_2_alg».proof.Proof.GVal
import Idealize.ShloMosaic.Lib.Pipeline.Value

set_option maxRecDepth 16384

noncomputable section

namespace Cert.KernelIdeal.G10

open Cert.KernelIdeal Cert.KernelIdeal.Gen
open Idealize.ShloMosaic Idealize.ShloMosaic.TcCoe
open Idealize.SL.Sem

variable {F : FTy → Type} [FloatOps F]

open Cert.KernelIdeal.Landed

/-- The grid is a line of 16384 points: point t has coordinate t. -/
theorem coords_val (t : Fin grid10.N) : (grid10.coords t 0).val = t.val := by
  have ht : t.val < 16384 := lt_of_lt_of_eq t.isLt N_10
  show t.val / grid10.stride 0 % 16384 = t.val
  rw [show grid10.stride 0 = 1 from by decide, Nat.div_one, Nat.mod_eq_of_lt ht]

/-- Both outputs' block index at coordinates i is (i,0,0): i < 2^32 survives the 32-bit word. -/
theorem transform_eq (i : grid10.Coords) : cc10_transform_1 i = ![(i 0).val, 0, 0] ∧ cc10_transform_2 i = ![(i 0).val, 0, 0] := by
  have hi : (i 0).val < 16384 := (i 0).isLt
  have e : ![(BitVec.ofNat 32 (i 0).val).toNat, (0#32).toNat, (0#32).toNat] = ![(i 0).val, 0, 0] := by
    rw [BitVec.toNat_ofNat, Nat.mod_eq_of_lt (by omega)]; rfl
  exact ⟨e, e⟩

section AnyTables
variable (a : (pcfg10 (F := F)).Adm)

theorem index_0 (t : Fin (cfg10 a).N) : ((cfg10 a).win 0).index t = ![t.val, 0, 0] := by
  show cc10_transform_1 (grid10.coords t) = _
  rw [(transform_eq _).1, coords_val]

theorem index_1 (t : Fin (cfg10 a).N) : ((cfg10 a).win 1).index t = ![t.val, 0, 0] := by
  show cc10_transform_2 (grid10.coords t) = _
  rw [(transform_eq _).2, coords_val]

/-- Block t of a gathered array is the row that entry t of its index table names. -/
theorem read_blk_0 (t : Fin (cfg10 a).N) (fh : S199999x256.Idx → Elt F .f32) (T : S16384.Idx → BitVec 32) :
    (((cfg10 a).win 0).blk t).view.read (Elt F) (gathered fh T) = landed fh (T (ValueIdx.ix1 (grid10.coords t 0))) :=
  funext fun (y : S1x1x256.Idx) => gathered_at fh T _ (grid10.coords t 0) (y 2)
    (by show ((cfg10 a).win 0).index t (0 : Fin 3) * 1 + 1 * (y (0 : Fin 3)).val = (grid10.coords t 0).val
        have hy : (y (0 : Fin 3)).val < 1 := (y (0 : Fin 3)).isLt
        rw [index_0, coords_val]; show t.val * 1 + 1 * (y (0 : Fin 3)).val = t.val; omega)
    (by show ((cfg10 a).win 0).index t (2 : Fin 3) * 256 + 1 * (y (2 : Fin 3)).val = (y (2 : Fin 3)).val
        rw [index_0]; show 0 * 256 + 1 * (y (2 : Fin 3)).val = (y (2 : Fin 3)).val; omega)

theorem read_blk_1 (t : Fin (cfg10 a).N) (fh : S199999x256.Idx → Elt F .f32) (T : S16384.Idx → BitVec 32) :
    (((cfg10 a).win 1).blk t).view.read (Elt F) (gathered fh T) = landed fh (T (ValueIdx.ix1 (grid10.coords t 0))) :=
  funext fun (y : S1x1x256.Idx) => gathered_at fh T _ (grid10.coords t 0) (y 2)
    (by show ((cfg10 a).win 1).index t (0 : Fin 3) * 1 + 1 * (y (0 : Fin 3)).val = (grid10.coords t 0).val
        have hy : (y (0 : Fin 3)).val < 1 := (y (0 : Fin 3)).isLt
        rw [index_1, coords_val]; show t.val * 1 + 1 * (y (0 : Fin 3)).val = t.val; omega)
    (by show ((cfg10 a).win 1).index t (2 : Fin 3) * 256 + 1 * (y (2 : Fin 3)).val = (y (2 : Fin 3)).val
        rw [index_1]; show 0 * 256 + 1 * (y (2 : Fin 3)).val = (y (2 : Fin 3)).val; omega)

/-- The block index moves at every point, so every point writes its block back. -/
theorem flush_0 (t : Fin (cfg10 a).N) : ((cfg10 a).win 0).flush t = true :=
  flush_of_moves _ rfl (fun t h e => by
    rw [index_0, index_0] at e
    have e1 : t.val + 1 = t.val := congrFun e (0 : Fin 3)
    omega) t

theorem flush_1 (t : Fin (cfg10 a).N) : ((cfg10 a).win 1).flush t = true :=
  flush_of_moves _ rfl (fun t h e => by
    rw [index_1, index_1] at e
    have e1 : t.val + 1 = t.val := congrFun e (0 : Fin 3)
    omega) t

/-- Row r of an output array lies in the block of point r, which is written back. -/
theorem mem_blk_0 (t : Fin (cfg10 a).N) (i : S16384x1x256.Idx) :
    i ∈ (((cfg10 a).win 0).blk t).view.set ↔ ∀ d : Fin 3, ((cfg10 a).win 0).index t d * S1x1x256.size d ≤ (i d).val ∧ (i d).val < ((cfg10 a).win 0).index t d * S1x1x256.size d + S1x1x256.size d := by
  have hs : ((View.whole main_v92_0).slice (((cfg10 a).win 0).rect t)).set = (((cfg10 a).win 0).rect t).set :=
    View.set_slice_whole main_v92_0 _
  show i ∈ ((View.whole main_v92_0).slice (((cfg10 a).win 0).rect t)).set ↔ _
  exact (Eq.to_iff (congrArg (fun s => i ∈ s) hs)).trans Rect.mem_set_unit

theorem cover_0 (i : S16384x1x256.Idx) :
    ∃ t : Fin (cfg10 a).N, ((cfg10 a).win 0).flush t = true ∧ i ∈ (((cfg10 a).win 0).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_10 : (cfg10 a).N = 16384).symm⟩, flush_0 a _, ?_⟩
  rw [mem_blk_0]
  intro d
  rw [index_0]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

theorem mem_blk_1 (t : Fin (cfg10 a).N) (i : S16384x1x256.Idx) :
    i ∈ (((cfg10 a).win 1).blk t).view.set ↔ ∀ d : Fin 3, ((cfg10 a).win 1).index t d * S1x1x256.size d ≤ (i d).val ∧ (i d).val < ((cfg10 a).win 1).index t d * S1x1x256.size d + S1x1x256.size d := by
  have hs : ((View.whole main_v92_1).slice (((cfg10 a).win 1).rect t)).set = (((cfg10 a).win 1).rect t).set :=
    View.set_slice_whole main_v92_1 _
  show i ∈ ((View.whole main_v92_1).slice (((cfg10 a).win 1).rect t)).set ↔ _
  exact (Eq.to_iff (congrArg (fun s => i ∈ s) hs)).trans Rect.mem_set_unit

theorem cover_1 (i : S16384x1x256.Idx) :
    ∃ t : Fin (cfg10 a).N, ((cfg10 a).win 1).flush t = true ∧ i ∈ (((cfg10 a).win 1).blk t).view.set := by
  have h0 : (i (0 : Fin 3)).val < 16384 := (i (0 : Fin 3)).isLt
  have h1 : (i (1 : Fin 3)).val < 1 := (i (1 : Fin 3)).isLt
  have h2 : (i (2 : Fin 3)).val < 256 := (i (2 : Fin 3)).isLt
  refine ⟨⟨(i (0 : Fin 3)).val, lt_of_lt_of_eq h0 (N_10 : (cfg10 a).N = 16384).symm⟩, flush_1 a _, ?_⟩
  rw [mem_blk_1]
  intro d
  rw [index_1]
  match d with
  | ⟨0, _⟩ => show (i (0 : Fin 3)).val * 1 ≤ (i (0 : Fin 3)).val ∧ (i (0 : Fin 3)).val < (i (0 : Fin 3)).val * 1 + 1; omega
  | ⟨1, _⟩ => show 0 * 1 ≤ (i (1 : Fin 3)).val ∧ (i (1 : Fin 3)).val < 0 * 1 + 1; omega
  | ⟨2, _⟩ => show 0 * 256 ≤ (i (2 : Fin 3)).val ∧ (i (2 : Fin 3)).val < 0 * 256 + 256; omega

end AnyTables

variable (V : (c : Dev nD) → (b : Ref sig .tc) → Buf (Elt F) ((c : Thread nD τ).loc b))

/-- Each output array after the region: row r is the table row that entry r of its index table names. -/
theorem arrAt_0 (c : Dev nD) :
    (dat0 V c).arrAt 0 (cfgM V).N
      = fun (y : S16384x1x256.Idx) => V c main_arg5 (ValueIdx.ix2 (Cert.Spec.row (tbl V 0 (ValueIdx.ix1 (y 0)))) (y 2)) :=
  (dat0 V c).arrAt_eq_of_cover 0 (gathered (V c main_arg5) (tbl V 0))
    (fun t _ => (read_blk_0 (adm V) t (V c main_arg5) (tbl V 0)).symm) (cover_0 (adm V))

theorem arrAt_1 (c : Dev nD) :
    (dat0 V c).arrAt 1 (cfgM V).N
      = fun (y : S16384x1x256.Idx) => V c main_arg5 (ValueIdx.ix2 (Cert.Spec.row (tbl V 1 (ValueIdx.ix1 (y 0)))) (y 2)) :=
  (dat0 V c).arrAt_eq_of_cover 1 (gathered (V c main_arg5) (tbl V 1))
    (fun t _ => (read_blk_1 (adm V) t (V c main_arg5) (tbl V 1)).symm) (cover_1 (adm V))

end Cert.KernelIdeal.G10

end
-- ==== Proof.LossPay.lean ====
import proofs.«404237_j24687472017957_2_alg».proof.Proof.Gen.KernelIdeal.Skeleton
import proofs.«404237_j24687472017957_2_alg».proof.Proof.Spec
import Idealize.ShloMosaic.PureOps.Ideal.Laws
import Idealize.ShloMosaic.Lib.ValueIdx
import Idealize.ShloMosaic.Lib.Pipeline.Value
import Mathlib.Algebra.BigOperators.Fin

set_option maxRecDepth 16384

noncomputable section

namespace Cert.KernelIdeal.L11

open Cert.KernelIdeal Cert.KernelIdeal.Gen
open Idealize.ShloMosaic Idealize.ShloMosaic.ValueIdx
open scoped BigOperators

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowSum_apply (v : FVec Ideal S1024x256 .f32) (hφ : FKind.Formats .f32)
    (hacc : (0x00000000#32 : BitVec 32) = 0x00000000#32) (r : Fin 1024) :
    multiReduction .add [1] S1024 v 0x00000000#32 reduces_S1024x256_S1024 hφ hacc (ValueIdx.ix1 r) = ∑ e : Fin 256, v (ValueIdx.ix2 r e) :=
  (Ideal.multiReduction_add_single v 0x00000000#32 reduces_S1024x256_S1024 hφ hacc (ValueIdx.ix1 r)).trans
    (Finset.sum_congr rfl fun e _ => congrArg v (funext fun a => by match a with | ⟨0, _⟩ => rfl | ⟨1, _⟩ => rfl))

theorem colSum_apply (v : FVec Ideal S1024x1 .f32) (hφ : FKind.Formats .f32)
    (hacc : (0x00000000#32 : BitVec 32) = 0x00000000#32) (u : Fin 1) :
    multiReduction .add [0] S1 v 0x00000000#32 reduces_S1024x1_S1 hφ hacc (ValueIdx.ix1 u) = ∑ r : Fin 1024, v (ValueIdx.ix2 r u) :=
  (Ideal.multiReduction_add_single v 0x00000000#32 reduces_S1024x1_S1 hφ hacc (ValueIdx.ix1 u)).trans
    (Finset.sum_congr rfl fun e _ => congrArg v (funext fun a => by match a with | ⟨0, _⟩ => rfl | ⟨1, _⟩ => rfl))

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

theorem cmp_one_self (a : EReal) : Ideal.cmp .one a a = 0#1 := by simp [Ideal.cmp]

theorem softplus_eq (y : EReal) :
    Scalar.select (Ideal.cmp .one (y - 0) (y - 0)) (y + 0) (max y 0 + Ideal.log1p (Ideal.exp (0 - max (y - 0) (-(y - 0))))) = Spec.sp y := by
  rw [cmp_one_self, select_zero, zero_sub]; rfl

theorem pay3_apply (x0 x1 : Vec Ideal S1024x256 .f32) (r : Fin 1024) (u : Fin 1) :
    k11_pay3 (F := Ideal) x0 x1 (ValueIdx.ix2 r u) = Spec.lsg (∑ e : Fin 256, x0 (ValueIdx.ix2 r e) * x1 (ValueIdx.ix2 r e)) := by
  unfold k11_pay3
  simp only [subf_apply, addf_apply, maximumf_apply, broadcast_apply, select_apply, cmpf_apply, exp_apply, log1p_apply, absf_apply,
    shapeCast_a_a1_apply, shapeCast_self, Ideal.ofBits_def, Ideal.ofBits_zero_f32, Ideal.cmpf_def]
  rw [rowSum_apply, softplus_eq, zero_sub, zero_sub]
  rfl

theorem pay4_apply (x2 x3 : Vec Ideal S1024x256 .f32) (r : Fin 1024) (u : Fin 1) :
    k11_pay4 (F := Ideal) x2 x3 (ValueIdx.ix2 r u) = -(-(∑ e : Fin 256, x2 (ValueIdx.ix2 r e) * x3 (ValueIdx.ix2 r e))) := by
  unfold k11_pay4
  simp only [subf_apply, broadcast_apply, shapeCast_a_a1_apply, shapeCast_self, Ideal.ofBits_def, Ideal.ofBits_zero_f32]
  rw [rowSum_apply, zero_sub, zero_sub]
  rfl

theorem pay2_apply (j : S1x1.Idx) : k11_pay2 (F := Ideal) j = 0 := by
  unfold k11_pay2
  simp only [broadcast_apply, Ideal.ofBits_def, Ideal.ofBits_zero_f32]

theorem pay1_apply (v34 v38 : FVec Ideal S1024x1 .f32) (xo : Vec Ideal S1x1 .f32) (p q : Fin 1) :
    k11_pay1 (F := Ideal) v34 v38 (FloatOps.ofBits .f32 0x00000000#32) xo (ValueIdx.ix2 p q)
      = xo (ValueIdx.ix2 p q) + ((∑ r : Fin 1024, v34 (ValueIdx.ix2 r p)) + (∑ r : Fin 1024, -(Spec.sp (v38 (ValueIdx.ix2 r p))))) := by
  unfold k11_pay1
  simp only [addf_apply, shapeCast_a_a1_apply, shapeCast_self]
  rw [colSum_apply, colSum_apply]
  simp only [subf_apply, addf_apply, maximumf_apply, broadcast_apply, select_apply, cmpf_apply, exp_apply, log1p_apply, absf_apply,
    Ideal.ofBits_def, Ideal.ofBits_zero_f32, Ideal.cmpf_def, softplus_eq]
  simp only [zero_sub]

end Cert.KernelIdeal.L11

end
-- ==== Proof.LossValue.lean ====
import proofs.«404237_j24687472017957_2_alg».proof.Proof.Loss
import proofs.«404237_j24687472017957_2_alg».proof.Proof.LossPay
import Idealize.ShloMosaic.Lib.Pipeline.Value
import Mathlib.Algebra.BigOperators.Fin
import Mathlib.Logic.Equiv.Fin.Basic

set_option maxRecDepth 16384

noncomputable section

namespace Cert.KernelIdeal.L11

open Cert.KernelIdeal Cert.KernelIdeal.Gen
open Idealize.ShloMosaic Idealize.ShloMosaic.TcCoe Idealize.SL.Sem
open Idealize.ShloMosaic.Pipeline (Dat)
open scoped BigOperators
open Idealize.ShloMosaic.Tactic

section AnyF
variable {F : FTy → Type} [FloatOps F]

theorem hz : (![0, 0] : Fin 2 → Nat) = fun _ => 0 := funext fun a => by fin_cases a <;> rfl

theorem out_B_eq (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) :
    out_B c i arg1 harg1 arg2 harg2 arg3 harg3 arg4 harg4 arg5 harg5 hc0 x0 x1 x2 x3 xo = k11_pay1 (k11_pay3 x0 x1) (k11_pay4 x2 x3) (FloatOps.ofBits .f32 0x00000000#32) xo := by
  unfold out_B
  rw [View.read_writes_eq_canon _ _ _ (cover_B c i arg1 harg1 arg2 harg2 arg3 harg3 arg4 harg4 arg5 harg5 hc0 x0 x1 x2 x3 xo)]
  unfold kernelRun_B
  dsimp only
  sl_unfold_words
  rw [View.canon_unit_zero hz]
  simp only [View.readAt_eq_ld, harg1.read_unread, harg2.read_unread, harg3.read_unread, harg4.read_unread, harg5.read_unread,
    View.ld_unit_zero (S := S1024x256) hz, View.ld_unit_zero (S := S1x1) hz]

theorem out_A_eq (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) :
    out_A c i arg1 harg1 arg2 harg2 arg3 harg3 arg4 harg4 arg5 harg5 hc0 x0 x1 x2 x3 = k11_pay1 (k11_pay3 x0 x1) (k11_pay4 x2 x3) (FloatOps.ofBits .f32 0x00000000#32) (k11_pay2 (F := F)) := by
  unfold out_A
  rw [View.read_writes_eq_canon _ _ _ (cover_A c i arg1 harg1 arg2 harg2 arg3 harg3 arg4 harg4 arg5 harg5 hc0 x0 x1 x2 x3)]
  unfold kernelRun_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread,
    View.ld_unit_zero (S := S1024x256) hz]

end AnyF

section AtIdeal
variable (V : (c : Dev nD) → (b : Ref sig .tc) → Buf (Elt Ideal) ((c : Thread nD τ).loc b))

abbrev PU (c : Dev nD) : FVec Ideal S16384x256 .f32 := V c main_v90
abbrev PW (c : Dev nD) : FVec Ideal S16384x256 .f32 := V c main_v93
abbrev NU (c : Dev nD) : FVec Ideal S16384x256 .f32 := V c main_v91
abbrev NW (c : Dev nD) : FVec Ideal S16384x256 .f32 := V c main_v94

abbrev b0 (c : Dev nD) (t : Fin cfg11.N) : Vec Ideal S1024x256 .f32 := iblk V c 0 t
abbrev b1 (c : Dev nD) (t : Fin cfg11.N) : Vec Ideal S1024x256 .f32 := iblk V c 1 t
abbrev b2 (c : Dev nD) (t : Fin cfg11.N) : Vec Ideal S1024x256 .f32 := iblk V c 2 t
abbrev b3 (c : Dev nD) (t : Fin cfg11.N) : Vec Ideal S1024x256 .f32 := iblk V c 3 t

theorem idx_facts : ∀ t : Fin cfg11.N,
    (win11_0.index t 0 = t.val ∧ win11_0.index t 1 = 0) ∧ (win11_1.index t 0 = t.val ∧ win11_1.index t 1 = 0)
    ∧ (win11_2.index t 0 = t.val ∧ win11_2.index t 1 = 0) ∧ (win11_3.index t 0 = t.val ∧ win11_3.index t 1 = 0) :=
  (by decide +kernel : ∀ t : Fin grid11.N,
    (win11_0.index t 0 = t.val ∧ win11_0.index t 1 = 0) ∧ (win11_1.index t 0 = t.val ∧ win11_1.index t 1 = 0)
    ∧ (win11_2.index t 0 = t.val ∧ win11_2.index t 1 = 0) ∧ (win11_3.index t 0 = t.val ∧ win11_3.index t 1 = 0))

theorem row_lt (t : Fin cfg11.N) (r : Fin 1024) : 1024 * t.val + r.val < 16384 := by
  have h : t.val < 16 := lt_of_lt_of_eq t.isLt (show cfg11.N = 16 from N_11)
  have := r.isLt; omega

abbrev rowIx (t : Fin cfg11.N) (r : Fin 1024) : Fin 16384 := ⟨1024 * t.val + r.val, row_lt t r⟩

theorem b0_apply (c : Dev nD) (t : Fin cfg11.N) (r : Fin 1024) (e : Fin 256) :
    b0 V c t (ValueIdx.ix2 r e) = PU V c (ValueIdx.ix2 (rowIx t r) e) := by
  unfold b0 iblk
  rw [View.read_apply]
  show V c main_v90 _ = V c main_v90 _
  congr 1
  funext a
  apply Fin.ext
  match a with
  | ⟨0, _⟩ => show win11_0.index t 0 * 1024 + 1 * r.val = 1024 * t.val + r.val; rw [(idx_facts t).1.1]; omega
  | ⟨1, _⟩ => show win11_0.index t 1 * 256 + 1 * e.val = e.val; rw [(idx_facts t).1.2]; omega

theorem b1_apply (c : Dev nD) (t : Fin cfg11.N) (r : Fin 1024) (e : Fin 256) :
    b1 V c t (ValueIdx.ix2 r e) = PW V c (ValueIdx.ix2 (rowIx t r) e) := by
  unfold b1 iblk
  rw [View.read_apply]
  show V c main_v93 _ = V c main_v93 _
  congr 1
  funext a
  apply Fin.ext
  match a with
  | ⟨0, _⟩ => show win11_1.index t 0 * 1024 + 1 * r.val = 1024 * t.val + r.val; rw [(idx_facts t).2.1.1]; omega
  | ⟨1, _⟩ => show win11_1.index t 1 * 256 + 1 * e.val = e.val; rw [(idx_facts t).2.1.2]; omega

theorem b2_apply (c : Dev nD) (t : Fin cfg11.N) (r : Fin 1024) (e : Fin 256) :
    b2 V c t (ValueIdx.ix2 r e) = NU V c (ValueIdx.ix2 (rowIx t r) e) := by
  unfold b2 iblk
  rw [View.read_apply]
  show V c main_v91 _ = V c main_v91 _
  congr 1
  funext a
  apply Fin.ext
  match a with
  | ⟨0, _⟩ => show win11_2.index t 0 * 1024 + 1 * r.val = 1024 * t.val + r.val; rw [(idx_facts t).2.2.1.1]; omega
  | ⟨1, _⟩ => show win11_2.index t 1 * 256 + 1 * e.val = e.val; rw [(idx_facts t).2.2.1.2]; omega

theorem b3_apply (c : Dev nD) (t : Fin cfg11.N) (r : Fin 1024) (e : Fin 256) :
    b3 V c t (ValueIdx.ix2 r e) = NW V c (ValueIdx.ix2 (rowIx t r) e) := by
  unfold b3 iblk
  rw [View.read_apply]
  show V c main_v94 _ = V c main_v94 _
  congr 1
  funext a
  apply Fin.ext
  match a with
  | ⟨0, _⟩ => show win11_3.index t 0 * 1024 + 1 * r.val = 1024 * t.val + r.val; rw [(idx_facts t).2.2.2.1]; omega
  | ⟨1, _⟩ => show win11_3.index t 1 * 256 + 1 * e.val = e.val; rw [(idx_facts t).2.2.2.2]; omega

def posTerm (c : Dev nD) (k : ℕ) : EReal := if h : k < 16384 then Spec.lsg (Spec.rowDot (PU V c) (PW V c) ⟨k, h⟩) else 0
def negTerm (c : Dev nD) (k : ℕ) : EReal := if h : k < 16384 then Spec.lsg (-(Spec.rowDot (NU V c) (NW V c) ⟨k, h⟩)) else 0

def part (c : Dev nD) (t : ℕ) : EReal :=
  (∑ r : Fin 1024, posTerm V c (1024 * t + r.val)) + (∑ r : Fin 1024, negTerm V c (1024 * t + r.val))

theorem step_val (c : Dev nD) (t : Fin cfg11.N) (xo : Vec Ideal S1x1 .f32) (j : S1x1.Idx) :
    k11_pay1 (F := Ideal) (k11_pay3 (b0 V c t) (b1 V c t)) (k11_pay4 (b2 V c t) (b3 V c t)) (FloatOps.ofBits .f32 0x00000000#32) xo j
      = xo j + part V c t.val := by
  obtain ⟨p, q, rfl⟩ : ∃ (p : Fin 1) (q : Fin 1), j = ValueIdx.ix2 p q := ⟨j 0, j 1, ValueIdx.eq_ix2 j⟩
  refine (pay1_apply (k11_pay3 (b0 V c t) (b1 V c t)) (k11_pay4 (b2 V c t) (b3 V c t)) xo p q).trans ?_
  unfold part
  refine congrArg (xo (ValueIdx.ix2 p q) + ·) ?_
  refine congrArg₂ (· + ·) (Finset.sum_congr rfl fun r _ => ?_) (Finset.sum_congr rfl fun r _ => ?_)
  · refine (pay3_apply (b0 V c t) (b1 V c t) r p).trans ?_
    unfold posTerm
    rw [dif_pos (row_lt t r)]
    unfold Spec.rowDot
    refine congrArg Spec.lsg (Finset.sum_congr rfl fun e _ => ?_)
    rw [b0_apply, b1_apply]
  · refine (congrArg (fun y => -(Spec.sp y)) (pay4_apply (b2 V c t) (b3 V c t) r p)).trans ?_
    unfold negTerm
    rw [dif_pos (row_lt t r)]
    unfold Spec.rowDot Spec.lsg
    refine congrArg (fun y => -(Spec.sp (-(-y)))) (Finset.sum_congr rfl fun e _ => ?_)
    rw [b2_apply, b3_apply]

theorem outsAt_eq (c : Dev nD) : ∀ (n : ℕ) (h : n < cfg11.N), outsAt V c n h = fun _ => ∑ k ∈ Finset.range (n + 1), part V c k
  | 0, h => by
    refine (outsAt_A V c ⟨0, h⟩ rfl).trans ?_
    refine (out_A_eq (F := Ideal) c (grid11.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) ((hcond ⟨0, h⟩).mpr rfl) (b0 V c ⟨0, h⟩) (b1 V c ⟨0, h⟩) (b2 V c ⟨0, h⟩) (b3 V c ⟨0, h⟩)).trans ?_
    funext j
    refine (step_val V c ⟨0, h⟩ (k11_pay2 (F := Ideal)) j).trans ?_
    rw [pay2_apply, zero_add, Finset.sum_range_one]
  | n + 1, h => by
    refine (outsAt_B V c ⟨n + 1, h⟩ (Nat.succ_ne_zero n)).trans ?_
    refine (out_B_eq (F := Ideal) c (grid11.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (fun hh => Nat.succ_ne_zero n ((hcond ⟨n + 1, h⟩).mp hh)) (b0 V c ⟨n + 1, h⟩) (b1 V c ⟨n + 1, h⟩) (b2 V c ⟨n + 1, h⟩) (b3 V c ⟨n + 1, h⟩) (outsAt V c n (Nat.lt_of_succ_lt h))).trans ?_
    funext j
    refine (step_val V c ⟨n + 1, h⟩ (outsAt V c n (Nat.lt_of_succ_lt h)) j).trans ?_
    rw [outsAt_eq c n (Nat.lt_of_succ_lt h), Finset.sum_range_succ _ (n + 1)]

theorem sum_blocks (f : ℕ → EReal) :
    ∑ k ∈ Finset.range 16, ∑ r : Fin 1024, f (1024 * k + r.val) = ∑ b : Fin 16384, f b.val := by
  rw [← Fin.sum_univ_eq_sum_range (fun k => ∑ r : Fin 1024, f (1024 * k + r.val)) 16, ← Fintype.sum_prod_type']
  exact Fintype.sum_equiv (finProdFinEquiv (m := 16) (n := 1024)) _ (fun b : Fin 16384 => f b.val) fun p => by
    refine congrArg f ?_
    show 1024 * p.1.val + p.2.val = p.2.val + 1024 * p.1.val
    omega

def total (c : Dev nD) : EReal := ∑ k ∈ Finset.range 16, part V c k

theorem total_eq (c : Dev nD) :
    total V c = Cert.Spec.lossSum (V c main_v90) (V c main_v93) (V c main_v91) (V c main_v94) := by
  unfold total part
  rw [Finset.sum_add_distrib, sum_blocks, sum_blocks]
  unfold Cert.Spec.lossSum
  refine congrArg₂ (· + ·) (Finset.sum_congr rfl fun b _ => ?_) (Finset.sum_congr rfl fun b _ => ?_)
  · unfold posTerm; rw [dif_pos b.isLt]
  · unfold negTerm; rw [dif_pos b.isLt]

abbrev result (c : Dev nD) : Buf (Elt Ideal) ((c : Thread nD τ).loc main_v95) := fun _ => total V c

theorem flushed_eq (c : Dev nD) (t : Fin cfg11.N) (hf : (cfg11.win 4).flush t = true) :
    (dat V c).flushed 4 t = ((cfg11.win 4).blk t).view.read (Elt Ideal) (result V c) := by
  have hN : cfg11.N = 16 := N_11
  have h15 : t.val = 15 := by have := (flush11_4 t).mp hf; have := t.isLt; omega
  obtain rfl : t = t11_15 := Fin.ext h15
  show (cfg11.win 4).cut (grid11.coords t11_15) ((dat V c).after 4 t11_15) = _
  rw [after_4, outsAt_eq]
  have hz' : (fun a => win11_4.index t11_15 a * main_v95.ty.shape.size a) = fun _ => 0 := funext fun a => by fin_cases a <;> decide
  exact (Memref.read_access_unit_zero (Elt Ideal) main_v95 hz' (fun a => by rw [congrFun hz' a]; simp) (result V c)).symm

theorem final_o (c : Dev nD) : (dat V c).arrAt 4 cfg11.N = result V c :=
  (dat V c).arrAt_eq_of_cover 4 (result V c) (flushed_eq V c) fun i =>
    ⟨t11_15, (flush11_4 t11_15).mpr rfl, by
      show i ∈ ((View.whole main_v95).slice (win11_4.rect t11_15)).set
      rw [View.set_slice_whole, Rect.mem_set_unit]
      intro a
      have h0 : (i 0 : Nat) < 1 := (i 0).isLt
      have h1 : (i 1 : Nat) < 1 := (i 1).isLt
      match a with
      | ⟨0, _⟩ => show win11_4.index t11_15 0 * win11_4.size 0 ≤ (i 0 : Nat) ∧ (i 0 : Nat) < win11_4.index t11_15 0 * win11_4.size 0 + win11_4.xsize (grid11.coords t11_15) 0
                  rw [show win11_4.index t11_15 0 * win11_4.size 0 = 0 from by decide +kernel, show win11_4.xsize (grid11.coords t11_15) 0 = 1 from by decide +kernel]; omega
      | ⟨1, _⟩ => show win11_4.index t11_15 1 * win11_4.size 1 ≤ (i 1 : Nat) ∧ (i 1 : Nat) < win11_4.index t11_15 1 * win11_4.size 1 + win11_4.xsize (grid11.coords t11_15) 1
                  rw [show win11_4.index t11_15 1 * win11_4.size 1 = 0 from by decide +kernel, show win11_4.xsize (grid11.coords t11_15) 1 = 1 from by decide +kernel]; omega⟩

end AtIdeal

theorem out_value (V : (c : Dev nD) → (b : Ref sig .tc) → Buf (Elt Ideal) ((c : Thread nD τ).loc b)) (c : Dev nD) :
    (dat (F := Ideal) V c).arrAt 4 cfg11.N = fun _ => Cert.Spec.lossSum (V c main_v90) (V c main_v93) (V c main_v91) (V c main_v94) :=
  (final_o V c).trans (funext fun _ => total_eq V c)

end Cert.KernelIdeal.L11

end
-- ==== Proof.KVal.lean ====
import proofs.«404237_j24687472017957_2_alg».proof.Proof.KAcc
import proofs.«404237_j24687472017957_2_alg».proof.Proof.G0Val
import proofs.«404237_j24687472017957_2_alg».proof.Proof.G1Val
import proofs.«404237_j24687472017957_2_alg».proof.Proof.G2Val
import proofs.«404237_j24687472017957_2_alg».proof.Proof.G3Val
import proofs.«404237_j24687472017957_2_alg».proof.Proof.G4Val
import proofs.«404237_j24687472017957_2_alg».proof.Proof.G5Val
import proofs.«404237_j24687472017957_2_alg».proof.Proof.G6Val
import proofs.«404237_j24687472017957_2_alg».proof.Proof.G7Val
import proofs.«404237_j24687472017957_2_alg».proof.Proof.G8Val
import proofs.«404237_j24687472017957_2_alg».proof.Proof.G9Val
import proofs.«404237_j24687472017957_2_alg».proof.Proof.G10Val
import proofs.«404237_j24687472017957_2_alg».proof.Proof.LossValue
import proofs.«404237_j24687472017957_2_alg».proof.Proof.KTbl

set_option maxRecDepth 16384

noncomputable section

namespace Cert.KernelIdeal.Asm

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- A gathered array whose row r is row `pu r k` of the table: the region's output read at its boundary, with its index table and the embedding table named. -/
theorem gath_of {X : S16384x1x256.Idx → EReal} {T4 : S199999x256.Idx → EReal} {tb : S16384.Idx → BitVec 32} (U : Cert.Spec.Tab) (pu : Cert.Spec.Ctx) (k : Fin 10)
    (e : X = fun y => T4 (ValueIdx.ix2 (Cert.Spec.row (tb (ValueIdx.ix1 (y 0)))) (y 2)))
    (ht : ∀ i : S16384.Idx, tb i = pu (ValueIdx.ix2 (i 0) k)) (h4 : T4 = U) :
    X = fun y => gRow U pu k (ValueIdx.ix2 (y 0) (y 2)) := by
  subst h4; rw [e]; funext y; rw [ht]; rfl

theorem gath_p0 (c : Dev nD) (ht : ∀ i : S16384.Idx, G0.tbl (vf (W1 m)) 0 i = aPu m c (ValueIdx.ix2 (i 0) 0)) :
    @Eq (S16384x1x256.Idx → EReal) (W2 m c main_v6_0) (fun y => gRow (aU m c) (aPu m c) 0 (ValueIdx.ix2 (y 0) (y 2))) :=
  gath_of (aU m c) (aPu m c) 0 ((W2_arr m c 0).trans (G0.arrAt_0 _ c)) ht (W1_kept m c main_arg4 kept_arg4)

theorem gath_n0 (c : Dev nD) (ht : ∀ i : S16384.Idx, G0.tbl (vf (W1 m)) 1 i = aNu m c (ValueIdx.ix2 (i 0) 0)) :
    @Eq (S16384x1x256.Idx → EReal) (W2 m c main_v6_1) (fun y => gRow (aU m c) (aNu m c) 0 (ValueIdx.ix2 (y 0) (y 2))) :=
  gath_of (aU m c) (aNu m c) 0 ((W2_arr m c 1).trans (G0.arrAt_1 _ c)) ht (W1_kept m c main_arg4 kept_arg4)

theorem gath_p1 (c : Dev nD) (ht : ∀ i : S16384.Idx, G1.tbl (vf (W3 m)) 0 i = aPu m c (ValueIdx.ix2 (i 0) 1)) :
    @Eq (S16384x1x256.Idx → EReal) (W4 m c main_v15_0) (fun y => gRow (aU m c) (aPu m c) 1 (ValueIdx.ix2 (y 0) (y 2))) :=
  gath_of (aU m c) (aPu m c) 1 ((W4_arr m c 0).trans (G1.arrAt_0 _ c)) ht (W3_kept m c main_arg4 kept_arg4)

theorem gath_n1 (c : Dev nD) (ht : ∀ i : S16384.Idx, G1.tbl (vf (W3 m)) 1 i = aNu m c (ValueIdx.ix2 (i 0) 1)) :
    @Eq (S16384x1x256.Idx → EReal) (W4 m c main_v15_1) (fun y => gRow (aU m c) (aNu m c) 1 (ValueIdx.ix2 (y 0) (y 2))) :=
  gath_of (aU m c) (aNu m c) 1 ((W4_arr m c 1).trans (G1.arrAt_1 _ c)) ht (W3_kept m c main_arg4 kept_arg4)

theorem gath_p2 (c : Dev nD) (ht : ∀ i : S16384.Idx, G2.tbl (vf (W5 m)) 0 i = aPu m c (ValueIdx.ix2 (i 0) 2)) :
    @Eq (S16384x1x256.Idx → EReal) (W6 m c main_v24_0) (fun y => gRow (aU m c) (aPu m c) 2 (ValueIdx.ix2 (y 0) (y 2))) :=
  gath_of (aU m c) (aPu m c) 2 ((W6_arr m c 0).trans (G2.arrAt_0 _ c)) ht (W5_kept m c main_arg4 kept_arg4)

theorem gath_n2 (c : Dev nD) (ht : ∀ i : S16384.Idx, G2.tbl (vf (W5 m)) 1 i = aNu m c (ValueIdx.ix2 (i 0) 2)) :
    @Eq (S16384x1x256.Idx → EReal) (W6 m c main_v24_1) (fun y => gRow (aU m c) (aNu m c) 2 (ValueIdx.ix2 (y 0) (y 2))) :=
  gath_of (aU m c) (aNu m c) 2 ((W6_arr m c 1).trans (G2.arrAt_1 _ c)) ht (W5_kept m c main_arg4 kept_arg4)

theorem gath_p3 (c : Dev nD) (ht : ∀ i : S16384.Idx, G3.tbl (vf (W7 m)) 0 i = aPu m c (ValueIdx.ix2 (i 0) 3)) :
    @Eq (S16384x1x256.Idx → EReal) (W8 m c main_v33_0) (fun y => gRow (aU m c) (aPu m c) 3 (ValueIdx.ix2 (y 0) (y 2))) :=
  gath_of (aU m c) (aPu m c) 3 ((W8_arr m c 0).trans (G3.arrAt_0 _ c)) ht (W7_kept m c main_arg4 kept_arg4)

theorem gath_n3 (c : Dev nD) (ht : ∀ i : S16384.Idx, G3.tbl (vf (W7 m)) 1 i = aNu m c (ValueIdx.ix2 (i 0) 3)) :
    @Eq (S16384x1x256.Idx → EReal) (W8 m c main_v33_1) (fun y => gRow (aU m c) (aNu m c) 3 (ValueIdx.ix2 (y 0) (y 2))) :=
  gath_of (aU m c) (aNu m c) 3 ((W8_arr m c 1).trans (G3.arrAt_1 _ c)) ht (W7_kept m c main_arg4 kept_arg4)

theorem gath_p4 (c : Dev nD) (ht : ∀ i : S16384.Idx, G4.tbl (vf (W9 m)) 0 i = aPu m c (ValueIdx.ix2 (i 0) 4)) :
    @Eq (S16384x1x256.Idx → EReal) (W10 m c main_v42_0) (fun y => gRow (aU m c) (aPu m c) 4 (ValueIdx.ix2 (y 0) (y 2))) :=
  gath_of (aU m c) (aPu m c) 4 ((W10_arr m c 0).trans (G4.arrAt_0 _ c)) ht (W9_kept m c main_arg4 kept_arg4)

theorem gath_n4 (c : Dev nD) (ht : ∀ i : S16384.Idx, G4.tbl (vf (W9 m)) 1 i = aNu m c (ValueIdx.ix2 (i 0) 4)) :
    @Eq (S16384x1x256.Idx → EReal) (W10 m c main_v42_1) (fun y => gRow (aU m c) (aNu m c) 4 (ValueIdx.ix2 (y 0) (y 2))) :=
  gath_of (aU m c) (aNu m c) 4 ((W10_arr m c 1).trans (G4.arrAt_1 _ c)) ht (W9_kept m c main_arg4 kept_arg4)

theorem gath_p5 (c : Dev nD) (ht : ∀ i : S16384.Idx, G5.tbl (vf (W11 m)) 0 i = aPu m c (ValueIdx.ix2 (i 0) 5)) :
    @Eq (S16384x1x256.Idx → EReal) (W12 m c main_v51_0) (fun y => gRow (aU m c) (aPu m c) 5 (ValueIdx.ix2 (y 0) (y 2))) :=
  gath_of (aU m c) (aPu m c) 5 ((W12_arr m c 0).trans (G5.arrAt_0 _ c)) ht (W11_kept m c main_arg4 kept_arg4)

theorem gath_n5 (c : Dev nD) (ht : ∀ i : S16384.Idx, G5.tbl (vf (W11 m)) 1 i = aNu m c (ValueIdx.ix2 (i 0) 5)) :
    @Eq (S16384x1x256.Idx → EReal) (W12 m c main_v51_1) (fun y => gRow (aU m c) (aNu m c) 5 (ValueIdx.ix2 (y 0) (y 2))) :=
  gath_of (aU m c) (aNu m c) 5 ((W12_arr m c 1).trans (G5.arrAt_1 _ c)) ht (W11_kept m c main_arg4 kept_arg4)

theorem gath_p6 (c : Dev nD) (ht : ∀ i : S16384.Idx, G6.tbl (vf (W13 m)) 0 i = aPu m c (ValueIdx.ix2 (i 0) 6)) :
    @Eq (S16384x1x256.Idx → EReal) (W14 m c main_v60_0) (fun y => gRow (aU m c) (aPu m c) 6 (ValueIdx.ix2 (y 0) (y 2))) :=
  gath_of (aU m c) (aPu m c) 6 ((W14_arr m c 0).trans (G6.arrAt_0 _ c)) ht (W13_kept m c main_arg4 kept_arg4)

theorem gath_n6 (c : Dev nD) (ht : ∀ i : S16384.Idx, G6.tbl (vf (W13 m)) 1 i = aNu m c (ValueIdx.ix2 (i 0) 6)) :
    @Eq (S16384x1x256.Idx → EReal) (W14 m c main_v60_1) (fun y => gRow (aU m c) (aNu m c) 6 (ValueIdx.ix2 (y 0) (y 2))) :=
  gath_of (aU m c) (aNu m c) 6 ((W14_arr m c 1).trans (G6.arrAt_1 _ c)) ht (W13_kept m c main_arg4 kept_arg4)

theorem gath_p7 (c : Dev nD) (ht : ∀ i : S16384.Idx, G7.tbl (vf (W15 m)) 0 i = aPu m c (ValueIdx.ix2 (i 0) 7)) :
    @Eq (S16384x1x256.Idx → EReal) (W16 m c main_v69_0) (fun y => gRow (aU m c) (aPu m c) 7 (ValueIdx.ix2 (y 0) (y 2))) :=
  gath_of (aU m c) (aPu m c) 7 ((W16_arr m c 0).trans (G7.arrAt_0 _ c)) ht (W15_kept m c main_arg4 kept_arg4)

theorem gath_n7 (c : Dev nD) (ht : ∀ i : S16384.Idx, G7.tbl (vf (W15 m)) 1 i = aNu m c (ValueIdx.ix2 (i 0) 7)) :
    @Eq (S16384x1x256.Idx → EReal) (W16 m c main_v69_1) (fun y => gRow (aU m c) (aNu m c) 7 (ValueIdx.ix2 (y 0) (y 2))) :=
  gath_of (aU m c) (aNu m c) 7 ((W16_arr m c 1).trans (G7.arrAt_1 _ c)) ht (W15_kept m c main_arg4 kept_arg4)

theorem gath_p8 (c : Dev nD) (ht : ∀ i : S16384.Idx, G8.tbl (vf (W17 m)) 0 i = aPu m c (ValueIdx.ix2 (i 0) 8)) :
    @Eq (S16384x1x256.Idx → EReal) (W18 m c main_v78_0) (fun y => gRow (aU m c) (aPu m c) 8 (ValueIdx.ix2 (y 0) (y 2))) :=
  gath_of (aU m c) (aPu m c) 8 ((W18_arr m c 0).trans (G8.arrAt_0 _ c)) ht (W17_kept m c main_arg4 kept_arg4)

theorem gath_n8 (c : Dev nD) (ht : ∀ i : S16384.Idx, G8.tbl (vf (W17 m)) 1 i = aNu m c (ValueIdx.ix2 (i 0) 8)) :
    @Eq (S16384x1x256.Idx → EReal) (W18 m c main_v78_1) (fun y => gRow (aU m c) (aNu m c) 8 (ValueIdx.ix2 (y 0) (y 2))) :=
  gath_of (aU m c) (aNu m c) 8 ((W18_arr m c 1).trans (G8.arrAt_1 _ c)) ht (W17_kept m c main_arg4 kept_arg4)

theorem gath_p9 (c : Dev nD) (ht : ∀ i : S16384.Idx, G9.tbl (vf (W19 m)) 0 i = aPu m c (ValueIdx.ix2 (i 0) 9)) :
    @Eq (S16384x1x256.Idx → EReal) (W20 m c main_v87_0) (fun y => gRow (aU m c) (aPu m c) 9 (ValueIdx.ix2 (y 0) (y 2))) :=
  gath_of (aU m c) (aPu m c) 9 ((W20_arr m c 0).trans (G9.arrAt_0 _ c)) ht (W19_kept m c main_arg4 kept_arg4)

theorem gath_n9 (c : Dev nD) (ht : ∀ i : S16384.Idx, G9.tbl (vf (W19 m)) 1 i = aNu m c (ValueIdx.ix2 (i 0) 9)) :
    @Eq (S16384x1x256.Idx → EReal) (W20 m c main_v87_1) (fun y => gRow (aU m c) (aNu m c) 9 (ValueIdx.ix2 (y 0) (y 2))) :=
  gath_of (aU m c) (aNu m c) 9 ((W20_arr m c 1).trans (G9.arrAt_1 _ c)) ht (W19_kept m c main_arg4 kept_arg4)

theorem gath_p10 (c : Dev nD) (ht : G10.tbl (vf (W21 m)) 0 = aPw m c) :
    @Eq (S16384x1x256.Idx → EReal) (W22 m c main_v92_0) (fun y => tRow (aW m c) (aPw m c) (ValueIdx.ix2 (y 0) (y 2))) := by
  have e : @Eq (S16384x1x256.Idx → EReal) (W22 m c main_v92_0) ((G10.dat0 (vf (W21 m)) c).arrAt 0 (G10.cfgM (vf (W21 m))).N) :=
    W22_arr m c 0
  rw [e, G10.arrAt_0]
  funext y
  show W21 m c main_arg5 (ValueIdx.ix2 (Cert.Spec.row (G10.tbl (vf (W21 m)) 0 (ValueIdx.ix1 (y 0)))) (y 2)) = _
  rw [ht, W21_kept _ _ main_arg5 kept_arg5]
  rfl

theorem gath_n10 (c : Dev nD) (ht : G10.tbl (vf (W21 m)) 1 = aNw m c) :
    @Eq (S16384x1x256.Idx → EReal) (W22 m c main_v92_1) (fun y => tRow (aW m c) (aNw m c) (ValueIdx.ix2 (y 0) (y 2))) := by
  have e : @Eq (S16384x1x256.Idx → EReal) (W22 m c main_v92_1) ((G10.dat0 (vf (W21 m)) c).arrAt 1 (G10.cfgM (vf (W21 m))).N) :=
    W22_arr m c 1
  rw [e, G10.arrAt_1]
  funext y
  show W21 m c main_arg5 (ValueIdx.ix2 (Cert.Spec.row (G10.tbl (vf (W21 m)) 1 (ValueIdx.ix1 (y 0)))) (y 2)) = _
  rw [ht, W21_kept _ _ main_arg5 kept_arg5]
  rfl

structure Tables (c : Dev nD) : Prop where
  p0 : ∀ i : S16384.Idx, G0.tbl (vf (W1 m)) 0 i = aPu m c (ValueIdx.ix2 (i 0) 0)
  n0 : ∀ i : S16384.Idx, G0.tbl (vf (W1 m)) 1 i = aNu m c (ValueIdx.ix2 (i 0) 0)
  p1 : ∀ i : S16384.Idx, G1.tbl (vf (W3 m)) 0 i = aPu m c (ValueIdx.ix2 (i 0) 1)
  n1 : ∀ i : S16384.Idx, G1.tbl (vf (W3 m)) 1 i = aNu m c (ValueIdx.ix2 (i 0) 1)
  p2 : ∀ i : S16384.Idx, G2.tbl (vf (W5 m)) 0 i = aPu m c (ValueIdx.ix2 (i 0) 2)
  n2 : ∀ i : S16384.Idx, G2.tbl (vf (W5 m)) 1 i = aNu m c (ValueIdx.ix2 (i 0) 2)
  p3 : ∀ i : S16384.Idx, G3.tbl (vf (W7 m)) 0 i = aPu m c (ValueIdx.ix2 (i 0) 3)
  n3 : ∀ i : S16384.Idx, G3.tbl (vf (W7 m)) 1 i = aNu m c (ValueIdx.ix2 (i 0) 3)
  p4 : ∀ i : S16384.Idx, G4.tbl (vf (W9 m)) 0 i = aPu m c (ValueIdx.ix2 (i 0) 4)
  n4 : ∀ i : S16384.Idx, G4.tbl (vf (W9 m)) 1 i = aNu m c (ValueIdx.ix2 (i 0) 4)
  p5 : ∀ i : S16384.Idx, G5.tbl (vf (W11 m)) 0 i = aPu m c (ValueIdx.ix2 (i 0) 5)
  n5 : ∀ i : S16384.Idx, G5.tbl (vf (W11 m)) 1 i = aNu m c (ValueIdx.ix2 (i 0) 5)
  p6 : ∀ i : S16384.Idx, G6.tbl (vf (W13 m)) 0 i = aPu m c (ValueIdx.ix2 (i 0) 6)
  n6 : ∀ i : S16384.Idx, G6.tbl (vf (W13 m)) 1 i = aNu m c (ValueIdx.ix2 (i 0) 6)
  p7 : ∀ i : S16384.Idx, G7.tbl (vf (W15 m)) 0 i = aPu m c (ValueIdx.ix2 (i 0) 7)
  n7 : ∀ i : S16384.Idx, G7.tbl (vf (W15 m)) 1 i = aNu m c (ValueIdx.ix2 (i 0) 7)
  p8 : ∀ i : S16384.Idx, G8.tbl (vf (W17 m)) 0 i = aPu m c (ValueIdx.ix2 (i 0) 8)
  n8 : ∀ i : S16384.Idx, G8.tbl (vf (W17 m)) 1 i = aNu m c (ValueIdx.ix2 (i 0) 8)
  p9 : ∀ i : S16384.Idx, G9.tbl (vf (W19 m)) 0 i = aPu m c (ValueIdx.ix2 (i 0) 9)
  n9 : ∀ i : S16384.Idx, G9.tbl (vf (W19 m)) 1 i = aNu m c (ValueIdx.ix2 (i 0) 9)
  p10 : G10.tbl (vf (W21 m)) 0 = aPw m c
  n10 : G10.tbl (vf (W21 m)) 1 = aNw m c

theorem gathered_of_tables (c : Dev nD) (ht : Tables m c) : Gathered m c where
  p0 := gath_p0 m c ht.p0
  n0 := gath_n0 m c ht.n0
  p1 := gath_p1 m c ht.p1
  n1 := gath_n1 m c ht.n1
  p2 := gath_p2 m c ht.p2
  n2 := gath_n2 m c ht.n2
  p3 := gath_p3 m c ht.p3
  n3 := gath_n3 m c ht.n3
  p4 := gath_p4 m c ht.p4
  n4 := gath_n4 m c ht.n4
  p5 := gath_p5 m c ht.p5
  n5 := gath_n5 m c ht.n5
  p6 := gath_p6 m c ht.p6
  n6 := gath_n6 m c ht.n6
  p7 := gath_p7 m c ht.p7
  n7 := gath_n7 m c ht.n7
  p8 := gath_p8 m c ht.p8
  n8 := gath_n8 m c ht.n8
  p9 := gath_p9 m c ht.p9
  n9 := gath_n9 m c ht.n9
  p10 := gath_p10 m c ht.p10
  n10 := gath_n10 m c ht.n10

theorem W25_of_tables (c : Dev nD) (ht : Tables m c) :
    W25 m c main_v97 = Cert.Spec.loss (aPu m c) (aPw m c) (aNu m c) (aNw m c) (aU m c) (aW m c) :=
  W25_of_gathered m c (gathered_of_tables m c ht) (L11.out_value (vf (W23 m)) c)

theorem tables (c : Dev nD) : Tables m c := by
  obtain rfl : c = 0 := Subsingleton.elim _ _
  exact {
    p0 := tblA_0 m
    n0 := tblB_0 m
    p1 := tblA_1 m
    n1 := tblB_1 m
    p2 := tblA_2 m
    n2 := tblB_2 m
    p3 := tblA_3 m
    n3 := tblB_3 m
    p4 := tblA_4 m
    n4 := tblB_4 m
    p5 := tblA_5 m
    n5 := tblB_5 m
    p6 := tblA_6 m
    n6 := tblB_6 m
    p7 := tblA_7 m
    n7 := tblB_7 m
    p8 := tblA_8 m
    n8 := tblB_8 m
    p9 := tblA_9 m
    n9 := tblB_9 m
    p10 := tblA_10 m
    n10 := tblB_10 m }

theorem W25_main_v97 (m : (ℓ : Loc nD τ sig) → Buf (Elt Ideal) ℓ) (c : Dev nD) :
    W25 m c main_v97 = Cert.Spec.loss (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) :=
  W25_of_tables m c (tables m c)

end Cert.KernelIdeal.Asm

end
-- ==== Proof.K.Landed.lean ====
import proofs.«404237_j24687472017957_2_alg».proof.Kernel
import proofs.«404237_j24687472017957_2_alg».proof.Proof.Spec
import Idealize.ShloMosaic.Lib.Writes
import Idealize.ShloMosaic.Lib.ValueIdx

noncomputable section

namespace Cert.Kernel.Landed

open Cert.Kernel
open Idealize.ShloMosaic Idealize.SL.Sem

variable {F : FTy → Type} [FloatOps F]

def landed (fh : S199999x256.Idx → Elt F .f32) (w : BitVec 32) : S1x1x256.Idx → Elt F .f32 :=
  fun y => fh (ValueIdx.ix2 (Cert.Spec.row w) (y 2))

theorem read_write_reshape_slice {sg : RefSig} {κ : Kind} {sp : Space} {s s' : Shape} {e : EltTy} {Val : EltTy → Type}
    (v : View sg κ sp s e) (R : Rect s) (h : s'.numel = R.shape.numel) (f : v.ty.Contents Val) (W : s'.Idx → Val e)
    (x : R.shape.Idx) :
    v.read Val (((v.slice R).reshape s' h).write Val f W Finset.univ) (R.emb x) = W ((Shape.reshapeEquiv h).symm x) := by
  rw [View.write_reshape_univ]
  exact View.read_slice_write_emb R f _ (Finset.mem_univ x)

theorem reshape_1x1x256 (h : S256.numel = S1x1x256.numel) (y : S1x1x256.Idx) :
    (Shape.reshapeEquiv h).symm y = (ValueIdx.ix1 (y 2 : Fin 256) : S256.Idx) := by
  rw [Equiv.symm_apply_eq]
  have h1 : S256.numel = S1x256.numel := by decide
  have h2 : S1x256.numel = S1x1x256.numel := by decide
  rw [← Shape.reshapeEquiv_reshapeEquiv h2 h1, Shape.reshapeEquiv_cons_one h1, Shape.reshapeEquiv_cons_one h2]
  funext a
  apply Fin.ext
  fin_cases a
  · show (y 0).val = 0
    have := (y 0).isLt; have e : S1x1x256.size 0 = 1 := rfl; omega
  · show (y 1).val = 0
    have := (y 1).isLt; have e : S1x1x256.size 1 = 1 := rfl; omega
  · rfl

theorem reshape_1x256 (h : S256.numel = S1x256.numel) (z : S256.Idx) (a : Fin 2) :
    ((Shape.reshapeEquiv h z) a).val = if a = 0 then 0 else (z 0).val := by
  rw [Shape.reshapeEquiv_cons_one h]
  fin_cases a <;> rfl

theorem read_block (dst : Memref sig .tc .vmem S1x1x256 .f32) (f0 : dst.view.ty.Contents (Elt F)) (W : S256.Idx → Elt F .f32)
    (inb0 : ∀ a, (![0, 0, 0] : Fin 3 → Nat) a + S1x1x256.size a ≤ S1x1x256.size a)
    (hs : ∀ a, (Rect.unit (s := S1x1x256) ![0, 0, 0] S1x1x256.size inb0).stride a = 1)
    (hq : (Rect.unit (s := S1x1x256) ![0, 0, 0] S1x1x256.size inb0).shape.Squeezes S256) (y : S1x1x256.Idx) :
    dst.view.read (Elt F) (View.write (Val := Elt F) ((dst.slice (Rect.unit (s := S1x1x256) ![0, 0, 0] S1x1x256.size inb0) hs).squeeze S256 hq).view f0 W Finset.univ) y
      = W (ValueIdx.ix1 (y 2 : Fin 256) : S256.Idx) := by
  have hy : (Rect.unit (s := S1x1x256) ![0, 0, 0] S1x1x256.size inb0).emb y = y := by
    funext a; apply Fin.ext
    fin_cases a <;> simp [Rect.emb_apply]
  have key := read_write_reshape_slice (Val := Elt F) dst.view (Rect.unit (s := S1x1x256) ![0, 0, 0] S1x1x256.size inb0) hq.numel_eq f0 W y
  rw [hy] at key
  exact key.trans (congrArg W (reshape_1x1x256 _ y))

theorem landed_eq (dst : Memref sig .tc .vmem S1x1x256 .f32)
    (f0 : dst.view.ty.Contents (Elt F)) (fh : S199999x256.Idx → Elt F .f32) (w : BitVec 32) (hw : w.toNat < 199999)
    (src : Memref sig .tc .hbm S199999x256 .f32) (fsrc : src.view.ty.Contents (Elt F)) (hread : src.view.read (Elt F) fsrc = fh)
    (off : Fin 2 → Nat) (hoff : off = ![w.toNat, 0]) (inb : ∀ a, off a + S1x256.size a ≤ S199999x256.size a)
    (hsl : ∀ a, (Rect.unit (s := S199999x256) off S1x256.size inb).stride a = 1)
    (hsq : S1x256.Squeezes S256) (R0 : Rect S1x1x256) (hR0 : R0 = Rect.unit (s := S1x1x256) ![0, 0, 0] S1x1x256.size (fun a => by fin_cases a <;> decide))
    (hR0s : ∀ a, R0.stride a = 1) (hsq' : R0.shape.Squeezes S256) :
    dst.view.read (Elt F) (View.write (Val := Elt F) ((dst.slice R0 hR0s).squeeze S256 hsq').view f0
        (ReadAs.same.apply (View.read (Elt F) ((src.slice (Rect.unit (s := S199999x256) off S1x256.size inb) hsl).squeeze S256 hsq).view fsrc)) Finset.univ)
      = landed fh w := by
  subst hR0 hoff
  funext y
  rw [read_block]
  show (src.view.read (Elt F) fsrc) ((Rect.unit (s := S199999x256) ![w.toNat, 0] S1x256.size inb).emb (Shape.reshapeEquiv hsq.numel_eq (ValueIdx.ix1 (y 2 : Fin 256) : S256.Idx))) = _
  rw [hread]
  unfold landed
  congr 1
  funext a; apply Fin.ext
  rw [Rect.emb_apply, reshape_1x256]
  fin_cases a
  · show w.toNat + 1 * 0 = (Cert.Spec.row w).val
    rw [Cert.Spec.row_val w hw]; omega
  · show 0 + 1 * (y 2).val = (y 2).val
    omega

end Cert.Kernel.Landed

end
-- ==== Proof.K.G0Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G0

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v3
abbrev tB : Memref sig .tc .smem S16384 .i32 := Memref.whole main_v5
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid0.Coords) (h) :
    View.readAt (Elt F) M.view (Rect.unit (s := S16384) (k0_off1 i) S1.size (k0_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid0.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 4) 0 ∗ semVal ((c : Thread nD τ), SemLoc.dma 5) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 4) 0 ∗ semVal ((c : Thread nD τ), SemLoc.dma 5) 0 ∗ (∃ W', owes (c : Thread nD τ) 0 W')) -∗ K ⟨⟩))
      ⊢ wp frame (wpE (defs₀ (F := F)) Variants.none c none) Set.univ (cc0__gather_pair_kernel i tA (Memref.isWhole_whole _) tB (Memref.isWhole_whole _) hbM (Memref.isWhole_whole _) arg4 harg4 arg5 harg5 cc0_scratch0) K := by
  have hcA : ∀ k, k0_chk1 (TA k) := fun k => by
    refine ⟨fun a => ?_, fun a => ?_⟩ <;> (have := hA k; fin_cases a <;> simp [k0_off2, k0_off4, S1x256, S199999x256] <;> omega)
  have hcB : ∀ k, k0_chk2 (TB k) := fun k => by
    intro a; have := hB k; fin_cases a <;> simp [k0_off3, S1x256, S199999x256] <;> omega
  simp only [cc0__gather_pair_kernel_eq_skeleton]; unfold cc0__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G0

end
-- ==== Proof.K.G0.lean ====
import proofs.«404237_j24687472017957_2_alg».proof.Proof.K.G0Run

set_option maxRecDepth 16384

noncomputable section

namespace Cert.Kernel.G0

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre0.Contents (Elt F) := fun j => V (0 : Dev nD) (pre0.ref j)
theorem V_pre (c : Dev nD) (j : Fin 2) : V c (pre0.ref j) = tbl V j := by
  obtain rfl : c = 0 := Subsingleton.elim _ _; rfl
abbrev adm : (pcfg0 (F := F)).Adm := ⟨tbl V, trivial⟩
abbrev cfgM : Pipeline.Cfg sig Λ₀ := cfg0 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec0_0.stage ((cfgM V).slots t 0)
abbrev hs0 (t : Fin (cfgM V).N) : (ms0 V t).IsWhole := hstage0_0 (((cfgM V).slots t 0).cast nbuf0_0)
abbrev ms1 (t : Fin (cfgM V).N) : Memref sig .tc .vmem S1x1x256 .f32 := spec0_1.stage ((cfgM V).slots t 1)
abbrev hs1 (t : Fin (cfgM V).N) : (ms1 V t).IsWhole := hstage0_1 (((cfgM V).slots t 1).cast nbuf0_1)

abbrev bodyAt (t : Fin (cfgM V).N) : Prog (TpuEff nD τ sig (Elt F) Λ₀ .tc) PUnit :=
  cc0__gather_pair_kernel (grid0.coords t) tA (Memref.isWhole_whole _) tB (Memref.isWhole_whole _) hbM (Memref.isWhole_whole _) (ms0 V t) (hs0 V t) (ms1 V t) (hs1 V t) cc0_scratch0

abbrev osem0 : Fin 2 → SemLoc sig := fun j => (![SemLoc.dma 4, SemLoc.dma 5] : Fin 2 → SemLoc sig) j
theorem ownSemFacts0 : Pipeline.OwnSemFacts spec0 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre0 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec0 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec0 w)
  after w t := match w with
    | ⟨0, _⟩ => landed (V c main_arg4) (tbl V 0 (ValueIdx.ix1 (grid0.coords t 0)))
    | ⟨1, _⟩ => landed (V c main_arg4) (tbl V 1 (ValueIdx.ix1 (grid0.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid0.coords t 0))) from rfl,
    show (dat0 V c).after 1 t = landed (V c main_arg4) (tbl V 1 (ValueIdx.ix1 (grid0.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid0.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W0, bigSep_W0]
  exact sound_body V hok c t

end Cert.Kernel.G0

end
-- ==== Proof.K.G1Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G1

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v12
abbrev tB : Memref sig .tc .smem S16384 .i32 := Memref.whole main_v14
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid1.Coords) (h) :
    View.readAt (Elt F) M.view (Rect.unit (s := S16384) (k1_off1 i) S1.size (k1_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid1.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 10) 0 ∗ semVal ((c : Thread nD τ), SemLoc.dma 11) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 10) 0 ∗ semVal ((c : Thread nD τ), SemLoc.dma 11) 0 ∗ (∃ W', owes (c : Thread nD τ) 0 W')) -∗ K ⟨⟩))
      ⊢ wp frame (wpE (defs₀ (F := F)) Variants.none c none) Set.univ (cc1__gather_pair_kernel i tA (Memref.isWhole_whole _) tB (Memref.isWhole_whole _) hbM (Memref.isWhole_whole _) arg4 harg4 arg5 harg5 cc1_scratch0) K := by
  have hcA : ∀ k, k1_chk1 (TA k) := fun k => by
    refine ⟨fun a => ?_, fun a => ?_⟩ <;> (have := hA k; fin_cases a <;> simp [k1_off2, k1_off4, S1x256, S199999x256] <;> omega)
  have hcB : ∀ k, k1_chk2 (TB k) := fun k => by
    intro a; have := hB k; fin_cases a <;> simp [k1_off3, S1x256, S199999x256] <;> omega
  simp only [cc1__gather_pair_kernel_eq_skeleton]; unfold cc1__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G1

end
-- ==== Proof.K.G1.lean ====
import proofs.«404237_j24687472017957_2_alg».proof.Proof.K.G1Run

set_option maxRecDepth 16384

noncomputable section

namespace Cert.Kernel.G1

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre1.Contents (Elt F) := fun j => V (0 : Dev nD) (pre1.ref j)
theorem V_pre (c : Dev nD) (j : Fin 2) : V c (pre1.ref j) = tbl V j := by
  obtain rfl : c = 0 := Subsingleton.elim _ _; rfl
abbrev adm : (pcfg1 (F := F)).Adm := ⟨tbl V, trivial⟩
abbrev cfgM : Pipeline.Cfg sig Λ₀ := cfg1 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec1_0.stage ((cfgM V).slots t 0)
abbrev hs0 (t : Fin (cfgM V).N) : (ms0 V t).IsWhole := hstage1_0 (((cfgM V).slots t 0).cast nbuf1_0)
abbrev ms1 (t : Fin (cfgM V).N) : Memref sig .tc .vmem S1x1x256 .f32 := spec1_1.stage ((cfgM V).slots t 1)
abbrev hs1 (t : Fin (cfgM V).N) : (ms1 V t).IsWhole := hstage1_1 (((cfgM V).slots t 1).cast nbuf1_1)

abbrev bodyAt (t : Fin (cfgM V).N) : Prog (TpuEff nD τ sig (Elt F) Λ₀ .tc) PUnit :=
  cc1__gather_pair_kernel (grid1.coords t) tA (Memref.isWhole_whole _) tB (Memref.isWhole_whole _) hbM (Memref.isWhole_whole _) (ms0 V t) (hs0 V t) (ms1 V t) (hs1 V t) cc1_scratch0

abbrev osem0 : Fin 2 → SemLoc sig := fun j => (![SemLoc.dma 10, SemLoc.dma 11] : Fin 2 → SemLoc sig) j
theorem ownSemFacts0 : Pipeline.OwnSemFacts spec1 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre1 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec1 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec1 w)
  after w t := match w with
    | ⟨0, _⟩ => landed (V c main_arg4) (tbl V 0 (ValueIdx.ix1 (grid1.coords t 0)))
    | ⟨1, _⟩ => landed (V c main_arg4) (tbl V 1 (ValueIdx.ix1 (grid1.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid1.coords t 0))) from rfl,
    show (dat0 V c).after 1 t = landed (V c main_arg4) (tbl V 1 (ValueIdx.ix1 (grid1.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid1.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W1, bigSep_W1]
  exact sound_body V hok c t

end Cert.Kernel.G1

end
-- ==== Proof.K.G2Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G2

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v21
abbrev tB : Memref sig .tc .smem S16384 .i32 := Memref.whole main_v23
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid2.Coords) (h) :
    View.readAt (Elt F) M.view (Rect.unit (s := S16384) (k2_off1 i) S1.size (k2_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid2.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 16) 0 ∗ semVal ((c : Thread nD τ), SemLoc.dma 17) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 16) 0 ∗ semVal ((c : Thread nD τ), SemLoc.dma 17) 0 ∗ (∃ W', owes (c : Thread nD τ) 0 W')) -∗ K ⟨⟩))
      ⊢ wp frame (wpE (defs₀ (F := F)) Variants.none c none) Set.univ (cc2__gather_pair_kernel i tA (Memref.isWhole_whole _) tB (Memref.isWhole_whole _) hbM (Memref.isWhole_whole _) arg4 harg4 arg5 harg5 cc2_scratch0) K := by
  have hcA : ∀ k, k2_chk1 (TA k) := fun k => by
    refine ⟨fun a => ?_, fun a => ?_⟩ <;> (have := hA k; fin_cases a <;> simp [k2_off2, k2_off4, S1x256, S199999x256] <;> omega)
  have hcB : ∀ k, k2_chk2 (TB k) := fun k => by
    intro a; have := hB k; fin_cases a <;> simp [k2_off3, S1x256, S199999x256] <;> omega
  simp only [cc2__gather_pair_kernel_eq_skeleton]; unfold cc2__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G2

end
-- ==== Proof.K.G2.lean ====
import proofs.«404237_j24687472017957_2_alg».proof.Proof.K.G2Run

set_option maxRecDepth 16384

noncomputable section

namespace Cert.Kernel.G2

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre2.Contents (Elt F) := fun j => V (0 : Dev nD) (pre2.ref j)
theorem V_pre (c : Dev nD) (j : Fin 2) : V c (pre2.ref j) = tbl V j := by
  obtain rfl : c = 0 := Subsingleton.elim _ _; rfl
abbrev adm : (pcfg2 (F := F)).Adm := ⟨tbl V, trivial⟩
abbrev cfgM : Pipeline.Cfg sig Λ₀ := cfg2 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec2_0.stage ((cfgM V).slots t 0)
abbrev hs0 (t : Fin (cfgM V).N) : (ms0 V t).IsWhole := hstage2_0 (((cfgM V).slots t 0).cast nbuf2_0)
abbrev ms1 (t : Fin (cfgM V).N) : Memref sig .tc .vmem S1x1x256 .f32 := spec2_1.stage ((cfgM V).slots t 1)
abbrev hs1 (t : Fin (cfgM V).N) : (ms1 V t).IsWhole := hstage2_1 (((cfgM V).slots t 1).cast nbuf2_1)

abbrev bodyAt (t : Fin (cfgM V).N) : Prog (TpuEff nD τ sig (Elt F) Λ₀ .tc) PUnit :=
  cc2__gather_pair_kernel (grid2.coords t) tA (Memref.isWhole_whole _) tB (Memref.isWhole_whole _) hbM (Memref.isWhole_whole _) (ms0 V t) (hs0 V t) (ms1 V t) (hs1 V t) cc2_scratch0

abbrev osem0 : Fin 2 → SemLoc sig := fun j => (![SemLoc.dma 16, SemLoc.dma 17] : Fin 2 → SemLoc sig) j
theorem ownSemFacts0 : Pipeline.OwnSemFacts spec2 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre2 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec2 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec2 w)
  after w t := match w with
    | ⟨0, _⟩ => landed (V c main_arg4) (tbl V 0 (ValueIdx.ix1 (grid2.coords t 0)))
    | ⟨1, _⟩ => landed (V c main_arg4) (tbl V 1 (ValueIdx.ix1 (grid2.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid2.coords t 0))) from rfl,
    show (dat0 V c).after 1 t = landed (V c main_arg4) (tbl V 1 (ValueIdx.ix1 (grid2.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid2.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W2, bigSep_W2]
  exact sound_body V hok c t

end Cert.Kernel.G2

end
-- ==== Proof.K.G3Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G3

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v30
abbrev tB : Memref sig .tc .smem S16384 .i32 := Memref.whole main_v32
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid3.Coords) (h) :
    View.readAt (Elt F) M.view (Rect.unit (s := S16384) (k3_off1 i) S1.size (k3_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid3.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 22) 0 ∗ semVal ((c : Thread nD τ), SemLoc.dma 23) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 22) 0 ∗ semVal ((c : Thread nD τ), SemLoc.dma 23) 0 ∗ (∃ W', owes (c : Thread nD τ) 0 W')) -∗ K ⟨⟩))
      ⊢ wp frame (wpE (defs₀ (F := F)) Variants.none c none) Set.univ (cc3__gather_pair_kernel i tA (Memref.isWhole_whole _) tB (Memref.isWhole_whole _) hbM (Memref.isWhole_whole _) arg4 harg4 arg5 harg5 cc3_scratch0) K := by
  have hcA : ∀ k, k3_chk1 (TA k) := fun k => by
    refine ⟨fun a => ?_, fun a => ?_⟩ <;> (have := hA k; fin_cases a <;> simp [k3_off2, k3_off4, S1x256, S199999x256] <;> omega)
  have hcB : ∀ k, k3_chk2 (TB k) := fun k => by
    intro a; have := hB k; fin_cases a <;> simp [k3_off3, S1x256, S199999x256] <;> omega
  simp only [cc3__gather_pair_kernel_eq_skeleton]; unfold cc3__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G3

end
-- ==== Proof.K.G3.lean ====
import proofs.«404237_j24687472017957_2_alg».proof.Proof.K.G3Run

set_option maxRecDepth 16384

noncomputable section

namespace Cert.Kernel.G3

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre3.Contents (Elt F) := fun j => V (0 : Dev nD) (pre3.ref j)
theorem V_pre (c : Dev nD) (j : Fin 2) : V c (pre3.ref j) = tbl V j := by
  obtain rfl : c = 0 := Subsingleton.elim _ _; rfl
abbrev adm : (pcfg3 (F := F)).Adm := ⟨tbl V, trivial⟩
abbrev cfgM : Pipeline.Cfg sig Λ₀ := cfg3 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec3_0.stage ((cfgM V).slots t 0)
abbrev hs0 (t : Fin (cfgM V).N) : (ms0 V t).IsWhole := hstage3_0 (((cfgM V).slots t 0).cast nbuf3_0)
abbrev ms1 (t : Fin (cfgM V).N) : Memref sig .tc .vmem S1x1x256 .f32 := spec3_1.stage ((cfgM V).slots t 1)
abbrev hs1 (t : Fin (cfgM V).N) : (ms1 V t).IsWhole := hstage3_1 (((cfgM V).slots t 1).cast nbuf3_1)

abbrev bodyAt (t : Fin (cfgM V).N) : Prog (TpuEff nD τ sig (Elt F) Λ₀ .tc) PUnit :=
  cc3__gather_pair_kernel (grid3.coords t) tA (Memref.isWhole_whole _) tB (Memref.isWhole_whole _) hbM (Memref.isWhole_whole _) (ms0 V t) (hs0 V t) (ms1 V t) (hs1 V t) cc3_scratch0

abbrev osem0 : Fin 2 → SemLoc sig := fun j => (![SemLoc.dma 22, SemLoc.dma 23] : Fin 2 → SemLoc sig) j
theorem ownSemFacts0 : Pipeline.OwnSemFacts spec3 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre3 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec3 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec3 w)
  after w t := match w with
    | ⟨0, _⟩ => landed (V c main_arg4) (tbl V 0 (ValueIdx.ix1 (grid3.coords t 0)))
    | ⟨1, _⟩ => landed (V c main_arg4) (tbl V 1 (ValueIdx.ix1 (grid3.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid3.coords t 0))) from rfl,
    show (dat0 V c).after 1 t = landed (V c main_arg4) (tbl V 1 (ValueIdx.ix1 (grid3.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid3.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W3, bigSep_W3]
  exact sound_body V hok c t

end Cert.Kernel.G3

end
-- ==== Proof.K.G4Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G4

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v39
abbrev tB : Memref sig .tc .smem S16384 .i32 := Memref.whole main_v41
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid4.Coords) (h) :
    View.readAt (Elt F) M.view (Rect.unit (s := S16384) (k4_off1 i) S1.size (k4_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid4.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 28) 0 ∗ semVal ((c : Thread nD τ), SemLoc.dma 29) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 28) 0 ∗ semVal ((c : Thread nD τ), SemLoc.dma 29) 0 ∗ (∃ W', owes (c : Thread nD τ) 0 W')) -∗ K ⟨⟩))
      ⊢ wp frame (wpE (defs₀ (F := F)) Variants.none c none) Set.univ (cc4__gather_pair_kernel i tA (Memref.isWhole_whole _) tB (Memref.isWhole_whole _) hbM (Memref.isWhole_whole _) arg4 harg4 arg5 harg5 cc4_scratch0) K := by
  have hcA : ∀ k, k4_chk1 (TA k) := fun k => by
    refine ⟨fun a => ?_, fun a => ?_⟩ <;> (have := hA k; fin_cases a <;> simp [k4_off2, k4_off4, S1x256, S199999x256] <;> omega)
  have hcB : ∀ k, k4_chk2 (TB k) := fun k => by
    intro a; have := hB k; fin_cases a <;> simp [k4_off3, S1x256, S199999x256] <;> omega
  simp only [cc4__gather_pair_kernel_eq_skeleton]; unfold cc4__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G4

end
-- ==== Proof.K.G4.lean ====
import proofs.«404237_j24687472017957_2_alg».proof.Proof.K.G4Run

set_option maxRecDepth 16384

noncomputable section

namespace Cert.Kernel.G4

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre4.Contents (Elt F) := fun j => V (0 : Dev nD) (pre4.ref j)
theorem V_pre (c : Dev nD) (j : Fin 2) : V c (pre4.ref j) = tbl V j := by
  obtain rfl : c = 0 := Subsingleton.elim _ _; rfl
abbrev adm : (pcfg4 (F := F)).Adm := ⟨tbl V, trivial⟩
abbrev cfgM : Pipeline.Cfg sig Λ₀ := cfg4 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec4_0.stage ((cfgM V).slots t 0)
abbrev hs0 (t : Fin (cfgM V).N) : (ms0 V t).IsWhole := hstage4_0 (((cfgM V).slots t 0).cast nbuf4_0)
abbrev ms1 (t : Fin (cfgM V).N) : Memref sig .tc .vmem S1x1x256 .f32 := spec4_1.stage ((cfgM V).slots t 1)
abbrev hs1 (t : Fin (cfgM V).N) : (ms1 V t).IsWhole := hstage4_1 (((cfgM V).slots t 1).cast nbuf4_1)

abbrev bodyAt (t : Fin (cfgM V).N) : Prog (TpuEff nD τ sig (Elt F) Λ₀ .tc) PUnit :=
  cc4__gather_pair_kernel (grid4.coords t) tA (Memref.isWhole_whole _) tB (Memref.isWhole_whole _) hbM (Memref.isWhole_whole _) (ms0 V t) (hs0 V t) (ms1 V t) (hs1 V t) cc4_scratch0

abbrev osem0 : Fin 2 → SemLoc sig := fun j => (![SemLoc.dma 28, SemLoc.dma 29] : Fin 2 → SemLoc sig) j
theorem ownSemFacts0 : Pipeline.OwnSemFacts spec4 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre4 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec4 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec4 w)
  after w t := match w with
    | ⟨0, _⟩ => landed (V c main_arg4) (tbl V 0 (ValueIdx.ix1 (grid4.coords t 0)))
    | ⟨1, _⟩ => landed (V c main_arg4) (tbl V 1 (ValueIdx.ix1 (grid4.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid4.coords t 0))) from rfl,
    show (dat0 V c).after 1 t = landed (V c main_arg4) (tbl V 1 (ValueIdx.ix1 (grid4.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid4.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W4, bigSep_W4]
  exact sound_body V hok c t

end Cert.Kernel.G4

end
-- ==== Proof.K.G5Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G5

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v48
abbrev tB : Memref sig .tc .smem S16384 .i32 := Memref.whole main_v50
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid5.Coords) (h) :
    View.readAt (Elt F) M.view (Rect.unit (s := S16384) (k5_off1 i) S1.size (k5_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid5.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 34) 0 ∗ semVal ((c : Thread nD τ), SemLoc.dma 35) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 34) 0 ∗ semVal ((c : Thread nD τ), SemLoc.dma 35) 0 ∗ (∃ W', owes (c : Thread nD τ) 0 W')) -∗ K ⟨⟩))
      ⊢ wp frame (wpE (defs₀ (F := F)) Variants.none c none) Set.univ (cc5__gather_pair_kernel i tA (Memref.isWhole_whole _) tB (Memref.isWhole_whole _) hbM (Memref.isWhole_whole _) arg4 harg4 arg5 harg5 cc5_scratch0) K := by
  have hcA : ∀ k, k5_chk1 (TA k) := fun k => by
    refine ⟨fun a => ?_, fun a => ?_⟩ <;> (have := hA k; fin_cases a <;> simp [k5_off2, k5_off4, S1x256, S199999x256] <;> omega)
  have hcB : ∀ k, k5_chk2 (TB k) := fun k => by
    intro a; have := hB k; fin_cases a <;> simp [k5_off3, S1x256, S199999x256] <;> omega
  simp only [cc5__gather_pair_kernel_eq_skeleton]; unfold cc5__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G5

end
-- ==== Proof.K.G5.lean ====
import proofs.«404237_j24687472017957_2_alg».proof.Proof.K.G5Run

set_option maxRecDepth 16384

noncomputable section

namespace Cert.Kernel.G5

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre5.Contents (Elt F) := fun j => V (0 : Dev nD) (pre5.ref j)
theorem V_pre (c : Dev nD) (j : Fin 2) : V c (pre5.ref j) = tbl V j := by
  obtain rfl : c = 0 := Subsingleton.elim _ _; rfl
abbrev adm : (pcfg5 (F := F)).Adm := ⟨tbl V, trivial⟩
abbrev cfgM : Pipeline.Cfg sig Λ₀ := cfg5 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec5_0.stage ((cfgM V).slots t 0)
abbrev hs0 (t : Fin (cfgM V).N) : (ms0 V t).IsWhole := hstage5_0 (((cfgM V).slots t 0).cast nbuf5_0)
abbrev ms1 (t : Fin (cfgM V).N) : Memref sig .tc .vmem S1x1x256 .f32 := spec5_1.stage ((cfgM V).slots t 1)
abbrev hs1 (t : Fin (cfgM V).N) : (ms1 V t).IsWhole := hstage5_1 (((cfgM V).slots t 1).cast nbuf5_1)

abbrev bodyAt (t : Fin (cfgM V).N) : Prog (TpuEff nD τ sig (Elt F) Λ₀ .tc) PUnit :=
  cc5__gather_pair_kernel (grid5.coords t) tA (Memref.isWhole_whole _) tB (Memref.isWhole_whole _) hbM (Memref.isWhole_whole _) (ms0 V t) (hs0 V t) (ms1 V t) (hs1 V t) cc5_scratch0

abbrev osem0 : Fin 2 → SemLoc sig := fun j => (![SemLoc.dma 34, SemLoc.dma 35] : Fin 2 → SemLoc sig) j
theorem ownSemFacts0 : Pipeline.OwnSemFacts spec5 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 34) 0 ∗ semVal ((c : Thread nD τ), SemLoc.dma 35) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre5 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec5 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec5 w)
  after w t := match w with
    | ⟨0, _⟩ => landed (V c main_arg4) (tbl V 0 (ValueIdx.ix1 (grid5.coords t 0)))
    | ⟨1, _⟩ => landed (V c main_arg4) (tbl V 1 (ValueIdx.ix1 (grid5.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid5.coords t 0))) from rfl,
    show (dat0 V c).after 1 t = landed (V c main_arg4) (tbl V 1 (ValueIdx.ix1 (grid5.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid5.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W5, bigSep_W5]
  exact sound_body V hok c t

end Cert.Kernel.G5

end
-- ==== Proof.K.G6Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G6

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v57
abbrev tB : Memref sig .tc .smem S16384 .i32 := Memref.whole main_v59
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid6.Coords) (h) :
    View.readAt (Elt F) M.view (Rect.unit (s := S16384) (k6_off1 i) S1.size (k6_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid6.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 40) 0 ∗ semVal ((c : Thread nD τ), SemLoc.dma 41) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 40) 0 ∗ semVal ((c : Thread nD τ), SemLoc.dma 41) 0 ∗ (∃ W', owes (c : Thread nD τ) 0 W')) -∗ K ⟨⟩))
      ⊢ wp frame (wpE (defs₀ (F := F)) Variants.none c none) Set.univ (cc6__gather_pair_kernel i tA (Memref.isWhole_whole _) tB (Memref.isWhole_whole _) hbM (Memref.isWhole_whole _) arg4 harg4 arg5 harg5 cc6_scratch0) K := by
  have hcA : ∀ k, k6_chk1 (TA k) := fun k => by
    refine ⟨fun a => ?_, fun a => ?_⟩ <;> (have := hA k; fin_cases a <;> simp [k6_off2, k6_off4, S1x256, S199999x256] <;> omega)
  have hcB : ∀ k, k6_chk2 (TB k) := fun k => by
    intro a; have := hB k; fin_cases a <;> simp [k6_off3, S1x256, S199999x256] <;> omega
  simp only [cc6__gather_pair_kernel_eq_skeleton]; unfold cc6__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G6

end
-- ==== Proof.K.G6.lean ====
import proofs.«404237_j24687472017957_2_alg».proof.Proof.K.G6Run

set_option maxRecDepth 16384

noncomputable section

namespace Cert.Kernel.G6

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre6.Contents (Elt F) := fun j => V (0 : Dev nD) (pre6.ref j)
theorem V_pre (c : Dev nD) (j : Fin 2) : V c (pre6.ref j) = tbl V j := by
  obtain rfl : c = 0 := Subsingleton.elim _ _; rfl
abbrev adm : (pcfg6 (F := F)).Adm := ⟨tbl V, trivial⟩
abbrev cfgM : Pipeline.Cfg sig Λ₀ := cfg6 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec6_0.stage ((cfgM V).slots t 0)
abbrev hs0 (t : Fin (cfgM V).N) : (ms0 V t).IsWhole := hstage6_0 (((cfgM V).slots t 0).cast nbuf6_0)
abbrev ms1 (t : Fin (cfgM V).N) : Memref sig .tc .vmem S1x1x256 .f32 := spec6_1.stage ((cfgM V).slots t 1)
abbrev hs1 (t : Fin (cfgM V).N) : (ms1 V t).IsWhole := hstage6_1 (((cfgM V).slots t 1).cast nbuf6_1)

abbrev bodyAt (t : Fin (cfgM V).N) : Prog (TpuEff nD τ sig (Elt F) Λ₀ .tc) PUnit :=
  cc6__gather_pair_kernel (grid6.coords t) tA (Memref.isWhole_whole _) tB (Memref.isWhole_whole _) hbM (Memref.isWhole_whole _) (ms0 V t) (hs0 V t) (ms1 V t) (hs1 V t) cc6_scratch0

abbrev osem0 : Fin 2 → SemLoc sig := fun j => (![SemLoc.dma 40, SemLoc.dma 41] : Fin 2 → SemLoc sig) j
theorem ownSemFacts0 : Pipeline.OwnSemFacts spec6 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 40) 0 ∗ semVal ((c : Thread nD τ), SemLoc.dma 41) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre6 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec6 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec6 w)
  after w t := match w with
    | ⟨0, _⟩ => landed (V c main_arg4) (tbl V 0 (ValueIdx.ix1 (grid6.coords t 0)))
    | ⟨1, _⟩ => landed (V c main_arg4) (tbl V 1 (ValueIdx.ix1 (grid6.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid6.coords t 0))) from rfl,
    show (dat0 V c).after 1 t = landed (V c main_arg4) (tbl V 1 (ValueIdx.ix1 (grid6.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid6.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W6, bigSep_W6]
  exact sound_body V hok c t

end Cert.Kernel.G6

end
-- ==== Proof.K.G7Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G7

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v66
abbrev tB : Memref sig .tc .smem S16384 .i32 := Memref.whole main_v68
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid7.Coords) (h) :
    View.readAt (Elt F) M.view (Rect.unit (s := S16384) (k7_off1 i) S1.size (k7_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid7.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 46) 0 ∗ semVal ((c : Thread nD τ), SemLoc.dma 47) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 46) 0 ∗ semVal ((c : Thread nD τ), SemLoc.dma 47) 0 ∗ (∃ W', owes (c : Thread nD τ) 0 W')) -∗ K ⟨⟩))
      ⊢ wp frame (wpE (defs₀ (F := F)) Variants.none c none) Set.univ (cc7__gather_pair_kernel i tA (Memref.isWhole_whole _) tB (Memref.isWhole_whole _) hbM (Memref.isWhole_whole _) arg4 harg4 arg5 harg5 cc7_scratch0) K := by
  have hcA : ∀ k, k7_chk1 (TA k) := fun k => by
    refine ⟨fun a => ?_, fun a => ?_⟩ <;> (have := hA k; fin_cases a <;> simp [k7_off2, k7_off4, S1x256, S199999x256] <;> omega)
  have hcB : ∀ k, k7_chk2 (TB k) := fun k => by
    intro a; have := hB k; fin_cases a <;> simp [k7_off3, S1x256, S199999x256] <;> omega
  simp only [cc7__gather_pair_kernel_eq_skeleton]; unfold cc7__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G7

end
-- ==== Proof.K.G7.lean ====
import proofs.«404237_j24687472017957_2_alg».proof.Proof.K.G7Run

set_option maxRecDepth 16384

noncomputable section

namespace Cert.Kernel.G7

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre7.Contents (Elt F) := fun j => V (0 : Dev nD) (pre7.ref j)
theorem V_pre (c : Dev nD) (j : Fin 2) : V c (pre7.ref j) = tbl V j := by
  obtain rfl : c = 0 := Subsingleton.elim _ _; rfl
abbrev adm : (pcfg7 (F := F)).Adm := ⟨tbl V, trivial⟩
abbrev cfgM : Pipeline.Cfg sig Λ₀ := cfg7 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec7_0.stage ((cfgM V).slots t 0)
abbrev hs0 (t : Fin (cfgM V).N) : (ms0 V t).IsWhole := hstage7_0 (((cfgM V).slots t 0).cast nbuf7_0)
abbrev ms1 (t : Fin (cfgM V).N) : Memref sig .tc .vmem S1x1x256 .f32 := spec7_1.stage ((cfgM V).slots t 1)
abbrev hs1 (t : Fin (cfgM V).N) : (ms1 V t).IsWhole := hstage7_1 (((cfgM V).slots t 1).cast nbuf7_1)

abbrev bodyAt (t : Fin (cfgM V).N) : Prog (TpuEff nD τ sig (Elt F) Λ₀ .tc) PUnit :=
  cc7__gather_pair_kernel (grid7.coords t) tA (Memref.isWhole_whole _) tB (Memref.isWhole_whole _) hbM (Memref.isWhole_whole _) (ms0 V t) (hs0 V t) (ms1 V t) (hs1 V t) cc7_scratch0

abbrev osem0 : Fin 2 → SemLoc sig := fun j => (![SemLoc.dma 46, SemLoc.dma 47] : Fin 2 → SemLoc sig) j
theorem ownSemFacts0 : Pipeline.OwnSemFacts spec7 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 46) 0 ∗ semVal ((c : Thread nD τ), SemLoc.dma 47) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre7 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec7 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec7 w)
  after w t := match w with
    | ⟨0, _⟩ => landed (V c main_arg4) (tbl V 0 (ValueIdx.ix1 (grid7.coords t 0)))
    | ⟨1, _⟩ => landed (V c main_arg4) (tbl V 1 (ValueIdx.ix1 (grid7.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid7.coords t 0))) from rfl,
    show (dat0 V c).after 1 t = landed (V c main_arg4) (tbl V 1 (ValueIdx.ix1 (grid7.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid7.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W7, bigSep_W7]
  exact sound_body V hok c t

end Cert.Kernel.G7

end
-- ==== Proof.K.G8Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G8

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v75
abbrev tB : Memref sig .tc .smem S16384 .i32 := Memref.whole main_v77
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid8.Coords) (h) :
    View.readAt (Elt F) M.view (Rect.unit (s := S16384) (k8_off1 i) S1.size (k8_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid8.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 52) 0 ∗ semVal ((c : Thread nD τ), SemLoc.dma 53) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 52) 0 ∗ semVal ((c : Thread nD τ), SemLoc.dma 53) 0 ∗ (∃ W', owes (c : Thread nD τ) 0 W')) -∗ K ⟨⟩))
      ⊢ wp frame (wpE (defs₀ (F := F)) Variants.none c none) Set.univ (cc8__gather_pair_kernel i tA (Memref.isWhole_whole _) tB (Memref.isWhole_whole _) hbM (Memref.isWhole_whole _) arg4 harg4 arg5 harg5 cc8_scratch0) K := by
  have hcA : ∀ k, k8_chk1 (TA k) := fun k => by
    refine ⟨fun a => ?_, fun a => ?_⟩ <;> (have := hA k; fin_cases a <;> simp [k8_off2, k8_off4, S1x256, S199999x256] <;> omega)
  have hcB : ∀ k, k8_chk2 (TB k) := fun k => by
    intro a; have := hB k; fin_cases a <;> simp [k8_off3, S1x256, S199999x256] <;> omega
  simp only [cc8__gather_pair_kernel_eq_skeleton]; unfold cc8__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G8

end
-- ==== Proof.K.G8.lean ====
import proofs.«404237_j24687472017957_2_alg».proof.Proof.K.G8Run

set_option maxRecDepth 16384

noncomputable section

namespace Cert.Kernel.G8

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre8.Contents (Elt F) := fun j => V (0 : Dev nD) (pre8.ref j)
theorem V_pre (c : Dev nD) (j : Fin 2) : V c (pre8.ref j) = tbl V j := by
  obtain rfl : c = 0 := Subsingleton.elim _ _; rfl
abbrev adm : (pcfg8 (F := F)).Adm := ⟨tbl V, trivial⟩
abbrev cfgM : Pipeline.Cfg sig Λ₀ := cfg8 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec8_0.stage ((cfgM V).slots t 0)
abbrev hs0 (t : Fin (cfgM V).N) : (ms0 V t).IsWhole := hstage8_0 (((cfgM V).slots t 0).cast nbuf8_0)
abbrev ms1 (t : Fin (cfgM V).N) : Memref sig .tc .vmem S1x1x256 .f32 := spec8_1.stage ((cfgM V).slots t 1)
abbrev hs1 (t : Fin (cfgM V).N) : (ms1 V t).IsWhole := hstage8_1 (((cfgM V).slots t 1).cast nbuf8_1)

abbrev bodyAt (t : Fin (cfgM V).N) : Prog (TpuEff nD τ sig (Elt F) Λ₀ .tc) PUnit :=
  cc8__gather_pair_kernel (grid8.coords t) tA (Memref.isWhole_whole _) tB (Memref.isWhole_whole _) hbM (Memref.isWhole_whole _) (ms0 V t) (hs0 V t) (ms1 V t) (hs1 V t) cc8_scratch0

abbrev osem0 : Fin 2 → SemLoc sig := fun j => (![SemLoc.dma 52, SemLoc.dma 53] : Fin 2 → SemLoc sig) j
theorem ownSemFacts0 : Pipeline.OwnSemFacts spec8 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 52) 0 ∗ semVal ((c : Thread nD τ), SemLoc.dma 53) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre8 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec8 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec8 w)
  after w t := match w with
    | ⟨0, _⟩ => landed (V c main_arg4) (tbl V 0 (ValueIdx.ix1 (grid8.coords t 0)))
    | ⟨1, _⟩ => landed (V c main_arg4) (tbl V 1 (ValueIdx.ix1 (grid8.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid8.coords t 0))) from rfl,
    show (dat0 V c).after 1 t = landed (V c main_arg4) (tbl V 1 (ValueIdx.ix1 (grid8.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid8.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W8, bigSep_W8]
  exact sound_body V hok c t

end Cert.Kernel.G8

end
-- ==== Proof.K.G9Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G9

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_v84
abbrev tB : Memref sig .tc .smem S16384 .i32 := Memref.whole main_v86
abbrev hbM : Memref sig .tc .hbm S199999x256 .f32 := Memref.whole main_arg4

/-- The one-word load at grid point `i` reads entry `i` of the table: the offset is `i` as a 32-bit word, and `i < 2^32`. -/
theorem word_eq (c : Dev nD) (M : Memref sig .tc .smem S16384 .i32) (T : HbBuf (F := F) c M) (i : grid9.Coords) (h) :
    View.readAt (Elt F) M.view (Rect.unit (s := S16384) (k9_off1 i) S1.size (k9_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid9.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 58) 0 ∗ semVal ((c : Thread nD τ), SemLoc.dma 59) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 58) 0 ∗ semVal ((c : Thread nD τ), SemLoc.dma 59) 0 ∗ (∃ W', owes (c : Thread nD τ) 0 W')) -∗ K ⟨⟩))
      ⊢ wp frame (wpE (defs₀ (F := F)) Variants.none c none) Set.univ (cc9__gather_pair_kernel i tA (Memref.isWhole_whole _) tB (Memref.isWhole_whole _) hbM (Memref.isWhole_whole _) arg4 harg4 arg5 harg5 cc9_scratch0) K := by
  have hcA : ∀ k, k9_chk1 (TA k) := fun k => by
    refine ⟨fun a => ?_, fun a => ?_⟩ <;> (have := hA k; fin_cases a <;> simp [k9_off2, k9_off4, S1x256, S199999x256] <;> omega)
  have hcB : ∀ k, k9_chk2 (TB k) := fun k => by
    intro a; have := hB k; fin_cases a <;> simp [k9_off3, S1x256, S199999x256] <;> omega
  simp only [cc9__gather_pair_kernel_eq_skeleton]; unfold cc9__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G9

end
-- ==== Proof.K.G9.lean ====
import proofs.«404237_j24687472017957_2_alg».proof.Proof.K.G9Run

set_option maxRecDepth 16384

noncomputable section

namespace Cert.Kernel.G9

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre9.Contents (Elt F) := fun j => V (0 : Dev nD) (pre9.ref j)
theorem V_pre (c : Dev nD) (j : Fin 2) : V c (pre9.ref j) = tbl V j := by
  obtain rfl : c = 0 := Subsingleton.elim _ _; rfl
abbrev adm : (pcfg9 (F := F)).Adm := ⟨tbl V, trivial⟩
abbrev cfgM : Pipeline.Cfg sig Λ₀ := cfg9 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec9_0.stage ((cfgM V).slots t 0)
abbrev hs0 (t : Fin (cfgM V).N) : (ms0 V t).IsWhole := hstage9_0 (((cfgM V).slots t 0).cast nbuf9_0)
abbrev ms1 (t : Fin (cfgM V).N) : Memref sig .tc .vmem S1x1x256 .f32 := spec9_1.stage ((cfgM V).slots t 1)
abbrev hs1 (t : Fin (cfgM V).N) : (ms1 V t).IsWhole := hstage9_1 (((cfgM V).slots t 1).cast nbuf9_1)

abbrev bodyAt (t : Fin (cfgM V).N) : Prog (TpuEff nD τ sig (Elt F) Λ₀ .tc) PUnit :=
  cc9__gather_pair_kernel (grid9.coords t) tA (Memref.isWhole_whole _) tB (Memref.isWhole_whole _) hbM (Memref.isWhole_whole _) (ms0 V t) (hs0 V t) (ms1 V t) (hs1 V t) cc9_scratch0

abbrev osem0 : Fin 2 → SemLoc sig := fun j => (![SemLoc.dma 58, SemLoc.dma 59] : Fin 2 → SemLoc sig) j
theorem ownSemFacts0 : Pipeline.OwnSemFacts spec9 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 58) 0 ∗ semVal ((c : Thread nD τ), SemLoc.dma 59) 0) := by
  rw [Pipeline.ownSems0_eq_of_list c osem0 [0, 1] (by decide) (by decide)]; rfl
def H0 : Finset (Ref sig .tc) := {main_arg4}
theorem hbmPts0_eq (c : Dev nD) :
    (bigSep H0 (fun b => ((c : Thread nD τ).loc b) ↦{fullShare} V c b) : sProp 𝕄) = iprop(hbPt c hbM (V c main_arg4)) := by
  unfold H0
  rw [BI.bigSep_eq_bigSepL_of_eq [main_arg4] (by decide) (by decide)]; rfl

abbrev tblHeld (c : Dev nD) : sProp 𝕄 :=
  Pipeline.prefHeld (Ix := Unit) (Name := ℕ) (U := Pipeline.UD sig nD τ) (Lvl := ℕ) pre9 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec9 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec9 w)
  after w t := match w with
    | ⟨0, _⟩ => landed (V c main_arg4) (tbl V 0 (ValueIdx.ix1 (grid9.coords t 0)))
    | ⟨1, _⟩ => landed (V c main_arg4) (tbl V 1 (ValueIdx.ix1 (grid9.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg4) (tbl V 0 (ValueIdx.ix1 (grid9.coords t 0))) from rfl,
    show (dat0 V c).after 1 t = landed (V c main_arg4) (tbl V 1 (ValueIdx.ix1 (grid9.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid9.coords t) (ms0 V t) (hs0 V t) (ms1 V t) (hs1 V t) (tbl V 0) (tbl V 1) (V c main_arg4) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W9, bigSep_W9]
  exact sound_body V hok c t

end Cert.Kernel.G9

end
-- ==== Proof.K.G10Run.lean ====
import proofs.«404237_j24687472017957_2_alg».proof.Proof.Gen.Kernel.Launch
import proofs.«404237_j24687472017957_2_alg».proof.Proof.Gen.Kernel.Skeleton
import Idealize.ShloMosaic.Lib.Pipeline.FrameBody
import Idealize.ShloMosaic.Lib.Pipeline.RegionsLoop
import Idealize.ShloMosaic.Lib.Tactic
import proofs.«404237_j24687472017957_2_alg».proof.Proof.K.Landed

set_option maxRecDepth 16384

noncomputable section

namespace Cert.Kernel.G10

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Tactic

variable {F : FTy → Type} [FloatOps F]

local notation "𝕄" => MT nD τ sig Unit (Elt F) ℕ (Pipeline.UD sig nD τ) ℕ

open Cert.Kernel.Landed

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbHalf (c : Dev nD) {sp : Space} {S : Shape} {e : EltTy} (M : Memref sig .tc sp S e) (f : HbBuf (F := F) c M) : sProp 𝕄 :=
  iprop((M.view.loc (c : Thread nD τ) ↦{fullShare.left} f) ∗ (M.view.loc (c : Thread nD τ) ↦{fullShare.right} f))

abbrev tA : Memref sig .tc .smem S16384 .i32 := Memref.whole main_arg1
abbrev tB : Memref sig .tc .smem S16384 .i32 := Memref.whole main_arg3
abbrev hbM : Memref sig .tc .hbm S199999x256 .f32 := Memref.whole main_arg5

/-- The one-word load at grid point `i` reads entry `i` of the table: the offset is `i` as a 32-bit word, and `i < 2^32`. -/
theorem word_eq (c : Dev nD) (M : Memref sig .tc .smem S16384 .i32) (T : HbBuf (F := F) c M) (i : grid10.Coords) (h) :
    View.readAt (Elt F) M.view (Rect.unit (s := S16384) (k10_off1 i) S1.size (k10_off1_inb i)).toLoadRect T (Shape.Idx.first h)
      = M.view.read (Elt F) T (ValueIdx.ix1 (i 0)) := by
  rw [View.readAt_apply]
  congr 1
  funext a
  apply Fin.ext
  fin_cases a
  show (BitVec.ofNat 32 (i 0).val).toNat + 1 * 0 = (i 0).val
  have hi : (i 0).val < 16384 := (i 0).isLt
  rw [BitVec.toNat_ofNat]; omega

set_option maxHeartbeats 1000000 in
/-- Both copies are started before either is waited for, and each wait is on its own semaphore, so after both waits
    each output block holds the table row its index word names; the row offsets are in range because the words are. -/
theorem kernelRun (c : Dev nD) (i : grid10.Coords) (arg4 : Memref sig .tc .vmem S1x1x256 .f32) (harg4 : arg4.IsWhole) (arg5 : Memref sig .tc .vmem S1x1x256 .f32) (harg5 : arg5.IsWhole)
    (TA : HbBuf (F := F) c tA) (TB : HbBuf (F := F) c tB) (fh : HbBuf (F := F) c hbM)
    (hA : ∀ k, (TA k).toNat < 199999) (hB : ∀ k, (TB k).toNat < 199999)
    (W : Waits sig Unit) (K : PUnit → sProp 𝕄) :
    iprop(hbPt c tA TA ∗ hbPt c tB TB ∗ hbHalf c hbM fh ∗ (∃ d, owns (c : Thread nD τ) arg4 fullShare d) ∗ (∃ d, owns (c : Thread nD τ) arg5 fullShare d)
        ∗ semVal ((c : Thread nD τ), SemLoc.dma 64) 0 ∗ semVal ((c : Thread nD τ), SemLoc.dma 65) 0 ∗ owes (c : Thread nD τ) 0 W
        ∗ (iprop(hbPt c tA TA ∗ hbPt c tB TB ∗ hbHalf c hbM fh
            ∗ owns (c : Thread nD τ) arg4 fullShare (landed fh (TA (ValueIdx.ix1 (i 0))))
            ∗ owns (c : Thread nD τ) arg5 fullShare (landed fh (TB (ValueIdx.ix1 (i 0))))
            ∗ semVal ((c : Thread nD τ), SemLoc.dma 64) 0 ∗ semVal ((c : Thread nD τ), SemLoc.dma 65) 0 ∗ (∃ W', owes (c : Thread nD τ) 0 W')) -∗ K ⟨⟩))
      ⊢ wp frame (wpE (defs₀ (F := F)) Variants.none c none) Set.univ (cc10__gather_pair_kernel i tA (Memref.isWhole_whole _) tB (Memref.isWhole_whole _) hbM (Memref.isWhole_whole _) arg4 harg4 arg5 harg5 cc10_scratch0) K := by
  have hcA : ∀ k, k10_chk1 (TA k) := fun k => by
    refine ⟨fun a => ?_, fun a => ?_⟩ <;> (have := hA k; fin_cases a <;> simp [k10_off2, k10_off4, S1x256, S199999x256] <;> omega)
  have hcB : ∀ k, k10_chk2 (TB k) := fun k => by
    intro a; have := hB k; fin_cases a <;> simp [k10_off3, S1x256, S199999x256] <;> omega
  simp only [cc10__gather_pair_kernel_eq_skeleton]; unfold cc10__gather_pair_kernel_skel
  unfold owns
  iintro ⟨HA, HB, ⟨Hh0, Hh1⟩, ⟨%d0, %f0, -, H0⟩, ⟨%d1, %f1, -, H1⟩, Hq0, Hq1, HW, Hk⟩
  sl_exec (disch := first | exact hcA _ | exact hcB _)
  sl_step
  sl_unfold_words
  iapply Hk
  iframe HA HB
  isplitl [Hh0 Hh1]; · isplitl [Hh0] <;> iassumption
  isplitl [H0]
  · iexists _; iframe H0
    ipureintro
    refine landed_eq arg4 f0 fh (TA (ValueIdx.ix1 (i 0))) (hA _) hbM fh rfl _ ?_ _ _ _ _ rfl _ _
    exact congrArg (fun v : BitVec 32 => (![v.toNat, 0] : Fin 2 → Nat)) (word_eq c tA TA i _)
  isplitl [H1]
  · iexists _; iframe H1
    ipureintro
    refine landed_eq arg5 f1 fh (TB (ValueIdx.ix1 (i 0))) (hB _) hbM fh rfl _ ?_ _ _ _ _ rfl _ _
    exact congrArg (fun v : BitVec 32 => (![v.toNat, 0] : Fin 2 → Nat)) (word_eq c tB TB i _)
  isplitl [Hq0]; · iexact Hq0
  isplitl [Hq1]; · iexact Hq1
  iexists _; iexact HW

end Cert.Kernel.G10

end
-- ==== Proof.K.G10.lean ====
import proofs.«404237_j24687472017957_2_alg».proof.Proof.K.G10Run

set_option maxRecDepth 16384

noncomputable section

namespace Cert.Kernel.G10

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

def tbl : pre10.Contents (Elt F) := fun j => V (0 : Dev nD) (pre10.ref j)
theorem V_pre (c : Dev nD) (j : Fin 2) : V c (pre10.ref j) = tbl V j := by
  obtain rfl : c = 0 := Subsingleton.elim _ _; rfl
abbrev adm : (pcfg10 (F := F)).Adm := ⟨tbl V, trivial⟩
abbrev cfgM : Pipeline.Cfg sig Λ₀ := cfg10 (adm V)

/-- Every word of both tables names a row of the embedding table. -/
def TblOk : Prop :=
  (∀ k : S16384.Idx, ((tbl V 0 : S16384.Idx → BitVec 32) k).toNat < 199999) ∧ (∀ k : S16384.Idx, ((tbl V 1 : S16384.Idx → BitVec 32) k).toNat < 199999)

abbrev ms0 (t : Fin (cfgM V).N) : Memref sig .tc .vmem S1x1x256 .f32 := spec10_0.stage ((cfgM V).slots t 0)
abbrev hs0 (t : Fin (cfgM V).N) : (ms0 V t).IsWhole := hstage10_0 (((cfgM V).slots t 0).cast nbuf10_0)
abbrev ms1 (t : Fin (cfgM V).N) : Memref sig .tc .vmem S1x1x256 .f32 := spec10_1.stage ((cfgM V).slots t 1)
abbrev hs1 (t : Fin (cfgM V).N) : (ms1 V t).IsWhole := hstage10_1 (((cfgM V).slots t 1).cast nbuf10_1)

abbrev bodyAt (t : Fin (cfgM V).N) : Prog (TpuEff nD τ sig (Elt F) Λ₀ .tc) PUnit :=
  cc10__gather_pair_kernel (grid10.coords t) tA (Memref.isWhole_whole _) tB (Memref.isWhole_whole _) hbM (Memref.isWhole_whole _) (ms0 V t) (hs0 V t) (ms1 V t) (hs1 V t) cc10_scratch0

abbrev osem0 : Fin 2 → SemLoc sig := fun j => (![SemLoc.dma 64, SemLoc.dma 65] : Fin 2 → SemLoc sig) j
theorem ownSemFacts0 : Pipeline.OwnSemFacts spec10 osem0 := by decide
abbrev ownSems (c : Dev nD) : sProp 𝕄 :=
  Pipeline.ownSems0 (Ix := Unit) (Name := ℕ) (U := Pipeline.UD sig nD τ) (Lvl := ℕ) (Val := Elt F) (τ := τ) osem0 c
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 64) 0 ∗ semVal ((c : Thread nD τ), SemLoc.dma 65) 0) := by
  rw [Pipeline.ownSems0_eq_of_list c osem0 [0, 1] (by decide) (by decide)]; rfl
def H0 : Finset (Ref sig .tc) := {main_arg5}
theorem hbmPts0_eq (c : Dev nD) :
    (bigSep H0 (fun b => ((c : Thread nD τ).loc b) ↦{fullShare} V c b) : sProp 𝕄) = iprop(hbPt c hbM (V c main_arg5)) := by
  unfold H0
  rw [BI.bigSep_eq_bigSepL_of_eq [main_arg5] (by decide) (by decide)]; rfl

abbrev tblHeld (c : Dev nD) : sProp 𝕄 :=
  Pipeline.prefHeld (Ix := Unit) (Name := ℕ) (U := Pipeline.UD sig nD τ) (Lvl := ℕ) pre10 c (fun _ => fullShare) (tbl V)
theorem prefHeld_eq (c : Dev nD) : (tblHeld V c : sProp 𝕄) = iprop(hbPt c tA (tbl V 0) ∗ hbPt c tB (tbl V 1)) := by
  unfold tblHeld Pipeline.prefHeld
  rw [show (Finset.univ : Finset (Fin 2)) = insert (0 : Fin 2) {(1 : Fin 2)} from by decide,
    bigSep_insert (by decide), bigSep_singleton]
  rfl

/-- The region's invariant: what no window stages, the two copy semaphores at zero, and the three tables as entered. -/
def Phi (c : Dev nD) : sProp 𝕄 := iprop(Pipeline.ΦD osem0 spec10 H0 V c ∗ tblHeld V c)

/-- After the body at point `t`, output `w`'s block is the table row that entry `t` of index table `w` names. -/
def dat0 (c : Dev nD) : Dat τ (Elt F) Unit ℕ (Pipeline.UD sig nD τ) ℕ (cfgM V) c where
  A w := V c (Pipeline.arrRef spec10 w)
  after w t := match w with
    | ⟨0, _⟩ => landed (V c main_arg5) (tbl V 0 (ValueIdx.ix1 (grid10.coords t 0)))
    | ⟨1, _⟩ => landed (V c main_arg5) (tbl V 1 (ValueIdx.ix1 (grid10.coords t 0)))
  Φ _ := Phi V c
  q _ := fullShare
  owed _ := 0

def bodyPre (c : Dev nD) (t : Fin (cfgM V).N) : sProp 𝕄 :=
  iprop((dat0 V c).Φ t.castSucc ∗ (dat0 V c).owesAt () t.castSucc
    ∗ (∃ d, owns (c : Thread nD τ) (ms0 V t) fullShare ((dat0 V c).before 0 t d))
    ∗ (∃ d, owns (c : Thread nD τ) (ms1 V t) fullShare ((dat0 V c).before 1 t d)))

def bodyPost (c : Dev nD) (t : Fin (cfgM V).N) : sProp 𝕄 :=
  iprop((dat0 V c).Φ t.succ ∗ (dat0 V c).owesAt () t.succ
    ∗ owns (c : Thread nD τ) (ms0 V t) fullShare ((dat0 V c).after 0 t)
    ∗ owns (c : Thread nD τ) (ms1 V t) fullShare ((dat0 V c).after 1 t))

theorem sound_body (hok : TblOk V) (c : Dev nD) (t : Fin (cfgM V).N) :
    bodyPre V c t ⊢ wp frame (wpE (defs₀ (F := F)) Variants.none c none) Set.univ (bodyAt V t) (fun _ => bodyPost V c t) := by
  unfold bodyPre bodyPost bodyAt
  rw [show (dat0 V c).Φ t.succ = Phi V c from rfl, show (dat0 V c).Φ t.castSucc = Phi V c from rfl,
    show (dat0 V c).after 0 t = landed (V c main_arg5) (tbl V 0 (ValueIdx.ix1 (grid10.coords t 0))) from rfl,
    show (dat0 V c).after 1 t = landed (V c main_arg5) (tbl V 1 (ValueIdx.ix1 (grid10.coords t 0))) from rfl]
  unfold Phi Dat.owesAt Pipeline.owesWithin
  rw [Pipeline.ΦD_eq, ownSems00_eq, hbmPts0_eq, prefHeld_eq,
    show (dat0 V c).owed t.castSucc = 0 from rfl, show (dat0 V c).owed t.succ = 0 from rfl]
  iintro ⟨⟨⟨HR, Hg, ⟨Hq0, Hq1⟩, Hh⟩, HA, HB⟩, ⟨%W, -, HW⟩, ⟨%d0, H0⟩, ⟨%d1, H1⟩⟩
  ihave Hh' := (pointsTo_share (PosShare.mem_left_op_right fullShare)).1 $$ Hh
  iapply (kernelRun c (grid10.coords t) (ms0 V t) (hs0 V t) (ms1 V t) (hs1 V t) (tbl V 0) (tbl V 1) (V c main_arg5) hok.1 hok.2 W _)
  iframe HA HB Hh' Hq0 Hq1 HW
  isplitl [H0]; · iexists _; iexact H0
  isplitl [H1]; · iexists _; iexact H1
  iintro ⟨HA, HB, Hh', H0, H1, Hq0, Hq1, ⟨%W', HW'⟩⟩
  ihave Hh := (pointsTo_share (PosShare.mem_left_op_right fullShare)).2 $$ Hh'
  iframe HR Hg Hq0 Hq1 Hh HA HB H0 H1
  iexists W'; iframe HW'
  ipureintro; exact fun _ _ => Or.inl trivial

theorem body_obligation (hok : TblOk V) (c : Dev nD) : BodyObligation (dat0 (F := F) V c) (defs₀ (F := F)) Variants.none () Set.univ := fun t => by
  rw [bigSep_W10, bigSep_W10]
  exact sound_body V hok c t

end Cert.Kernel.G10

end
-- ==== Proof.K.LossRunA.lean ====
import proofs.«404237_j24687472017957_2_alg».proof.Proof.Gen.Kernel.Launch
import proofs.«404237_j24687472017957_2_alg».proof.Proof.Gen.Kernel.Skeleton
import proofs.«404237_j24687472017957_2_alg».proof.Proof.Gen.Kernel.Points
import proofs.«404237_j24687472017957_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.L11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Shared
variable (V : (c : Dev nD) → (b : Ref sig .tc) → Buf (Elt F) ((c : Thread nD τ).loc b))

def iblk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before0_of {c : Dev nD} (dat : Dat τ (Elt F) Unit ℕ (Pipeline.UD sig nD τ) ℕ cfg11 c) (hA : dat.A 0 = V c (Pipeline.arrRef spec11 0))
    (hafter : ∀ t, dat.after 0 t = iblk V c 0 t) (t : Fin cfg11.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (Pipeline.UD sig nD τ) ℕ cfg11 c) (hA : dat.A 1 = V c (Pipeline.arrRef spec11 1))
    (hafter : ∀ t, dat.after 1 t = iblk V c 1 t) (t : Fin cfg11.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (Pipeline.UD sig nD τ) ℕ cfg11 c) (hA : dat.A 2 = V c (Pipeline.arrRef spec11 2))
    (hafter : ∀ t, dat.after 2 t = iblk V c 2 t) (t : Fin cfg11.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (Pipeline.UD sig nD τ) ℕ cfg11 c) (hA : dat.A 3 = V c (Pipeline.arrRef spec11 3))
    (hafter : ∀ t, dat.after 3 t = iblk V c 3 t) (t : Fin cfg11.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Shared

abbrev cond (i : grid11.Coords) : Prop := (Scalar.cmpi .ne (Scalar.extui (Scalar.cmpi .eq (BitVec.ofNat 32 (i 0).val) 0#32)) 0#32) = 1#1

theorem hcond : ∀ t : Fin cfg11.N, cond (grid11.coords t) ↔ t.val = 0 :=
  (by decide +kernel : ∀ t : Fin grid11.N, cond (grid11.coords t) ↔ t.val = 0)

abbrev VO : View sig .tc .vmem S1x1 .f32 := (Memref.whole cc11_stg4_0 : Memref sig .tc .vmem S1x1 .f32).view

abbrev ms0 (t : Fin cfg11.N) : Memref sig .tc .vmem S1024x256 .f32 := win11_0.stage (cfg11.slots t 0)
abbrev hs0 (t : Fin cfg11.N) : (ms0 t).IsWhole := hstage11_0 ((cfg11.slots t 0).cast nbuf11_0)
abbrev ms1 (t : Fin cfg11.N) : Memref sig .tc .vmem S1024x256 .f32 := win11_1.stage (cfg11.slots t 1)
abbrev hs1 (t : Fin cfg11.N) : (ms1 t).IsWhole := hstage11_1 ((cfg11.slots t 1).cast nbuf11_1)
abbrev ms2 (t : Fin cfg11.N) : Memref sig .tc .vmem S1024x256 .f32 := win11_2.stage (cfg11.slots t 2)
abbrev hs2 (t : Fin cfg11.N) : (ms2 t).IsWhole := hstage11_2 ((cfg11.slots t 2).cast nbuf11_2)
abbrev ms3 (t : Fin cfg11.N) : Memref sig .tc .vmem S1024x256 .f32 := win11_3.stage (cfg11.slots t 3)
abbrev hs3 (t : Fin cfg11.N) : (ms3 t).IsWhole := hstage11_3 ((cfg11.slots t 3).cast nbuf11_3)
abbrev ms4 (t : Fin cfg11.N) : Memref sig .tc .vmem S1x1 .f32 := win11_4.stage (cfg11.slots t 4)
abbrev hs4 (t : Fin cfg11.N) : (ms4 t).IsWhole := hstage11_4 ((cfg11.slots t 4).cast nbuf11_4)

set_option maxHeartbeats 4000000 in

noncomputable def kernelRun_A (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc11__loss_kernel i arg1 harg1 arg2 harg2 arg3 harg3 arg4 harg4 arg5 harg5) K } := by
  refine ⟨?_, fun E K => ?run⟩
  case run =>
    simp only [cc11__loss_kernel_eq_skeleton]; unfold cc11__loss_kernel_skel
    simp only [k11_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.L11

end
-- ==== Proof.K.LossRunB.lean ====
import proofs.«404237_j24687472017957_2_alg».proof.Proof.K.LossRunA
import Idealize.ShloMosaic.Lib.Pipeline.FrameBody
import Idealize.ShloMosaic.Lib.Ring
import Idealize.ShloMosaic.Lib.Tactic

set_option maxRecDepth 16384

noncomputable section

namespace Cert.Kernel.L11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in

noncomputable def kernelRun_B (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc11__loss_kernel i arg1 harg1 arg2 harg2 arg3 harg3 arg4 harg4 arg5 harg5) K } := by
  refine ⟨?_, fun E K => ?run⟩
  case run =>
    simp only [cc11__loss_kernel_eq_skeleton]; unfold cc11__loss_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.L11

end
-- ==== Proof.K.Loss.lean ====
import proofs.«404237_j24687472017957_2_alg».proof.Proof.K.LossRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.L11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem cover_A (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) (y : S1x1.Idx) :
    ∃ pc ∈ (kernelRun_A c i arg1 harg1 arg2 harg2 arg3 harg3 arg4 harg4 arg5 harg5 hc0 x0 x1 x2 x3).1, y ∈ pc.1.set :=
  View.cover_of_tiledL (kernelRun_A c i arg1 harg1 arg2 harg2 arg3 harg3 arg4 harg4 arg5 harg5 hc0 x0 x1 x2 x3).1 S1x1.size (by sl_kernel_rfl) y

def out_A (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : cond i)
    (x0 x1 x2 x3 : Vec F S1024x256 .f32) : Vec F S1x1 .f32 :=
  VO.read (Elt F) (VO.writes (Elt F) VO.junk (kernelRun_A c i arg1 harg1 arg2 harg2 arg3 harg3 arg4 harg4 arg5 harg5 hc0 x0 x1 x2 x3).1)

theorem cover_B (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) (y : S1x1.Idx) :
    ∃ pc ∈ (kernelRun_B c i arg1 harg1 arg2 harg2 arg3 harg3 arg4 harg4 arg5 harg5 hc0 x0 x1 x2 x3 xo).1, y ∈ pc.1.set :=
  View.cover_of_tiledL (kernelRun_B c i arg1 harg1 arg2 harg2 arg3 harg3 arg4 harg4 arg5 harg5 hc0 x0 x1 x2 x3 xo).1 S1x1.size (by sl_kernel_rfl) y

def out_B (c : Dev nD) (i : grid11.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1x1 .f32) (harg5 : arg5.IsWhole) (hc0 : ¬cond i)
    (x0 x1 x2 x3 : Vec F S1024x256 .f32) (xo : Vec F S1x1 .f32) : Vec F S1x1 .f32 :=
  VO.read (Elt F) (VO.writes (Elt F) VO.junk (kernelRun_B c i arg1 harg1 arg2 harg2 arg3 harg3 arg4 harg4 arg5 harg5 hc0 x0 x1 x2 x3 xo).1)

section Region
variable (V : (c : Dev nD) → (b : Ref sig .tc) → Buf (Elt F) ((c : Thread nD τ).loc b))

def outsAt (c : Dev nD) : (n : ℕ) → n < cfg11.N → Vec F S1x1 .f32
  | 0, hn => out_A c (grid11.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond ⟨0, hn⟩).mpr rfl) (iblk V c 0 ⟨0, hn⟩) (iblk V c 1 ⟨0, hn⟩) (iblk V c 2 ⟨0, hn⟩) (iblk V c 3 ⟨0, hn⟩)
  | n + 1, hn => out_B c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => Nat.succ_ne_zero n ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn))

theorem outsAt_A (c : Dev nD) (t : Fin cfg11.N) (h0 : t.val = 0) :
    outsAt V c t.val t.isLt = out_A c (grid11.coords t) (ms0 t) (hs0 t) (ms1 t) (hs1 t) (ms2 t) (hs2 t) (ms3 t) (hs3 t) (ms4 t) (hs4 t) ((hcond t).mpr h0) (iblk V c 0 t) (iblk V c 1 t) (iblk V c 2 t) (iblk V c 3 t) := by
  obtain ⟨n, hn⟩ := t
  cases n with
  | zero => exact rfl
  | succ n => exact absurd h0 (Nat.succ_ne_zero n)

theorem outsAt_B (c : Dev nD) (t : Fin cfg11.N) (h0 : ¬t.val = 0) :
    outsAt V c t.val t.isLt = out_B c (grid11.coords t) (ms0 t) (hs0 t) (ms1 t) (hs1 t) (ms2 t) (hs2 t) (ms3 t) (hs3 t) (ms4 t) (hs4 t) (fun h => h0 ((hcond t).mp h)) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact absurd rfl h0
  | succ n => exact rfl

def dat (c : Dev nD) : Dat τ (Elt F) Unit ℕ (Pipeline.UD sig nD τ) ℕ cfg11 c where
  A w := V c (Pipeline.arrRef spec11 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t.val t.isLt
  Φ _ := Pipeline.ΦA spec11 c
  q _ := fullShare
  owed _ := 0

theorem A_eq (c : Dev nD) (w : Fin cfg11.W) : (dat V c).A w = V c (Pipeline.arrRef spec11 w) := by
  dsimp only [dat]

theorem Phi_eq (c : Dev nD) (t) : (dat V c).Φ t = Pipeline.ΦA spec11 c := rfl

theorem after_0 (c : Dev nD) (t : Fin cfg11.N) : (dat V c).after 0 t = iblk V c 0 t := by dsimp only [dat]
theorem after_1 (c : Dev nD) (t : Fin cfg11.N) : (dat V c).after 1 t = iblk V c 1 t := by dsimp only [dat]
theorem after_2 (c : Dev nD) (t : Fin cfg11.N) : (dat V c).after 2 t = iblk V c 2 t := by dsimp only [dat]
theorem after_3 (c : Dev nD) (t : Fin cfg11.N) : (dat V c).after 3 t = iblk V c 3 t := by dsimp only [dat]
theorem after_4 (c : Dev nD) (t : Fin cfg11.N) : (dat V c).after 4 t = outsAt V c t.val t.isLt := by dsimp only [dat]

theorem before_0 (c : Dev nD) (t : Fin cfg11.N) (d) : (dat V c).before 0 t d = iblk V c 0 t :=
  before0_of V (dat V c) (A_eq V c 0) (after_0 V c) t d
theorem before_1 (c : Dev nD) (t : Fin cfg11.N) (d) : (dat V c).before 1 t d = iblk V c 1 t :=
  before1_of V (dat V c) (A_eq V c 1) (after_1 V c) t d
theorem before_2 (c : Dev nD) (t : Fin cfg11.N) (d) : (dat V c).before 2 t d = iblk V c 2 t :=
  before2_of V (dat V c) (A_eq V c 2) (after_2 V c) t d
theorem before_3 (c : Dev nD) (t : Fin cfg11.N) (d) : (dat V c).before 3 t d = iblk V c 3 t :=
  before3_of V (dat V c) (A_eq V c 3) (after_3 V c) t d

theorem before_4_B (c : Dev nD) (t : Fin cfg11.N) (h0 : ¬t.val = 0) (d) :
    (dat V c).before 4 t d = outsAt V c (t.val - 1) (Nat.lt_of_le_of_lt (Nat.sub_le _ _) t.isLt) := by
  have hN : t.val < 16 := lt_of_lt_of_eq t.isLt (show cfg11.N = 16 from N_11)
  rw [Dat.before_out_kept _ 4 rfl t h0 (Bool.eq_false_iff.mpr fun h => by have := (flush11_4 _).mp h; dsimp only at this; omega)
    (fun _ => rfl) (fun _ _ => rfl)]
  dsimp only [dat]

def bodyPre (c : Dev nD) (t : Fin cfg11.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg11.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in

theorem sound_body (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  by_cases h0 : t.val = 0
  · rw [outsAt_A V c t h0]
    unfold out_A
    iintro ⟨HΦ, Ho, ⟨%d0, H0⟩, ⟨%d1, H1⟩, ⟨%d2, H2⟩, ⟨%d3, H3⟩, ⟨%d4, H4⟩⟩
    iapply ((kernelRun_A c (grid11.coords t) _ _ _ _ _ _ _ _ _ _ ((hcond t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A c _ _ _ _ _ _ _ _ _ _ _ _ _ _ _ _)
  · rw [outsAt_B V c t h0]
    simp only [before_4_B V c t h0]
    unfold out_B
    iintro ⟨HΦ, Ho, ⟨%d0, H0⟩, ⟨%d1, H1⟩, ⟨%d2, H2⟩, ⟨%d3, H3⟩, ⟨%d4, H4⟩⟩
    iapply ((kernelRun_B c (grid11.coords t) _ _ _ _ _ _ _ _ _ _ (fun h => h0 ((hcond t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B c _ _ _ _ _ _ _ _ _ _ _ _ _ _ _ _ _)

theorem body_obligation (c : Dev nD) : BodyObligation (dat (F := F) V c) (defs₀ (F := F)) Variants.none () Set.univ := fun t => by
  rw [bigSep_W11, bigSep_W11]
  exact sound_body V c t

end Region

end Cert.Kernel.L11

end
-- ==== Proof.K.Fam.lean ====
import proofs.«404237_j24687472017957_2_alg».proof.Proof.K.G0
import proofs.«404237_j24687472017957_2_alg».proof.Proof.K.G1
import proofs.«404237_j24687472017957_2_alg».proof.Proof.K.G2
import proofs.«404237_j24687472017957_2_alg».proof.Proof.K.G3
import proofs.«404237_j24687472017957_2_alg».proof.Proof.K.G4
import proofs.«404237_j24687472017957_2_alg».proof.Proof.K.G5
import proofs.«404237_j24687472017957_2_alg».proof.Proof.K.G6
import proofs.«404237_j24687472017957_2_alg».proof.Proof.K.G7
import proofs.«404237_j24687472017957_2_alg».proof.Proof.K.G8
import proofs.«404237_j24687472017957_2_alg».proof.Proof.K.G9
import proofs.«404237_j24687472017957_2_alg».proof.Proof.K.G10
import proofs.«404237_j24687472017957_2_alg».proof.Proof.K.Loss
import proofs.«404237_j24687472017957_2_alg».proof.Proof.Gen.Kernel.Regions

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev vf (W : Dev nD → Valuation τ sig (Elt F)) : (c : Dev nD) → (b : Ref sig .tc) → Buf (Elt F) ((c : Thread nD τ).loc b) := fun c b => W c b

def W0 (c : Dev nD) : Valuation τ sig (Elt F) := fun b => m (c, b)

def W1 (c : Dev nD) : Valuation τ sig (Elt F) := StableHlo.after hostOps0 (W0 m c)

def W2 (c : Dev nD) : Valuation τ sig (Elt F) :=
  Pipeline.withArrays spec0 c (W1 m c) fun w => (G0.dat0 (vf (W1 m)) c).arrAt w (G0.cfgM (vf (W1 m))).N

def W3 (c : Dev nD) : Valuation τ sig (Elt F) := StableHlo.after hostOps1 (W2 m c)

def W4 (c : Dev nD) : Valuation τ sig (Elt F) :=
  Pipeline.withArrays spec1 c (W3 m c) fun w => (G1.dat0 (vf (W3 m)) c).arrAt w (G1.cfgM (vf (W3 m))).N

def W5 (c : Dev nD) : Valuation τ sig (Elt F) := StableHlo.after hostOps2 (W4 m c)

def W6 (c : Dev nD) : Valuation τ sig (Elt F) :=
  Pipeline.withArrays spec2 c (W5 m c) fun w => (G2.dat0 (vf (W5 m)) c).arrAt w (G2.cfgM (vf (W5 m))).N

def W7 (c : Dev nD) : Valuation τ sig (Elt F) := StableHlo.after hostOps3 (W6 m c)

def W8 (c : Dev nD) : Valuation τ sig (Elt F) :=
  Pipeline.withArrays spec3 c (W7 m c) fun w => (G3.dat0 (vf (W7 m)) c).arrAt w (G3.cfgM (vf (W7 m))).N

def W9 (c : Dev nD) : Valuation τ sig (Elt F) := StableHlo.after hostOps4 (W8 m c)

def W10 (c : Dev nD) : Valuation τ sig (Elt F) :=
  Pipeline.withArrays spec4 c (W9 m c) fun w => (G4.dat0 (vf (W9 m)) c).arrAt w (G4.cfgM (vf (W9 m))).N

def W11 (c : Dev nD) : Valuation τ sig (Elt F) := StableHlo.after hostOps5 (W10 m c)

def W12 (c : Dev nD) : Valuation τ sig (Elt F) :=
  Pipeline.withArrays spec5 c (W11 m c) fun w => (G5.dat0 (vf (W11 m)) c).arrAt w (G5.cfgM (vf (W11 m))).N

def W13 (c : Dev nD) : Valuation τ sig (Elt F) := StableHlo.after hostOps6 (W12 m c)

def W14 (c : Dev nD) : Valuation τ sig (Elt F) :=
  Pipeline.withArrays spec6 c (W13 m c) fun w => (G6.dat0 (vf (W13 m)) c).arrAt w (G6.cfgM (vf (W13 m))).N

def W15 (c : Dev nD) : Valuation τ sig (Elt F) := StableHlo.after hostOps7 (W14 m c)

def W16 (c : Dev nD) : Valuation τ sig (Elt F) :=
  Pipeline.withArrays spec7 c (W15 m c) fun w => (G7.dat0 (vf (W15 m)) c).arrAt w (G7.cfgM (vf (W15 m))).N

def W17 (c : Dev nD) : Valuation τ sig (Elt F) := StableHlo.after hostOps8 (W16 m c)

def W18 (c : Dev nD) : Valuation τ sig (Elt F) :=
  Pipeline.withArrays spec8 c (W17 m c) fun w => (G8.dat0 (vf (W17 m)) c).arrAt w (G8.cfgM (vf (W17 m))).N

def W19 (c : Dev nD) : Valuation τ sig (Elt F) := StableHlo.after hostOps9 (W18 m c)

def W20 (c : Dev nD) : Valuation τ sig (Elt F) :=
  Pipeline.withArrays spec9 c (W19 m c) fun w => (G9.dat0 (vf (W19 m)) c).arrAt w (G9.cfgM (vf (W19 m))).N

def W21 (c : Dev nD) : Valuation τ sig (Elt F) := StableHlo.after hostOps10 (W20 m c)

def W22 (c : Dev nD) : Valuation τ sig (Elt F) :=
  Pipeline.withArrays spec10 c (W21 m c) fun w => (G10.dat0 (vf (W21 m)) c).arrAt w (G10.cfgM (vf (W21 m))).N

def W23 (c : Dev nD) : Valuation τ sig (Elt F) := StableHlo.after hostOps11 (W22 m c)

def W24 (c : Dev nD) : Valuation τ sig (Elt F) :=
  Pipeline.withArrays spec11 c (W23 m c) fun w => (L11.dat (vf (W23 m)) c).arrAt w cfg11.N

def W25 (c : Dev nD) : Valuation τ sig (Elt F) := StableHlo.after hostOps12 (W24 m c)

def adm : (p : Fin 12) → (pcfgs (F := F) p).Adm
  | ⟨0, _⟩ => G0.adm (vf (W1 m))
  | ⟨1, _⟩ => G1.adm (vf (W3 m))
  | ⟨2, _⟩ => G2.adm (vf (W5 m))
  | ⟨3, _⟩ => G3.adm (vf (W7 m))
  | ⟨4, _⟩ => G4.adm (vf (W9 m))
  | ⟨5, _⟩ => G5.adm (vf (W11 m))
  | ⟨6, _⟩ => G6.adm (vf (W13 m))
  | ⟨7, _⟩ => G7.adm (vf (W15 m))
  | ⟨8, _⟩ => G8.adm (vf (W17 m))
  | ⟨9, _⟩ => G9.adm (vf (W19 m))
  | ⟨10, _⟩ => G10.adm (vf (W21 m))
  | ⟨11, _⟩ => cfg11.toPCfg_adm

def pdats : (p : Fin 12) → (c : Dev nD) → Dat τ (Elt F) Unit ℕ (Pipeline.UD sig nD τ) ℕ (Pipeline.pin (pcfgs (F := F)) (adm m) p) c
  | ⟨0, _⟩ => fun c => G0.dat0 (vf (W1 m)) c
  | ⟨1, _⟩ => fun c => G1.dat0 (vf (W3 m)) c
  | ⟨2, _⟩ => fun c => G2.dat0 (vf (W5 m)) c
  | ⟨3, _⟩ => fun c => G3.dat0 (vf (W7 m)) c
  | ⟨4, _⟩ => fun c => G4.dat0 (vf (W9 m)) c
  | ⟨5, _⟩ => fun c => G5.dat0 (vf (W11 m)) c
  | ⟨6, _⟩ => fun c => G6.dat0 (vf (W13 m)) c
  | ⟨7, _⟩ => fun c => G7.dat0 (vf (W15 m)) c
  | ⟨8, _⟩ => fun c => G8.dat0 (vf (W17 m)) c
  | ⟨9, _⟩ => fun c => G9.dat0 (vf (W19 m)) c
  | ⟨10, _⟩ => fun c => G10.dat0 (vf (W21 m)) c
  | ⟨11, _⟩ => fun c => L11.dat (vf (W23 m)) c

abbrev 𝒱₀ : Variants := Variants.none
abbrev L : GSem nD τ sig → Finset Unit := fun _ => ∅
abbrev lv : GSem nD τ sig → Unit → ℕ := fun _ _ => 0

local notation "𝕄" => MT nD τ sig Unit (Elt F) ℕ (Pipeline.UD sig nD τ) ℕ

abbrev R (c : Dev nD) : sProp 𝕄 := iprop((∃ r, prngReg c r) ∗ ∃ W, owes (c : Thread nD τ) (0 : CellTallies nD τ sig Unit) W)

end Cert.Kernel.Asm

end
-- ==== Proof.K.FamOf.lean ====
import proofs.«404237_j24687472017957_2_alg».proof.Proof.K.Fam

set_option maxRecDepth 16384

noncomputable section

namespace Cert.Kernel.Asm

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W2_arr (c : Dev nD) (w : Fin 2) :
    W2 m c (Proc.devRef .tc (Pipeline.arrRef spec0 w)) = (G0.dat0 (vf (W1 m)) c).arrAt w (G0.cfgM (vf (W1 m))).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_of (c : Dev nD) (r : Ref sig .tc) (h : r ∉ hostOps1_W) : W3 m c r = W2 m c r :=
  StableHlo.after_of_writes_sub hostOps1 _ hostOps1_writes h
theorem W4_arr (c : Dev nD) (w : Fin 2) :
    W4 m c (Proc.devRef .tc (Pipeline.arrRef spec1 w)) = (G1.dat0 (vf (W3 m)) c).arrAt w (G1.cfgM (vf (W3 m))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_of (c : Dev nD) (r : Ref sig .tc) (h : r ∉ hostOps2_W) : W5 m c r = W4 m c r :=
  StableHlo.after_of_writes_sub hostOps2 _ hostOps2_writes h
theorem W6_arr (c : Dev nD) (w : Fin 2) :
    W6 m c (Proc.devRef .tc (Pipeline.arrRef spec2 w)) = (G2.dat0 (vf (W5 m)) c).arrAt w (G2.cfgM (vf (W5 m))).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W7_of (c : Dev nD) (r : Ref sig .tc) (h : r ∉ hostOps3_W) : W7 m c r = W6 m c r :=
  StableHlo.after_of_writes_sub hostOps3 _ hostOps3_writes h
theorem W8_arr (c : Dev nD) (w : Fin 2) :
    W8 m c (Proc.devRef .tc (Pipeline.arrRef spec3 w)) = (G3.dat0 (vf (W7 m)) c).arrAt w (G3.cfgM (vf (W7 m))).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W9_of (c : Dev nD) (r : Ref sig .tc) (h : r ∉ hostOps4_W) : W9 m c r = W8 m c r :=
  StableHlo.after_of_writes_sub hostOps4 _ hostOps4_writes h
theorem W10_arr (c : Dev nD) (w : Fin 2) :
    W10 m c (Proc.devRef .tc (Pipeline.arrRef spec4 w)) = (G4.dat0 (vf (W9 m)) c).arrAt w (G4.cfgM (vf (W9 m))).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem W11_of (c : Dev nD) (r : Ref sig .tc) (h : r ∉ hostOps5_W) : W11 m c r = W10 m c r :=
  StableHlo.after_of_writes_sub hostOps5 _ hostOps5_writes h
theorem W12_arr (c : Dev nD) (w : Fin 2) :
    W12 m c (Proc.devRef .tc (Pipeline.arrRef spec5 w)) = (G5.dat0 (vf (W11 m)) c).arrAt w (G5.cfgM (vf (W11 m))).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem W13_of (c : Dev nD) (r : Ref sig .tc) (h : r ∉ hostOps6_W) : W13 m c r = W12 m c r :=
  StableHlo.after_of_writes_sub hostOps6 _ hostOps6_writes h
theorem W14_arr (c : Dev nD) (w : Fin 2) :
    W14 m c (Proc.devRef .tc (Pipeline.arrRef spec6 w)) = (G6.dat0 (vf (W13 m)) c).arrAt w (G6.cfgM (vf (W13 m))).N := by
  unfold W14; exact Pipeline.withArrays_arr spec6 (launch6 (F := F)).win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
theorem W15_of (c : Dev nD) (r : Ref sig .tc) (h : r ∉ hostOps7_W) : W15 m c r = W14 m c r :=
  StableHlo.after_of_writes_sub hostOps7 _ hostOps7_writes h
theorem W16_arr (c : Dev nD) (w : Fin 2) :
    W16 m c (Proc.devRef .tc (Pipeline.arrRef spec7 w)) = (G7.dat0 (vf (W15 m)) c).arrAt w (G7.cfgM (vf (W15 m))).N := by
  unfold W16; exact Pipeline.withArrays_arr spec7 (launch7 (F := F)).win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
theorem W17_of (c : Dev nD) (r : Ref sig .tc) (h : r ∉ hostOps8_W) : W17 m c r = W16 m c r :=
  StableHlo.after_of_writes_sub hostOps8 _ hostOps8_writes h
theorem W18_arr (c : Dev nD) (w : Fin 2) :
    W18 m c (Proc.devRef .tc (Pipeline.arrRef spec8 w)) = (G8.dat0 (vf (W17 m)) c).arrAt w (G8.cfgM (vf (W17 m))).N := by
  unfold W18; exact Pipeline.withArrays_arr spec8 (launch8 (F := F)).win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
theorem W19_of (c : Dev nD) (r : Ref sig .tc) (h : r ∉ hostOps9_W) : W19 m c r = W18 m c r :=
  StableHlo.after_of_writes_sub hostOps9 _ hostOps9_writes h
theorem W20_arr (c : Dev nD) (w : Fin 2) :
    W20 m c (Proc.devRef .tc (Pipeline.arrRef spec9 w)) = (G9.dat0 (vf (W19 m)) c).arrAt w (G9.cfgM (vf (W19 m))).N := by
  unfold W20; exact Pipeline.withArrays_arr spec9 (launch9 (F := F)).win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
theorem W21_of (c : Dev nD) (r : Ref sig .tc) (h : r ∉ hostOps10_W) : W21 m c r = W20 m c r :=
  StableHlo.after_of_writes_sub hostOps10 _ hostOps10_writes h
theorem W22_arr (c : Dev nD) (w : Fin 2) :
    W22 m c (Proc.devRef .tc (Pipeline.arrRef spec10 w)) = (G10.dat0 (vf (W21 m)) c).arrAt w (G10.cfgM (vf (W21 m))).N := by
  unfold W22; exact Pipeline.withArrays_arr spec10 (launch10 (F := F)).win.arr_inj c _ _ w
theorem W22_of_ne (c : Dev nD) (b : Ref sig .tc) (hb : ∀ w, Pipeline.arrRef spec10 w ≠ b) :
    W22 m c (Proc.devRef .tc b) = W21 m c (Proc.devRef .tc b) := by
  unfold W22; exact Pipeline.withArrays_of_ne spec10 c _ _ b hb
theorem W23_of (c : Dev nD) (r : Ref sig .tc) (h : r ∉ hostOps11_W) : W23 m c r = W22 m c r :=
  StableHlo.after_of_writes_sub hostOps11 _ hostOps11_writes h
theorem W24_arr (c : Dev nD) (w : Fin 5) :
    W24 m c (Proc.devRef .tc (Pipeline.arrRef spec11 w)) = (L11.dat (vf (W23 m)) c).arrAt w cfg11.N := by
  unfold W24; exact Pipeline.withArrays_arr spec11 (launch11 (F := F)).win.arr_inj c _ _ w
theorem W24_of_ne (c : Dev nD) (b : Ref sig .tc) (hb : ∀ w, Pipeline.arrRef spec11 w ≠ b) :
    W24 m c (Proc.devRef .tc b) = W23 m c (Proc.devRef .tc b) := by
  unfold W24; exact Pipeline.withArrays_of_ne spec11 c _ _ b hb
theorem W25_of (c : Dev nD) (r : Ref sig .tc) (h : r ∉ hostOps12_W) : W25 m c r = W24 m c r :=
  StableHlo.after_of_writes_sub hostOps12 _ hostOps12_writes h

/-- A buffer that no stretch of host operations writes and that is no kernel region's array. -/
def Kept (r : Ref sig .tc) : Prop :=
  r ∉ hostOps0_W ∧ (∀ w, Pipeline.arrRef spec0 w ≠ r) ∧ r ∉ hostOps1_W ∧ (∀ w, Pipeline.arrRef spec1 w ≠ r) ∧ r ∉ hostOps2_W ∧ (∀ w, Pipeline.arrRef spec2 w ≠ r) ∧ r ∉ hostOps3_W ∧ (∀ w, Pipeline.arrRef spec3 w ≠ r) ∧ r ∉ hostOps4_W ∧ (∀ w, Pipeline.arrRef spec4 w ≠ r) ∧ r ∉ hostOps5_W ∧ (∀ w, Pipeline.arrRef spec5 w ≠ r) ∧ r ∉ hostOps6_W ∧ (∀ w, Pipeline.arrRef spec6 w ≠ r) ∧ r ∉ hostOps7_W ∧ (∀ w, Pipeline.arrRef spec7 w ≠ r) ∧ r ∉ hostOps8_W ∧ (∀ w, Pipeline.arrRef spec8 w ≠ r) ∧ r ∉ hostOps9_W ∧ (∀ w, Pipeline.arrRef spec9 w ≠ r) ∧ r ∉ hostOps10_W ∧ (∀ w, Pipeline.arrRef spec10 w ≠ r) ∧ r ∉ hostOps11_W ∧ (∀ w, Pipeline.arrRef spec11 w ≠ r) ∧ r ∉ hostOps12_W

instance (r : Ref sig .tc) : Decidable (Kept r) := by unfold Kept; infer_instance

theorem kept_arg0 : Kept main_arg0 := by decide
theorem kept_arg1 : Kept main_arg1 := by decide
theorem kept_arg2 : Kept main_arg2 := by decide
theorem kept_arg3 : Kept main_arg3 := by decide
theorem kept_arg4 : Kept main_arg4 := by decide
theorem kept_arg5 : Kept main_arg5 := by decide

/-- Such a buffer holds its launch contents at every boundary: each item leaves it as it found it. -/
theorem W0_kept (c : Dev nD) (r : Ref sig .tc) : W0 m c r = m ((c : Thread nD τ).loc r) := rfl
theorem W1_kept (c : Dev nD) (r : Ref sig .tc) (h : Kept r) : W1 m c r = m ((c : Thread nD τ).loc r) := (W1_of m c r h.1).trans (W0_kept m c r)
theorem W2_kept (c : Dev nD) (r : Ref sig .tc) (h : Kept r) : W2 m c r = m ((c : Thread nD τ).loc r) := (W2_of_ne m c r h.2.1).trans (W1_kept m c r h)
theorem W3_kept (c : Dev nD) (r : Ref sig .tc) (h : Kept r) : W3 m c r = m ((c : Thread nD τ).loc r) := (W3_of m c r h.2.2.1).trans (W2_kept m c r h)
theorem W4_kept (c : Dev nD) (r : Ref sig .tc) (h : Kept r) : W4 m c r = m ((c : Thread nD τ).loc r) := (W4_of_ne m c r h.2.2.2.1).trans (W3_kept m c r h)
theorem W5_kept (c : Dev nD) (r : Ref sig .tc) (h : Kept r) : W5 m c r = m ((c : Thread nD τ).loc r) := (W5_of m c r h.2.2.2.2.1).trans (W4_kept m c r h)
theorem W6_kept (c : Dev nD) (r : Ref sig .tc) (h : Kept r) : W6 m c r = m ((c : Thread nD τ).loc r) := (W6_of_ne m c r h.2.2.2.2.2.1).trans (W5_kept m c r h)
theorem W7_kept (c : Dev nD) (r : Ref sig .tc) (h : Kept r) : W7 m c r = m ((c : Thread nD τ).loc r) := (W7_of m c r h.2.2.2.2.2.2.1).trans (W6_kept m c r h)
theorem W8_kept (c : Dev nD) (r : Ref sig .tc) (h : Kept r) : W8 m c r = m ((c : Thread nD τ).loc r) := (W8_of_ne m c r h.2.2.2.2.2.2.2.1).trans (W7_kept m c r h)
theorem W9_kept (c : Dev nD) (r : Ref sig .tc) (h : Kept r) : W9 m c r = m ((c : Thread nD τ).loc r) := (W9_of m c r h.2.2.2.2.2.2.2.2.1).trans (W8_kept m c r h)
theorem W10_kept (c : Dev nD) (r : Ref sig .tc) (h : Kept r) : W10 m c r = m ((c : Thread nD τ).loc r) := (W10_of_ne m c r h.2.2.2.2.2.2.2.2.2.1).trans (W9_kept m c r h)
theorem W11_kept (c : Dev nD) (r : Ref sig .tc) (h : Kept r) : W11 m c r = m ((c : Thread nD τ).loc r) := (W11_of m c r h.2.2.2.2.2.2.2.2.2.2.1).trans (W10_kept m c r h)
theorem W12_kept (c : Dev nD) (r : Ref sig .tc) (h : Kept r) : W12 m c r = m ((c : Thread nD τ).loc r) := (W12_of_ne m c r h.2.2.2.2.2.2.2.2.2.2.2.1).trans (W11_kept m c r h)
theorem W13_kept (c : Dev nD) (r : Ref sig .tc) (h : Kept r) : W13 m c r = m ((c : Thread nD τ).loc r) := (W13_of m c r h.2.2.2.2.2.2.2.2.2.2.2.2.1).trans (W12_kept m c r h)
theorem W14_kept (c : Dev nD) (r : Ref sig .tc) (h : Kept r) : W14 m c r = m ((c : Thread nD τ).loc r) := (W14_of_ne m c r h.2.2.2.2.2.2.2.2.2.2.2.2.2.1).trans (W13_kept m c r h)
theorem W15_kept (c : Dev nD) (r : Ref sig .tc) (h : Kept r) : W15 m c r = m ((c : Thread nD τ).loc r) := (W15_of m c r h.2.2.2.2.2.2.2.2.2.2.2.2.2.2.1).trans (W14_kept m c r h)
theorem W16_kept (c : Dev nD) (r : Ref sig .tc) (h : Kept r) : W16 m c r = m ((c : Thread nD τ).loc r) := (W16_of_ne m c r h.2.2.2.2.2.2.2.2.2.2.2.2.2.2.2.1).trans (W15_kept m c r h)
theorem W17_kept (c : Dev nD) (r : Ref sig .tc) (h : Kept r) : W17 m c r = m ((c : Thread nD τ).loc r) := (W17_of m c r h.2.2.2.2.2.2.2.2.2.2.2.2.2.2.2.2.1).trans (W16_kept m c r h)
theorem W18_kept (c : Dev nD) (r : Ref sig .tc) (h : Kept r) : W18 m c r = m ((c : Thread nD τ).loc r) := (W18_of_ne m c r h.2.2.2.2.2.2.2.2.2.2.2.2.2.2.2.2.2.1).trans (W17_kept m c r h)
theorem W19_kept (c : Dev nD) (r : Ref sig .tc) (h : Kept r) : W19 m c r = m ((c : Thread nD τ).loc r) := (W19_of m c r h.2.2.2.2.2.2.2.2.2.2.2.2.2.2.2.2.2.2.1).trans (W18_kept m c r h)
theorem W20_kept (c : Dev nD) (r : Ref sig .tc) (h : Kept r) : W20 m c r = m ((c : Thread nD τ).loc r) := (W20_of_ne m c r h.2.2.2.2.2.2.2.2.2.2.2.2.2.2.2.2.2.2.2.1).trans (W19_kept m c r h)
theorem W21_kept (c : Dev nD) (r : Ref sig .tc) (h : Kept r) : W21 m c r = m ((c : Thread nD τ).loc r) := (W21_of m c r h.2.2.2.2.2.2.2.2.2.2.2.2.2.2.2.2.2.2.2.2.1).trans (W20_kept m c r h)
theorem W22_kept (c : Dev nD) (r : Ref sig .tc) (h : Kept r) : W22 m c r = m ((c : Thread nD τ).loc r) := (W22_of_ne m c r h.2.2.2.2.2.2.2.2.2.2.2.2.2.2.2.2.2.2.2.2.2.1).trans (W21_kept m c r h)
theorem W23_kept (c : Dev nD) (r : Ref sig .tc) (h : Kept r) : W23 m c r = m ((c : Thread nD τ).loc r) := (W23_of m c r h.2.2.2.2.2.2.2.2.2.2.2.2.2.2.2.2.2.2.2.2.2.2.1).trans (W22_kept m c r h)
theorem W24_kept (c : Dev nD) (r : Ref sig .tc) (h : Kept r) : W24 m c r = m ((c : Thread nD τ).loc r) := (W24_of_ne m c r h.2.2.2.2.2.2.2.2.2.2.2.2.2.2.2.2.2.2.2.2.2.2.2.1).trans (W23_kept m c r h)
theorem W25_kept (c : Dev nD) (r : Ref sig .tc) (h : Kept r) : W25 m c r = m ((c : Thread nD τ).loc r) := (W25_of m c r h.2.2.2.2.2.2.2.2.2.2.2.2.2.2.2.2.2.2.2.2.2.2.2.2).trans (W24_kept m c r h)

end Cert.Kernel.Asm

end
-- ==== Proof.K.G0Ent.lean ====
import proofs.«404237_j24687472017957_2_alg».proof.Proof.K.G0

set_option maxRecDepth 16384

noncomputable section

namespace Cert.Kernel.G0

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v3, main_v5}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v3, main_v5] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec0 c (V c)
abbrev scopedR (c : Dev nD) : sProp 𝕄 :=
  Pipeline.scopedRest (Ix := Unit) (Name := ℕ) (U := Pipeline.UD sig nD τ) (Lvl := ℕ) (Val := Elt F) spec0 c

/-- Past the region: every other unscoped buffer. -/
def Z (c : Dev nD) : sProp 𝕄 :=
  bigSep (Pipeline.restRefs sig spec0 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G0

end
-- ==== Proof.K.Reg0.lean ====
import proofs.«404237_j24687472017957_2_alg».proof.Proof.K.FamOf
import proofs.«404237_j24687472017957_2_alg».proof.Proof.K.G0Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W1 and left at W2: its two output arrays are
    split out of the unscoped buffers and put back at what the proof data computes; the three tables go through the
    invariant and come back unchanged; everything else goes past the region. -/
def reg0 (hok : G0.TblOk (vf (W1 m))) : Pipeline.RegionSeg (pcfgs (F := F)) (adm m) (pdats m) () defs₀ 𝒱₀ L lv (0 : Fin 12) where
  win := (launch0 (F := F)).win.to₀
  block_pos := (launch0 (F := F)).block_pos
  stage_whole := (launch0 (F := F)).stage_whole
  K := Fin 2
  osem := G0.osem0
  ho := G0.ownSemFacts0
  hbody c := (G0.body_obligation (vf (W1 m)) hok c).loose
  hwaits := Pipeline.hwaits_of_owed_zero _ _ _ _ L lv (0 : Fin 12) fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := G0.X (vf (W1 m)) c
  Y c := G0.Y (vf (W1 m)) c
  Z c := G0.Z (vf (W1 m)) c
  hentry c := by
    have hsplit := Pipeline.arrays_of_unscopedBufs (p := 0) (pcfgs (F := F)) (adm m) (pdats m) (launch0 (F := F)).win (launch0 (F := F)).arr_whole c
      ((pdats m (0 : Fin 12) c).share_full fun _ => rfl) (vf (W1 m) c) fun _ => rfl
    rw [Pipeline.unscopedBufs_held] at hsplit
    iintro ⟨⟨Hub, Hp, HO⟩, Hos, -⟩
    ihave H := hsplit $$ Hub
    icases H with ⟨Ha, Hrest⟩
    ihave H' := (G0.entry_rest (vf (W1 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G0.hin (vf (W1 m)) c
  hout c := G0.hout (vf (W1 m)) c
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m (0 : Fin 12) c).share_full fun _ => rfl)
      (vf (W1 m) c) (vf (W2 m) c) ((pdats m (0 : Fin 12) c).arrAt · (G0.cfgM (vf (W1 m))).N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, HZ⟩
    ihave Hr := (G0.exit_rest (vf (W1 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G1Ent.lean ====
import proofs.«404237_j24687472017957_2_alg».proof.Proof.K.G1

set_option maxRecDepth 16384

noncomputable section

namespace Cert.Kernel.G1

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v12, main_v14}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v12, main_v14] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec1 c (V c)
abbrev scopedR (c : Dev nD) : sProp 𝕄 :=
  Pipeline.scopedRest (Ix := Unit) (Name := ℕ) (U := Pipeline.UD sig nD τ) (Lvl := ℕ) (Val := Elt F) spec1 c

/-- Past the region: every other unscoped buffer. -/
def Z (c : Dev nD) : sProp 𝕄 :=
  bigSep (Pipeline.restRefs sig spec1 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G1

end
-- ==== Proof.K.Reg1.lean ====
import proofs.«404237_j24687472017957_2_alg».proof.Proof.K.FamOf
import proofs.«404237_j24687472017957_2_alg».proof.Proof.K.G1Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W3 and left at W4: its two output arrays are
    split out of the unscoped buffers and put back at what the proof data computes; the three tables go through the
    invariant and come back unchanged; everything else goes past the region. -/
def reg1 (hok : G1.TblOk (vf (W3 m))) : Pipeline.RegionSeg (pcfgs (F := F)) (adm m) (pdats m) () defs₀ 𝒱₀ L lv (1 : Fin 12) where
  win := (launch1 (F := F)).win.to₀
  block_pos := (launch1 (F := F)).block_pos
  stage_whole := (launch1 (F := F)).stage_whole
  K := Fin 2
  osem := G1.osem0
  ho := G1.ownSemFacts0
  hbody c := (G1.body_obligation (vf (W3 m)) hok c).loose
  hwaits := Pipeline.hwaits_of_owed_zero _ _ _ _ L lv (1 : Fin 12) fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := G1.X (vf (W3 m)) c
  Y c := G1.Y (vf (W3 m)) c
  Z c := G1.Z (vf (W3 m)) c
  hentry c := by
    have hsplit := Pipeline.arrays_of_unscopedBufs (p := 1) (pcfgs (F := F)) (adm m) (pdats m) (launch1 (F := F)).win (launch1 (F := F)).arr_whole c
      ((pdats m (1 : Fin 12) c).share_full fun _ => rfl) (vf (W3 m) c) fun _ => rfl
    rw [Pipeline.unscopedBufs_held] at hsplit
    iintro ⟨⟨Hub, Hp, HO⟩, Hos, -⟩
    ihave H := hsplit $$ Hub
    icases H with ⟨Ha, Hrest⟩
    ihave H' := (G1.entry_rest (vf (W3 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G1.hin (vf (W3 m)) c
  hout c := G1.hout (vf (W3 m)) c
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m (1 : Fin 12) c).share_full fun _ => rfl)
      (vf (W3 m) c) (vf (W4 m) c) ((pdats m (1 : Fin 12) c).arrAt · (G1.cfgM (vf (W3 m))).N) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, HZ⟩
    ihave Hr := (G1.exit_rest (vf (W3 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G2Ent.lean ====
import proofs.«404237_j24687472017957_2_alg».proof.Proof.K.G2

set_option maxRecDepth 16384

noncomputable section

namespace Cert.Kernel.G2

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v21, main_v23}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v21, main_v23] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec2 c (V c)
abbrev scopedR (c : Dev nD) : sProp 𝕄 :=
  Pipeline.scopedRest (Ix := Unit) (Name := ℕ) (U := Pipeline.UD sig nD τ) (Lvl := ℕ) (Val := Elt F) spec2 c

/-- Past the region: every other unscoped buffer. -/
def Z (c : Dev nD) : sProp 𝕄 :=
  bigSep (Pipeline.restRefs sig spec2 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G2

end
-- ==== Proof.K.Reg2.lean ====
import proofs.«404237_j24687472017957_2_alg».proof.Proof.K.FamOf
import proofs.«404237_j24687472017957_2_alg».proof.Proof.K.G2Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W5 and left at W6: its two output arrays are
    split out of the unscoped buffers and put back at what the proof data computes; the three tables go through the
    invariant and come back unchanged; everything else goes past the region. -/
def reg2 (hok : G2.TblOk (vf (W5 m))) : Pipeline.RegionSeg (pcfgs (F := F)) (adm m) (pdats m) () defs₀ 𝒱₀ L lv (2 : Fin 12) where
  win := (launch2 (F := F)).win.to₀
  block_pos := (launch2 (F := F)).block_pos
  stage_whole := (launch2 (F := F)).stage_whole
  K := Fin 2
  osem := G2.osem0
  ho := G2.ownSemFacts0
  hbody c := (G2.body_obligation (vf (W5 m)) hok c).loose
  hwaits := Pipeline.hwaits_of_owed_zero _ _ _ _ L lv (2 : Fin 12) fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := G2.X (vf (W5 m)) c
  Y c := G2.Y (vf (W5 m)) c
  Z c := G2.Z (vf (W5 m)) c
  hentry c := by
    have hsplit := Pipeline.arrays_of_unscopedBufs (p := 2) (pcfgs (F := F)) (adm m) (pdats m) (launch2 (F := F)).win (launch2 (F := F)).arr_whole c
      ((pdats m (2 : Fin 12) c).share_full fun _ => rfl) (vf (W5 m) c) fun _ => rfl
    rw [Pipeline.unscopedBufs_held] at hsplit
    iintro ⟨⟨Hub, Hp, HO⟩, Hos, -⟩
    ihave H := hsplit $$ Hub
    icases H with ⟨Ha, Hrest⟩
    ihave H' := (G2.entry_rest (vf (W5 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G2.hin (vf (W5 m)) c
  hout c := G2.hout (vf (W5 m)) c
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m) ((pdats m (2 : Fin 12) c).share_full fun _ => rfl)
      (vf (W5 m) c) (vf (W6 m) c) ((pdats m (2 : Fin 12) c).arrAt · (G2.cfgM (vf (W5 m))).N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, HZ⟩
    ihave Hr := (G2.exit_rest (vf (W5 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G3Ent.lean ====
import proofs.«404237_j24687472017957_2_alg».proof.Proof.K.G3

set_option maxRecDepth 16384

noncomputable section

namespace Cert.Kernel.G3

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v30, main_v32}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v30, main_v32] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec3 c (V c)
abbrev scopedR (c : Dev nD) : sProp 𝕄 :=
  Pipeline.scopedRest (Ix := Unit) (Name := ℕ) (U := Pipeline.UD sig nD τ) (Lvl := ℕ) (Val := Elt F) spec3 c

/-- Past the region: every other unscoped buffer. -/
def Z (c : Dev nD) : sProp 𝕄 :=
  bigSep (Pipeline.restRefs sig spec3 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G3

end
-- ==== Proof.K.Reg3.lean ====
import proofs.«404237_j24687472017957_2_alg».proof.Proof.K.FamOf
import proofs.«404237_j24687472017957_2_alg».proof.Proof.K.G3Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W7 and left at W8: its two output arrays are
    split out of the unscoped buffers and put back at what the proof data computes; the three tables go through the
    invariant and come back unchanged; everything else goes past the region. -/
def reg3 (hok : G3.TblOk (vf (W7 m))) : Pipeline.RegionSeg (pcfgs (F := F)) (adm m) (pdats m) () defs₀ 𝒱₀ L lv (3 : Fin 12) where
  win := (launch3 (F := F)).win.to₀
  block_pos := (launch3 (F := F)).block_pos
  stage_whole := (launch3 (F := F)).stage_whole
  K := Fin 2
  osem := G3.osem0
  ho := G3.ownSemFacts0
  hbody c := (G3.body_obligation (vf (W7 m)) hok c).loose
  hwaits := Pipeline.hwaits_of_owed_zero _ _ _ _ L lv (3 : Fin 12) fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := G3.X (vf (W7 m)) c
  Y c := G3.Y (vf (W7 m)) c
  Z c := G3.Z (vf (W7 m)) c
  hentry c := by
    have hsplit := Pipeline.arrays_of_unscopedBufs (p := 3) (pcfgs (F := F)) (adm m) (pdats m) (launch3 (F := F)).win (launch3 (F := F)).arr_whole c
      ((pdats m (3 : Fin 12) c).share_full fun _ => rfl) (vf (W7 m) c) fun _ => rfl
    rw [Pipeline.unscopedBufs_held] at hsplit
    iintro ⟨⟨Hub, Hp, HO⟩, Hos, -⟩
    ihave H := hsplit $$ Hub
    icases H with ⟨Ha, Hrest⟩
    ihave H' := (G3.entry_rest (vf (W7 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G3.hin (vf (W7 m)) c
  hout c := G3.hout (vf (W7 m)) c
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m) ((pdats m (3 : Fin 12) c).share_full fun _ => rfl)
      (vf (W7 m) c) (vf (W8 m) c) ((pdats m (3 : Fin 12) c).arrAt · (G3.cfgM (vf (W7 m))).N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, HZ⟩
    ihave Hr := (G3.exit_rest (vf (W7 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G4Ent.lean ====
import proofs.«404237_j24687472017957_2_alg».proof.Proof.K.G4

set_option maxRecDepth 16384

noncomputable section

namespace Cert.Kernel.G4

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v39, main_v41}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v39, main_v41] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec4 c (V c)
abbrev scopedR (c : Dev nD) : sProp 𝕄 :=
  Pipeline.scopedRest (Ix := Unit) (Name := ℕ) (U := Pipeline.UD sig nD τ) (Lvl := ℕ) (Val := Elt F) spec4 c

/-- Past the region: every other unscoped buffer. -/
def Z (c : Dev nD) : sProp 𝕄 :=
  bigSep (Pipeline.restRefs sig spec4 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G4

end
-- ==== Proof.K.Reg4.lean ====
import proofs.«404237_j24687472017957_2_alg».proof.Proof.K.FamOf
import proofs.«404237_j24687472017957_2_alg».proof.Proof.K.G4Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W9 and left at W10: its two output arrays are
    split out of the unscoped buffers and put back at what the proof data computes; the three tables go through the
    invariant and come back unchanged; everything else goes past the region. -/
def reg4 (hok : G4.TblOk (vf (W9 m))) : Pipeline.RegionSeg (pcfgs (F := F)) (adm m) (pdats m) () defs₀ 𝒱₀ L lv (4 : Fin 12) where
  win := (launch4 (F := F)).win.to₀
  block_pos := (launch4 (F := F)).block_pos
  stage_whole := (launch4 (F := F)).stage_whole
  K := Fin 2
  osem := G4.osem0
  ho := G4.ownSemFacts0
  hbody c := (G4.body_obligation (vf (W9 m)) hok c).loose
  hwaits := Pipeline.hwaits_of_owed_zero _ _ _ _ L lv (4 : Fin 12) fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := G4.X (vf (W9 m)) c
  Y c := G4.Y (vf (W9 m)) c
  Z c := G4.Z (vf (W9 m)) c
  hentry c := by
    have hsplit := Pipeline.arrays_of_unscopedBufs (p := 4) (pcfgs (F := F)) (adm m) (pdats m) (launch4 (F := F)).win (launch4 (F := F)).arr_whole c
      ((pdats m (4 : Fin 12) c).share_full fun _ => rfl) (vf (W9 m) c) fun _ => rfl
    rw [Pipeline.unscopedBufs_held] at hsplit
    iintro ⟨⟨Hub, Hp, HO⟩, Hos, -⟩
    ihave H := hsplit $$ Hub
    icases H with ⟨Ha, Hrest⟩
    ihave H' := (G4.entry_rest (vf (W9 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G4.hin (vf (W9 m)) c
  hout c := G4.hout (vf (W9 m)) c
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m) ((pdats m (4 : Fin 12) c).share_full fun _ => rfl)
      (vf (W9 m) c) (vf (W10 m) c) ((pdats m (4 : Fin 12) c).arrAt · (G4.cfgM (vf (W9 m))).N) (fun w => (W10_arr m c w).symm)
      (fun b hb => W10_of_ne m c b fun w e => hb (Finset.mem_image.mpr ⟨w, Finset.mem_univ _, e⟩))
    rw [Pipeline.unscopedBufs_held] at hjoin
    iintro ⟨Ha, HO, HY, HZ⟩
    ihave Hr := (G4.exit_rest (vf (W9 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G5Ent.lean ====
import proofs.«404237_j24687472017957_2_alg».proof.Proof.K.G5

set_option maxRecDepth 16384

noncomputable section

namespace Cert.Kernel.G5

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v48, main_v50}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v48, main_v50] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec5 c (V c)
abbrev scopedR (c : Dev nD) : sProp 𝕄 :=
  Pipeline.scopedRest (Ix := Unit) (Name := ℕ) (U := Pipeline.UD sig nD τ) (Lvl := ℕ) (Val := Elt F) spec5 c

/-- Past the region: every other unscoped buffer. -/
def Z (c : Dev nD) : sProp 𝕄 :=
  bigSep (Pipeline.restRefs sig spec5 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G5

end
-- ==== Proof.K.Reg5.lean ====
import proofs.«404237_j24687472017957_2_alg».proof.Proof.K.FamOf
import proofs.«404237_j24687472017957_2_alg».proof.Proof.K.G5Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W11 and left at W12: its two output arrays are
    split out of the unscoped buffers and put back at what the proof data computes; the three tables go through the
    invariant and come back unchanged; everything else goes past the region. -/
def reg5 (hok : G5.TblOk (vf (W11 m))) : Pipeline.RegionSeg (pcfgs (F := F)) (adm m) (pdats m) () defs₀ 𝒱₀ L lv (5 : Fin 12) where
  win := (launch5 (F := F)).win.to₀
  block_pos := (launch5 (F := F)).block_pos
  stage_whole := (launch5 (F := F)).stage_whole
  K := Fin 2
  osem := G5.osem0
  ho := G5.ownSemFacts0
  hbody c := (G5.body_obligation (vf (W11 m)) hok c).loose
  hwaits := Pipeline.hwaits_of_owed_zero _ _ _ _ L lv (5 : Fin 12) fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := G5.X (vf (W11 m)) c
  Y c := G5.Y (vf (W11 m)) c
  Z c := G5.Z (vf (W11 m)) c
  hentry c := by
    have hsplit := Pipeline.arrays_of_unscopedBufs (p := 5) (pcfgs (F := F)) (adm m) (pdats m) (launch5 (F := F)).win (launch5 (F := F)).arr_whole c
      ((pdats m (5 : Fin 12) c).share_full fun _ => rfl) (vf (W11 m) c) fun _ => rfl
    rw [Pipeline.unscopedBufs_held] at hsplit
    iintro ⟨⟨Hub, Hp, HO⟩, Hos, -⟩
    ihave H := hsplit $$ Hub
    icases H with ⟨Ha, Hrest⟩
    ihave H' := (G5.entry_rest (vf (W11 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G5.hin (vf (W11 m)) c
  hout c := G5.hout (vf (W11 m)) c
  hexit c := by
    have hjoin := Pipeline.unscopedBufs_of_arrays (p := 5) (pcfgs (F := F)) (adm m) (Ix := Unit) (Name := ℕ) (U := Pipeline.UD sig nD τ) (Lvl := ℕ)
      (launch5 (F := F)).win (launch5 (F := F)).arr_whole c (pdats m) ((pdats m (5 : Fin 12) c).share_full fun _ => rfl)
      (vf (W11 m) c) (vf (W12 m) c) ((pdats m (5 : Fin 12) c).arrAt · (G5.cfgM (vf (W11 m))).N) (fun w => (W12_arr m c w).symm)
      (fun b hb => W12_of_ne m c b fun w e => hb (Finset.mem_image.mpr ⟨w, Finset.mem_univ _, e⟩))
    rw [Pipeline.unscopedBufs_held] at hjoin
    iintro ⟨Ha, HO, HY, HZ⟩
    ihave Hr := (G5.exit_rest (vf (W11 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G6Ent.lean ====
import proofs.«404237_j24687472017957_2_alg».proof.Proof.K.G6

set_option maxRecDepth 16384

noncomputable section

namespace Cert.Kernel.G6

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v57, main_v59}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v57, main_v59] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec6 c (V c)
abbrev scopedR (c : Dev nD) : sProp 𝕄 :=
  Pipeline.scopedRest (Ix := Unit) (Name := ℕ) (U := Pipeline.UD sig nD τ) (Lvl := ℕ) (Val := Elt F) spec6 c

/-- Past the region: every other unscoped buffer. -/
def Z (c : Dev nD) : sProp 𝕄 :=
  bigSep (Pipeline.restRefs sig spec6 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G6

end
-- ==== Proof.K.Reg6.lean ====
import proofs.«404237_j24687472017957_2_alg».proof.Proof.K.FamOf
import proofs.«404237_j24687472017957_2_alg».proof.Proof.K.G6Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W13 and left at W14: its two output arrays are
    split out of the unscoped buffers and put back at what the proof data computes; the three tables go through the
    invariant and come back unchanged; everything else goes past the region. -/
def reg6 (hok : G6.TblOk (vf (W13 m))) : Pipeline.RegionSeg (pcfgs (F := F)) (adm m) (pdats m) () defs₀ 𝒱₀ L lv (6 : Fin 12) where
  win := (launch6 (F := F)).win.to₀
  block_pos := (launch6 (F := F)).block_pos
  stage_whole := (launch6 (F := F)).stage_whole
  K := Fin 2
  osem := G6.osem0
  ho := G6.ownSemFacts0
  hbody c := (G6.body_obligation (vf (W13 m)) hok c).loose
  hwaits := Pipeline.hwaits_of_owed_zero _ _ _ _ L lv (6 : Fin 12) fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := G6.X (vf (W13 m)) c
  Y c := G6.Y (vf (W13 m)) c
  Z c := G6.Z (vf (W13 m)) c
  hentry c := by
    have hsplit := Pipeline.arrays_of_unscopedBufs (p := 6) (pcfgs (F := F)) (adm m) (pdats m) (launch6 (F := F)).win (launch6 (F := F)).arr_whole c
      ((pdats m (6 : Fin 12) c).share_full fun _ => rfl) (vf (W13 m) c) fun _ => rfl
    rw [Pipeline.unscopedBufs_held] at hsplit
    iintro ⟨⟨Hub, Hp, HO⟩, Hos, -⟩
    ihave H := hsplit $$ Hub
    icases H with ⟨Ha, Hrest⟩
    ihave H' := (G6.entry_rest (vf (W13 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G6.hin (vf (W13 m)) c
  hout c := G6.hout (vf (W13 m)) c
  hexit c := by
    have hjoin := Pipeline.unscopedBufs_of_arrays (p := 6) (pcfgs (F := F)) (adm m) (Ix := Unit) (Name := ℕ) (U := Pipeline.UD sig nD τ) (Lvl := ℕ)
      (launch6 (F := F)).win (launch6 (F := F)).arr_whole c (pdats m) ((pdats m (6 : Fin 12) c).share_full fun _ => rfl)
      (vf (W13 m) c) (vf (W14 m) c) ((pdats m (6 : Fin 12) c).arrAt · (G6.cfgM (vf (W13 m))).N) (fun w => (W14_arr m c w).symm)
      (fun b hb => W14_of_ne m c b fun w e => hb (Finset.mem_image.mpr ⟨w, Finset.mem_univ _, e⟩))
    rw [Pipeline.unscopedBufs_held] at hjoin
    iintro ⟨Ha, HO, HY, HZ⟩
    ihave Hr := (G6.exit_rest (vf (W13 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G7Ent.lean ====
import proofs.«404237_j24687472017957_2_alg».proof.Proof.K.G7

set_option maxRecDepth 16384

noncomputable section

namespace Cert.Kernel.G7

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v66, main_v68}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v66, main_v68] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec7 c (V c)
abbrev scopedR (c : Dev nD) : sProp 𝕄 :=
  Pipeline.scopedRest (Ix := Unit) (Name := ℕ) (U := Pipeline.UD sig nD τ) (Lvl := ℕ) (Val := Elt F) spec7 c

/-- Past the region: every other unscoped buffer. -/
def Z (c : Dev nD) : sProp 𝕄 :=
  bigSep (Pipeline.restRefs sig spec7 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G7

end
-- ==== Proof.K.Reg7.lean ====
import proofs.«404237_j24687472017957_2_alg».proof.Proof.K.FamOf
import proofs.«404237_j24687472017957_2_alg».proof.Proof.K.G7Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W15 and left at W16: its two output arrays are
    split out of the unscoped buffers and put back at what the proof data computes; the three tables go through the
    invariant and come back unchanged; everything else goes past the region. -/
def reg7 (hok : G7.TblOk (vf (W15 m))) : Pipeline.RegionSeg (pcfgs (F := F)) (adm m) (pdats m) () defs₀ 𝒱₀ L lv (7 : Fin 12) where
  win := (launch7 (F := F)).win.to₀
  block_pos := (launch7 (F := F)).block_pos
  stage_whole := (launch7 (F := F)).stage_whole
  K := Fin 2
  osem := G7.osem0
  ho := G7.ownSemFacts0
  hbody c := (G7.body_obligation (vf (W15 m)) hok c).loose
  hwaits := Pipeline.hwaits_of_owed_zero _ _ _ _ L lv (7 : Fin 12) fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := G7.X (vf (W15 m)) c
  Y c := G7.Y (vf (W15 m)) c
  Z c := G7.Z (vf (W15 m)) c
  hentry c := by
    have hsplit := Pipeline.arrays_of_unscopedBufs (p := 7) (pcfgs (F := F)) (adm m) (pdats m) (launch7 (F := F)).win (launch7 (F := F)).arr_whole c
      ((pdats m (7 : Fin 12) c).share_full fun _ => rfl) (vf (W15 m) c) fun _ => rfl
    rw [Pipeline.unscopedBufs_held] at hsplit
    iintro ⟨⟨Hub, Hp, HO⟩, Hos, -⟩
    ihave H := hsplit $$ Hub
    icases H with ⟨Ha, Hrest⟩
    ihave H' := (G7.entry_rest (vf (W15 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G7.hin (vf (W15 m)) c
  hout c := G7.hout (vf (W15 m)) c
  hexit c := by
    have hjoin := Pipeline.unscopedBufs_of_arrays (p := 7) (pcfgs (F := F)) (adm m) (Ix := Unit) (Name := ℕ) (U := Pipeline.UD sig nD τ) (Lvl := ℕ)
      (launch7 (F := F)).win (launch7 (F := F)).arr_whole c (pdats m) ((pdats m (7 : Fin 12) c).share_full fun _ => rfl)
      (vf (W15 m) c) (vf (W16 m) c) ((pdats m (7 : Fin 12) c).arrAt · (G7.cfgM (vf (W15 m))).N) (fun w => (W16_arr m c w).symm)
      (fun b hb => W16_of_ne m c b fun w e => hb (Finset.mem_image.mpr ⟨w, Finset.mem_univ _, e⟩))
    rw [Pipeline.unscopedBufs_held] at hjoin
    iintro ⟨Ha, HO, HY, HZ⟩
    ihave Hr := (G7.exit_rest (vf (W15 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G8Ent.lean ====
import proofs.«404237_j24687472017957_2_alg».proof.Proof.K.G8

set_option maxRecDepth 16384

noncomputable section

namespace Cert.Kernel.G8

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v75, main_v77}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v75, main_v77] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec8 c (V c)
abbrev scopedR (c : Dev nD) : sProp 𝕄 :=
  Pipeline.scopedRest (Ix := Unit) (Name := ℕ) (U := Pipeline.UD sig nD τ) (Lvl := ℕ) (Val := Elt F) spec8 c

/-- Past the region: every other unscoped buffer. -/
def Z (c : Dev nD) : sProp 𝕄 :=
  bigSep (Pipeline.restRefs sig spec8 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G8

end
-- ==== Proof.K.Reg8.lean ====
import proofs.«404237_j24687472017957_2_alg».proof.Proof.K.FamOf
import proofs.«404237_j24687472017957_2_alg».proof.Proof.K.G8Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W17 and left at W18: its two output arrays are
    split out of the unscoped buffers and put back at what the proof data computes; the three tables go through the
    invariant and come back unchanged; everything else goes past the region. -/
def reg8 (hok : G8.TblOk (vf (W17 m))) : Pipeline.RegionSeg (pcfgs (F := F)) (adm m) (pdats m) () defs₀ 𝒱₀ L lv (8 : Fin 12) where
  win := (launch8 (F := F)).win.to₀
  block_pos := (launch8 (F := F)).block_pos
  stage_whole := (launch8 (F := F)).stage_whole
  K := Fin 2
  osem := G8.osem0
  ho := G8.ownSemFacts0
  hbody c := (G8.body_obligation (vf (W17 m)) hok c).loose
  hwaits := Pipeline.hwaits_of_owed_zero _ _ _ _ L lv (8 : Fin 12) fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := G8.X (vf (W17 m)) c
  Y c := G8.Y (vf (W17 m)) c
  Z c := G8.Z (vf (W17 m)) c
  hentry c := by
    have hsplit := Pipeline.arrays_of_unscopedBufs (p := 8) (pcfgs (F := F)) (adm m) (pdats m) (launch8 (F := F)).win (launch8 (F := F)).arr_whole c
      ((pdats m (8 : Fin 12) c).share_full fun _ => rfl) (vf (W17 m) c) fun _ => rfl
    rw [Pipeline.unscopedBufs_held] at hsplit
    iintro ⟨⟨Hub, Hp, HO⟩, Hos, -⟩
    ihave H := hsplit $$ Hub
    icases H with ⟨Ha, Hrest⟩
    ihave H' := (G8.entry_rest (vf (W17 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G8.hin (vf (W17 m)) c
  hout c := G8.hout (vf (W17 m)) c
  hexit c := by
    have hjoin := Pipeline.unscopedBufs_of_arrays (p := 8) (pcfgs (F := F)) (adm m) (Ix := Unit) (Name := ℕ) (U := Pipeline.UD sig nD τ) (Lvl := ℕ)
      (launch8 (F := F)).win (launch8 (F := F)).arr_whole c (pdats m) ((pdats m (8 : Fin 12) c).share_full fun _ => rfl)
      (vf (W17 m) c) (vf (W18 m) c) ((pdats m (8 : Fin 12) c).arrAt · (G8.cfgM (vf (W17 m))).N) (fun w => (W18_arr m c w).symm)
      (fun b hb => W18_of_ne m c b fun w e => hb (Finset.mem_image.mpr ⟨w, Finset.mem_univ _, e⟩))
    rw [Pipeline.unscopedBufs_held] at hjoin
    iintro ⟨Ha, HO, HY, HZ⟩
    ihave Hr := (G8.exit_rest (vf (W17 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G9Ent.lean ====
import proofs.«404237_j24687472017957_2_alg».proof.Proof.K.G9

set_option maxRecDepth 16384

noncomputable section

namespace Cert.Kernel.G9

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg4, main_v84, main_v86}
theorem HT_eq (c : Dev nD) :
    (bigSep HT (fun b => ((c : Thread nD τ).loc b) ↦{fullShare} V c b) : sProp 𝕄)
      = iprop(hbPt c hbM (V c main_arg4) ∗ hbPt c tA (tbl V 0) ∗ hbPt c tB (tbl V 1)) := by
  unfold HT
  rw [BI.bigSep_eq_bigSepL_of_eq [main_arg4, main_v84, main_v86] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec9 c (V c)
abbrev scopedR (c : Dev nD) : sProp 𝕄 :=
  Pipeline.scopedRest (Ix := Unit) (Name := ℕ) (U := Pipeline.UD sig nD τ) (Lvl := ℕ) (Val := Elt F) spec9 c

/-- Past the region: every other unscoped buffer. -/
def Z (c : Dev nD) : sProp 𝕄 :=
  bigSep (Pipeline.restRefs sig spec9 \ HT) fun b => ((c : Thread nD τ).loc b) ↦{fullShare} V c b

theorem rest_split (c : Dev nD) :
    (rest V c : sProp 𝕄) = iprop((hbPt c hbM (V c main_arg4) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg4))
/-- Out of the invariant: the register, the embedding table, the two index tables. -/
def Y (c : Dev nD) : sProp 𝕄 := iprop((∃ r, prngReg c r) ∗ hbPt c hbM (V c main_arg4) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G9

end
-- ==== Proof.K.Reg9.lean ====
import proofs.«404237_j24687472017957_2_alg».proof.Proof.K.FamOf
import proofs.«404237_j24687472017957_2_alg».proof.Proof.K.G9Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W19 and left at W20: its two output arrays are
    split out of the unscoped buffers and put back at what the proof data computes; the three tables go through the
    invariant and come back unchanged; everything else goes past the region. -/
def reg9 (hok : G9.TblOk (vf (W19 m))) : Pipeline.RegionSeg (pcfgs (F := F)) (adm m) (pdats m) () defs₀ 𝒱₀ L lv (9 : Fin 12) where
  win := (launch9 (F := F)).win.to₀
  block_pos := (launch9 (F := F)).block_pos
  stage_whole := (launch9 (F := F)).stage_whole
  K := Fin 2
  osem := G9.osem0
  ho := G9.ownSemFacts0
  hbody c := (G9.body_obligation (vf (W19 m)) hok c).loose
  hwaits := Pipeline.hwaits_of_owed_zero _ _ _ _ L lv (9 : Fin 12) fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := G9.X (vf (W19 m)) c
  Y c := G9.Y (vf (W19 m)) c
  Z c := G9.Z (vf (W19 m)) c
  hentry c := by
    have hsplit := Pipeline.arrays_of_unscopedBufs (p := 9) (pcfgs (F := F)) (adm m) (pdats m) (launch9 (F := F)).win (launch9 (F := F)).arr_whole c
      ((pdats m (9 : Fin 12) c).share_full fun _ => rfl) (vf (W19 m) c) fun _ => rfl
    rw [Pipeline.unscopedBufs_held] at hsplit
    iintro ⟨⟨Hub, Hp, HO⟩, Hos, -⟩
    ihave H := hsplit $$ Hub
    icases H with ⟨Ha, Hrest⟩
    ihave H' := (G9.entry_rest (vf (W19 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G9.hin (vf (W19 m)) c
  hout c := G9.hout (vf (W19 m)) c
  hexit c := by
    have hjoin := Pipeline.unscopedBufs_of_arrays (p := 9) (pcfgs (F := F)) (adm m) (Ix := Unit) (Name := ℕ) (U := Pipeline.UD sig nD τ) (Lvl := ℕ)
      (launch9 (F := F)).win (launch9 (F := F)).arr_whole c (pdats m) ((pdats m (9 : Fin 12) c).share_full fun _ => rfl)
      (vf (W19 m) c) (vf (W20 m) c) ((pdats m (9 : Fin 12) c).arrAt · (G9.cfgM (vf (W19 m))).N) (fun w => (W20_arr m c w).symm)
      (fun b hb => W20_of_ne m c b fun w e => hb (Finset.mem_image.mpr ⟨w, Finset.mem_univ _, e⟩))
    rw [Pipeline.unscopedBufs_held] at hjoin
    iintro ⟨Ha, HO, HY, HZ⟩
    ihave Hr := (G9.exit_rest (vf (W19 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.G10Ent.lean ====
import proofs.«404237_j24687472017957_2_alg».proof.Proof.K.G10

set_option maxRecDepth 16384

noncomputable section

namespace Cert.Kernel.G10

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

open Cert.Kernel.Landed

variable (V : (c : Dev nD) → (b : Ref sig .tc) → Buf (Elt F) ((c : Thread nD τ).loc b))

/-- The three unscoped buffers the kernel is handed that no window stages: the embedding table and the two index tables. -/
def HT : Finset (Ref sig .tc) := {main_arg5, main_arg1, main_arg3}
theorem HT_eq (c : Dev nD) :
    (bigSep HT (fun b => ((c : Thread nD τ).loc b) ↦{fullShare} V c b) : sProp 𝕄)
      = iprop(hbPt c hbM (V c main_arg5) ∗ hbPt c tA (tbl V 0) ∗ hbPt c tB (tbl V 1)) := by
  unfold HT
  rw [BI.bigSep_eq_bigSepL_of_eq [main_arg5, main_arg1, main_arg3] (by decide) (by decide), ← V_pre V c 0, ← V_pre V c 1]; rfl

abbrev rest (c : Dev nD) : sProp 𝕄 :=
  Pipeline.unscopedRest (Ix := Unit) (Name := ℕ) (U := Pipeline.UD sig nD τ) (Lvl := ℕ) spec10 c (V c)
abbrev scopedR (c : Dev nD) : sProp 𝕄 :=
  Pipeline.scopedRest (Ix := Unit) (Name := ℕ) (U := Pipeline.UD sig nD τ) (Lvl := ℕ) (Val := Elt F) spec10 c

/-- Past the region: every other unscoped buffer. -/
def Z (c : Dev nD) : sProp 𝕄 :=
  bigSep (Pipeline.restRefs sig spec10 \ HT) fun b => ((c : Thread nD τ).loc b) ↦{fullShare} V c b

theorem rest_split (c : Dev nD) :
    (rest V c : sProp 𝕄) = iprop((hbPt c hbM (V c main_arg5) ∗ hbPt c tA (tbl V 0) ∗ hbPt c tB (tbl V 1)) ∗ Z V c) := by
  rw [← HT_eq]; unfold rest Pipeline.unscopedRest Z; exact BI.bigSep_sdiff_split (by decide)

/-- Into the invariant: the generator register, the two copy semaphores at zero, the embedding table. -/
def X (c : Dev nD) : sProp 𝕄 := iprop((∃ r, prngReg c r) ∗ ownSems c ∗ hbPt c hbM (V c main_arg5))
/-- Out of the invariant: the register, the embedding table, the two index tables. -/
def Y (c : Dev nD) : sProp 𝕄 := iprop((∃ r, prngReg c r) ∗ hbPt c hbM (V c main_arg5) ∗ tblHeld V c)

theorem entry_rest (c : Dev nD) :
    iprop(rest V c ∗ (∃ r, prngReg c r) ∗ ownSems c) ⊢ (iprop(tblHeld V c ∗ X V c ∗ Z V c) : sProp 𝕄) := by
  rw [rest_split, prefHeld_eq]
  unfold X
  iintro ⟨⟨⟨Hh, HA, HB⟩, HZ⟩, Hp, Hos⟩
  iframe

theorem hin (c : Dev nD) : iprop(X V c ∗ tblHeld V c ∗ scopedR c) ⊢ (Phi V c : sProp 𝕄) := by
  unfold Phi X
  rw [Pipeline.ΦD_eq, hbmPts0_eq]
  iintro ⟨⟨Hp, Hos, Hh⟩, HT, Hr⟩
  iframe

theorem hout (c : Dev nD) : (Phi V c : sProp 𝕄) ⊢ iprop(Y V c ∗ ownSems c ∗ scopedR c) := by
  unfold Phi Y
  rw [Pipeline.ΦD_eq, hbmPts0_eq]
  iintro ⟨⟨Hr, Hp, Hos, Hh⟩, HT⟩
  iframe

theorem exit_rest (c : Dev nD) : iprop(Y V c ∗ Z V c) ⊢ (iprop(rest V c ∗ (∃ r, prngReg c r)) : sProp 𝕄) := by
  rw [rest_split]
  unfold Y
  rw [prefHeld_eq]
  iintro ⟨⟨Hp, Hh, HA, HB⟩, HZ⟩
  iframe

end Cert.Kernel.G10

end
-- ==== Proof.K.Reg10.lean ====
import proofs.«404237_j24687472017957_2_alg».proof.Proof.K.FamOf
import proofs.«404237_j24687472017957_2_alg».proof.Proof.K.G10Ent

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- The gather region as an item of the program, entered at the contents W21 and left at W22: its two output arrays are
    split out of the unscoped buffers and put back at what the proof data computes; the three tables go through the
    invariant and come back unchanged; everything else goes past the region. -/
def reg10 (hok : G10.TblOk (vf (W21 m))) : Pipeline.RegionSeg (pcfgs (F := F)) (adm m) (pdats m) () defs₀ 𝒱₀ L lv (10 : Fin 12) where
  win := (launch10 (F := F)).win.to₀
  block_pos := (launch10 (F := F)).block_pos
  stage_whole := (launch10 (F := F)).stage_whole
  K := Fin 2
  osem := G10.osem0
  ho := G10.ownSemFacts0
  hbody c := (G10.body_obligation (vf (W21 m)) hok c).loose
  hwaits := Pipeline.hwaits_of_owed_zero _ _ _ _ L lv (10 : Fin 12) fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := G10.X (vf (W21 m)) c
  Y c := G10.Y (vf (W21 m)) c
  Z c := G10.Z (vf (W21 m)) c
  hentry c := by
    have hsplit := Pipeline.arrays_of_unscopedBufs (p := 10) (pcfgs (F := F)) (adm m) (pdats m) (launch10 (F := F)).win (launch10 (F := F)).arr_whole c
      ((pdats m (10 : Fin 12) c).share_full fun _ => rfl) (vf (W21 m) c) fun _ => rfl
    rw [Pipeline.unscopedBufs_held] at hsplit
    iintro ⟨⟨Hub, Hp, HO⟩, Hos, -⟩
    ihave H := hsplit $$ Hub
    icases H with ⟨Ha, Hrest⟩
    ihave H' := (G10.entry_rest (vf (W21 m)) c) $$ [Hrest Hp Hos]
    · iframe
    icases H' with ⟨HT, HX, HZ⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [HX]; · iexact HX
    iexact HZ
  hin c := G10.hin (vf (W21 m)) c
  hout c := G10.hout (vf (W21 m)) c
  hexit c := by
    have hjoin := Pipeline.unscopedBufs_of_arrays (p := 10) (pcfgs (F := F)) (adm m) (Ix := Unit) (Name := ℕ) (U := Pipeline.UD sig nD τ) (Lvl := ℕ)
      (launch10 (F := F)).win (launch10 (F := F)).arr_whole c (pdats m) ((pdats m (10 : Fin 12) c).share_full fun _ => rfl)
      (vf (W21 m) c) (vf (W22 m) c) ((pdats m (10 : Fin 12) c).arrAt · (G10.cfgM (vf (W21 m))).N) (fun w => (W22_arr m c w).symm)
      (fun b hb => W22_of_ne m c b fun w e => hb (Finset.mem_image.mpr ⟨w, Finset.mem_univ _, e⟩))
    rw [Pipeline.unscopedBufs_held] at hjoin
    iintro ⟨Ha, HO, HY, HZ⟩
    ihave Hr := (G10.exit_rest (vf (W21 m)) c) $$ [HY HZ]
    · iframe
    icases Hr with ⟨Hrest, Hp⟩
    imodintro
    isplitl [Ha Hrest]
    · iapply hjoin; iframe
    isplitl [Hp]; · iexact Hp
    unfold Pipeline.Dat.owesAt Pipeline.owesWithin
    icases HO with ⟨%W, -, HO⟩; iexists W; iexact HO

end Cert.Kernel.Asm

end
-- ==== Proof.K.Reg11.lean ====
import proofs.«404237_j24687472017957_2_alg».proof.Proof.K.Fam
import proofs.«404237_j24687472017957_2_alg».proof.Proof.K.FamOf

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

theorem hF_reg11 (c : Dev nD) (w : Fin cfg11.W) :
    (pdats m (11 : Fin 12) c).arrAt w cfg11.N = vf (W24 m) c (Pipeline.arrRef spec11 w) :=
  (W24_arr m c w).symm

theorem hrest_reg11 (c : Dev nD) : ∀ b, b ∉ Finset.univ.image (Pipeline.arrRef spec11) → vf (W24 m) c b = vf (W23 m) c b :=
  fun b hb => W24_of_ne m c b fun w e => hb (Finset.mem_image.mpr ⟨w, Finset.mem_univ _, e⟩)

set_option backward.isDefEq.respectTransparency.types false in

def reg11 : Pipeline.RegionSeg (pcfgs (F := F)) (adm m) (pdats m) () defs₀ 𝒱₀ L lv (11 : Fin 12) where
  win := (launch11 (F := F)).win.to₀
  block_pos := (launch11 (F := F)).block_pos
  stage_whole := (launch11 (F := F)).stage_whole
  K := PEmpty
  osem k := k.elim
  ho := Pipeline.OwnSemFacts.none _
  hbody c := (L11.body_obligation (vf (W23 m)) c).loose
  hwaits := Pipeline.hwaits_of_owed_zero _ _ _ _ L lv (11 : Fin 12) fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := Pipeline.UD sig nD τ) (Lvl := ℕ) spec11 c (vf (W23 m) c)
  hentry c := by
    rw [Pipeline.ownSems0_none]
    have hsplit := Pipeline.arrays_of_unscopedBufs (p := 11) (pcfgs (F := F)) (adm m) (pdats m) (launch11 (F := F)).win (launch11 (F := F)).arr_whole c
      ((pdats m (11 : Fin 12) c).share_full fun _ => rfl) (vf (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (11 : Fin 12) c).Φ 0 = Pipeline.ΦA spec11 c from rfl]; unfold Pipeline.ΦA
    iintro ⟨Hp, -, Hr⟩
    isplitl [Hr]; · iexact Hr
    iexact Hp
  hout c := by
    rw [Pipeline.ownSems0_none, show (pdats m (11 : Fin 12) c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) (adm m) (Ix := Unit) (Name := ℕ) (U := Pipeline.UD sig nD τ) (Lvl := ℕ)
      (launch11 (F := F)).win (launch11 (F := F)).arr_whole c (pdats m) ((pdats m (11 : Fin 12) c).share_full fun _ => rfl)
      (vf (W23 m) c) (vf (W24 m) c) ((pdats m (11 : Fin 12) c).arrAt · cfg11.N) (hF_reg11 m c) (hrest_reg11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.K.Run.lean ====
import proofs.«404237_j24687472017957_2_alg».proof.Proof.K.Fam
import proofs.«404237_j24687472017957_2_alg».proof.Proof.K.FamOf
import proofs.«404237_j24687472017957_2_alg».proof.Proof.K.Reg0
import proofs.«404237_j24687472017957_2_alg».proof.Proof.K.Reg1
import proofs.«404237_j24687472017957_2_alg».proof.Proof.K.Reg2
import proofs.«404237_j24687472017957_2_alg».proof.Proof.K.Reg3
import proofs.«404237_j24687472017957_2_alg».proof.Proof.K.Reg4
import proofs.«404237_j24687472017957_2_alg».proof.Proof.K.Reg5
import proofs.«404237_j24687472017957_2_alg».proof.Proof.K.Reg6
import proofs.«404237_j24687472017957_2_alg».proof.Proof.K.Reg7
import proofs.«404237_j24687472017957_2_alg».proof.Proof.K.Reg8
import proofs.«404237_j24687472017957_2_alg».proof.Proof.K.Reg9
import proofs.«404237_j24687472017957_2_alg».proof.Proof.K.Reg10
import proofs.«404237_j24687472017957_2_alg».proof.Proof.K.Reg11

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := Pipeline.UD sig nD τ) (Lvl := ℕ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

abbrev segs (hok0 : G0.TblOk (vf (W1 m))) (hok1 : G1.TblOk (vf (W3 m))) (hok2 : G2.TblOk (vf (W5 m))) (hok3 : G3.TblOk (vf (W7 m))) (hok4 : G4.TblOk (vf (W9 m))) (hok5 : G5.TblOk (vf (W11 m))) (hok6 : G6.TblOk (vf (W13 m))) (hok7 : G7.TblOk (vf (W15 m))) (hok8 : G8.TblOk (vf (W17 m))) (hok9 : G9.TblOk (vf (W19 m))) (hok10 : G10.TblOk (vf (W21 m))) (c : Dev nD) :
    List (Seg (pcfgs (F := F)) (adm m) (pdats m) () defs₀ 𝒱₀ L lv) :=
  [.host (hseg hostOps0 hostOps0_sub hostOps0_fresh (W0 m)),
   .region (reg0 m hok0),
   .host (hseg hostOps1 hostOps1_sub hostOps1_fresh (W2 m)),
   .region (reg1 m hok1),
   .host (hseg hostOps2 hostOps2_sub hostOps2_fresh (W4 m)),
   .region (reg2 m hok2),
   .host (hseg hostOps3 hostOps3_sub hostOps3_fresh (W6 m)),
   .region (reg3 m hok3),
   .host (hseg hostOps4 hostOps4_sub hostOps4_fresh (W8 m)),
   .region (reg4 m hok4),
   .host (hseg hostOps5 hostOps5_sub hostOps5_fresh (W10 m)),
   .region (reg5 m hok5),
   .host (hseg hostOps6 hostOps6_sub hostOps6_fresh (W12 m)),
   .region (reg6 m hok6),
   .host (hseg hostOps7 hostOps7_sub hostOps7_fresh (W14 m)),
   .region (reg7 m hok7),
   .host (hseg hostOps8 hostOps8_sub hostOps8_fresh (W16 m)),
   .region (reg8 m hok8),
   .host (hseg hostOps9 hostOps9_sub hostOps9_fresh (W18 m)),
   .region (reg9 m hok9),
   .host (hseg hostOps10 hostOps10_sub hostOps10_fresh (W20 m)),
   .region (reg10 m hok10),
   .host (hseg hostOps11 hostOps11_sub hostOps11_fresh (W22 m)),
   .region (reg11 m),
   .host (hseg hostOps12 hostOps12_sub hostOps12_fresh (W24 m))]

abbrev u₀ : Pipeline.UD sig nD τ :=
  (initOf (Pipeline.cells (Pipeline.pin (pcfgs (F := F)) (adm m)) (cellOf_inj (adm m))) (Pipeline.launchToks (Pipeline.pin (pcfgs (F := F)) (adm m)) (cellOf_inj (adm m))), 1)

set_option backward.isDefEq.respectTransparency.types false in

theorem run_main (ρ : Dev nD → PrngReg) (hok0 : G0.TblOk (vf (W1 m))) (hok1 : G1.TblOk (vf (W3 m))) (hok2 : G2.TblOk (vf (W5 m))) (hok3 : G3.TblOk (vf (W7 m))) (hok4 : G4.TblOk (vf (W9 m))) (hok5 : G5.TblOk (vf (W11 m))) (hok6 : G6.TblOk (vf (W13 m))) (hok7 : G7.TblOk (vf (W15 m))) (hok8 : G8.TblOk (vf (W17 m))) (hok9 : G9.TblOk (vf (W19 m))) (hok10 : G10.TblOk (vf (W21 m))) :
    θ_run defs (onTc (τ := τ) (main (F := F))) ⟨m, fun _ => 0, ρ⟩ (fun r => ∀ c : Dev nD,
      r.2.mem ((c.tc : Thread nD τ).loc main_v97) = W25 m c main_v97
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) (adm m) (pdats m) () (cellOf_inj (adm m)) embL defs₀ 𝒱₀ L lv m ρ main
    (segs m hok0 hok1 hok2 hok3 hok4 hok5 hok6 hok7 hok8 hok9 hok10)
    (fun c Q => by
      rewrite [main_chain c, Seg.run_eq_chain,
        show (segs m hok0 hok1 hok2 hok3 hok4 hok5 hok6 hok7 hok8 hok9 hok10 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12 ] from rfl]
      exact .rfl)
    (fun c => by simp only [segs, Seg.pipes_host, Seg.pipes_region, Seg.pipes_nil]; decide)
    (0 : Dev nD → CellTallies nD τ sig Unit) (fun _ _ => rfl) (fun _ => iprop(emp)) (u₀ m)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W25 m c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (by iintro ⟨-, HO⟩; iexact HO)⟩)
    (hinit := ?_) (QY := fun c s => s.mem ((c.tc : Thread nD τ).loc main_v97) = W25 m c main_v97
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := Pipeline.UD sig nD τ) (Lvl := ℕ) c (W0 m c)]; exact BI.Entails.refl _
    have hR : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (bigSep Finset.univ fun c : Dev nD => (R (F := F) c : sProp 𝕄)) :=
      bigSep_mono fun c _ => (show _ ⊢ (R (F := F) c : sProp 𝕄) from by
        iintro ⟨-, HO, -, Hp, -⟩
        isplitl [Hp]; · iexists _; iexact Hp
        iexists ∅; iexact HO)
    have hjoin : (iprop((bigSep Finset.univ fun c : Dev nD => StableHlo.held (c : Thread nD τ) (Pipeline.ucRefs τ sig) (W0 m c))
          ∗ bigSep Finset.univ fun c : Dev nD => (R (F := F) c : sProp 𝕄)) : sProp 𝕄)
        ⊢ (bigSep Finset.univ fun c : Dev nD => iprop(StableHlo.held (c : Thread nD τ) (Pipeline.ucRefs τ sig) (W0 m c) ∗ R c)) := by
      have e : (bigSep Finset.univ fun c : Dev nD => iprop(StableHlo.held (c : Thread nD τ) (Pipeline.ucRefs τ sig) (W0 m c) ∗ R (F := F) c) : sProp 𝕄)
          = iprop((bigSep Finset.univ fun c : Dev nD => StableHlo.held (c : Thread nD τ) (Pipeline.ucRefs τ sig) (W0 m c))
            ∗ bigSep Finset.univ fun c : Dev nD => (R (F := F) c : sProp 𝕄)) := bigSep_sep' _ _ _
      rw [e]
    iintro ⟨H, Hla⟩
    ihave H' := hsplit $$ H
    icases H' with ⟨Hh, Hr⟩
    ihave HR := hR $$ Hr
    imodintro
    iapply hjoin
    isplitl [Hh]; · iexact Hh
    iexact HR
  ·
    unfold StableHlo.held
    iintro ⟨Hh, HSI⟩
    ihave Hr := (pointsTo_read_all (Pipeline.ucRefs τ sig) (fun b => ((c : Thread nD τ).1, b)) (W25 m c) s') $$ [Hh HSI]
    · isplitl [Hh] <;> iassumption
    icases Hr with ⟨%h, HSI⟩
    imodintro
    isplitr
    · ipureintro
      exact ⟨h (Proc.devRef .tc main_v97) (Finset.mem_filter.mpr ⟨StableHlo.devRef_mem_tcRefs main_v97, by decide⟩),
        (h (Proc.devRef .tc main_arg0) (Finset.mem_filter.mpr ⟨StableHlo.devRef_mem_tcRefs main_arg0, by decide⟩)).trans (W25_kept m c main_arg0 kept_arg0),
        (h (Proc.devRef .tc main_arg1) (Finset.mem_filter.mpr ⟨StableHlo.devRef_mem_tcRefs main_arg1, by decide⟩)).trans (W25_kept m c main_arg1 kept_arg1),
        (h (Proc.devRef .tc main_arg2) (Finset.mem_filter.mpr ⟨StableHlo.devRef_mem_tcRefs main_arg2, by decide⟩)).trans (W25_kept m c main_arg2 kept_arg2),
        (h (Proc.devRef .tc main_arg3) (Finset.mem_filter.mpr ⟨StableHlo.devRef_mem_tcRefs main_arg3, by decide⟩)).trans (W25_kept m c main_arg3 kept_arg3),
        (h (Proc.devRef .tc main_arg4) (Finset.mem_filter.mpr ⟨StableHlo.devRef_mem_tcRefs main_arg4, by decide⟩)).trans (W25_kept m c main_arg4 kept_arg4),
        (h (Proc.devRef .tc main_arg5) (Finset.mem_filter.mpr ⟨StableHlo.devRef_mem_tcRefs main_arg5, by decide⟩)).trans (W25_kept m c main_arg5 kept_arg5)⟩
    · iexact HSI

end Cert.Kernel.Asm

end
-- ==== Proof.K.KTbl.lean ====
import proofs.«404237_j24687472017957_2_alg».proof.Proof.K.FamOf
import proofs.«404237_j24687472017957_2_alg».proof.Proof.Spec
import Idealize.ShloMosaic.Lib.Pipeline.Value

set_option maxRecDepth 16384

noncomputable section

namespace Cert.Kernel.Asm

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-- Every index word of the four index arguments names a row of the tables. -/
abbrev InR : Prop := ∀ c : Dev nD, Cert.Spec.InRange (m ((c.tc : Thread nD τ).loc main_arg0)) (m ((c.tc : Thread nD τ).loc main_arg1)) (m ((c.tc : Thread nD τ).loc main_arg2)) (m ((c.tc : Thread nD τ).loc main_arg3))

theorem col_apply {α : Type} (o : Nat) (ho : o < 10) (x : S16384x10.Idx → α) (hs : S16384x10.Slices ![0, o] S16384x1)
    (hc : S16384x1.ShapeCasts S16384) (i : S16384.Idx) :
    shapeCast S16384 (extractStridedSlice S16384x1 ![0, o] x hs) hc i = x (ValueIdx.ix2 (i 0) ⟨o, ho⟩) := by
  rw [shapeCast_apply _ hc i (ValueIdx.ix2 (i 0) (0 : Fin 1)) (by
    rw [Shape.rowMajor_val_two, Shape.rowMajor_val_one]
    show (i 0).val * 1 + 0 = (i 0).val
    omega)]
  exact extractStridedSlice_apply _ x hs _ _ (fun a => by
    match a with
    | ⟨0, _⟩ => show (i 0).val = 0 + (i 0).val; omega
    | ⟨1, _⟩ => show o = o + 0; rfl)

theorem tblA_0 (i : S16384.Idx) :
    G0.tbl (vf (W1 m)) 0 i = m (((0 : Dev nD) : Thread nD τ).loc main_arg0) (ValueIdx.ix2 (i 0) ⟨0, by decide⟩) := by
  have e : (W1 m 0 main_v3 : S16384.Idx → BitVec 32)
      = fun i => shapeCast S16384 (extractStridedSlice S16384x1 ![0, 0] (W0 m 0 main_arg0 : S16384x10.Idx → BitVec 32) Gen.slices_S16384x10_S16384x1_0_0) Gen.shapeCasts_S16384x1_S16384 i := by
    show StableHlo.after hostOps0 (W0 m 0) (Proc.devRef .tc main_v3) = _
    after_results; rfl
  show (W1 m 0 main_v3 : S16384.Idx → BitVec 32) i = _
  rw [e, W0_kept m 0 main_arg0]
  exact col_apply 0 (by decide) _ _ _ i

theorem tblB_0 (i : S16384.Idx) :
    G0.tbl (vf (W1 m)) 1 i = m (((0 : Dev nD) : Thread nD τ).loc main_arg2) (ValueIdx.ix2 (i 0) ⟨0, by decide⟩) := by
  have e : (W1 m 0 main_v5 : S16384.Idx → BitVec 32)
      = fun i => shapeCast S16384 (extractStridedSlice S16384x1 ![0, 0] (W0 m 0 main_arg2 : S16384x10.Idx → BitVec 32) Gen.slices_S16384x10_S16384x1_0_0) Gen.shapeCasts_S16384x1_S16384 i := by
    show StableHlo.after hostOps0 (W0 m 0) (Proc.devRef .tc main_v5) = _
    after_results; rfl
  show (W1 m 0 main_v5 : S16384.Idx → BitVec 32) i = _
  rw [e, W0_kept m 0 main_arg2]
  exact col_apply 0 (by decide) _ _ _ i

theorem tblOk_0 (hin : InR m) :
    G0.TblOk (vf (W1 m)) :=
  ⟨fun i => by rw [tblA_0]; exact (hin 0).1 _, fun i => by rw [tblB_0]; exact (hin 0).2.2.1 _⟩

theorem tblA_1 (i : S16384.Idx) :
    G1.tbl (vf (W3 m)) 0 i = m (((0 : Dev nD) : Thread nD τ).loc main_arg0) (ValueIdx.ix2 (i 0) ⟨1, by decide⟩) := by
  have e : (W3 m 0 main_v12 : S16384.Idx → BitVec 32)
      = fun i => shapeCast S16384 (extractStridedSlice S16384x1 ![0, 1] (W2 m 0 main_arg0 : S16384x10.Idx → BitVec 32) Gen.slices_S16384x10_S16384x1_0_1) Gen.shapeCasts_S16384x1_S16384 i := by
    show StableHlo.after hostOps1 (W2 m 0) (Proc.devRef .tc main_v12) = _
    after_results; rfl
  show (W3 m 0 main_v12 : S16384.Idx → BitVec 32) i = _
  rw [e, W2_kept m 0 main_arg0 kept_arg0]
  exact col_apply 1 (by decide) _ _ _ i

theorem tblB_1 (i : S16384.Idx) :
    G1.tbl (vf (W3 m)) 1 i = m (((0 : Dev nD) : Thread nD τ).loc main_arg2) (ValueIdx.ix2 (i 0) ⟨1, by decide⟩) := by
  have e : (W3 m 0 main_v14 : S16384.Idx → BitVec 32)
      = fun i => shapeCast S16384 (extractStridedSlice S16384x1 ![0, 1] (W2 m 0 main_arg2 : S16384x10.Idx → BitVec 32) Gen.slices_S16384x10_S16384x1_0_1) Gen.shapeCasts_S16384x1_S16384 i := by
    show StableHlo.after hostOps1 (W2 m 0) (Proc.devRef .tc main_v14) = _
    after_results; rfl
  show (W3 m 0 main_v14 : S16384.Idx → BitVec 32) i = _
  rw [e, W2_kept m 0 main_arg2 kept_arg2]
  exact col_apply 1 (by decide) _ _ _ i

theorem tblOk_1 (hin : InR m) :
    G1.TblOk (vf (W3 m)) :=
  ⟨fun i => by rw [tblA_1]; exact (hin 0).1 _, fun i => by rw [tblB_1]; exact (hin 0).2.2.1 _⟩

theorem tblA_2 (i : S16384.Idx) :
    G2.tbl (vf (W5 m)) 0 i = m (((0 : Dev nD) : Thread nD τ).loc main_arg0) (ValueIdx.ix2 (i 0) ⟨2, by decide⟩) := by
  have e : (W5 m 0 main_v21 : S16384.Idx → BitVec 32)
      = fun i => shapeCast S16384 (extractStridedSlice S16384x1 ![0, 2] (W4 m 0 main_arg0 : S16384x10.Idx → BitVec 32) Gen.slices_S16384x10_S16384x1_0_2) Gen.shapeCasts_S16384x1_S16384 i := by
    show StableHlo.after hostOps2 (W4 m 0) (Proc.devRef .tc main_v21) = _
    after_results; rfl
  show (W5 m 0 main_v21 : S16384.Idx → BitVec 32) i = _
  rw [e, W4_kept m 0 main_arg0 kept_arg0]
  exact col_apply 2 (by decide) _ _ _ i

theorem tblB_2 (i : S16384.Idx) :
    G2.tbl (vf (W5 m)) 1 i = m (((0 : Dev nD) : Thread nD τ).loc main_arg2) (ValueIdx.ix2 (i 0) ⟨2, by decide⟩) := by
  have e : (W5 m 0 main_v23 : S16384.Idx → BitVec 32)
      = fun i => shapeCast S16384 (extractStridedSlice S16384x1 ![0, 2] (W4 m 0 main_arg2 : S16384x10.Idx → BitVec 32) Gen.slices_S16384x10_S16384x1_0_2) Gen.shapeCasts_S16384x1_S16384 i := by
    show StableHlo.after hostOps2 (W4 m 0) (Proc.devRef .tc main_v23) = _
    after_results; rfl
  show (W5 m 0 main_v23 : S16384.Idx → BitVec 32) i = _
  rw [e, W4_kept m 0 main_arg2 kept_arg2]
  exact col_apply 2 (by decide) _ _ _ i

theorem tblOk_2 (hin : InR m) :
    G2.TblOk (vf (W5 m)) :=
  ⟨fun i => by rw [tblA_2]; exact (hin 0).1 _, fun i => by rw [tblB_2]; exact (hin 0).2.2.1 _⟩

theorem tblA_3 (i : S16384.Idx) :
    G3.tbl (vf (W7 m)) 0 i = m (((0 : Dev nD) : Thread nD τ).loc main_arg0) (ValueIdx.ix2 (i 0) ⟨3, by decide⟩) := by
  have e : (W7 m 0 main_v30 : S16384.Idx → BitVec 32)
      = fun i => shapeCast S16384 (extractStridedSlice S16384x1 ![0, 3] (W6 m 0 main_arg0 : S16384x10.Idx → BitVec 32) Gen.slices_S16384x10_S16384x1_0_3) Gen.shapeCasts_S16384x1_S16384 i := by
    show StableHlo.after hostOps3 (W6 m 0) (Proc.devRef .tc main_v30) = _
    after_results; rfl
  show (W7 m 0 main_v30 : S16384.Idx → BitVec 32) i = _
  rw [e, W6_kept m 0 main_arg0 kept_arg0]
  exact col_apply 3 (by decide) _ _ _ i

theorem tblB_3 (i : S16384.Idx) :
    G3.tbl (vf (W7 m)) 1 i = m (((0 : Dev nD) : Thread nD τ).loc main_arg2) (ValueIdx.ix2 (i 0) ⟨3, by decide⟩) := by
  have e : (W7 m 0 main_v32 : S16384.Idx → BitVec 32)
      = fun i => shapeCast S16384 (extractStridedSlice S16384x1 ![0, 3] (W6 m 0 main_arg2 : S16384x10.Idx → BitVec 32) Gen.slices_S16384x10_S16384x1_0_3) Gen.shapeCasts_S16384x1_S16384 i := by
    show StableHlo.after hostOps3 (W6 m 0) (Proc.devRef .tc main_v32) = _
    after_results; rfl
  show (W7 m 0 main_v32 : S16384.Idx → BitVec 32) i = _
  rw [e, W6_kept m 0 main_arg2 kept_arg2]
  exact col_apply 3 (by decide) _ _ _ i

theorem tblOk_3 (hin : InR m) :
    G3.TblOk (vf (W7 m)) :=
  ⟨fun i => by rw [tblA_3]; exact (hin 0).1 _, fun i => by rw [tblB_3]; exact (hin 0).2.2.1 _⟩

theorem tblA_4 (i : S16384.Idx) :
    G4.tbl (vf (W9 m)) 0 i = m (((0 : Dev nD) : Thread nD τ).loc main_arg0) (ValueIdx.ix2 (i 0) ⟨4, by decide⟩) := by
  have e : (W9 m 0 main_v39 : S16384.Idx → BitVec 32)
      = fun i => shapeCast S16384 (extractStridedSlice S16384x1 ![0, 4] (W8 m 0 main_arg0 : S16384x10.Idx → BitVec 32) Gen.slices_S16384x10_S16384x1_0_4) Gen.shapeCasts_S16384x1_S16384 i := by
    show StableHlo.after hostOps4 (W8 m 0) (Proc.devRef .tc main_v39) = _
    after_results; rfl
  show (W9 m 0 main_v39 : S16384.Idx → BitVec 32) i = _
  rw [e, W8_kept m 0 main_arg0 kept_arg0]
  exact col_apply 4 (by decide) _ _ _ i

theorem tblB_4 (i : S16384.Idx) :
    G4.tbl (vf (W9 m)) 1 i = m (((0 : Dev nD) : Thread nD τ).loc main_arg2) (ValueIdx.ix2 (i 0) ⟨4, by decide⟩) := by
  have e : (W9 m 0 main_v41 : S16384.Idx → BitVec 32)
      = fun i => shapeCast S16384 (extractStridedSlice S16384x1 ![0, 4] (W8 m 0 main_arg2 : S16384x10.Idx → BitVec 32) Gen.slices_S16384x10_S16384x1_0_4) Gen.shapeCasts_S16384x1_S16384 i := by
    show StableHlo.after hostOps4 (W8 m 0) (Proc.devRef .tc main_v41) = _
    after_results; rfl
  show (W9 m 0 main_v41 : S16384.Idx → BitVec 32) i = _
  rw [e, W8_kept m 0 main_arg2 kept_arg2]
  exact col_apply 4 (by decide) _ _ _ i

theorem tblOk_4 (hin : InR m) :
    G4.TblOk (vf (W9 m)) :=
  ⟨fun i => by rw [tblA_4]; exact (hin 0).1 _, fun i => by rw [tblB_4]; exact (hin 0).2.2.1 _⟩

theorem tblA_5 (i : S16384.Idx) :
    G5.tbl (vf (W11 m)) 0 i = m (((0 : Dev nD) : Thread nD τ).loc main_arg0) (ValueIdx.ix2 (i 0) ⟨5, by decide⟩) := by
  have e : (W11 m 0 main_v48 : S16384.Idx → BitVec 32)
      = fun i => shapeCast S16384 (extractStridedSlice S16384x1 ![0, 5] (W10 m 0 main_arg0 : S16384x10.Idx → BitVec 32) Gen.slices_S16384x10_S16384x1_0_5) Gen.shapeCasts_S16384x1_S16384 i := by
    show StableHlo.after hostOps5 (W10 m 0) (Proc.devRef .tc main_v48) = _
    after_results; rfl
  show (W11 m 0 main_v48 : S16384.Idx → BitVec 32) i = _
  rw [e, W10_kept m 0 main_arg0 kept_arg0]
  exact col_apply 5 (by decide) _ _ _ i

theorem tblB_5 (i : S16384.Idx) :
    G5.tbl (vf (W11 m)) 1 i = m (((0 : Dev nD) : Thread nD τ).loc main_arg2) (ValueIdx.ix2 (i 0) ⟨5, by decide⟩) := by
  have e : (W11 m 0 main_v50 : S16384.Idx → BitVec 32)
      = fun i => shapeCast S16384 (extractStridedSlice S16384x1 ![0, 5] (W10 m 0 main_arg2 : S16384x10.Idx → BitVec 32) Gen.slices_S16384x10_S16384x1_0_5) Gen.shapeCasts_S16384x1_S16384 i := by
    show StableHlo.after hostOps5 (W10 m 0) (Proc.devRef .tc main_v50) = _
    after_results; rfl
  show (W11 m 0 main_v50 : S16384.Idx → BitVec 32) i = _
  rw [e, W10_kept m 0 main_arg2 kept_arg2]
  exact col_apply 5 (by decide) _ _ _ i

theorem tblOk_5 (hin : InR m) :
    G5.TblOk (vf (W11 m)) :=
  ⟨fun i => by rw [tblA_5]; exact (hin 0).1 _, fun i => by rw [tblB_5]; exact (hin 0).2.2.1 _⟩

theorem tblA_6 (i : S16384.Idx) :
    G6.tbl (vf (W13 m)) 0 i = m (((0 : Dev nD) : Thread nD τ).loc main_arg0) (ValueIdx.ix2 (i 0) ⟨6, by decide⟩) := by
  have e : (W13 m 0 main_v57 : S16384.Idx → BitVec 32)
      = fun i => shapeCast S16384 (extractStridedSlice S16384x1 ![0, 6] (W12 m 0 main_arg0 : S16384x10.Idx → BitVec 32) Gen.slices_S16384x10_S16384x1_0_6) Gen.shapeCasts_S16384x1_S16384 i := by
    show StableHlo.after hostOps6 (W12 m 0) (Proc.devRef .tc main_v57) = _
    after_results; rfl
  show (W13 m 0 main_v57 : S16384.Idx → BitVec 32) i = _
  rw [e, W12_kept m 0 main_arg0 kept_arg0]
  exact col_apply 6 (by decide) _ _ _ i

theorem tblB_6 (i : S16384.Idx) :
    G6.tbl (vf (W13 m)) 1 i = m (((0 : Dev nD) : Thread nD τ).loc main_arg2) (ValueIdx.ix2 (i 0) ⟨6, by decide⟩) := by
  have e : (W13 m 0 main_v59 : S16384.Idx → BitVec 32)
      = fun i => shapeCast S16384 (extractStridedSlice S16384x1 ![0, 6] (W12 m 0 main_arg2 : S16384x10.Idx → BitVec 32) Gen.slices_S16384x10_S16384x1_0_6) Gen.shapeCasts_S16384x1_S16384 i := by
    show StableHlo.after hostOps6 (W12 m 0) (Proc.devRef .tc main_v59) = _
    after_results; rfl
  show (W13 m 0 main_v59 : S16384.Idx → BitVec 32) i = _
  rw [e, W12_kept m 0 main_arg2 kept_arg2]
  exact col_apply 6 (by decide) _ _ _ i

theorem tblOk_6 (hin : InR m) :
    G6.TblOk (vf (W13 m)) :=
  ⟨fun i => by rw [tblA_6]; exact (hin 0).1 _, fun i => by rw [tblB_6]; exact (hin 0).2.2.1 _⟩

theorem tblA_7 (i : S16384.Idx) :
    G7.tbl (vf (W15 m)) 0 i = m (((0 : Dev nD) : Thread nD τ).loc main_arg0) (ValueIdx.ix2 (i 0) ⟨7, by decide⟩) := by
  have e : (W15 m 0 main_v66 : S16384.Idx → BitVec 32)
      = fun i => shapeCast S16384 (extractStridedSlice S16384x1 ![0, 7] (W14 m 0 main_arg0 : S16384x10.Idx → BitVec 32) Gen.slices_S16384x10_S16384x1_0_7) Gen.shapeCasts_S16384x1_S16384 i := by
    show StableHlo.after hostOps7 (W14 m 0) (Proc.devRef .tc main_v66) = _
    after_results; rfl
  show (W15 m 0 main_v66 : S16384.Idx → BitVec 32) i = _
  rw [e, W14_kept m 0 main_arg0 kept_arg0]
  exact col_apply 7 (by decide) _ _ _ i

theorem tblB_7 (i : S16384.Idx) :
    G7.tbl (vf (W15 m)) 1 i = m (((0 : Dev nD) : Thread nD τ).loc main_arg2) (ValueIdx.ix2 (i 0) ⟨7, by decide⟩) := by
  have e : (W15 m 0 main_v68 : S16384.Idx → BitVec 32)
      = fun i => shapeCast S16384 (extractStridedSlice S16384x1 ![0, 7] (W14 m 0 main_arg2 : S16384x10.Idx → BitVec 32) Gen.slices_S16384x10_S16384x1_0_7) Gen.shapeCasts_S16384x1_S16384 i := by
    show StableHlo.after hostOps7 (W14 m 0) (Proc.devRef .tc main_v68) = _
    after_results; rfl
  show (W15 m 0 main_v68 : S16384.Idx → BitVec 32) i = _
  rw [e, W14_kept m 0 main_arg2 kept_arg2]
  exact col_apply 7 (by decide) _ _ _ i

theorem tblOk_7 (hin : InR m) :
    G7.TblOk (vf (W15 m)) :=
  ⟨fun i => by rw [tblA_7]; exact (hin 0).1 _, fun i => by rw [tblB_7]; exact (hin 0).2.2.1 _⟩

theorem tblA_8 (i : S16384.Idx) :
    G8.tbl (vf (W17 m)) 0 i = m (((0 : Dev nD) : Thread nD τ).loc main_arg0) (ValueIdx.ix2 (i 0) ⟨8, by decide⟩) := by
  have e : (W17 m 0 main_v75 : S16384.Idx → BitVec 32)
      = fun i => shapeCast S16384 (extractStridedSlice S16384x1 ![0, 8] (W16 m 0 main_arg0 : S16384x10.Idx → BitVec 32) Gen.slices_S16384x10_S16384x1_0_8) Gen.shapeCasts_S16384x1_S16384 i := by
    show StableHlo.after hostOps8 (W16 m 0) (Proc.devRef .tc main_v75) = _
    after_results; rfl
  show (W17 m 0 main_v75 : S16384.Idx → BitVec 32) i = _
  rw [e, W16_kept m 0 main_arg0 kept_arg0]
  exact col_apply 8 (by decide) _ _ _ i

theorem tblB_8 (i : S16384.Idx) :
    G8.tbl (vf (W17 m)) 1 i = m (((0 : Dev nD) : Thread nD τ).loc main_arg2) (ValueIdx.ix2 (i 0) ⟨8, by decide⟩) := by
  have e : (W17 m 0 main_v77 : S16384.Idx → BitVec 32)
      = fun i => shapeCast S16384 (extractStridedSlice S16384x1 ![0, 8] (W16 m 0 main_arg2 : S16384x10.Idx → BitVec 32) Gen.slices_S16384x10_S16384x1_0_8) Gen.shapeCasts_S16384x1_S16384 i := by
    show StableHlo.after hostOps8 (W16 m 0) (Proc.devRef .tc main_v77) = _
    after_results; rfl
  show (W17 m 0 main_v77 : S16384.Idx → BitVec 32) i = _
  rw [e, W16_kept m 0 main_arg2 kept_arg2]
  exact col_apply 8 (by decide) _ _ _ i

theorem tblOk_8 (hin : InR m) :
    G8.TblOk (vf (W17 m)) :=
  ⟨fun i => by rw [tblA_8]; exact (hin 0).1 _, fun i => by rw [tblB_8]; exact (hin 0).2.2.1 _⟩

theorem tblA_9 (i : S16384.Idx) :
    G9.tbl (vf (W19 m)) 0 i = m (((0 : Dev nD) : Thread nD τ).loc main_arg0) (ValueIdx.ix2 (i 0) ⟨9, by decide⟩) := by
  have e : (W19 m 0 main_v84 : S16384.Idx → BitVec 32)
      = fun i => shapeCast S16384 (extractStridedSlice S16384x1 ![0, 9] (W18 m 0 main_arg0 : S16384x10.Idx → BitVec 32) Gen.slices_S16384x10_S16384x1_0_9) Gen.shapeCasts_S16384x1_S16384 i := by
    show StableHlo.after hostOps9 (W18 m 0) (Proc.devRef .tc main_v84) = _
    after_results; rfl
  show (W19 m 0 main_v84 : S16384.Idx → BitVec 32) i = _
  rw [e, W18_kept m 0 main_arg0 kept_arg0]
  exact col_apply 9 (by decide) _ _ _ i

theorem tblB_9 (i : S16384.Idx) :
    G9.tbl (vf (W19 m)) 1 i = m (((0 : Dev nD) : Thread nD τ).loc main_arg2) (ValueIdx.ix2 (i 0) ⟨9, by decide⟩) := by
  have e : (W19 m 0 main_v86 : S16384.Idx → BitVec 32)
      = fun i => shapeCast S16384 (extractStridedSlice S16384x1 ![0, 9] (W18 m 0 main_arg2 : S16384x10.Idx → BitVec 32) Gen.slices_S16384x10_S16384x1_0_9) Gen.shapeCasts_S16384x1_S16384 i := by
    show StableHlo.after hostOps9 (W18 m 0) (Proc.devRef .tc main_v86) = _
    after_results; rfl
  show (W19 m 0 main_v86 : S16384.Idx → BitVec 32) i = _
  rw [e, W18_kept m 0 main_arg2 kept_arg2]
  exact col_apply 9 (by decide) _ _ _ i

theorem tblOk_9 (hin : InR m) :
    G9.TblOk (vf (W19 m)) :=
  ⟨fun i => by rw [tblA_9]; exact (hin 0).1 _, fun i => by rw [tblB_9]; exact (hin 0).2.2.1 _⟩

theorem tblA_10 : G10.tbl (vf (W21 m)) 0 = m (((0 : Dev nD) : Thread nD τ).loc main_arg1) := W21_kept m 0 main_arg1 kept_arg1

theorem tblB_10 : G10.tbl (vf (W21 m)) 1 = m (((0 : Dev nD) : Thread nD τ).loc main_arg3) := W21_kept m 0 main_arg3 kept_arg3

theorem tblOk_10 (hin : InR m) :
    G10.TblOk (vf (W21 m)) :=
  ⟨fun i => by rw [tblA_10]; exact (hin 0).2.1 _, fun i => by rw [tblB_10]; exact (hin 0).2.2.2 _⟩

end Cert.Kernel.Asm

end
-- ==== Proof.RefTerm.lean ====
import proofs.«404237_j24687472017957_2_alg».proof.ReferenceIdeal
import proofs.«404237_j24687472017957_2_alg».proof.Proof.Gen.ReferenceIdeal

noncomputable section

namespace Cert.ReferenceIdeal.RefTerm

open Idealize.ShloMosaic Cert.ReferenceIdeal Cert.ReferenceIdeal.Facts₀

variable {F : FTy → Type} [FloatOps F] [Cert.ReferenceIdeal.Facts]

def softplus (arg0 : FVec F S16384 .f32) : FVec F S16384 .f32 :=
  let cst : FVec F S_ .f32 := constant S_ .f32 0x00000000#32
  let v0 : FVec F S16384 .f32 := broadcastInDim S16384 ![] bcast_S_S16384 cst
  let v1 : FVec F S16384 .f32 := maximumf arg0 v0
  let v2 : FVec F S16384 .f32 := broadcastInDim S16384 ![] bcast_S_S16384 cst
  let v3 : FVec F S16384 .f32 := subf arg0 v2
  let v4 : IVec S16384 1 := cmpf .une v3 v3
  let v5 : FVec F S16384 .f32 := broadcastInDim S16384 ![] bcast_S_S16384 cst
  let v6 : FVec F S16384 .f32 := addf arg0 v5
  let v7 : FVec F S16384 .f32 := Host.absf v3
  let v8 : FVec F S16384 .f32 := Host.negf v7
  let v9 : FVec F S16384 .f32 := Host.exp v8
  let v10 : FVec F S16384 .f32 := Host.log1p v9
  let v11 : FVec F S16384 .f32 := addf v1 v10
  let v12 : FVec F S16384 .f32 := select v4 v6 v11
  v12

def logSigmoid (arg0 : FVec F S16384 .f32) : FVec F S16384 .f32 :=
  let v0 : FVec F S16384 .f32 := Host.negf arg0
  let v1 : FVec F S16384 .f32 := softplus v0
  let v2 : FVec F S16384 .f32 := Host.negf v1
  v2

def refTerm (main_arg0 : IVec S16384x10 32) (main_arg1 : IVec S16384 32) (main_arg2 : IVec S16384x10 32) (main_arg3 : IVec S16384 32)
    (main_arg4 : FVec F S199999x256 .f32) (main_arg5 : FVec F S199999x256 .f32) : FVec F S_ .f32 :=
  let main_c : IVec S_ 32 := constantI S_ 32 0#32
  let main_v0 : IVec S16384x10 32 := broadcastInDim S16384x10 ![] bcast_S_S16384x10 main_c
  let main_v1 : IVec S16384x10 1 := cmpi .slt main_arg0 main_v0
  let main_c_0 : IVec S_ 32 := constantI S_ 32 199999#32
  let main_v2 : IVec S16384x10 32 := broadcastInDim S16384x10 ![] bcast_S_S16384x10 main_c_0
  let main_v3 : IVec S16384x10 32 := addi main_arg0 main_v2
  let main_v4 : IVec S16384x10 32 := select main_v1 main_v3 main_arg0
  let main_v5 : IVec S16384x10x1 32 := broadcastInDim S16384x10x1 ![0, 1] bcast_S16384x10_S16384x10x1_0_1 main_v4
  let main_v6 : FVec F S16384x10x256 .f32 := (fun x i => Host.gather gather_S199999x256_S16384x10x1_S16384x10x256_2_0_n_n_0_2_1256 x i) main_arg4 main_v5
  let main_cst : FVec F S_ .f32 := constant S_ .f32 0x00000000#32
  let main_v7 : FVec F S16384x256 .f32 := (fun x v => Host.reduceAdd x v reducesTo_S16384x10x256_S16384x256_d1 h_S_) main_v6 main_cst
  let main_c_1 : IVec S_ 32 := constantI S_ 32 0#32
  let main_v8 : IVec S16384x10 32 := broadcastInDim S16384x10 ![] bcast_S_S16384x10 main_c_1
  let main_v9 : IVec S16384x10 1 := cmpi .slt main_arg2 main_v8
  let main_c_2 : IVec S_ 32 := constantI S_ 32 199999#32
  let main_v10 : IVec S16384x10 32 := broadcastInDim S16384x10 ![] bcast_S_S16384x10 main_c_2
  let main_v11 : IVec S16384x10 32 := addi main_arg2 main_v10
  let main_v12 : IVec S16384x10 32 := select main_v9 main_v11 main_arg2
  let main_v13 : IVec S16384x10x1 32 := broadcastInDim S16384x10x1 ![0, 1] bcast_S16384x10_S16384x10x1_0_1 main_v12
  let main_v14 : FVec F S16384x10x256 .f32 := (fun x i => Host.gather gather_S199999x256_S16384x10x1_S16384x10x256_2_0_n_n_0_2_1256 x i) main_arg4 main_v13
  let main_cst_3 : FVec F S_ .f32 := constant S_ .f32 0x00000000#32
  let main_v15 : FVec F S16384x256 .f32 := (fun x v => Host.reduceAdd x v reducesTo_S16384x10x256_S16384x256_d1 h_S_) main_v14 main_cst_3
  let main_c_4 : IVec S_ 32 := constantI S_ 32 0#32
  let main_v16 : IVec S16384 32 := broadcastInDim S16384 ![] bcast_S_S16384 main_c_4
  let main_v17 : IVec S16384 1 := cmpi .slt main_arg1 main_v16
  let main_c_5 : IVec S_ 32 := constantI S_ 32 199999#32
  let main_v18 : IVec S16384 32 := broadcastInDim S16384 ![] bcast_S_S16384 main_c_5
  let main_v19 : IVec S16384 32 := addi main_arg1 main_v18
  let main_v20 : IVec S16384 32 := select main_v17 main_v19 main_arg1
  let main_v21 : IVec S16384x1 32 := broadcastInDim S16384x1 ![0] bcast_S16384_S16384x1_0 main_v20
  let main_v22 : FVec F S16384x256 .f32 := (fun x i => Host.gather gather_S199999x256_S16384x1_S16384x256_1_0_n_n_0_1_1256 x i) main_arg5 main_v21
  let main_c_6 : IVec S_ 32 := constantI S_ 32 0#32
  let main_v23 : IVec S16384 32 := broadcastInDim S16384 ![] bcast_S_S16384 main_c_6
  let main_v24 : IVec S16384 1 := cmpi .slt main_arg3 main_v23
  let main_c_7 : IVec S_ 32 := constantI S_ 32 199999#32
  let main_v25 : IVec S16384 32 := broadcastInDim S16384 ![] bcast_S_S16384 main_c_7
  let main_v26 : IVec S16384 32 := addi main_arg3 main_v25
  let main_v27 : IVec S16384 32 := select main_v24 main_v26 main_arg3
  let main_v28 : IVec S16384x1 32 := broadcastInDim S16384x1 ![0] bcast_S16384_S16384x1_0 main_v27
  let main_v29 : FVec F S16384x256 .f32 := (fun x i => Host.gather gather_S199999x256_S16384x1_S16384x256_1_0_n_n_0_1_1256 x i) main_arg5 main_v28
  let main_v30 : FVec F S16384x256 .f32 := mulf main_v7 main_v22
  let main_cst_8 : FVec F S_ .f32 := constant S_ .f32 0x00000000#32
  let main_v31 : FVec F S16384 .f32 := (fun x v => Host.reduceAdd x v reducesTo_S16384x256_S16384_d1 h_S_) main_v30 main_cst_8
  let main_v32 : FVec F S16384 .f32 := logSigmoid main_v31
  let main_v33 : FVec F S16384x256 .f32 := mulf main_v15 main_v29
  let main_cst_9 : FVec F S_ .f32 := constant S_ .f32 0x00000000#32
  let main_v34 : FVec F S16384 .f32 := (fun x v => Host.reduceAdd x v reducesTo_S16384x256_S16384_d1 h_S_) main_v33 main_cst_9
  let main_v35 : FVec F S16384 .f32 := Host.negf main_v34
  let main_v36 : FVec F S16384 .f32 := logSigmoid main_v35
  let main_cst_10 : FVec F S_ .f32 := constant S_ .f32 0x00000000#32
  let main_v37 : FVec F S_ .f32 := (fun x v => Host.reduceAdd x v reducesTo_S16384_S_d0 h_S_) main_v32 main_cst_10
  let main_cst_11 : FVec F S_ .f32 := constant S_ .f32 0x00000000#32
  let main_v38 : FVec F S_ .f32 := (fun x v => Host.reduceAdd x v reducesTo_S16384_S_d0 h_S_) main_v36 main_cst_11
  let main_v39 : FVec F S_ .f32 := addf main_v37 main_v38
  let main_v40 : FVec F S_ .f32 := Host.negf main_v39
  main_v40

end Cert.ReferenceIdeal.RefTerm

end
-- ==== Proof.RefRun.lean ====
import proofs.«404237_j24687472017957_2_alg».proof.ReferenceIdeal
import proofs.«404237_j24687472017957_2_alg».proof.Proof.Gen.ReferenceIdeal
import proofs.«404237_j24687472017957_2_alg».proof.Proof.RefTerm
import Idealize.ShloMosaic.Lib.StableHlo.Run

noncomputable section

namespace Cert.ReferenceIdeal.RefRun

open Cert.ReferenceIdeal Cert.ReferenceIdeal.Facts₀ Idealize.ShloMosaic Idealize.SL.Sem

variable {F : FTy → Type} [FloatOps F]

abbrev ops : List (HloOp τ sig (Elt F)) :=
  [ StableHlo.nullary main_c (constantI S_ 32 0#32),
    StableHlo.unary main_c main_v0 (broadcastInDim S16384x10 ![] bcast_S_S16384x10 : (⟨S_, .i32⟩ : BufTy).Contents (Elt F) → (⟨S16384x10, .i32⟩ : BufTy).Contents (Elt F)),
    StableHlo.binary main_arg0 main_v0 main_v1 (cmpi .slt : (⟨S16384x10, .i32⟩ : BufTy).Contents (Elt F) → (⟨S16384x10, .i32⟩ : BufTy).Contents (Elt F) → (⟨S16384x10, .i1⟩ : BufTy).Contents (Elt F)),
    StableHlo.nullary main_c_0 (constantI S_ 32 199999#32),
    StableHlo.unary main_c_0 main_v2 (broadcastInDim S16384x10 ![] bcast_S_S16384x10 : (⟨S_, .i32⟩ : BufTy).Contents (Elt F) → (⟨S16384x10, .i32⟩ : BufTy).Contents (Elt F)),
    StableHlo.binary main_arg0 main_v2 main_v3 (addi : (⟨S16384x10, .i32⟩ : BufTy).Contents (Elt F) → (⟨S16384x10, .i32⟩ : BufTy).Contents (Elt F) → (⟨S16384x10, .i32⟩ : BufTy).Contents (Elt F)),
    StableHlo.ternary main_v1 main_v3 main_arg0 main_v4 (select : (⟨S16384x10, .i1⟩ : BufTy).Contents (Elt F) → (⟨S16384x10, .i32⟩ : BufTy).Contents (Elt F) → (⟨S16384x10, .i32⟩ : BufTy).Contents (Elt F) → (⟨S16384x10, .i32⟩ : BufTy).Contents (Elt F)),
    StableHlo.unary main_v4 main_v5 (broadcastInDim S16384x10x1 ![0, 1] bcast_S16384x10_S16384x10x1_0_1 : (⟨S16384x10, .i32⟩ : BufTy).Contents (Elt F) → (⟨S16384x10x1, .i32⟩ : BufTy).Contents (Elt F)),
    StableHlo.binary main_arg4 main_v5 main_v6 ((fun x i => Host.gather gather_S199999x256_S16384x10x1_S16384x10x256_2_0_n_n_0_2_1256 x i) : (⟨S199999x256, .f32⟩ : BufTy).Contents (Elt F) → (⟨S16384x10x1, .i32⟩ : BufTy).Contents (Elt F) → (⟨S16384x10x256, .f32⟩ : BufTy).Contents (Elt F)),
    StableHlo.nullary main_cst (constant S_ .f32 0x00000000#32),
    StableHlo.binary main_v6 main_cst main_v7 ((fun x v => Host.reduceAdd x v reducesTo_S16384x10x256_S16384x256_d1 h_S_) : (⟨S16384x10x256, .f32⟩ : BufTy).Contents (Elt F) → (⟨S_, .f32⟩ : BufTy).Contents (Elt F) → (⟨S16384x256, .f32⟩ : BufTy).Contents (Elt F)),
    StableHlo.nullary main_c_1 (constantI S_ 32 0#32),
    StableHlo.unary main_c_1 main_v8 (broadcastInDim S16384x10 ![] bcast_S_S16384x10 : (⟨S_, .i32⟩ : BufTy).Contents (Elt F) → (⟨S16384x10, .i32⟩ : BufTy).Contents (Elt F)),
    StableHlo.binary main_arg2 main_v8 main_v9 (cmpi .slt : (⟨S16384x10, .i32⟩ : BufTy).Contents (Elt F) → (⟨S16384x10, .i32⟩ : BufTy).Contents (Elt F) → (⟨S16384x10, .i1⟩ : BufTy).Contents (Elt F)),
    StableHlo.nullary main_c_2 (constantI S_ 32 199999#32),
    StableHlo.unary main_c_2 main_v10 (broadcastInDim S16384x10 ![] bcast_S_S16384x10 : (⟨S_, .i32⟩ : BufTy).Contents (Elt F) → (⟨S16384x10, .i32⟩ : BufTy).Contents (Elt F)),
    StableHlo.binary main_arg2 main_v10 main_v11 (addi : (⟨S16384x10, .i32⟩ : BufTy).Contents (Elt F) → (⟨S16384x10, .i32⟩ : BufTy).Contents (Elt F) → (⟨S16384x10, .i32⟩ : BufTy).Contents (Elt F)),
    StableHlo.ternary main_v9 main_v11 main_arg2 main_v12 (select : (⟨S16384x10, .i1⟩ : BufTy).Contents (Elt F) → (⟨S16384x10, .i32⟩ : BufTy).Contents (Elt F) → (⟨S16384x10, .i32⟩ : BufTy).Contents (Elt F) → (⟨S16384x10, .i32⟩ : BufTy).Contents (Elt F)),
    StableHlo.unary main_v12 main_v13 (broadcastInDim S16384x10x1 ![0, 1] bcast_S16384x10_S16384x10x1_0_1 : (⟨S16384x10, .i32⟩ : BufTy).Contents (Elt F) → (⟨S16384x10x1, .i32⟩ : BufTy).Contents (Elt F)),
    StableHlo.binary main_arg4 main_v13 main_v14 ((fun x i => Host.gather gather_S199999x256_S16384x10x1_S16384x10x256_2_0_n_n_0_2_1256 x i) : (⟨S199999x256, .f32⟩ : BufTy).Contents (Elt F) → (⟨S16384x10x1, .i32⟩ : BufTy).Contents (Elt F) → (⟨S16384x10x256, .f32⟩ : BufTy).Contents (Elt F)),
    StableHlo.nullary main_cst_3 (constant S_ .f32 0x00000000#32),
    StableHlo.binary main_v14 main_cst_3 main_v15 ((fun x v => Host.reduceAdd x v reducesTo_S16384x10x256_S16384x256_d1 h_S_) : (⟨S16384x10x256, .f32⟩ : BufTy).Contents (Elt F) → (⟨S_, .f32⟩ : BufTy).Contents (Elt F) → (⟨S16384x256, .f32⟩ : BufTy).Contents (Elt F)),
    StableHlo.nullary main_c_4 (constantI S_ 32 0#32),
    StableHlo.unary main_c_4 main_v16 (broadcastInDim S16384 ![] bcast_S_S16384 : (⟨S_, .i32⟩ : BufTy).Contents (Elt F) → (⟨S16384, .i32⟩ : BufTy).Contents (Elt F)),
    StableHlo.binary main_arg1 main_v16 main_v17 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 199999#32),
    StableHlo.unary main_c_5 main_v18 (broadcastInDim S16384 ![] bcast_S_S16384 : (⟨S_, .i32⟩ : BufTy).Contents (Elt F) → (⟨S16384, .i32⟩ : BufTy).Contents (Elt F)),
    StableHlo.binary main_arg1 main_v18 main_v19 (addi : (⟨S16384, .i32⟩ : BufTy).Contents (Elt F) → (⟨S16384, .i32⟩ : BufTy).Contents (Elt F) → (⟨S16384, .i32⟩ : BufTy).Contents (Elt F)),
    StableHlo.ternary main_v17 main_v19 main_arg1 main_v20 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v20 main_v21 (broadcastInDim S16384x1 ![0] bcast_S16384_S16384x1_0 : (⟨S16384, .i32⟩ : BufTy).Contents (Elt F) → (⟨S16384x1, .i32⟩ : BufTy).Contents (Elt F)),
    StableHlo.binary main_arg5 main_v21 main_v22 ((fun x i => Host.gather gather_S199999x256_S16384x1_S16384x256_1_0_n_n_0_1_1256 x i) : (⟨S199999x256, .f32⟩ : BufTy).Contents (Elt F) → (⟨S16384x1, .i32⟩ : BufTy).Contents (Elt F) → (⟨S16384x256, .f32⟩ : BufTy).Contents (Elt F)),
    StableHlo.nullary main_c_6 (constantI S_ 32 0#32),
    StableHlo.unary main_c_6 main_v23 (broadcastInDim S16384 ![] bcast_S_S16384 : (⟨S_, .i32⟩ : BufTy).Contents (Elt F) → (⟨S16384, .i32⟩ : BufTy).Contents (Elt F)),
    StableHlo.binary main_arg3 main_v23 main_v24 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 199999#32),
    StableHlo.unary main_c_7 main_v25 (broadcastInDim S16384 ![] bcast_S_S16384 : (⟨S_, .i32⟩ : BufTy).Contents (Elt F) → (⟨S16384, .i32⟩ : BufTy).Contents (Elt F)),
    StableHlo.binary main_arg3 main_v25 main_v26 (addi : (⟨S16384, .i32⟩ : BufTy).Contents (Elt F) → (⟨S16384, .i32⟩ : BufTy).Contents (Elt F) → (⟨S16384, .i32⟩ : BufTy).Contents (Elt F)),
    StableHlo.ternary main_v24 main_v26 main_arg3 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v27 main_v28 (broadcastInDim S16384x1 ![0] bcast_S16384_S16384x1_0 : (⟨S16384, .i32⟩ : BufTy).Contents (Elt F) → (⟨S16384x1, .i32⟩ : BufTy).Contents (Elt F)),
    StableHlo.binary main_arg5 main_v28 main_v29 ((fun x i => Host.gather gather_S199999x256_S16384x1_S16384x256_1_0_n_n_0_1_1256 x i) : (⟨S199999x256, .f32⟩ : BufTy).Contents (Elt F) → (⟨S16384x1, .i32⟩ : BufTy).Contents (Elt F) → (⟨S16384x256, .f32⟩ : BufTy).Contents (Elt F)),
    StableHlo.binary main_v7 main_v22 main_v30 (mulf : (⟨S16384x256, .f32⟩ : BufTy).Contents (Elt F) → (⟨S16384x256, .f32⟩ : BufTy).Contents (Elt F) → (⟨S16384x256, .f32⟩ : BufTy).Contents (Elt F)),
    StableHlo.nullary main_cst_8 (constant S_ .f32 0x00000000#32),
    StableHlo.binary main_v30 main_cst_8 main_v31 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.TRef.unary (.of main_v31 : StableHlo.TRef sig ⟨S16384, .f32⟩) main_call0.v0 Host.negf,
    StableHlo.TRef.nullary main_call0.call0.cst (constant S_ .f32 0x00000000#32),
    StableHlo.TRef.unary main_call0.call0.cst main_call0.call0.v0 (broadcastInDim S16384 ![] bcast_S_S16384),
    StableHlo.TRef.binary main_call0.v0 main_call0.call0.v0 main_call0.call0.v1 maximumf,
    StableHlo.TRef.unary main_call0.call0.cst main_call0.call0.v2 (broadcastInDim S16384 ![] bcast_S_S16384),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S16384 ![] bcast_S_S16384),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.binary main_v15 main_v29 main_v33 (mulf : (⟨S16384x256, .f32⟩ : BufTy).Contents (Elt F) → (⟨S16384x256, .f32⟩ : BufTy).Contents (Elt F) → (⟨S16384x256, .f32⟩ : BufTy).Contents (Elt F)),
    StableHlo.nullary main_cst_9 (constant S_ .f32 0x00000000#32),
    StableHlo.binary main_v33 main_cst_9 main_v34 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v34 main_v35 (Host.negf : (⟨S16384, .f32⟩ : BufTy).Contents (Elt F) → (⟨S16384, .f32⟩ : BufTy).Contents (Elt F)),
    StableHlo.TRef.unary (.of main_v35 : StableHlo.TRef sig ⟨S16384, .f32⟩) main_call1.v0 Host.negf,
    StableHlo.TRef.nullary main_call1.call0.cst (constant S_ .f32 0x00000000#32),
    StableHlo.TRef.unary main_call1.call0.cst main_call1.call0.v0 (broadcastInDim S16384 ![] bcast_S_S16384),
    StableHlo.TRef.binary main_call1.v0 main_call1.call0.v0 main_call1.call0.v1 maximumf,
    StableHlo.TRef.unary main_call1.call0.cst main_call1.call0.v2 (broadcastInDim S16384 ![] bcast_S_S16384),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S16384 ![] bcast_S_S16384),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.nullary main_cst_10 (constant S_ .f32 0x00000000#32),
    StableHlo.binary main_v32 main_cst_10 main_v37 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_11 (constant S_ .f32 0x00000000#32),
    StableHlo.binary main_v36 main_cst_11 main_v38 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.binary main_v37 main_v38 main_v39 (addf : (⟨S_, .f32⟩ : BufTy).Contents (Elt F) → (⟨S_, .f32⟩ : BufTy).Contents (Elt F) → (⟨S_, .f32⟩ : BufTy).Contents (Elt F)),
    StableHlo.unary main_v39 main_v40 (Host.negf : (⟨S_, .f32⟩ : BufTy).Contents (Elt F) → (⟨S_, .f32⟩ : BufTy).Contents (Elt F)) ]

set_option maxRecDepth 4096 in
set_option maxHeartbeats 4000000 in

theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

open StableHlo in
theorem ops_sub : (ops : List (HloOp τ sig (Elt F))).Forall fun op => op.bufs ⊆ StableHlo.tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., nullary_bufs_sub .., binary_bufs_sub .., nullary_bufs_sub .., binary_bufs_sub .., binary_bufs_sub ..,
    unary_bufs_sub ..⟩

section Results
open StableHlo

set_option maxRecDepth 8192 in
set_option maxHeartbeats 4000000 in

theorem out_eq (V : Valuation τ sig (Elt F)) :
    after ops V (Proc.devRef .tc main_v40)
      = Cert.ReferenceIdeal.RefTerm.refTerm (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  rfl

set_option maxRecDepth 8192 in
set_option maxHeartbeats 4000000 in
theorem arg0_eq (V : Valuation τ sig (Elt F)) :
    after ops V (Proc.devRef .tc main_arg0) = V (Proc.devRef .tc main_arg0) := by
  after_results_simp

set_option maxRecDepth 8192 in
set_option maxHeartbeats 4000000 in
theorem arg1_eq (V : Valuation τ sig (Elt F)) :
    after ops V (Proc.devRef .tc main_arg1) = V (Proc.devRef .tc main_arg1) := by
  after_results_simp

set_option maxRecDepth 8192 in
set_option maxHeartbeats 4000000 in
theorem arg2_eq (V : Valuation τ sig (Elt F)) :
    after ops V (Proc.devRef .tc main_arg2) = V (Proc.devRef .tc main_arg2) := by
  after_results_simp

set_option maxRecDepth 8192 in
set_option maxHeartbeats 4000000 in
theorem arg3_eq (V : Valuation τ sig (Elt F)) :
    after ops V (Proc.devRef .tc main_arg3) = V (Proc.devRef .tc main_arg3) := by
  after_results_simp

set_option maxRecDepth 8192 in
set_option maxHeartbeats 4000000 in
theorem arg4_eq (V : Valuation τ sig (Elt F)) :
    after ops V (Proc.devRef .tc main_arg4) = V (Proc.devRef .tc main_arg4) := by
  after_results_simp

set_option maxRecDepth 8192 in
set_option maxHeartbeats 4000000 in
theorem arg5_eq (V : Valuation τ sig (Elt F)) :
    after ops V (Proc.devRef .tc main_arg5) = V (Proc.devRef .tc main_arg5) := by
  after_results_simp

end Results

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v40)
          = Cert.ReferenceIdeal.RefTerm.refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v40).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (StableHlo.run_seq scopedRefs_eq scopedSems_eq defs main (fun _ => ops) main_eq (fun _ => ops_sub) m ρ)

end Cert.ReferenceIdeal.RefRun

end
-- ==== Proof.RefGather.lean ====
import proofs.«404237_j24687472017957_2_alg».proof.Proof.RefTerm
import proofs.«404237_j24687472017957_2_alg».proof.Proof.Spec
import Idealize.ShloMosaic.Lib.ValueIdx
import Idealize.ShloMosaic.Lib.Pipeline.Value

noncomputable section

namespace Cert.ReferenceIdeal.RefGather

open Idealize.ShloMosaic Idealize.ShloMosaic.ValueIdx Cert.ReferenceIdeal Cert.ReferenceIdeal.Facts₀

variable [Cert.ReferenceIdeal.Facts]

theorem toInt_of_lt (w : BitVec 32) (h : w.toNat < 199999) : w.toInt = (w.toNat : Int) := by
  rw [BitVec.toInt_eq_toNat_cond, if_pos (by omega)]

theorem slt_zero_of_lt (w : BitVec 32) (h : w.toNat < 199999) : IntOp.cmpi .slt w 0#32 = 0#1 := by
  have hs : w.slt 0#32 = false := by
    unfold BitVec.slt
    rw [decide_eq_false_iff_not, toInt_of_lt w h, show (0#32 : BitVec 32).toInt = 0 from rfl]
    omega
  show BitVec.ofBool (w.slt 0#32) = 0#1
  rw [hs]
  rfl

theorem toInt_toNat_of_lt (w : BitVec 32) (h : w.toNat < 199999) : w.toInt.toNat = w.toNat := by
  rw [toInt_of_lt w h]
  exact Int.toNat_natCast _

theorem clamp_eq_row (w : BitVec 32) (h : w.toNat < 199999) :
    min w.toInt.toNat (199999 - 1) = (Cert.Spec.row w).val := by
  rw [toInt_toNat_of_lt w h, Cert.Spec.row_val w h]
  omega

theorem norm2_eq (a : IVec S16384x10 32) (h : ∀ i, (a i).toNat < 199999) :
    select (cmpi .slt a (broadcastInDim S16384x10 ![] bcast_S_S16384x10 (constantI S_ 32 0#32)))
      (addi a (broadcastInDim S16384x10 ![] bcast_S_S16384x10 (constantI S_ 32 199999#32))) a = a := by
  funext i
  rw [select_apply]
  show Scalar.select (IntOp.cmpi .slt (a i) 0#32) _ _ = _
  rw [slt_zero_of_lt _ (h i), select_zero]

theorem norm1_eq (a : IVec S16384 32) (h : ∀ i, (a i).toNat < 199999) :
    select (cmpi .slt a (broadcastInDim S16384 ![] bcast_S_S16384 (constantI S_ 32 0#32)))
      (addi a (broadcastInDim S16384 ![] bcast_S_S16384 (constantI S_ 32 199999#32))) a = a := by
  funext i
  rw [select_apply]
  show Scalar.select (IntOp.cmpi .slt (a i) 0#32) _ _ = _
  rw [slt_zero_of_lt _ (h i), select_zero]

theorem bcast3_apply (a : IVec S16384x10 32) (b : Fin 16384) (k : Fin 10) (z : Fin 1) :
    broadcastInDim S16384x10x1 ![0, 1] bcast_S16384x10_S16384x10x1_0_1 a (ix3 b k z) = a (ix2 b k) := by
  refine broadcastInDim_apply _ _ a _ _ ?_
  intro c
  match c with
  | ⟨0, _⟩ => rfl
  | ⟨1, _⟩ => rfl

theorem bcast2_apply (a : IVec S16384 32) (b : Fin 16384) (z : Fin 1) :
    broadcastInDim S16384x1 ![0] bcast_S16384_S16384x1_0 a (ix2 b z) = a (ix1 b) := by
  refine broadcastInDim_apply _ _ a _ _ ?_
  intro c
  match c with
  | ⟨0, _⟩ => rfl

section Gather
variable {α : Type}

theorem gather3_apply (x : S199999x256.Idx → α) (idx : IVec S16384x10x1 32) (b : Fin 16384) (k : Fin 10) (e : Fin 256) :
    Host.gather gather_S199999x256_S16384x10x1_S16384x10x256_2_0_n_n_0_2_1256 x idx (ix3 b k e)
      = x (ix2 (⟨min (idx (ix3 b k 0)).toInt.toNat (199999 - 1), by omega⟩ : Fin 199999) e) := by
  unfold Host.gather
  congr 1
  funext a
  refine Fin.ext ?_
  match a with
  | ⟨0, _⟩ =>
    show gather_S199999x256_S16384x10x1_S16384x10x256_2_0_n_n_0_2_1256.start (ix3 b k e) idx 0
        + gather_S199999x256_S16384x10x1_S16384x10x256_2_0_n_n_0_2_1256.batchCoord (ix3 b k e) 0
        + gather_S199999x256_S16384x10x1_S16384x10x256_2_0_n_n_0_2_1256.offCoord (ix3 b k e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S199999x256_S16384x10x1_S16384x10x256_2_0_n_n_0_2_1256.startIndexMap from
      List.mem_singleton.mpr rfl)]
    have hsi : gather_S199999x256_S16384x10x1_S16384x10x256_2_0_n_n_0_2_1256.siIdx (ix3 b k e)
        ⟨List.idxOf (0 : Fin 2) gather_S199999x256_S16384x10x1_S16384x10x256_2_0_n_n_0_2_1256.startIndexMap,
          List.idxOf_lt_length_iff.2 (List.mem_singleton.mpr rfl)⟩ = ix3 b k 0 := by
      funext c; refine Fin.ext ?_
      match c with
      | ⟨0, _⟩ => rfl
      | ⟨1, _⟩ => rfl
      | ⟨2, _⟩ => rfl
    rw [hsi]
    rfl
  | ⟨1, _⟩ =>
    show gather_S199999x256_S16384x10x1_S16384x10x256_2_0_n_n_0_2_1256.start (ix3 b k e) idx 1
        + gather_S199999x256_S16384x10x1_S16384x10x256_2_0_n_n_0_2_1256.batchCoord (ix3 b k e) 1
        + gather_S199999x256_S16384x10x1_S16384x10x256_2_0_n_n_0_2_1256.offCoord (ix3 b k e) 1 = _
    rw [GatherDims.batchCoord_eq_zero _ _ _ List.not_mem_nil]
    unfold GatherDims.start
    rw [dif_neg (show ¬ (1 : Fin 2) ∈ gather_S199999x256_S16384x10x1_S16384x10x256_2_0_n_n_0_2_1256.startIndexMap by decide)]
    unfold GatherDims.offCoord
    rw [dif_pos (show (1 : Fin 2) ∈ gather_S199999x256_S16384x10x1_S16384x10x256_2_0_n_n_0_2_1256.sKept by decide)]
    simp only [Nat.add_zero, Nat.zero_add]
    rfl

theorem gather2_apply (x : S199999x256.Idx → α) (idx : IVec S16384x1 32) (b : Fin 16384) (e : Fin 256) :
    Host.gather gather_S199999x256_S16384x1_S16384x256_1_0_n_n_0_1_1256 x idx (ix2 b e)
      = x (ix2 (⟨min (idx (ix2 b 0)).toInt.toNat (199999 - 1), by omega⟩ : Fin 199999) e) := by
  unfold Host.gather
  congr 1
  funext a
  refine Fin.ext ?_
  match a with
  | ⟨0, _⟩ =>
    show gather_S199999x256_S16384x1_S16384x256_1_0_n_n_0_1_1256.start (ix2 b e) idx 0
        + gather_S199999x256_S16384x1_S16384x256_1_0_n_n_0_1_1256.batchCoord (ix2 b e) 0
        + gather_S199999x256_S16384x1_S16384x256_1_0_n_n_0_1_1256.offCoord (ix2 b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S199999x256_S16384x1_S16384x256_1_0_n_n_0_1_1256.startIndexMap from
      List.mem_singleton.mpr rfl)]
    have hsi : gather_S199999x256_S16384x1_S16384x256_1_0_n_n_0_1_1256.siIdx (ix2 b e)
        ⟨List.idxOf (0 : Fin 2) gather_S199999x256_S16384x1_S16384x256_1_0_n_n_0_1_1256.startIndexMap,
          List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show gather_S199999x256_S16384x1_S16384x256_1_0_n_n_0_1_1256.start (ix2 b e) idx 1
        + gather_S199999x256_S16384x1_S16384x256_1_0_n_n_0_1_1256.batchCoord (ix2 b e) 1
        + gather_S199999x256_S16384x1_S16384x256_1_0_n_n_0_1_1256.offCoord (ix2 b e) 1 = _
    rw [GatherDims.batchCoord_eq_zero _ _ _ List.not_mem_nil]
    unfold GatherDims.start
    rw [dif_neg (show ¬ (1 : Fin 2) ∈ gather_S199999x256_S16384x1_S16384x256_1_0_n_n_0_1_1256.startIndexMap by decide)]
    unfold GatherDims.offCoord
    rw [dif_pos (show (1 : Fin 2) ∈ gather_S199999x256_S16384x1_S16384x256_1_0_n_n_0_1_1256.sKept by decide)]
    simp only [Nat.add_zero, Nat.zero_add]
    rfl

end Gather

theorem gatherCtx_apply {α : Type} (x : S199999x256.Idx → α) (a : IVec S16384x10 32) (h : ∀ i, (a i).toNat < 199999)
    (b : Fin 16384) (k : Fin 10) (e : Fin 256) :
    Host.gather gather_S199999x256_S16384x10x1_S16384x10x256_2_0_n_n_0_2_1256 x
        (broadcastInDim S16384x10x1 ![0, 1] bcast_S16384x10_S16384x10x1_0_1 a) (ix3 b k e)
      = x (ix2 (Cert.Spec.row (a (ix2 b k))) e) := by
  have hw := bcast3_apply a b k 0
  rw [gather3_apply]
  congr 1
  refine congrArg (fun r => ix2 r e) (Fin.ext ?_)
  show min _ _ = _
  rw [hw]
  exact clamp_eq_row _ (h _)

theorem gatherTgt_apply {α : Type} (x : S199999x256.Idx → α) (a : IVec S16384 32) (h : ∀ i, (a i).toNat < 199999)
    (b : Fin 16384) (e : Fin 256) :
    Host.gather gather_S199999x256_S16384x1_S16384x256_1_0_n_n_0_1_1256 x
        (broadcastInDim S16384x1 ![0] bcast_S16384_S16384x1_0 a) (ix2 b e)
      = x (ix2 (Cert.Spec.row (a (ix1 b))) e) := by
  have hw := bcast2_apply a b 0
  rw [gather2_apply]
  congr 1
  refine congrArg (fun r => ix2 r e) (Fin.ext ?_)
  show min _ _ = _
  rw [hw]
  exact clamp_eq_row _ (h _)

end Cert.ReferenceIdeal.RefGather

end
-- ==== Proof.RefLsg.lean ====
import proofs.«404237_j24687472017957_2_alg».proof.Proof.RefTerm
import proofs.«404237_j24687472017957_2_alg».proof.Proof.Spec
import Idealize.ShloMosaic.Lib.ValueIdx
import Idealize.ShloMosaic.Lib.IdealHost
import Idealize.ShloMosaic.PureOps.Ideal.Laws

noncomputable section

namespace Cert.ReferenceIdeal.RefLsg

open Idealize.ShloMosaic Idealize.ShloMosaic.ValueIdx Cert.ReferenceIdeal Cert.ReferenceIdeal.RefTerm

theorem cmp_une_self (z : EReal) : Ideal.cmp .une z z = 0#1 := by
  simp [Ideal.cmp]

theorem zero_bcast_apply (i : S16384.Idx) :
    broadcastInDim S16384 ![] Facts₀.bcast_S_S16384 (constant (F := Ideal) S_ .f32 0x00000000#32) i = (0 : EReal) := by
  rw [broadcastInDim_scalar_apply, constant_apply, Ideal.ofBits_zero_f32]

theorem softplus_apply (x : FVec Ideal S16384 .f32) (i : S16384.Idx) :
    softplus (F := Ideal) x i = Cert.Spec.sp (x i) := by
  unfold softplus
  dsimp only
  rw [select_apply, cmpf_apply, Ideal.cmpf_def, cmp_une_self, select_zero, addf_apply, maximumf_apply, zero_bcast_apply]
  show max (x i) 0 + Ideal.log1p (Ideal.exp (-(max (subf x _ i) (-(subf x _ i))))) = _
  rw [subf_apply, zero_bcast_apply]
  rfl

theorem logSigmoid_apply (x : FVec Ideal S16384 .f32) (i : S16384.Idx) :
    logSigmoid (F := Ideal) x i = Cert.Spec.lsg (x i) := by
  unfold logSigmoid
  show -(softplus (F := Ideal) (Host.negf x) i) = _
  rw [softplus_apply]
  rfl

end Cert.ReferenceIdeal.RefLsg

end
-- ==== Proof.RefValue.lean ====
import proofs.«404237_j24687472017957_2_alg».proof.Proof.RefGather
import proofs.«404237_j24687472017957_2_alg».proof.Proof.RefLsg
import Idealize.ShloMosaic.Lib.IdealHost
import Idealize.ShloMosaic.Lib.ValueIdxRank1
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀
open Cert.ReferenceIdeal.RefTerm Cert.ReferenceIdeal.RefGather Cert.ReferenceIdeal.RefLsg

section Reductions
variable [Cert.ReferenceIdeal.Facts]

theorem hostNegf_apply {s : Shape} {φ : FTy} (x : FVec Ideal s φ) (i : s.Idx) : Host.negf x i = -(x i) := rfl

theorem reduceCtx_apply (g : FVec Ideal S16384x10x256 .f32) (b : Fin 16384) (e : Fin 256) :
    Host.reduceAdd g (constant (F := Ideal) S_ .f32 0x00000000#32) reducesTo_S16384x10x256_S16384x256_d1 h_S_ (ix2 b e)
      = ∑ k : Fin 10, g (ix3 b k e) := by
  have hR : S16384x10x256.Reduces [1] S16384x256 := by decide
  rw [hostReduceAdd_apply, Ideal.hostReduceAdd_single _ hR, constant_apply, Ideal.ofBits_zero_f32, zero_add]
  refine Finset.sum_congr rfl fun k _ => congrArg g ?_
  funext c; refine Fin.ext ?_
  match c with
  | ⟨0, _⟩ => rfl
  | ⟨1, _⟩ => rfl
  | ⟨2, _⟩ => rfl

theorem reduceDot_apply (g : FVec Ideal S16384x256 .f32) (b : Fin 16384) :
    Host.reduceAdd g (constant (F := Ideal) S_ .f32 0x00000000#32) reducesTo_S16384x256_S16384_d1 h_S_ (ix1 b)
      = ∑ e : Fin 256, g (ix2 b e) := by
  have hR : S16384x256.Reduces [1] S16384 := by decide
  rw [hostReduceAdd_apply, Ideal.hostReduceAdd_single _ hR, constant_apply, Ideal.ofBits_zero_f32, zero_add]
  refine Finset.sum_congr rfl fun e _ => congrArg g ?_
  funext c; refine Fin.ext ?_
  match c with
  | ⟨0, _⟩ => rfl
  | ⟨1, _⟩ => rfl

theorem reduceAll_apply (g : FVec Ideal S16384 .f32) (j : S_.Idx) :
    Host.reduceAdd g (constant (F := Ideal) S_ .f32 0x00000000#32) reducesTo_S16384_S_d0 h_S_ j
      = ∑ b : Fin 16384, g (ix1 b) := by
  rw [hostReduceAdd_apply, Ideal.hostReduceAdd_total _ (fun b => b.elim0), constant_apply, Ideal.ofBits_zero_f32, zero_add]
  exact (Equiv.sum_comp (idxEquiv1 (n := 16384)).symm g).symm

theorem ctx_apply (U : FVec Ideal S199999x256 .f32) (a : IVec S16384x10 32) (h : ∀ i, (a i).toNat < 199999)
    (b : Fin 16384) (e : Fin 256) :
    Host.reduceAdd
        (Host.gather gather_S199999x256_S16384x10x1_S16384x10x256_2_0_n_n_0_2_1256 U
          (broadcastInDim S16384x10x1 ![0, 1] bcast_S16384x10_S16384x10x1_0_1 a))
        (constant (F := Ideal) S_ .f32 0x00000000#32) reducesTo_S16384x10x256_S16384x256_d1 h_S_ (ix2 b e)
      = Cert.Spec.ctxSum U a b e := by
  rw [reduceCtx_apply]
  unfold Cert.Spec.ctxSum
  exact Finset.sum_congr rfl fun k _ => gatherCtx_apply U a h b k e

theorem score_apply (U W : FVec Ideal S199999x256 .f32) (pu : IVec S16384x10 32) (pw : IVec S16384 32)
    (hu : ∀ i, (pu i).toNat < 199999) (hw : ∀ i, (pw i).toNat < 199999) (b : Fin 16384) :
    Host.reduceAdd
        (mulf
          (Host.reduceAdd
            (Host.gather gather_S199999x256_S16384x10x1_S16384x10x256_2_0_n_n_0_2_1256 U
              (broadcastInDim S16384x10x1 ![0, 1] bcast_S16384x10_S16384x10x1_0_1 pu))
            (constant (F := Ideal) S_ .f32 0x00000000#32) reducesTo_S16384x10x256_S16384x256_d1 h_S_)
          (Host.gather gather_S199999x256_S16384x1_S16384x256_1_0_n_n_0_1_1256 W
            (broadcastInDim S16384x1 ![0] bcast_S16384_S16384x1_0 pw)))
        (constant (F := Ideal) S_ .f32 0x00000000#32) reducesTo_S16384x256_S16384_d1 h_S_ (ix1 b)
      = Cert.Spec.score U pu W pw b := by
  rw [reduceDot_apply]
  unfold Cert.Spec.score
  refine Finset.sum_congr rfl fun e _ => ?_
  rw [mulf_apply, ctx_apply U pu hu, gatherTgt_apply W pw hw]

end Reductions

theorem refTerm_eq_loss (a0 : Cert.Spec.Ctx) (a1 : Cert.Spec.Tgt) (a2 : Cert.Spec.Ctx) (a3 : Cert.Spec.Tgt) (a4 a5 : Cert.Spec.Tab)
    (h : Cert.Spec.InRange a0 a1 a2 a3) :
    Cert.ReferenceIdeal.RefTerm.refTerm (F := Ideal) a0 a1 a2 a3 a4 a5 = Cert.Spec.loss a0 a1 a2 a3 a4 a5 := by
  obtain ⟨h0, h1, h2, h3⟩ := h
  funext j
  unfold Cert.ReferenceIdeal.RefTerm.refTerm
  dsimp only
  rw [norm2_eq a0 h0, norm2_eq a2 h2, norm1_eq a1 h1, norm1_eq a3 h3]
  rw [hostNegf_apply, addf_apply, reduceAll_apply, reduceAll_apply]
  show _ = -(_ + _)
  refine congrArg Neg.neg (congrArg₂ (· + ·) (Finset.sum_congr rfl fun b _ => ?_) (Finset.sum_congr rfl fun b _ => ?_))
  · rw [logSigmoid_apply, score_apply a4 a5 a0 a1 h0 h1]
  · rw [logSigmoid_apply, hostNegf_apply, score_apply a4 a5 a2 a3 h2 h3]

end Cert.ReferenceIdeal.RefValue

end
-- ==== Proof.lean ====
import proofs.«404237_j24687472017957_2_alg».proof.Defs
import proofs.«404237_j24687472017957_2_alg».proof.Proof.Gen.Kernel
import proofs.«404237_j24687472017957_2_alg».proof.Proof.Gen.KernelIdeal
import proofs.«404237_j24687472017957_2_alg».proof.Proof.Gen.ReferenceIdeal
import proofs.«404237_j24687472017957_2_alg».proof.Proof.Gen.Pre_finite_inputs
import proofs.«404237_j24687472017957_2_alg».proof.Proof.PreFacts
import proofs.«404237_j24687472017957_2_alg».proof.Proof.Run
import proofs.«404237_j24687472017957_2_alg».proof.Proof.KTbl
import proofs.«404237_j24687472017957_2_alg».proof.Proof.KVal
import proofs.«404237_j24687472017957_2_alg».proof.Proof.K.Run
import proofs.«404237_j24687472017957_2_alg».proof.Proof.K.KTbl
import proofs.«404237_j24687472017957_2_alg».proof.Proof.RefRun
import proofs.«404237_j24687472017957_2_alg».proof.Proof.RefValue

noncomputable section

namespace Cert.Proof

open Idealize.ShloMosaic Idealize.SL.Sem

theorem inRange_k (m : (ℓ : Loc Cert.Kernel.nD Cert.Kernel.τ Cert.Kernel.sig) → Buf (Elt Bits) ℓ) (h : Cert.Pre_Kernel m) :
    ∀ c : Dev Cert.Kernel.nD, Cert.Spec.InRange (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) :=
  fun c => Cert.PreFacts.inRange_of_pre _ _ _ _ _ _ (h c)

theorem inRange_ki (m : (ℓ : Loc Cert.KernelIdeal.nD Cert.KernelIdeal.τ Cert.KernelIdeal.sig) → Buf (Elt Ideal) ℓ) (h : Cert.Pre_KernelIdeal m) :
    ∀ c : Dev Cert.KernelIdeal.nD, Cert.Spec.InRange (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  fun c => Cert.PreFacts.inRange_of_pre _ _ _ _ _ _ (h c)

theorem frame_k : Cert.frame_Kernel := fun m ρ hpre =>
  have hin := inRange_k m hpre
  (θ_run (Cert.Kernel.defs (F := Bits)) _ _).mono (fun _ h c => (h c).2)
    (Cert.Kernel.Asm.run_main (F := Bits) m ρ (Cert.Kernel.Asm.tblOk_0 m hin) (Cert.Kernel.Asm.tblOk_1 m hin) (Cert.Kernel.Asm.tblOk_2 m hin) (Cert.Kernel.Asm.tblOk_3 m hin) (Cert.Kernel.Asm.tblOk_4 m hin) (Cert.Kernel.Asm.tblOk_5 m hin) (Cert.Kernel.Asm.tblOk_6 m hin) (Cert.Kernel.Asm.tblOk_7 m hin) (Cert.Kernel.Asm.tblOk_8 m hin) (Cert.Kernel.Asm.tblOk_9 m hin) (Cert.Kernel.Asm.tblOk_10 m hin))

theorem frame_ki : Cert.frame_KernelIdeal := fun m ρ hpre =>
  have hin := inRange_ki m hpre
  (θ_run (Cert.KernelIdeal.defs (F := Ideal)) _ _).mono (fun _ h c => (h c).2)
    (Cert.KernelIdeal.Asm.run_main (F := Ideal) m ρ (Cert.KernelIdeal.Asm.tblOk_0 m hin) (Cert.KernelIdeal.Asm.tblOk_1 m hin) (Cert.KernelIdeal.Asm.tblOk_2 m hin) (Cert.KernelIdeal.Asm.tblOk_3 m hin) (Cert.KernelIdeal.Asm.tblOk_4 m hin) (Cert.KernelIdeal.Asm.tblOk_5 m hin) (Cert.KernelIdeal.Asm.tblOk_6 m hin) (Cert.KernelIdeal.Asm.tblOk_7 m hin) (Cert.KernelIdeal.Asm.tblOk_8 m hin) (Cert.KernelIdeal.Asm.tblOk_9 m hin) (Cert.KernelIdeal.Asm.tblOk_10 m hin))

theorem frame_ri : Cert.frame_ReferenceIdeal := fun m ρ _ =>
  (θ_run (Cert.ReferenceIdeal.defs (F := Ideal)) _ _).mono (fun _ h c => (h c).2) (Cert.ReferenceIdeal.RefRun.run (F := Ideal) m ρ)

theorem algebraic : Cert.algebraic_KernelIdeal_ReferenceIdeal := by
  intro m ρ m' ρ' hpre hagree
  have hin := inRange_ki m hpre
  refine ⟨fun c => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono
      (fun _ h c => ⟨(h c).1.trans (Cert.KernelIdeal.Asm.W25_main_v97 m c), (h c).2⟩)
      (Cert.KernelIdeal.Asm.run_main (F := Ideal) m ρ (Cert.KernelIdeal.Asm.tblOk_0 m hin) (Cert.KernelIdeal.Asm.tblOk_1 m hin) (Cert.KernelIdeal.Asm.tblOk_2 m hin) (Cert.KernelIdeal.Asm.tblOk_3 m hin) (Cert.KernelIdeal.Asm.tblOk_4 m hin) (Cert.KernelIdeal.Asm.tblOk_5 m hin) (Cert.KernelIdeal.Asm.tblOk_6 m hin) (Cert.KernelIdeal.Asm.tblOk_7 m hin) (Cert.KernelIdeal.Asm.tblOk_8 m hin) (Cert.KernelIdeal.Asm.tblOk_9 m hin) (Cert.KernelIdeal.Asm.tblOk_10 m hin))
  · refine (θ_run (Cert.ReferenceIdeal.defs (F := Ideal)) _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact Cert.ReferenceIdeal.RefValue.refTerm_eq_loss _ _ _ _ _ _ (hin c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
